-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v190)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v190) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v341) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x92 : Shape := ⟨2, ![50000, 92]⟩
abbrev S2x800000 : Shape := ⟨2, ![2, 800000]⟩
abbrev S800000x50 : Shape := ⟨2, ![800000, 50]⟩
abbrev S92x64 : Shape := ⟨2, ![92, 64]⟩
abbrev S64 : Shape := ⟨1, ![64]⟩
abbrev S5x50x64 : Shape := ⟨3, ![5, 50, 64]⟩
abbrev S5x64 : Shape := ⟨2, ![5, 64]⟩
abbrev S5x64x64 : Shape := ⟨3, ![5, 64, 64]⟩
abbrev S5 : Shape := ⟨1, ![5]⟩
abbrev S_ : Shape := ⟨0, ![]⟩
abbrev S1x800000 : Shape := ⟨2, ![1, 800000]⟩
abbrev S800000 : Shape := ⟨1, ![800000]⟩

class Facts : Prop where
  bcast_S_S50000x92 : S_.BroadcastsInDim S50000x92 (![] : Fin 0 → Fin S50000x92.rank)
  reducesTo_S50000x92_S_d0_1 : S50000x92.ReducesTo [0, 1] S_
  h_S_ : 0 < S_.numel
  bcast_S_S800000x50 : S_.BroadcastsInDim S800000x50 (![] : Fin 0 → Fin S800000x50.rank)
  reducesTo_S800000x50_S_d0_1 : S800000x50.ReducesTo [0, 1] S_
  bcast_S_S92x64 : S_.BroadcastsInDim S92x64 (![] : Fin 0 → Fin S92x64.rank)
  reducesTo_S92x64_S_d0_1 : S92x64.ReducesTo [0, 1] S_
  bcast_S_S64 : S_.BroadcastsInDim S64 (![] : Fin 0 → Fin S64.rank)
  reducesTo_S64_S_d0 : S64.ReducesTo [0] S_
  bcast_S_S5x50x64 : S_.BroadcastsInDim S5x50x64 (![] : Fin 0 → Fin S5x50x64.rank)
  reducesTo_S5x50x64_S_d0_1_2 : S5x50x64.ReducesTo [0, 1, 2] S_
  bcast_S_S5x64 : S_.BroadcastsInDim S5x64 (![] : Fin 0 → Fin S5x64.rank)
  reducesTo_S5x64_S_d0_1 : S5x64.ReducesTo [0, 1] S_
  bcast_S_S5x64x64 : S_.BroadcastsInDim S5x64x64 (![] : Fin 0 → Fin S5x64x64.rank)
  reducesTo_S5x64x64_S_d0_1_2 : S5x64x64.ReducesTo [0, 1, 2] S_
  bcast_S_S5 : S_.BroadcastsInDim S5 (![] : Fin 0 → Fin S5.rank)
  reducesTo_S5_S_d0 : S5.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part4 {F : FTy → Type} [FloatOps F] (main_arg1 : IVec S2x800000 32) (main_v63 : IVec S_ 1) (main_v67 : IVec S800000 1) (main_c_25 : IVec S_ 1) : IVec S_ 1 :=
  let main_v68 : IVec S_ 1 := (fun x v => Host.reduce IntOp.andi x v reducesTo_S800000_S_d0 h_S_) main_v67 main_c_25
  let main_v69 : IVec S_ 1 := andi main_v63 main_v68
  let main_v70 : IVec S1x800000 32 := (extractStridedSlice S1x800000 ![0, 0] · slices_S2x800000_S1x800000_0_0) main_arg1
  let main_v71 : IVec S800000 32 := shapeCast S800000 main_v70 shapeCasts_S1x800000_S800000
  let main_c_26 : IVec S_ 32 := constantI S_ 32 50000#32
  let main_v72 : IVec S800000 32 := broadcastInDim S800000 ![] bcast_S_S800000 main_c_26
  let main_v73 : IVec S800000 1 := cmpi .slt main_v71 main_v72
  let main_c_27 : IVec S_ 1 := constantI S_ 1 1#1
  let main_v74 : IVec S_ 1 := (fun x v => Host.reduce IntOp.andi x v reducesTo_S800000_S_d0 h_S_) main_v73 main_c_27
  let main_v75 : IVec S_ 1 := andi main_v69 main_v74
  main_v75

def fn_part3 {F : FTy → Type} [FloatOps F] (main_arg1 : IVec S2x800000 32) (main_arg12 : FVec F S5x64 .f32) (main_arg13 : FVec F S5x64 .f32) (main_v48 : IVec S_ 1) (main_v49 : FVec F S5 .f32) (main_v50 : FVec F S5 .f32) : IVec S_ 1 :=
  let main_v51 : IVec S5 1 := cmpf .olt main_v49 main_v50
  let main_c_19 : IVec S_ 1 := constantI S_ 1 1#1
  let main_v52 : IVec S_ 1 := (fun x v => Host.reduce IntOp.andi x v reducesTo_S5_S_d0 h_S_) main_v51 main_c_19
  let main_v53 : IVec S_ 1 := andi main_v48 main_v52
  let main_v54 : FVec F S5x64 .f32 := Host.absf main_arg12
  let main_cst_20 : FVec F S_ .f32 := constant S_ .f32 0x7F800000#32
  let main_v55 : FVec F S5x64 .f32 := broadcastInDim S5x64 ![] bcast_S_S5x64 main_cst_20
  let main_v56 : IVec S5x64 1 := cmpf .olt main_v54 main_v55
  let main_c_21 : IVec S_ 1 := constantI S_ 1 1#1
  let main_v57 : IVec S_ 1 := (fun x v => Host.reduce IntOp.andi x v reducesTo_S5x64_S_d0_1 h_S_) main_v56 main_c_21
  let main_v58 : IVec S_ 1 := andi main_v53 main_v57
  let main_v59 : FVec F S5x64 .f32 := Host.absf main_arg13
  let main_cst_22 : FVec F S_ .f32 := constant S_ .f32 0x7F800000#32
  let main_v60 : FVec F S5x64 .f32 := broadcastInDim S5x64 ![] bcast_S_S5x64 main_cst_22
  let main_v61 : IVec S5x64 1 := cmpf .olt main_v59 main_v60
  let main_c_23 : IVec S_ 1 := constantI S_ 1 1#1
  let main_v62 : IVec S_ 1 := (fun x v => Host.reduce IntOp.andi x v reducesTo_S5x64_S_d0_1 h_S_) main_v61 main_c_23
  let main_v63 : IVec S_ 1 := andi main_v58 main_v62
  let main_v64 : IVec S1x800000 32 := (extractStridedSlice S1x800000 ![0, 0] · slices_S2x800000_S1x800000_0_0) main_arg1
  let main_v65 : IVec S800000 32 := shapeCast S800000 main_v64 shapeCasts_S1x800000_S800000
  let main_c_24 : IVec S_ 32 := constantI S_ 32 0#32
  let main_v66 : IVec S800000 32 := broadcastInDim S800000 ![] bcast_S_S800000 main_c_24
  let main_v67 : IVec S800000 1 := cmpi .sge main_v65 main_v66
  let main_c_25 : IVec S_ 1 := constantI S_ 1 1#1
  fn_part4 (F := F) main_arg1 main_v63 main_v67 main_c_25

def fn_part2 {F : FTy → Type} [FloatOps F] (main_arg1 : IVec S2x800000 32) (main_arg8 : FVec F S5x64 .f32) (main_arg9 : FVec F S5x64x64 .f32) (main_arg10 : FVec F S5x64 .f32) (main_arg11 : FVec F S5 .f32) (main_arg12 : FVec F S5x64 .f32) (main_arg13 : FVec F S5x64 .f32) (main_v33 : IVec S_ 1) : IVec S_ 1 :=
  let main_v34 : FVec F S5x64 .f32 := Host.absf main_arg8
  let main_cst_12 : FVec F S_ .f32 := constant S_ .f32 0x7F800000#32
  let main_v35 : FVec F S5x64 .f32 := broadcastInDim S5x64 ![] bcast_S_S5x64 main_cst_12
  let main_v36 : IVec S5x64 1 := cmpf .olt main_v34 main_v35
  let main_c_13 : IVec S_ 1 := constantI S_ 1 1#1
  let main_v37 : IVec S_ 1 := (fun x v => Host.reduce IntOp.andi x v reducesTo_S5x64_S_d0_1 h_S_) main_v36 main_c_13
  let main_v38 : IVec S_ 1 := andi main_v33 main_v37
  let main_v39 : FVec F S5x64x64 .f32 := Host.absf main_arg9
  let main_cst_14 : FVec F S_ .f32 := constant S_ .f32 0x7F800000#32
  let main_v40 : FVec F S5x64x64 .f32 := broadcastInDim S5x64x64 ![] bcast_S_S5x64x64 main_cst_14
  let main_v41 : IVec S5x64x64 1 := cmpf .olt main_v39 main_v40
  let main_c_15 : IVec S_ 1 := constantI S_ 1 1#1
  let main_v42 : IVec S_ 1 := (fun x v => Host.reduce IntOp.andi x v reducesTo_S5x64x64_S_d0_1_2 h_S_) main_v41 main_c_15
  let main_v43 : IVec S_ 1 := andi main_v38 main_v42
  let main_v44 : FVec F S5x64 .f32 := Host.absf main_arg10
  let main_cst_16 : FVec F S_ .f32 := constant S_ .f32 0x7F800000#32
  let main_v45 : FVec F S5x64 .f32 := broadcastInDim S5x64 ![] bcast_S_S5x64 main_cst_16
  let main_v46 : IVec S5x64 1 := cmpf .olt main_v44 main_v45
  let main_c_17 : IVec S_ 1 := constantI S_ 1 1#1
  let main_v47 : IVec S_ 1 := (fun x v => Host.reduce IntOp.andi x v reducesTo_S5x64_S_d0_1 h_S_) main_v46 main_c_17
  let main_v48 : IVec S_ 1 := andi main_v43 main_v47
  let main_v49 : FVec F S5 .f32 := Host.absf main_arg11
  let main_cst_18 : FVec F S_ .f32 := constant S_ .f32 0x7F800000#32
  let main_v50 : FVec F S5 .f32 := broadcastInDim S5 ![] bcast_S_S5 main_cst_18
  fn_part3 (F := F) main_arg1 main_arg12 main_arg13 main_v48 main_v49 main_v50

def fn_part1 {F : FTy → Type} [FloatOps F] (main_arg1 : IVec S2x800000 32) (main_arg5 : FVec F S5x50x64 .f32) (main_arg6 : FVec F S5x64 .f32) (main_arg7 : FVec F S5x64x64 .f32) (main_arg8 : FVec F S5x64 .f32) (main_arg9 : FVec F S5x64x64 .f32) (main_arg10 : FVec F S5x64 .f32) (main_arg11 : FVec F S5 .f32) (main_arg12 : FVec F S5x64 .f32) (main_arg13 : FVec F S5x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S5x50x64 .f32 := Host.absf main_arg5
  let main_cst_6 : FVec F S_ .f32 := constant S_ .f32 0x7F800000#32
  let main_v20 : FVec F S5x50x64 .f32 := broadcastInDim S5x50x64 ![] bcast_S_S5x50x64 main_cst_6
  let main_v21 : IVec S5x50x64 1 := cmpf .olt main_v19 main_v20
  let main_c_7 : IVec S_ 1 := constantI S_ 1 1#1
  let main_v22 : IVec S_ 1 := (fun x v => Host.reduce IntOp.andi x v reducesTo_S5x50x64_S_d0_1_2 h_S_) main_v21 main_c_7
  let main_v23 : IVec S_ 1 := andi main_v18 main_v22
  let main_v24 : FVec F S5x64 .f32 := Host.absf main_arg6
  let main_cst_8 : FVec F S_ .f32 := constant S_ .f32 0x7F800000#32
  let main_v25 : FVec F S5x64 .f32 := broadcastInDim S5x64 ![] bcast_S_S5x64 main_cst_8
  let main_v26 : IVec S5x64 1 := cmpf .olt main_v24 main_v25
  let main_c_9 : IVec S_ 1 := constantI S_ 1 1#1
  let main_v27 : IVec S_ 1 := (fun x v => Host.reduce IntOp.andi x v reducesTo_S5x64_S_d0_1 h_S_) main_v26 main_c_9
  let main_v28 : IVec S_ 1 := andi main_v23 main_v27
  let main_v29 : FVec F S5x64x64 .f32 := Host.absf main_arg7
  let main_cst_10 : FVec F S_ .f32 := constant S_ .f32 0x7F800000#32
  let main_v30 : FVec F S5x64x64 .f32 := broadcastInDim S5x64x64 ![] bcast_S_S5x64x64 main_cst_10
  let main_v31 : IVec S5x64x64 1 := cmpf .olt main_v29 main_v30
  let main_c_11 : IVec S_ 1 := constantI S_ 1 1#1
  let main_v32 : IVec S_ 1 := (fun x v => Host.reduce IntOp.andi x v reducesTo_S5x64x64_S_d0_1_2 h_S_) main_v31 main_c_11
  let main_v33 : IVec S_ 1 := andi main_v28 main_v32
  fn_part2 (F := F) main_arg1 main_arg8 main_arg9 main_arg10 main_arg11 main_arg12 main_arg13 main_v33

def fn {F : FTy → Type} [FloatOps F] (main_arg0 : FVec F S50000x92 .f32) (main_arg1 : IVec S2x800000 32) (main_arg2 : FVec F S800000x50 .f32) (main_arg3 : FVec F S92x64 .f32) (main_arg4 : FVec F S64 .f32) (main_arg5 : FVec F S5x50x64 .f32) (main_arg6 : FVec F S5x64 .f32) (main_arg7 : FVec F S5x64x64 .f32) (main_arg8 : FVec F S5x64 .f32) (main_arg9 : FVec F S5x64x64 .f32) (main_arg10 : FVec F S5x64 .f32) (main_arg11 : FVec F S5 .f32) (main_arg12 : FVec F S5x64 .f32) (main_arg13 : FVec F S5x64 .f32) : IVec S_ 1 :=
  let main_v0 : FVec F S50000x92 .f32 := Host.absf main_arg0
  let main_cst : FVec F S_ .f32 := constant S_ .f32 0x7F800000#32
  let main_v1 : FVec F S50000x92 .f32 := broadcastInDim S50000x92 ![] bcast_S_S50000x92 main_cst
  let main_v2 : IVec S50000x92 1 := cmpf .olt main_v0 main_v1
  let main_c : IVec S_ 1 := constantI S_ 1 1#1
  let main_v3 : IVec S_ 1 := (fun x v => Host.reduce IntOp.andi x v reducesTo_S50000x92_S_d0_1 h_S_) main_v2 main_c
  let main_v4 : FVec F S800000x50 .f32 := Host.absf main_arg2
  let main_cst_0 : FVec F S_ .f32 := constant S_ .f32 0x7F800000#32
  let main_v5 : FVec F S800000x50 .f32 := broadcastInDim S800000x50 ![] bcast_S_S800000x50 main_cst_0
  let main_v6 : IVec S800000x50 1 := cmpf .olt main_v4 main_v5
  let main_c_1 : IVec S_ 1 := constantI S_ 1 1#1
  let main_v7 : IVec S_ 1 := (fun x v => Host.reduce IntOp.andi x v reducesTo_S800000x50_S_d0_1 h_S_) main_v6 main_c_1
  let main_v8 : IVec S_ 1 := andi main_v3 main_v7
  let main_v9 : FVec F S92x64 .f32 := Host.absf main_arg3
  let main_cst_2 : FVec F S_ .f32 := constant S_ .f32 0x7F800000#32
  let main_v10 : FVec F S92x64 .f32 := broadcastInDim S92x64 ![] bcast_S_S92x64 main_cst_2
  let main_v11 : IVec S92x64 1 := cmpf .olt main_v9 main_v10
  let main_c_3 : IVec S_ 1 := constantI S_ 1 1#1
  let main_v12 : IVec S_ 1 := (fun x v => Host.reduce IntOp.andi x v reducesTo_S92x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_arg10 main_arg11 main_arg12 main_arg13 main_v13 main_v16
-- ==== Kernel.lean ====
abbrev S50000x92 : Shape := ⟨2, ![50000, 92]⟩
abbrev S2x800000 : Shape := ⟨2, ![2, 800000]⟩
abbrev S800000x50 : Shape := ⟨2, ![800000, 50]⟩
abbrev S92x64 : Shape := ⟨2, ![92, 64]⟩
abbrev S64 : Shape := ⟨1, ![64]⟩
abbrev S5x50x64 : Shape := ⟨3, ![5, 50, 64]⟩
abbrev S5x64 : Shape := ⟨2, ![5, 64]⟩
abbrev S5x64x64 : Shape := ⟨3, ![5, 64, 64]⟩
abbrev S5 : Shape := ⟨1, ![5]⟩
abbrev S1x800000 : Shape := ⟨2, ![1, 800000]⟩
abbrev S800000 : Shape := ⟨1, ![800000]⟩
abbrev S1x64 : Shape := ⟨2, ![1, 64]⟩
abbrev S50000x64 : Shape := ⟨2, ![50000, 64]⟩
abbrev S5000x92 : Shape := ⟨2, ![5000, 92]⟩
abbrev S5000x64 : Shape := ⟨2, ![5000, 64]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S1x50x64 : Shape := ⟨3, ![1, 50, 64]⟩
abbrev S50x64 : Shape := ⟨2, ![50, 64]⟩
abbrev S10000x50 : Shape := ⟨2, ![10000, 50]⟩
abbrev S10000x64 : Shape := ⟨2, ![10000, 64]⟩
abbrev S1x64x64 : Shape := ⟨3, ![1, 64, 64]⟩
abbrev S64x64 : Shape := ⟨2, ![64, 64]⟩

abbrev nBuf : Space → Nat
  | .hbm => 440
  | .vmem => 141
  | .smem => 0
  | _ => 0

abbrev hbmTy0_0 (i : Nat) : BufTy := match i % 128 with
  | 0 => ⟨S50000x92, .f32⟩
  | 1 => ⟨S2x800000, .i32⟩
  | 2 => ⟨S800000x50, .f32⟩
  | 3 => ⟨S92x64, .f32⟩
  | 4 => ⟨S64, .f32⟩
  | 5 => ⟨S5x50x64, .f32⟩
  | 6 => ⟨S5x64, .f32⟩
  | 7 => ⟨S5x64x64, .f32⟩
  | 8 => ⟨S5x64, .f32⟩
  | 9 => ⟨S5x64x64, .f32⟩
  | 10 => ⟨S5x64, .f32⟩
  | 11 => ⟨S5, .f32⟩
  | 12 => ⟨S5x64, .f32⟩
  | 13 => ⟨S5x64, .f32⟩
  | 14 => ⟨S1x800000, .i32⟩
  | 15 => ⟨S800000, .i32⟩
  | 16 => ⟨S1x800000, .i32⟩
  | 17 => ⟨S800000, .i32⟩
  | 18 => ⟨S1x64, .f32⟩
  | 19 => ⟨S50000x64, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S1, .i32⟩
  | 29 => ⟨S_, .i32⟩
  | 30 => ⟨S800000x1, .i32⟩
  | 31 => ⟨S800000x1, .i1⟩
  | 32 => ⟨S1x1, .i32⟩
  | 33 => ⟨S800000x1, .i32⟩
  | 34 => ⟨S800000x1, .i1⟩
  | 35 => ⟨S800000x1, .i1⟩
  | 36 => ⟨S_, .i1⟩
  | 37 => ⟨S800000, .i1⟩
  | 38 => ⟨S800000x64, .f32⟩
  | 39 => ⟨S800000x64, .i1⟩
  | 40 => ⟨S_, .f32⟩
  | 41 => ⟨S800000x64, .f32⟩
  | 42 => ⟨S800000x64, .f32⟩
  | 43 => ⟨S1x50x64, .f32⟩
  | 44 => ⟨S50x64, .f32⟩
  | 45 => ⟨S1x64, .f32⟩
  | 46 => ⟨S64, .f32⟩
  | 47 => ⟨S1x64, .f32⟩
  | 48 => ⟨S800000x64, .f32⟩
  | 49 => ⟨S_, .f32⟩
  | 50 => ⟨S50000x64, .f32⟩
  | 51 => ⟨S800000x1, .i32⟩
  | 52 => ⟨S50000x64, .f32⟩
  | 53 => ⟨S1, .f32⟩
  | 54 => ⟨S_, .f32⟩
  | 55 => ⟨S1x64x64, .f32⟩
  | 56 => ⟨S64x64, .f32⟩
  | 57 => ⟨S1x64, .f32⟩
  | 58 => ⟨S64, .f32⟩
  | 59 => ⟨S1x64x64, .f32⟩
  | 60 => ⟨S64x64, .f32⟩
  | 61 => ⟨S1x64, .f32⟩
  | 62 => ⟨S64, .f32⟩
  | 63 => ⟨S1x1, .f32⟩
  | 64 => ⟨S1x64, .f32⟩
  | 65 => ⟨S1x64, .f32⟩
  | 66 => ⟨S50000x64, .f32⟩
  | 67 => ⟨S_, .f32⟩
  | 68 => ⟨S64, .f32⟩
  | 69 => ⟨S_, .f32⟩
  | 70 => ⟨S64, .f32⟩
  | 71 => ⟨S64, .f32⟩
  | 72 => ⟨S_, .i32⟩
  | 73 => ⟨S_, .f32⟩
  | 74 => ⟨S64, .f32⟩
  | 75 => ⟨S1x64, .f32⟩
  | 76 => ⟨S_, .f32⟩
  | 77 => ⟨S1x64, .f32⟩
  | 78 => ⟨S1x64, .f32⟩
  | 79 => ⟨S50000x64, .f32⟩
  | 80 => ⟨S50000x64, .f32⟩
  | 81 => ⟨S50000x64, .f32⟩
  | 82 => ⟨S_, .f32⟩
  | 83 => ⟨S_, .f32⟩
  | 84 => ⟨S_, .f32⟩
  | 85 => ⟨S_, .f32⟩
  | 86 => ⟨S64, .f32⟩
  | 87 => ⟨S64, .f32⟩
  | 88 => ⟨S64, .f32⟩
  | 89 => ⟨S_, .f32⟩
  | 90 => ⟨S_, .i1⟩
  | 91 => ⟨S_, .f32⟩
  | 92 => ⟨S_, .f32⟩
  | 93 => ⟨S64, .f32⟩
  | 94 => ⟨S64, .f32⟩
  | 95 => ⟨S1x64, .f32⟩
  | 96 => ⟨S64, .f32⟩
  | 97 => ⟨S1x64, .f32⟩
  | 98 => ⟨S64, .f32⟩
  | 99 => ⟨S1x64, .f32⟩
  | 100 => ⟨S1x64, .f32⟩
  | 101 => ⟨S1x64, .f32⟩
  | 102 => ⟨S1x64, .f32⟩
  | 103 => ⟨S50000x64, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S1, .i32⟩
  | 113 => ⟨S_, .i32⟩
  | 114 => ⟨S800000x1, .i32⟩
  | 115 => ⟨S800000x1, .i1⟩
  | 116 => ⟨S1x1, .i32⟩
  | 117 => ⟨S800000x1, .i32⟩
  | 118 => ⟨S800000x1, .i1⟩
  | 119 => ⟨S800000x1, .i1⟩
  | 120 => ⟨S_, .i1⟩
  | 121 => ⟨S800000, .i1⟩
  | 122 => ⟨S800000x64, .f32⟩
  | 123 => ⟨S800000x64, .i1⟩
  | 124 => ⟨S_, .f32⟩
  | 125 => ⟨S800000x64, .f32⟩
  | 126 => ⟨S800000x64, .f32⟩
  | 127 => ⟨S1x50x64, .f32⟩
  | _ => ⟨S50000x92, .f32⟩

abbrev hbmTy0_1 (i : Nat) : BufTy := match i % 128 with
  | 0 => ⟨S50x64, .f32⟩
  | 1 => ⟨S1x64, .f32⟩
  | 2 => ⟨S64, .f32⟩
  | 3 => ⟨S1x64, .f32⟩
  | 4 => ⟨S800000x64, .f32⟩
  | 5 => ⟨S_, .f32⟩
  | 6 => ⟨S50000x64, .f32⟩
  | 7 => ⟨S800000x1, .i32⟩
  | 8 => ⟨S50000x64, .f32⟩
  | 9 => ⟨S1, .f32⟩
  | 10 => ⟨S_, .f32⟩
  | 11 => ⟨S1x64x64, .f32⟩
  | 12 => ⟨S64x64, .f32⟩
  | 13 => ⟨S1x64, .f32⟩
  | 14 => ⟨S64, .f32⟩
  | 15 => ⟨S1x64x64, .f32⟩
  | 16 => ⟨S64x64, .f32⟩
  | 17 => ⟨S1x64, .f32⟩
  | 18 => ⟨S64, .f32⟩
  | 19 => ⟨S1x1, .f32⟩
  | 20 => ⟨S1x64, .f32⟩
  | 21 => ⟨S1x64, .f32⟩
  | 22 => ⟨S50000x64, .f32⟩
  | 23 => ⟨S_, .f32⟩
  | 24 => ⟨S64, .f32⟩
  | 25 => ⟨S_, .f32⟩
  | 26 => ⟨S64, .f32⟩
  | 27 => ⟨S64, .f32⟩
  | 28 => ⟨S_, .i32⟩
  | 29 => ⟨S_, .f32⟩
  | 30 => ⟨S64, .f32⟩
  | 31 => ⟨S1x64, .f32⟩
  | 32 => ⟨S_, .f32⟩
  | 33 => ⟨S1x64, .f32⟩
  | 34 => ⟨S1x64, .f32⟩
  | 35 => ⟨S50000x64, .f32⟩
  | 36 => ⟨S50000x64, .f32⟩
  | 37 => ⟨S50000x64, .f32⟩
  | 38 => ⟨S_, .f32⟩
  | 39 => ⟨S_, .f32⟩
  | 40 => ⟨S_, .f32⟩
  | 41 => ⟨S_, .f32⟩
  | 42 => ⟨S64, .f32⟩
  | 43 => ⟨S64, .f32⟩
  | 44 => ⟨S64, .f32⟩
  | 45 => ⟨S_, .f32⟩
  | 46 => ⟨S_, .i1⟩
  | 47 => ⟨S_, .f32⟩
  | 48 => ⟨S_, .f32⟩
  | 49 => ⟨S64, .f32⟩
  | 50 => ⟨S64, .f32⟩
  | 51 => ⟨S1x64, .f32⟩
  | 52 => ⟨S64, .f32⟩
  | 53 => ⟨S1x64, .f32⟩
  | 54 => ⟨S64, .f32⟩
  | 55 => ⟨S1x64, .f32⟩
  | 56 => ⟨S1x64, .f32⟩
  | 57 => ⟨S1x64, .f32⟩
  | 58 => ⟨S1x64, .f32⟩
  | 59 => ⟨S50000x64, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S1, .i32⟩
  | 69 => ⟨S_, .i32⟩
  | 70 => ⟨S800000x1, .i32⟩
  | 71 => ⟨S800000x1, .i1⟩
  | 72 => ⟨S1x1, .i32⟩
  | 73 => ⟨S800000x1, .i32⟩
  | 74 => ⟨S800000x1, .i1⟩
  | 75 => ⟨S800000x1, .i1⟩
  | 76 => ⟨S_, .i1⟩
  | 77 => ⟨S800000, .i1⟩
  | 78 => ⟨S800000x64, .f32⟩
  | 79 => ⟨S800000x64, .i1⟩
  | 80 => ⟨S_, .f32⟩
  | 81 => ⟨S800000x64, .f32⟩
  | 82 => ⟨S800000x64, .f32⟩
  | 83 => ⟨S1x50x64, .f32⟩
  | 84 => ⟨S50x64, .f32⟩
  | 85 => ⟨S1x64, .f32⟩
  | 86 => ⟨S64, .f32⟩
  | 87 => ⟨S1x64, .f32⟩
  | 88 => ⟨S800000x64, .f32⟩
  | 89 => ⟨S_, .f32⟩
  | 90 => ⟨S50000x64, .f32⟩
  | 91 => ⟨S800000x1, .i32⟩
  | 92 => ⟨S50000x64, .f32⟩
  | 93 => ⟨S1, .f32⟩
  | 94 => ⟨S_, .f32⟩
  | 95 => ⟨S1x64x64, .f32⟩
  | 96 => ⟨S64x64, .f32⟩
  | 97 => ⟨S1x64, .f32⟩
  | 98 => ⟨S64, .f32⟩
  | 99 => ⟨S1x64x64, .f32⟩
  | 100 => ⟨S64x64, .f32⟩
  | 101 => ⟨S1x64, .f32⟩
  | 102 => ⟨S64, .f32⟩
  | 103 => ⟨S1x1, .f32⟩
  | 104 => ⟨S1x64, .f32⟩
  | 105 => ⟨S1x64, .f32⟩
  | 106 => ⟨S50000x64, .f32⟩
  | 107 => ⟨S_, .f32⟩
  | 108 => ⟨S64, .f32⟩
  | 109 => ⟨S_, .f32⟩
  | 110 => ⟨S64, .f32⟩
  | 111 => ⟨S64, .f32⟩
  | 112 => ⟨S_, .i32⟩
  | 113 => ⟨S_, .f32⟩
  | 114 => ⟨S64, .f32⟩
  | 115 => ⟨S1x64, .f32⟩
  | 116 => ⟨S_, .f32⟩
  | 117 => ⟨S1x64, .f32⟩
  | 118 => ⟨S1x64, .f32⟩
  | 119 => ⟨S50000x64, .f32⟩
  | 120 => ⟨S50000x64, .f32⟩
  | 121 => ⟨S50000x64, .f32⟩
  | 122 => ⟨S_, .f32⟩
  | 123 => ⟨S_, .f32⟩
  | 124 => ⟨S_, .f32⟩
  | 125 => ⟨S_, .f32⟩
  | 126 => ⟨S64, .f32⟩
  | 127 => ⟨S64, .f32⟩
  | _ => ⟨S50000x92, .f32⟩

abbrev hbmTy0_2 (i : Nat) : BufTy := match i % 128 with
  | 0 => ⟨S64, .f32⟩
  | 1 => ⟨S_, .f32⟩
  | 2 => ⟨S_, .i1⟩
  | 3 => ⟨S_, .f32⟩
  | 4 => ⟨S_, .f32⟩
  | 5 => ⟨S64, .f32⟩
  | 6 => ⟨S64, .f32⟩
  | 7 => ⟨S1x64, .f32⟩
  | 8 => ⟨S64, .f32⟩
  | 9 => ⟨S1x64, .f32⟩
  | 10 => ⟨S64, .f32⟩
  | 11 => ⟨S1x64, .f32⟩
  | 12 => ⟨S1x64, .f32⟩
  | 13 => ⟨S1x64, .f32⟩
  | 14 => ⟨S1x64, .f32⟩
  | 15 => ⟨S50000x64, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S1, .i32⟩
  | 25 => ⟨S_, .i32⟩
  | 26 => ⟨S800000x1, .i32⟩
  | 27 => ⟨S800000x1, .i1⟩
  | 28 => ⟨S1x1, .i32⟩
  | 29 => ⟨S800000x1, .i32⟩
  | 30 => ⟨S800000x1, .i1⟩
  | 31 => ⟨S800000x1, .i1⟩
  | 32 => ⟨S_, .i1⟩
  | 33 => ⟨S800000, .i1⟩
  | 34 => ⟨S800000x64, .f32⟩
  | 35 => ⟨S800000x64, .i1⟩
  | 36 => ⟨S_, .f32⟩
  | 37 => ⟨S800000x64, .f32⟩
  | 38 => ⟨S800000x64, .f32⟩
  | 39 => ⟨S1x50x64, .f32⟩
  | 40 => ⟨S50x64, .f32⟩
  | 41 => ⟨S1x64, .f32⟩
  | 42 => ⟨S64, .f32⟩
  | 43 => ⟨S1x64, .f32⟩
  | 44 => ⟨S800000x64, .f32⟩
  | 45 => ⟨S_, .f32⟩
  | 46 => ⟨S50000x64, .f32⟩
  | 47 => ⟨S800000x1, .i32⟩
  | 48 => ⟨S50000x64, .f32⟩
  | 49 => ⟨S1, .f32⟩
  | 50 => ⟨S_, .f32⟩
  | 51 => ⟨S1x64x64, .f32⟩
  | 52 => ⟨S64x64, .f32⟩
  | 53 => ⟨S1x64, .f32⟩
  | 54 => ⟨S64, .f32⟩
  | 55 => ⟨S1x64x64, .f32⟩
  | 56 => ⟨S64x64, .f32⟩
  | 57 => ⟨S1x64, .f32⟩
  | 58 => ⟨S64, .f32⟩
  | 59 => ⟨S1x1, .f32⟩
  | 60 => ⟨S1x64, .f32⟩
  | 61 => ⟨S1x64, .f32⟩
  | 62 => ⟨S50000x64, .f32⟩
  | 63 => ⟨S_, .f32⟩
  | 64 => ⟨S64, .f32⟩
  | 65 => ⟨S_, .f32⟩
  | 66 => ⟨S64, .f32⟩
  | 67 => ⟨S64, .f32⟩
  | 68 => ⟨S_, .i32⟩
  | 69 => ⟨S_, .f32⟩
  | 70 => ⟨S64, .f32⟩
  | 71 => ⟨S1x64, .f32⟩
  | 72 => ⟨S_, .f32⟩
  | 73 => ⟨S1x64, .f32⟩
  | 74 => ⟨S1x64, .f32⟩
  | 75 => ⟨S50000x64, .f32⟩
  | 76 => ⟨S50000x64, .f32⟩
  | 77 => ⟨S50000x64, .f32⟩
  | 78 => ⟨S_, .f32⟩
  | 79 => ⟨S_, .f32⟩
  | 80 => ⟨S_, .f32⟩
  | 81 => ⟨S_, .f32⟩
  | 82 => ⟨S64, .f32⟩
  | 83 => ⟨S64, .f32⟩
  | 84 => ⟨S64, .f32⟩
  | 85 => ⟨S_, .f32⟩
  | 86 => ⟨S_, .i1⟩
  | 87 => ⟨S_, .f32⟩
  | 88 => ⟨S_, .f32⟩
  | 89 => ⟨S64, .f32⟩
  | 90 => ⟨S64, .f32⟩
  | 91 => ⟨S1x64, .f32⟩
  | 92 => ⟨S64, .f32⟩
  | 93 => ⟨S1x64, .f32⟩
  | 94 => ⟨S64, .f32⟩
  | 95 => ⟨S1x64, .f32⟩
  | 96 => ⟨S1x64, .f32⟩
  | 97 => ⟨S1x64, .f32⟩
  | 98 => ⟨S1x64, .f32⟩
  | 99 => ⟨S50000x64, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S1, .i32⟩
  | 109 => ⟨S_, .i32⟩
  | 110 => ⟨S800000x1, .i32⟩
  | 111 => ⟨S800000x1, .i1⟩
  | 112 => ⟨S1x1, .i32⟩
  | 113 => ⟨S800000x1, .i32⟩
  | 114 => ⟨S800000x1, .i1⟩
  | 115 => ⟨S800000x1, .i1⟩
  | 116 => ⟨S_, .i1⟩
  | 117 => ⟨S800000, .i1⟩
  | 118 => ⟨S800000x64, .f32⟩
  | 119 => ⟨S800000x64, .i1⟩
  | 120 => ⟨S_, .f32⟩
  | 121 => ⟨S800000x64, .f32⟩
  | 122 => ⟨S800000x64, .f32⟩
  | 123 => ⟨S1x50x64, .f32⟩
  | 124 => ⟨S50x64, .f32⟩
  | 125 => ⟨S1x64, .f32⟩
  | 126 => ⟨S64, .f32⟩
  | 127 => ⟨S1x64, .f32⟩
  | _ => ⟨S50000x92, .f32⟩

abbrev hbmTy0_3 (i : Nat) : BufTy := match i % 128 with
  | 0 => ⟨S800000x64, .f32⟩
  | 1 => ⟨S_, .f32⟩
  | 2 => ⟨S50000x64, .f32⟩
  | 3 => ⟨S800000x1, .i32⟩
  | 4 => ⟨S50000x64, .f32⟩
  | 5 => ⟨S1, .f32⟩
  | 6 => ⟨S_, .f32⟩
  | 7 => ⟨S1x64x64, .f32⟩
  | 8 => ⟨S64x64, .f32⟩
  | 9 => ⟨S1x64, .f32⟩
  | 10 => ⟨S64, .f32⟩
  | 11 => ⟨S1x64x64, .f32⟩
  | 12 => ⟨S64x64, .f32⟩
  | 13 => ⟨S1x64, .f32⟩
  | 14 => ⟨S64, .f32⟩
  | 15 => ⟨S1x1, .f32⟩
  | 16 => ⟨S1x64, .f32⟩
  | 17 => ⟨S1x64, .f32⟩
  | 18 => ⟨S50000x64, .f32⟩
  | 19 => ⟨S_, .f32⟩
  | 20 => ⟨S64, .f32⟩
  | 21 => ⟨S_, .f32⟩
  | 22 => ⟨S64, .f32⟩
  | 23 => ⟨S64, .f32⟩
  | 24 => ⟨S_, .i32⟩
  | 25 => ⟨S_, .f32⟩
  | 26 => ⟨S64, .f32⟩
  | 27 => ⟨S1x64, .f32⟩
  | 28 => ⟨S_, .f32⟩
  | 29 => ⟨S1x64, .f32⟩
  | 30 => ⟨S1x64, .f32⟩
  | 31 => ⟨S50000x64, .f32⟩
  | 32 => ⟨S50000x64, .f32⟩
  | 33 => ⟨S50000x64, .f32⟩
  | 34 => ⟨S_, .f32⟩
  | 35 => ⟨S_, .f32⟩
  | 36 => ⟨S_, .f32⟩
  | 37 => ⟨S_, .f32⟩
  | 38 => ⟨S64, .f32⟩
  | 39 => ⟨S64, .f32⟩
  | 40 => ⟨S64, .f32⟩
  | 41 => ⟨S_, .f32⟩
  | 42 => ⟨S_, .i1⟩
  | 43 => ⟨S_, .f32⟩
  | 44 => ⟨S_, .f32⟩
  | 45 => ⟨S64, .f32⟩
  | 46 => ⟨S64, .f32⟩
  | 47 => ⟨S1x64, .f32⟩
  | 48 => ⟨S64, .f32⟩
  | 49 => ⟨S1x64, .f32⟩
  | 50 => ⟨S64, .f32⟩
  | 51 => ⟨S1x64, .f32⟩
  | 52 => ⟨S1x64, .f32⟩
  | 53 => ⟨S1x64, .f32⟩
  | 54 => ⟨S1x64, .f32⟩
  | 55 => ⟨S50000x64, .f32⟩
  | _ => ⟨S50000x92, .f32⟩

abbrev hbmTy (i : Nat) : BufTy := match i / 128 with
  | 0 => hbmTy0_0 i
  | 1 => hbmTy0_1 i
  | 2 => hbmTy0_2 i
  | 3 => hbmTy0_3 i
  | _ => ⟨S50000x92, .f32⟩

abbrev vmemTy0_0 (i : Nat) : BufTy := match i % 128 with
  | 0 => ⟨S5000x92, .f32⟩
  | 1 => ⟨S5000x92, .f32⟩
  | 2 => ⟨S92x64, .f32⟩
  | 3 => ⟨S1x64, .f32⟩
  | 4 => ⟨S5000x64, .f32⟩
  | 5 => ⟨S5000x64, .f32⟩
  | 6 => ⟨S10000x50, .f32⟩
  | 7 => ⟨S10000x50, .f32⟩
  | 8 => ⟨S10000x64, .f32⟩
  | 9 => ⟨S10000x64, .f32⟩
  | 10 => ⟨S50x64, .f32⟩
  | 11 => ⟨S1x64, .f32⟩
  | 12 => ⟨S10000x64, .f32⟩
  | 13 => ⟨S10000x64, .f32⟩
  | 14 => ⟨S5000x64, .f32⟩
  | 15 => ⟨S5000x64, .f32⟩
  | 16 => ⟨S5000x64, .f32⟩
  | 17 => ⟨S5000x64, .f32⟩
  | 18 => ⟨S1x1, .f32⟩
  | 19 => ⟨S64x64, .f32⟩
  | 20 => ⟨S1x64, .f32⟩
  | 21 => ⟨S64x64, .f32⟩
  | 22 => ⟨S1x64, .f32⟩
  | 23 => ⟨S5000x64, .f32⟩
  | 24 => ⟨S5000x64, .f32⟩
  | 25 => ⟨S5000x64, .f32⟩
  | 26 => ⟨S5000x64, .f32⟩
  | 27 => ⟨S1x64, .f32⟩
  | 28 => ⟨S1x64, .f32⟩
  | 29 => ⟨S1x64, .f32⟩
  | 30 => ⟨S1x64, .f32⟩
  | 31 => ⟨S5000x64, .f32⟩
  | 32 => ⟨S5000x64, .f32⟩
  | 33 => ⟨S10000x50, .f32⟩
  | 34 => ⟨S10000x50, .f32⟩
  | 35 => ⟨S10000x64, .f32⟩
  | 36 => ⟨S10000x64, .f32⟩
  | 37 => ⟨S50x64, .f32⟩
  | 38 => ⟨S1x64, .f32⟩
  | 39 => ⟨S10000x64, .f32⟩
  | 40 => ⟨S10000x64, .f32⟩
  | 41 => ⟨S5000x64, .f32⟩
  | 42 => ⟨S5000x64, .f32⟩
  | 43 => ⟨S5000x64, .f32⟩
  | 44 => ⟨S5000x64, .f32⟩
  | 45 => ⟨S1x1, .f32⟩
  | 46 => ⟨S64x64, .f32⟩
  | 47 => ⟨S1x64, .f32⟩
  | 48 => ⟨S64x64, .f32⟩
  | 49 => ⟨S1x64, .f32⟩
  | 50 => ⟨S5000x64, .f32⟩
  | 51 => ⟨S5000x64, .f32⟩
  | 52 => ⟨S5000x64, .f32⟩
  | 53 => ⟨S5000x64, .f32⟩
  | 54 => ⟨S1x64, .f32⟩
  | 55 => ⟨S1x64, .f32⟩
  | 56 => ⟨S1x64, .f32⟩
  | 57 => ⟨S1x64, .f32⟩
  | 58 => ⟨S5000x64, .f32⟩
  | 59 => ⟨S5000x64, .f32⟩
  | 60 => ⟨S10000x50, .f32⟩
  | 61 => ⟨S10000x50, .f32⟩
  | 62 => ⟨S10000x64, .f32⟩
  | 63 => ⟨S10000x64, .f32⟩
  | 64 => ⟨S50x64, .f32⟩
  | 65 => ⟨S1x64, .f32⟩
  | 66 => ⟨S10000x64, .f32⟩
  | 67 => ⟨S10000x64, .f32⟩
  | 68 => ⟨S5000x64, .f32⟩
  | 69 => ⟨S5000x64, .f32⟩
  | 70 => ⟨S5000x64, .f32⟩
  | 71 => ⟨S5000x64, .f32⟩
  | 72 => ⟨S1x1, .f32⟩
  | 73 => ⟨S64x64, .f32⟩
  | 74 => ⟨S1x64, .f32⟩
  | 75 => ⟨S64x64, .f32⟩
  | 76 => ⟨S1x64, .f32⟩
  | 77 => ⟨S5000x64, .f32⟩
  | 78 => ⟨S5000x64, .f32⟩
  | 79 => ⟨S5000x64, .f32⟩
  | 80 => ⟨S5000x64, .f32⟩
  | 81 => ⟨S1x64, .f32⟩
  | 82 => ⟨S1x64, .f32⟩
  | 83 => ⟨S1x64, .f32⟩
  | 84 => ⟨S1x64, .f32⟩
  | 85 => ⟨S5000x64, .f32⟩
  | 86 => ⟨S5000x64, .f32⟩
  | 87 => ⟨S10000x50, .f32⟩
  | 88 => ⟨S10000x50, .f32⟩
  | 89 => ⟨S10000x64, .f32⟩
  | 90 => ⟨S10000x64, .f32⟩
  | 91 => ⟨S50x64, .f32⟩
  | 92 => ⟨S1x64, .f32⟩
  | 93 => ⟨S10000x64, .f32⟩
  | 94 => ⟨S10000x64, .f32⟩
  | 95 => ⟨S5000x64, .f32⟩
  | 96 => ⟨S5000x64, .f32⟩
  | 97 => ⟨S5000x64, .f32⟩
  | 98 => ⟨S5000x64, .f32⟩
  | 99 => ⟨S1x1, .f32⟩
  | 100 => ⟨S64x64, .f32⟩
  | 101 => ⟨S1x64, .f32⟩
  | 102 => ⟨S64x64, .f32⟩
  | 103 => ⟨S1x64, .f32⟩
  | 104 => ⟨S5000x64, .f32⟩
  | 105 => ⟨S5000x64, .f32⟩
  | 106 => ⟨S5000x64, .f32⟩
  | 107 => ⟨S5000x64, .f32⟩
  | 108 => ⟨S1x64, .f32⟩
  | 109 => ⟨S1x64, .f32⟩
  | 110 => ⟨S1x64, .f32⟩
  | 111 => ⟨S1x64, .f32⟩
  | 112 => ⟨S5000x64, .f32⟩
  | 113 => ⟨S5000x64, .f32⟩
  | 114 => ⟨S10000x50, .f32⟩
  | 115 => ⟨S10000x50, .f32⟩
  | 116 => ⟨S10000x64, .f32⟩
  | 117 => ⟨S10000x64, .f32⟩
  | 118 => ⟨S50x64, .f32⟩
  | 119 => ⟨S1x64, .f32⟩
  | 120 => ⟨S10000x64, .f32⟩
  | 121 => ⟨S10000x64, .f32⟩
  | 122 => ⟨S5000x64, .f32⟩
  | 123 => ⟨S5000x64, .f32⟩
  | 124 => ⟨S5000x64, .f32⟩
  | 125 => ⟨S5000x64, .f32⟩
  | 126 => ⟨S1x1, .f32⟩
  | 127 => ⟨S64x64, .f32⟩
  | _ => ⟨S50000x92, .f32⟩

abbrev vmemTy0_1 (i : Nat) : BufTy := match i % 128 with
  | 0 => ⟨S1x64, .f32⟩
  | 1 => ⟨S64x64, .f32⟩
  | 2 => ⟨S1x64, .f32⟩
  | 3 => ⟨S5000x64, .f32⟩
  | 4 => ⟨S5000x64, .f32⟩
  | 5 => ⟨S5000x64, .f32⟩
  | 6 => ⟨S5000x64, .f32⟩
  | 7 => ⟨S1x64, .f32⟩
  | 8 => ⟨S1x64, .f32⟩
  | 9 => ⟨S1x64, .f32⟩
  | 10 => ⟨S1x64, .f32⟩
  | 11 => ⟨S5000x64, .f32⟩
  | 12 => ⟨S5000x64, .f32⟩
  | _ => ⟨S50000x92, .f32⟩

abbrev vmemTy (i : Nat) : BufTy := match i / 128 with
  | 0 => vmemTy0_0 i
  | 1 => vmemTy0_1 i
  | _ => ⟨S50000x92, .f32⟩

abbrev bufTy : (tb : Table) → Fin (tcTables nBuf tb) → BufTy
  | .hbm, ⟨i, _⟩ => hbmTy i
  | .local _ .vmem, ⟨i, _⟩ => vmemTy i
  | _, _ => ⟨S50000x92, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 141 → Bool
  | ⟨i, _⟩ => dmaSemScopedAt i

abbrev sig : RefSig :=
  ofTc nBuf bufTy 0 141 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_cst : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_cst_0 : Ref sig .tc := ⟨.hbm, 67, rfl⟩
abbrev main_v30 : Ref sig .tc := ⟨.hbm, 68, rfl⟩
abbrev main_cst_1 : Ref sig .tc := ⟨.hbm, 69, rfl⟩
abbrev main_v31 : Ref sig .tc := ⟨.hbm, 70, rfl⟩
abbrev main_v32 : Ref sig .tc := ⟨.hbm, 71, rfl⟩
abbrev main_c : Ref sig .tc := ⟨.hbm, 72, rfl⟩
abbrev main_call1_cst : Ref sig .tc := ⟨.hbm, 73, rfl⟩
abbrev main_call1_v0 : Ref sig .tc := ⟨.hbm, 74, rfl⟩
abbrev main_call1_v1 : Ref sig .tc := ⟨.hbm, 75, rfl⟩
abbrev main_call1_cst_0 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_v6 : Ref sig .tc := ⟨.hbm, 81, rfl⟩
abbrev main_call1_v7 : Ref sig .tc := ⟨.hbm, 82, rfl⟩
abbrev main_call1_cst_1 : Ref sig .tc := ⟨.hbm, 83, rfl⟩
abbrev main_call1_v8 : Ref sig .tc := ⟨.hbm, 84, rfl⟩
abbrev main_call1_cst_2 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_cst_3 : Ref sig .tc := ⟨.hbm, 89, rfl⟩
abbrev main_call1_v12 : Ref sig .tc := ⟨.hbm, 90, rfl⟩
abbrev main_call1_cst_4 : Ref sig .tc := ⟨.hbm, 91, rfl⟩
abbrev main_call1_call0_v0 : Ref sig .tc := ⟨.hbm, 92, rfl⟩
abbrev main_call1_call0_v1 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_call2_c : Ref sig .tc := ⟨.hbm, 104, rfl⟩
abbrev main_call2_v0 : Ref sig .tc := ⟨.hbm, 105, rfl⟩
abbrev main_call2_v1 : Ref sig .tc := ⟨.hbm, 106, rfl⟩
abbrev main_call2_c_0 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_v5 : Ref sig .tc := ⟨.hbm, 111, rfl⟩
abbrev main_call2_c_1 : Ref sig .tc := ⟨.hbm, 112, rfl⟩
abbrev main_call2_c_2 : Ref sig .tc := ⟨.hbm, 113, rfl⟩
abbrev main_call2_v6 : Ref sig .tc := ⟨.hbm, 114, rfl⟩
abbrev main_call2_v7 : Ref sig .tc := ⟨.hbm, 115, rfl⟩
abbrev main_call2_v8 : Ref sig .tc := ⟨.hbm, 116, rfl⟩
abbrev main_call2_v9 : Ref sig .tc := ⟨.hbm, 117, rfl⟩
abbrev main_call2_v10 : Ref sig .tc := ⟨.hbm, 118, rfl⟩
abbrev main_call2_v11 : Ref sig .tc := ⟨.hbm, 119, rfl⟩
abbrev main_call2_c_3 : Ref sig .tc := ⟨.hbm, 120, rfl⟩
abbrev main_call2_v12 : Ref sig .tc := ⟨.hbm, 121, rfl⟩
abbrev main_call2_v13 : Ref sig .tc := ⟨.hbm, 122, rfl⟩
abbrev main_call2_v14 : Ref sig .tc := ⟨.hbm, 123, rfl⟩
abbrev main_call2_cst : Ref sig .tc := ⟨.hbm, 124, rfl⟩
abbrev main_call2_v15 : Ref sig .tc := ⟨.hbm, 125, rfl⟩
abbrev main_v43 : Ref sig .tc := ⟨.hbm, 126, rfl⟩
abbrev main_v44 : Ref sig .tc := ⟨.hbm, 127, rfl⟩
abbrev main_v45 : Ref sig .tc := ⟨.hbm, 128, rfl⟩
abbrev main_v46 : Ref sig .tc := ⟨.hbm, 129, rfl⟩
abbrev main_v47 : Ref sig .tc := ⟨.hbm, 130, rfl⟩
abbrev main_v48 : Ref sig .tc := ⟨.hbm, 131, rfl⟩
abbrev main_v49 : Ref sig .tc := ⟨.hbm, 132, rfl⟩
abbrev main_cst_2 : Ref sig .tc := ⟨.hbm, 133, rfl⟩
abbrev main_v50 : Ref sig .tc := ⟨.hbm, 134, rfl⟩
abbrev main_v51 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩
abbrev main_v55 : Ref sig .tc := ⟨.hbm, 139, rfl⟩
abbrev main_v56 : Ref sig .tc := ⟨.hbm, 140, rfl⟩
abbrev main_v57 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_v64 : Ref sig .tc := ⟨.hbm, 148, rfl⟩
abbrev main_v65 : Ref sig .tc := ⟨.hbm, 149, rfl⟩
abbrev main_v66 : Ref sig .tc := ⟨.hbm, 150, rfl⟩
abbrev main_cst_3 : Ref sig .tc := ⟨.hbm, 151, rfl⟩
abbrev main_v67 : Ref sig .tc := ⟨.hbm, 152, rfl⟩
abbrev main_cst_4 : Ref sig .tc := ⟨.hbm, 153, rfl⟩
abbrev main_v68 : Ref sig .tc := ⟨.hbm, 154, rfl⟩
abbrev main_v69 : Ref sig .tc := ⟨.hbm, 155, rfl⟩
abbrev main_c_5 : Ref sig .tc := ⟨.hbm, 156, rfl⟩
abbrev main_call3_cst : Ref sig .tc := ⟨.hbm, 157, rfl⟩
abbrev main_call3_v0 : Ref sig .tc := ⟨.hbm, 158, rfl⟩
abbrev main_call3_v1 : Ref sig .tc := ⟨.hbm, 159, rfl⟩
abbrev main_call3_cst_0 : Ref sig .tc := ⟨.hbm, 160, rfl⟩
abbrev main_call3_v2 : Ref sig .tc := ⟨.hbm, 161, rfl⟩
abbrev main_call3_v3 : Ref sig .tc := ⟨.hbm, 162, rfl⟩
abbrev main_call3_v4 : Ref sig .tc := ⟨.hbm, 163, rfl⟩
abbrev main_call3_v5 : Ref sig .tc := ⟨.hbm, 164, rfl⟩
abbrev main_call3_v6 : Ref sig .tc := ⟨.hbm, 165, rfl⟩
abbrev main_call3_v7 : Ref sig .tc := ⟨.hbm, 166, rfl⟩
abbrev main_call3_cst_1 : Ref sig .tc := ⟨.hbm, 167, rfl⟩
abbrev main_call3_v8 : Ref sig .tc := ⟨.hbm, 168, rfl⟩
abbrev main_call3_cst_2 : Ref sig .tc := ⟨.hbm, 169, rfl⟩
abbrev main_call3_v9 : Ref sig .tc := ⟨.hbm, 170, rfl⟩
abbrev main_call3_v10 : Ref sig .tc := ⟨.hbm, 171, rfl⟩
abbrev main_call3_v11 : Ref sig .tc := ⟨.hbm, 172, rfl⟩
abbrev main_call3_cst_3 : Ref sig .tc := ⟨.hbm, 173, rfl⟩
abbrev main_call3_v12 : Ref sig .tc := ⟨.hbm, 174, rfl⟩
abbrev main_call3_cst_4 : Ref sig .tc := ⟨.hbm, 175, rfl⟩
abbrev main_call3_call0_v0 : Ref sig .tc := ⟨.hbm, 176, rfl⟩
abbrev main_call3_call0_v1 : Ref sig .tc := ⟨.hbm, 177, rfl⟩
abbrev main_v70 : Ref sig .tc := ⟨.hbm, 178, rfl⟩
abbrev main_v71 : Ref sig .tc := ⟨.hbm, 179, rfl⟩
abbrev main_v72 : Ref sig .tc := ⟨.hbm, 180, rfl⟩
abbrev main_v73 : Ref sig .tc := ⟨.hbm, 181, rfl⟩
abbrev main_v74 : Ref sig .tc := ⟨.hbm, 182, rfl⟩
abbrev main_v75 : Ref sig .tc := ⟨.hbm, 183, rfl⟩
abbrev main_v76 : Ref sig .tc := ⟨.hbm, 184, rfl⟩
abbrev main_v77 : Ref sig .tc := ⟨.hbm, 185, rfl⟩
abbrev main_v78 : Ref sig .tc := ⟨.hbm, 186, rfl⟩
abbrev main_v79 : Ref sig .tc := ⟨.hbm, 187, rfl⟩
abbrev main_call4_c : Ref sig .tc := ⟨.hbm, 188, rfl⟩
abbrev main_call4_v0 : Ref sig .tc := ⟨.hbm, 189, rfl⟩
abbrev main_call4_v1 : Ref sig .tc := ⟨.hbm, 190, rfl⟩
abbrev main_call4_c_0 : Ref sig .tc := ⟨.hbm, 191, rfl⟩
abbrev main_call4_v2 : Ref sig .tc := ⟨.hbm, 192, rfl⟩
abbrev main_call4_v3 : Ref sig .tc := ⟨.hbm, 193, rfl⟩
abbrev main_call4_v4 : Ref sig .tc := ⟨.hbm, 194, rfl⟩
abbrev main_call4_v5 : Ref sig .tc := ⟨.hbm, 195, rfl⟩
abbrev main_call4_c_1 : Ref sig .tc := ⟨.hbm, 196, rfl⟩
abbrev main_call4_c_2 : Ref sig .tc := ⟨.hbm, 197, rfl⟩
abbrev main_call4_v6 : Ref sig .tc := ⟨.hbm, 198, rfl⟩
abbrev main_call4_v7 : Ref sig .tc := ⟨.hbm, 199, rfl⟩
abbrev main_call4_v8 : Ref sig .tc := ⟨.hbm, 200, rfl⟩
abbrev main_call4_v9 : Ref sig .tc := ⟨.hbm, 201, rfl⟩
abbrev main_call4_v10 : Ref sig .tc := ⟨.hbm, 202, rfl⟩
abbrev main_call4_v11 : Ref sig .tc := ⟨.hbm, 203, rfl⟩
abbrev main_call4_c_3 : Ref sig .tc := ⟨.hbm, 204, rfl⟩
abbrev main_call4_v12 : Ref sig .tc := ⟨.hbm, 205, rfl⟩
abbrev main_call4_v13 : Ref sig .tc := ⟨.hbm, 206, rfl⟩
abbrev main_call4_v14 : Ref sig .tc := ⟨.hbm, 207, rfl⟩
abbrev main_call4_cst : Ref sig .tc := ⟨.hbm, 208, rfl⟩
abbrev main_call4_v15 : Ref sig .tc := ⟨.hbm, 209, rfl⟩
abbrev main_v80 : Ref sig .tc := ⟨.hbm, 210, rfl⟩
abbrev main_v81 : Ref sig .tc := ⟨.hbm, 211, rfl⟩
abbrev main_v82 : Ref sig .tc := ⟨.hbm, 212, rfl⟩
abbrev main_v83 : Ref sig .tc := ⟨.hbm, 213, rfl⟩
abbrev main_v84 : Ref sig .tc := ⟨.hbm, 214, rfl⟩
abbrev main_v85 : Ref sig .tc := ⟨.hbm, 215, rfl⟩
abbrev main_v86 : Ref sig .tc := ⟨.hbm, 216, rfl⟩
abbrev main_cst_6 : Ref sig .tc := ⟨.hbm, 217, rfl⟩
abbrev main_v87 : Ref sig .tc := ⟨.hbm, 218, rfl⟩
abbrev main_v88 : Ref sig .tc := ⟨.hbm, 219, rfl⟩
abbrev main_v89 : Ref sig .tc := ⟨.hbm, 220, rfl⟩
abbrev main_v90 : Ref sig .tc := ⟨.hbm, 221, rfl⟩
abbrev main_v91 : Ref sig .tc := ⟨.hbm, 222, rfl⟩
abbrev main_v92 : Ref sig .tc := ⟨.hbm, 223, rfl⟩
abbrev main_v93 : Ref sig .tc := ⟨.hbm, 224, rfl⟩
abbrev main_v94 : Ref sig .tc := ⟨.hbm, 225, rfl⟩
abbrev main_v95 : Ref sig .tc := ⟨.hbm, 226, rfl⟩
abbrev main_v96 : Ref sig .tc := ⟨.hbm, 227, rfl⟩
abbrev main_v97 : Ref sig .tc := ⟨.hbm, 228, rfl⟩
abbrev main_v98 : Ref sig .tc := ⟨.hbm, 229, rfl⟩
abbrev main_v99 : Ref sig .tc := ⟨.hbm, 230, rfl⟩
abbrev main_v100 : Ref sig .tc := ⟨.hbm, 231, rfl⟩
abbrev main_v101 : Ref sig .tc := ⟨.hbm, 232, rfl⟩
abbrev main_v102 : Ref sig .tc := ⟨.hbm, 233, rfl⟩
abbrev main_v103 : Ref sig .tc := ⟨.hbm, 234, rfl⟩
abbrev main_cst_7 : Ref sig .tc := ⟨.hbm, 235, rfl⟩
abbrev main_v104 : Ref sig .tc := ⟨.hbm, 236, rfl⟩
abbrev main_cst_8 : Ref sig .tc := ⟨.hbm, 237, rfl⟩
abbrev main_v105 : Ref sig .tc := ⟨.hbm, 238, rfl⟩
abbrev main_v106 : Ref sig .tc := ⟨.hbm, 239, rfl⟩
abbrev main_c_9 : Ref sig .tc := ⟨.hbm, 240, rfl⟩
abbrev main_call5_cst : Ref sig .tc := ⟨.hbm, 241, rfl⟩
abbrev main_call5_v0 : Ref sig .tc := ⟨.hbm, 242, rfl⟩
abbrev main_call5_v1 : Ref sig .tc := ⟨.hbm, 243, rfl⟩
abbrev main_call5_cst_0 : Ref sig .tc := ⟨.hbm, 244, rfl⟩
abbrev main_call5_v2 : Ref sig .tc := ⟨.hbm, 245, rfl⟩
abbrev main_call5_v3 : Ref sig .tc := ⟨.hbm, 246, rfl⟩
abbrev main_call5_v4 : Ref sig .tc := ⟨.hbm, 247, rfl⟩
abbrev main_call5_v5 : Ref sig .tc := ⟨.hbm, 248, rfl⟩
abbrev main_call5_v6 : Ref sig .tc := ⟨.hbm, 249, rfl⟩
abbrev main_call5_v7 : Ref sig .tc := ⟨.hbm, 250, rfl⟩
abbrev main_call5_cst_1 : Ref sig .tc := ⟨.hbm, 251, rfl⟩
abbrev main_call5_v8 : Ref sig .tc := ⟨.hbm, 252, rfl⟩
abbrev main_call5_cst_2 : Ref sig .tc := ⟨.hbm, 253, rfl⟩
abbrev main_call5_v9 : Ref sig .tc := ⟨.hbm, 254, rfl⟩
abbrev main_call5_v10 : Ref sig .tc := ⟨.hbm, 255, rfl⟩
abbrev main_call5_v11 : Ref sig .tc := ⟨.hbm, 256, rfl⟩
abbrev main_call5_cst_3 : Ref sig .tc := ⟨.hbm, 257, rfl⟩
abbrev main_call5_v12 : Ref sig .tc := ⟨.hbm, 258, rfl⟩
abbrev main_call5_cst_4 : Ref sig .tc := ⟨.hbm, 259, rfl⟩
abbrev main_call5_call0_v0 : Ref sig .tc := ⟨.hbm, 260, rfl⟩
abbrev main_call5_call0_v1 : Ref sig .tc := ⟨.hbm, 261, rfl⟩
abbrev main_v107 : Ref sig .tc := ⟨.hbm, 262, rfl⟩
abbrev main_v108 : Ref sig .tc := ⟨.hbm, 263, rfl⟩
abbrev main_v109 : Ref sig .tc := ⟨.hbm, 264, rfl⟩
abbrev main_v110 : Ref sig .tc := ⟨.hbm, 265, rfl⟩
abbrev main_v111 : Ref sig .tc := ⟨.hbm, 266, rfl⟩
abbrev main_v112 : Ref sig .tc := ⟨.hbm, 267, rfl⟩
abbrev main_v113 : Ref sig .tc := ⟨.hbm, 268, rfl⟩
abbrev main_v114 : Ref sig .tc := ⟨.hbm, 269, rfl⟩
abbrev main_v115 : Ref sig .tc := ⟨.hbm, 270, rfl⟩
abbrev main_v116 : Ref sig .tc := ⟨.hbm, 271, rfl⟩
abbrev main_call6_c : Ref sig .tc := ⟨.hbm, 272, rfl⟩
abbrev main_call6_v0 : Ref sig .tc := ⟨.hbm, 273, rfl⟩
abbrev main_call6_v1 : Ref sig .tc := ⟨.hbm, 274, rfl⟩
abbrev main_call6_c_0 : Ref sig .tc := ⟨.hbm, 275, rfl⟩
abbrev main_call6_v2 : Ref sig .tc := ⟨.hbm, 276, rfl⟩
abbrev main_call6_v3 : Ref sig .tc := ⟨.hbm, 277, rfl⟩
abbrev main_call6_v4 : Ref sig .tc := ⟨.hbm, 278, rfl⟩
abbrev main_call6_v5 : Ref sig .tc := ⟨.hbm, 279, rfl⟩
abbrev main_call6_c_1 : Ref sig .tc := ⟨.hbm, 280, rfl⟩
abbrev main_call6_c_2 : Ref sig .tc := ⟨.hbm, 281, rfl⟩
abbrev main_call6_v6 : Ref sig .tc := ⟨.hbm, 282, rfl⟩
abbrev main_call6_v7 : Ref sig .tc := ⟨.hbm, 283, rfl⟩
abbrev main_call6_v8 : Ref sig .tc := ⟨.hbm, 284, rfl⟩
abbrev main_call6_v9 : Ref sig .tc := ⟨.hbm, 285, rfl⟩
abbrev main_call6_v10 : Ref sig .tc := ⟨.hbm, 286, rfl⟩
abbrev main_call6_v11 : Ref sig .tc := ⟨.hbm, 287, rfl⟩
abbrev main_call6_c_3 : Ref sig .tc := ⟨.hbm, 288, rfl⟩
abbrev main_call6_v12 : Ref sig .tc := ⟨.hbm, 289, rfl⟩
abbrev main_call6_v13 : Ref sig .tc := ⟨.hbm, 290, rfl⟩
abbrev main_call6_v14 : Ref sig .tc := ⟨.hbm, 291, rfl⟩
abbrev main_call6_cst : Ref sig .tc := ⟨.hbm, 292, rfl⟩
abbrev main_call6_v15 : Ref sig .tc := ⟨.hbm, 293, rfl⟩
abbrev main_v117 : Ref sig .tc := ⟨.hbm, 294, rfl⟩
abbrev main_v118 : Ref sig .tc := ⟨.hbm, 295, rfl⟩
abbrev main_v119 : Ref sig .tc := ⟨.hbm, 296, rfl⟩
abbrev main_v120 : Ref sig .tc := ⟨.hbm, 297, rfl⟩
abbrev main_v121 : Ref sig .tc := ⟨.hbm, 298, rfl⟩
abbrev main_v122 : Ref sig .tc := ⟨.hbm, 299, rfl⟩
abbrev main_v123 : Ref sig .tc := ⟨.hbm, 300, rfl⟩
abbrev main_cst_10 : Ref sig .tc := ⟨.hbm, 301, rfl⟩
abbrev main_v124 : Ref sig .tc := ⟨.hbm, 302, rfl⟩
abbrev main_v125 : Ref sig .tc := ⟨.hbm, 303, rfl⟩
abbrev main_v126 : Ref sig .tc := ⟨.hbm, 304, rfl⟩
abbrev main_v127 : Ref sig .tc := ⟨.hbm, 305, rfl⟩
abbrev main_v128 : Ref sig .tc := ⟨.hbm, 306, rfl⟩
abbrev main_v129 : Ref sig .tc := ⟨.hbm, 307, rfl⟩
abbrev main_v130 : Ref sig .tc := ⟨.hbm, 308, rfl⟩
abbrev main_v131 : Ref sig .tc := ⟨.hbm, 309, rfl⟩
abbrev main_v132 : Ref sig .tc := ⟨.hbm, 310, rfl⟩
abbrev main_v133 : Ref sig .tc := ⟨.hbm, 311, rfl⟩
abbrev main_v134 : Ref sig .tc := ⟨.hbm, 312, rfl⟩
abbrev main_v135 : Ref sig .tc := ⟨.hbm, 313, rfl⟩
abbrev main_v136 : Ref sig .tc := ⟨.hbm, 314, rfl⟩
abbrev main_v137 : Ref sig .tc := ⟨.hbm, 315, rfl⟩
abbrev main_v138 : Ref sig .tc := ⟨.hbm, 316, rfl⟩
abbrev main_v139 : Ref sig .tc := ⟨.hbm, 317, rfl⟩
abbrev main_v140 : Ref sig .tc := ⟨.hbm, 318, rfl⟩
abbrev main_cst_11 : Ref sig .tc := ⟨.hbm, 319, rfl⟩
abbrev main_v141 : Ref sig .tc := ⟨.hbm, 320, rfl⟩
abbrev main_cst_12 : Ref sig .tc := ⟨.hbm, 321, rfl⟩
abbrev main_v142 : Ref sig .tc := ⟨.hbm, 322, rfl⟩
abbrev main_v143 : Ref sig .tc := ⟨.hbm, 323, rfl⟩
abbrev main_c_13 : Ref sig .tc := ⟨.hbm, 324, rfl⟩
abbrev main_call7_cst : Ref sig .tc := ⟨.hbm, 325, rfl⟩
abbrev main_call7_v0 : Ref sig .tc := ⟨.hbm, 326, rfl⟩
abbrev main_call7_v1 : Ref sig .tc := ⟨.hbm, 327, rfl⟩
abbrev main_call7_cst_0 : Ref sig .tc := ⟨.hbm, 328, rfl⟩
abbrev main_call7_v2 : Ref sig .tc := ⟨.hbm, 329, rfl⟩
abbrev main_call7_v3 : Ref sig .tc := ⟨.hbm, 330, rfl⟩
abbrev main_call7_v4 : Ref sig .tc := ⟨.hbm, 331, rfl⟩
abbrev main_call7_v5 : Ref sig .tc := ⟨.hbm, 332, rfl⟩
abbrev main_call7_v6 : Ref sig .tc := ⟨.hbm, 333, rfl⟩
abbrev main_call7_v7 : Ref sig .tc := ⟨.hbm, 334, rfl⟩
abbrev main_call7_cst_1 : Ref sig .tc := ⟨.hbm, 335, rfl⟩
abbrev main_call7_v8 : Ref sig .tc := ⟨.hbm, 336, rfl⟩
abbrev main_call7_cst_2 : Ref sig .tc := ⟨.hbm, 337, rfl⟩
abbrev main_call7_v9 : Ref sig .tc := ⟨.hbm, 338, rfl⟩
abbrev main_call7_v10 : Ref sig .tc := ⟨.hbm, 339, rfl⟩
abbrev main_call7_v11 : Ref sig .tc := ⟨.hbm, 340, rfl⟩
abbrev main_call7_cst_3 : Ref sig .tc := ⟨.hbm, 341, rfl⟩
abbrev main_call7_v12 : Ref sig .tc := ⟨.hbm, 342, rfl⟩
abbrev main_call7_cst_4 : Ref sig .tc := ⟨.hbm, 343, rfl⟩
abbrev main_call7_call0_v0 : Ref sig .tc := ⟨.hbm, 344, rfl⟩
abbrev main_call7_call0_v1 : Ref sig .tc := ⟨.hbm, 345, rfl⟩
abbrev main_v144 : Ref sig .tc := ⟨.hbm, 346, rfl⟩
abbrev main_v145 : Ref sig .tc := ⟨.hbm, 347, rfl⟩
abbrev main_v146 : Ref sig .tc := ⟨.hbm, 348, rfl⟩
abbrev main_v147 : Ref sig .tc := ⟨.hbm, 349, rfl⟩
abbrev main_v148 : Ref sig .tc := ⟨.hbm, 350, rfl⟩
abbrev main_v149 : Ref sig .tc := ⟨.hbm, 351, rfl⟩
abbrev main_v150 : Ref sig .tc := ⟨.hbm, 352, rfl⟩
abbrev main_v151 : Ref sig .tc := ⟨.hbm, 353, rfl⟩
abbrev main_v152 : Ref sig .tc := ⟨.hbm, 354, rfl⟩
abbrev main_v153 : Ref sig .tc := ⟨.hbm, 355, rfl⟩
abbrev main_call8_c : Ref sig .tc := ⟨.hbm, 356, rfl⟩
abbrev main_call8_v0 : Ref sig .tc := ⟨.hbm, 357, rfl⟩
abbrev main_call8_v1 : Ref sig .tc := ⟨.hbm, 358, rfl⟩
abbrev main_call8_c_0 : Ref sig .tc := ⟨.hbm, 359, rfl⟩
abbrev main_call8_v2 : Ref sig .tc := ⟨.hbm, 360, rfl⟩
abbrev main_call8_v3 : Ref sig .tc := ⟨.hbm, 361, rfl⟩
abbrev main_call8_v4 : Ref sig .tc := ⟨.hbm, 362, rfl⟩
abbrev main_call8_v5 : Ref sig .tc := ⟨.hbm, 363, rfl⟩
abbrev main_call8_c_1 : Ref sig .tc := ⟨.hbm, 364, rfl⟩
abbrev main_call8_c_2 : Ref sig .tc := ⟨.hbm, 365, rfl⟩
abbrev main_call8_v6 : Ref sig .tc := ⟨.hbm, 366, rfl⟩
abbrev main_call8_v7 : Ref sig .tc := ⟨.hbm, 367, rfl⟩
abbrev main_call8_v8 : Ref sig .tc := ⟨.hbm, 368, rfl⟩
abbrev main_call8_v9 : Ref sig .tc := ⟨.hbm, 369, rfl⟩
abbrev main_call8_v10 : Ref sig .tc := ⟨.hbm, 370, rfl⟩
abbrev main_call8_v11 : Ref sig .tc := ⟨.hbm, 371, rfl⟩
abbrev main_call8_c_3 : Ref sig .tc := ⟨.hbm, 372, rfl⟩
abbrev main_call8_v12 : Ref sig .tc := ⟨.hbm, 373, rfl⟩
abbrev main_call8_v13 : Ref sig .tc := ⟨.hbm, 374, rfl⟩
abbrev main_call8_v14 : Ref sig .tc := ⟨.hbm, 375, rfl⟩
abbrev main_call8_cst : Ref sig .tc := ⟨.hbm, 376, rfl⟩
abbrev main_call8_v15 : Ref sig .tc := ⟨.hbm, 377, rfl⟩
abbrev main_v154 : Ref sig .tc := ⟨.hbm, 378, rfl⟩
abbrev main_v155 : Ref sig .tc := ⟨.hbm, 379, rfl⟩
abbrev main_v156 : Ref sig .tc := ⟨.hbm, 380, rfl⟩
abbrev main_v157 : Ref sig .tc := ⟨.hbm, 381, rfl⟩
abbrev main_v158 : Ref sig .tc := ⟨.hbm, 382, rfl⟩
abbrev main_v159 : Ref sig .tc := ⟨.hbm, 383, rfl⟩
abbrev main_v160 : Ref sig .tc := ⟨.hbm, 384, rfl⟩
abbrev main_cst_14 : Ref sig .tc := ⟨.hbm, 385, rfl⟩
abbrev main_v161 : Ref sig .tc := ⟨.hbm, 386, rfl⟩
abbrev main_v162 : Ref sig .tc := ⟨.hbm, 387, rfl⟩
abbrev main_v163 : Ref sig .tc := ⟨.hbm, 388, rfl⟩
abbrev main_v164 : Ref sig .tc := ⟨.hbm, 389, rfl⟩
abbrev main_v165 : Ref sig .tc := ⟨.hbm, 390, rfl⟩
abbrev main_v166 : Ref sig .tc := ⟨.hbm, 391, rfl⟩
abbrev main_v167 : Ref sig .tc := ⟨.hbm, 392, rfl⟩
abbrev main_v168 : Ref sig .tc := ⟨.hbm, 393, rfl⟩
abbrev main_v169 : Ref sig .tc := ⟨.hbm, 394, rfl⟩
abbrev main_v170 : Ref sig .tc := ⟨.hbm, 395, rfl⟩
abbrev main_v171 : Ref sig .tc := ⟨.hbm, 396, rfl⟩
abbrev main_v172 : Ref sig .tc := ⟨.hbm, 397, rfl⟩
abbrev main_v173 : Ref sig .tc := ⟨.hbm, 398, rfl⟩
abbrev main_v174 : Ref sig .tc := ⟨.hbm, 399, rfl⟩
abbrev main_v175 : Ref sig .tc := ⟨.hbm, 400, rfl⟩
abbrev main_v176 : Ref sig .tc := ⟨.hbm, 401, rfl⟩
abbrev main_v177 : Ref sig .tc := ⟨.hbm, 402, rfl⟩
abbrev main_cst_15 : Ref sig .tc := ⟨.hbm, 403, rfl⟩
abbrev main_v178 : Ref sig .tc := ⟨.hbm, 404, rfl⟩
abbrev main_cst_16 : Ref sig .tc := ⟨.hbm, 405, rfl⟩
abbrev main_v179 : Ref sig .tc := ⟨.hbm, 406, rfl⟩
abbrev main_v180 : Ref sig .tc := ⟨.hbm, 407, rfl⟩
abbrev main_c_17 : Ref sig .tc := ⟨.hbm, 408, rfl⟩
abbrev main_call9_cst : Ref sig .tc := ⟨.hbm, 409, rfl⟩
abbrev main_call9_v0 : Ref sig .tc := ⟨.hbm, 410, rfl⟩
abbrev main_call9_v1 : Ref sig .tc := ⟨.hbm, 411, rfl⟩
abbrev main_call9_cst_0 : Ref sig .tc := ⟨.hbm, 412, rfl⟩
abbrev main_call9_v2 : Ref sig .tc := ⟨.hbm, 413, rfl⟩
abbrev main_call9_v3 : Ref sig .tc := ⟨.hbm, 414, rfl⟩
abbrev main_call9_v4 : Ref sig .tc := ⟨.hbm, 415, rfl⟩
abbrev main_call9_v5 : Ref sig .tc := ⟨.hbm, 416, rfl⟩
abbrev main_call9_v6 : Ref sig .tc := ⟨.hbm, 417, rfl⟩
abbrev main_call9_v7 : Ref sig .tc := ⟨.hbm, 418, rfl⟩
abbrev main_call9_cst_1 : Ref sig .tc := ⟨.hbm, 419, rfl⟩
abbrev main_call9_v8 : Ref sig .tc := ⟨.hbm, 420, rfl⟩
abbrev main_call9_cst_2 : Ref sig .tc := ⟨.hbm, 421, rfl⟩
abbrev main_call9_v9 : Ref sig .tc := ⟨.hbm, 422, rfl⟩
abbrev main_call9_v10 : Ref sig .tc := ⟨.hbm, 423, rfl⟩
abbrev main_call9_v11 : Ref sig .tc := ⟨.hbm, 424, rfl⟩
abbrev main_call9_cst_3 : Ref sig .tc := ⟨.hbm, 425, rfl⟩
abbrev main_call9_v12 : Ref sig .tc := ⟨.hbm, 426, rfl⟩
abbrev main_call9_cst_4 : Ref sig .tc := ⟨.hbm, 427, rfl⟩
abbrev main_call9_call0_v0 : Ref sig .tc := ⟨.hbm, 428, rfl⟩
abbrev main_call9_call0_v1 : Ref sig .tc := ⟨.hbm, 429, rfl⟩
abbrev main_v181 : Ref sig .tc := ⟨.hbm, 430, rfl⟩
abbrev main_v182 : Ref sig .tc := ⟨.hbm, 431, rfl⟩
abbrev main_v183 : Ref sig .tc := ⟨.hbm, 432, rfl⟩
abbrev main_v184 : Ref sig .tc := ⟨.hbm, 433, rfl⟩
abbrev main_v185 : Ref sig .tc := ⟨.hbm, 434, rfl⟩
abbrev main_v186 : Ref sig .tc := ⟨.hbm, 435, rfl⟩
abbrev main_v187 : Ref sig .tc := ⟨.hbm, 436, rfl⟩
abbrev main_v188 : Ref sig .tc := ⟨.hbm, 437, rfl⟩
abbrev main_v189 : Ref sig .tc := ⟨.hbm, 438, rfl⟩
abbrev main_v190 : Ref sig .tc := ⟨.hbm, 439, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg7_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg4_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg6_0 : Ref sig .tc := ⟨.vmem, 49, rfl⟩
abbrev cc5_stg7_0 : Ref sig .tc := ⟨.vmem, 50, rfl⟩
abbrev cc5_stg7_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg2_0 : Ref sig .tc := ⟨.vmem, 55, rfl⟩
abbrev cc6_stg3_0 : Ref sig .tc := ⟨.vmem, 56, rfl⟩
abbrev cc6_stg4_0 : Ref sig .tc := ⟨.vmem, 57, rfl⟩
abbrev cc6_stg5_0 : Ref sig .tc := ⟨.vmem, 58, rfl⟩
abbrev cc6_stg5_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg1_1 : Ref sig .tc := ⟨.vmem, 63, rfl⟩
abbrev cc7_stg2_0 : Ref sig .tc := ⟨.vmem, 64, rfl⟩
abbrev cc7_stg3_0 : Ref sig .tc := ⟨.vmem, 65, rfl⟩
abbrev cc7_stg4_0 : Ref sig .tc := ⟨.vmem, 66, rfl⟩
abbrev cc7_stg4_1 : Ref sig .tc := ⟨.vmem, 67, rfl⟩
abbrev cc8_stg0_0 : Ref sig .tc := ⟨.vmem, 68, rfl⟩
abbrev cc8_stg0_1 : Ref sig .tc := ⟨.vmem, 69, rfl⟩
abbrev cc8_stg1_0 : Ref sig .tc := ⟨.vmem, 70, rfl⟩
abbrev cc8_stg1_1 : Ref sig .tc := ⟨.vmem, 71, rfl⟩
abbrev cc8_stg2_0 : Ref sig .tc := ⟨.vmem, 72, rfl⟩
abbrev cc8_stg3_0 : Ref sig .tc := ⟨.vmem, 73, rfl⟩
abbrev cc8_stg4_0 : Ref sig .tc := ⟨.vmem, 74, rfl⟩
abbrev cc8_stg5_0 : Ref sig .tc := ⟨.vmem, 75, rfl⟩
abbrev cc8_stg6_0 : Ref sig .tc := ⟨.vmem, 76, rfl⟩
abbrev cc8_stg7_0 : Ref sig .tc := ⟨.vmem, 77, rfl⟩
abbrev cc8_stg7_1 : Ref sig .tc := ⟨.vmem, 78, rfl⟩
abbrev cc9_stg0_0 : Ref sig .tc := ⟨.vmem, 79, rfl⟩
abbrev cc9_stg0_1 : Ref sig .tc := ⟨.vmem, 80, rfl⟩
abbrev cc9_stg1_0 : Ref sig .tc := ⟨.vmem, 81, rfl⟩
abbrev cc9_stg2_0 : Ref sig .tc := ⟨.vmem, 82, rfl⟩
abbrev cc9_stg3_0 : Ref sig .tc := ⟨.vmem, 83, rfl⟩
abbrev cc9_stg4_0 : Ref sig .tc := ⟨.vmem, 84, rfl⟩
abbrev cc9_stg5_0 : Ref sig .tc := ⟨.vmem, 85, rfl⟩
abbrev cc9_stg5_1 : Ref sig .tc := ⟨.vmem, 86, rfl⟩
abbrev cc10_stg0_0 : Ref sig .tc := ⟨.vmem, 87, rfl⟩
abbrev cc10_stg0_1 : Ref sig .tc := ⟨.vmem, 88, rfl⟩
abbrev cc10_stg1_0 : Ref sig .tc := ⟨.vmem, 89, rfl⟩
abbrev cc10_stg1_1 : Ref sig .tc := ⟨.vmem, 90, rfl⟩
abbrev cc10_stg2_0 : Ref sig .tc := ⟨.vmem, 91, rfl⟩
abbrev cc10_stg3_0 : Ref sig .tc := ⟨.vmem, 92, rfl⟩
abbrev cc10_stg4_0 : Ref sig .tc := ⟨.vmem, 93, rfl⟩
abbrev cc10_stg4_1 : Ref sig .tc := ⟨.vmem, 94, rfl⟩
abbrev cc11_stg0_0 : Ref sig .tc := ⟨.vmem, 95, rfl⟩
abbrev cc11_stg0_1 : Ref sig .tc := ⟨.vmem, 96, rfl⟩
abbrev cc11_stg1_0 : Ref sig .tc := ⟨.vmem, 97, rfl⟩
abbrev cc11_stg1_1 : Ref sig .tc := ⟨.vmem, 98, rfl⟩
abbrev cc11_stg2_0 : Ref sig .tc := ⟨.vmem, 99, rfl⟩
abbrev cc11_stg3_0 : Ref sig .tc := ⟨.vmem, 100, rfl⟩
abbrev cc11_stg4_0 : Ref sig .tc := ⟨.vmem, 101, rfl⟩
abbrev cc11_stg5_0 : Ref sig .tc := ⟨.vmem, 102, rfl⟩
abbrev cc11_stg6_0 : Ref sig .tc := ⟨.vmem, 103, rfl⟩
abbrev cc11_stg7_0 : Ref sig .tc := ⟨.vmem, 104, rfl⟩
abbrev cc11_stg7_1 : Ref sig .tc := ⟨.vmem, 105, rfl⟩
abbrev cc12_stg0_0 : Ref sig .tc := ⟨.vmem, 106, rfl⟩
abbrev cc12_stg0_1 : Ref sig .tc := ⟨.vmem, 107, rfl⟩
abbrev cc12_stg1_0 : Ref sig .tc := ⟨.vmem, 108, rfl⟩
abbrev cc12_stg2_0 : Ref sig .tc := ⟨.vmem, 109, rfl⟩
abbrev cc12_stg3_0 : Ref sig .tc := ⟨.vmem, 110, rfl⟩
abbrev cc12_stg4_0 : Ref sig .tc := ⟨.vmem, 111, rfl⟩
abbrev cc12_stg5_0 : Ref sig .tc := ⟨.vmem, 112, rfl⟩
abbrev cc12_stg5_1 : Ref sig .tc := ⟨.vmem, 113, rfl⟩
abbrev cc13_stg0_0 : Ref sig .tc := ⟨.vmem, 114, rfl⟩
abbrev cc13_stg0_1 : Ref sig .tc := ⟨.vmem, 115, rfl⟩
abbrev cc13_stg1_0 : Ref sig .tc := ⟨.vmem, 116, rfl⟩
abbrev cc13_stg1_1 : Ref sig .tc := ⟨.vmem, 117, rfl⟩
abbrev cc13_stg2_0 : Ref sig .tc := ⟨.vmem, 118, rfl⟩
abbrev cc13_stg3_0 : Ref sig .tc := ⟨.vmem, 119, rfl⟩
abbrev cc13_stg4_0 : Ref sig .tc := ⟨.vmem, 120, rfl⟩
abbrev cc13_stg4_1 : Ref sig .tc := ⟨.vmem, 121, rfl⟩
abbrev cc14_stg0_0 : Ref sig .tc := ⟨.vmem, 122, rfl⟩
abbrev cc14_stg0_1 : Ref sig .tc := ⟨.vmem, 123, rfl⟩
abbrev cc14_stg1_0 : Ref sig .tc := ⟨.vmem, 124, rfl⟩
abbrev cc14_stg1_1 : Ref sig .tc := ⟨.vmem, 125, rfl⟩
abbrev cc14_stg2_0 : Ref sig .tc := ⟨.vmem, 126, rfl⟩
abbrev cc14_stg3_0 : Ref sig .tc := ⟨.vmem, 127, rfl⟩
abbrev cc14_stg4_0 : Ref sig .tc := ⟨.vmem, 128, rfl⟩
abbrev cc14_stg5_0 : Ref sig .tc := ⟨.vmem, 129, rfl⟩
abbrev cc14_stg6_0 : Ref sig .tc := ⟨.vmem, 130, rfl⟩
abbrev cc14_stg7_0 : Ref sig .tc := ⟨.vmem, 131, rfl⟩
abbrev cc14_stg7_1 : Ref sig .tc := ⟨.vmem, 132, rfl⟩
abbrev cc15_stg0_0 : Ref sig .tc := ⟨.vmem, 133, rfl⟩
abbrev cc15_stg0_1 : Ref sig .tc := ⟨.vmem, 134, rfl⟩
abbrev cc15_stg1_0 : Ref sig .tc := ⟨.vmem, 135, rfl⟩
abbrev cc15_stg2_0 : Ref sig .tc := ⟨.vmem, 136, rfl⟩
abbrev cc15_stg3_0 : Ref sig .tc := ⟨.vmem, 137, rfl⟩
abbrev cc15_stg4_0 : Ref sig .tc := ⟨.vmem, 138, rfl⟩
abbrev cc15_stg5_0 : Ref sig .tc := ⟨.vmem, 139, rfl⟩
abbrev cc15_stg5_1 : Ref sig .tc := ⟨.vmem, 140, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem7_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem3_0 : DmaSem sig := 38
abbrev cc4_sem4_0 : DmaSem sig := 39
abbrev cc4_sem4_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem3_0 : DmaSem sig := 46
abbrev cc5_sem4_0 : DmaSem sig := 47
abbrev cc5_sem5_0 : DmaSem sig := 48
abbrev cc5_sem6_0 : DmaSem sig := 49
abbrev cc5_sem7_0 : DmaSem sig := 50
abbrev cc5_sem7_1 : DmaSem sig := 51
abbrev cc6_sem0_0 : DmaSem sig := 52
abbrev cc6_sem0_1 : DmaSem sig := 53
abbrev cc6_sem1_0 : DmaSem sig := 54
abbrev cc6_sem2_0 : DmaSem sig := 55
abbrev cc6_sem3_0 : DmaSem sig := 56
abbrev cc6_sem4_0 : DmaSem sig := 57
abbrev cc6_sem5_0 : DmaSem sig := 58
abbrev cc6_sem5_1 : DmaSem sig := 59
abbrev cc7_sem0_0 : DmaSem sig := 60
abbrev cc7_sem0_1 : DmaSem sig := 61
abbrev cc7_sem1_0 : DmaSem sig := 62
abbrev cc7_sem1_1 : DmaSem sig := 63
abbrev cc7_sem2_0 : DmaSem sig := 64
abbrev cc7_sem3_0 : DmaSem sig := 65
abbrev cc7_sem4_0 : DmaSem sig := 66
abbrev cc7_sem4_1 : DmaSem sig := 67
abbrev cc8_sem0_0 : DmaSem sig := 68
abbrev cc8_sem0_1 : DmaSem sig := 69
abbrev cc8_sem1_0 : DmaSem sig := 70
abbrev cc8_sem1_1 : DmaSem sig := 71
abbrev cc8_sem2_0 : DmaSem sig := 72
abbrev cc8_sem3_0 : DmaSem sig := 73
abbrev cc8_sem4_0 : DmaSem sig := 74
abbrev cc8_sem5_0 : DmaSem sig := 75
abbrev cc8_sem6_0 : DmaSem sig := 76
abbrev cc8_sem7_0 : DmaSem sig := 77
abbrev cc8_sem7_1 : DmaSem sig := 78
abbrev cc9_sem0_0 : DmaSem sig := 79
abbrev cc9_sem0_1 : DmaSem sig := 80
abbrev cc9_sem1_0 : DmaSem sig := 81
abbrev cc9_sem2_0 : DmaSem sig := 82
abbrev cc9_sem3_0 : DmaSem sig := 83
abbrev cc9_sem4_0 : DmaSem sig := 84
abbrev cc9_sem5_0 : DmaSem sig := 85
abbrev cc9_sem5_1 : DmaSem sig := 86
abbrev cc10_sem0_0 : DmaSem sig := 87
abbrev cc10_sem0_1 : DmaSem sig := 88
abbrev cc10_sem1_0 : DmaSem sig := 89
abbrev cc10_sem1_1 : DmaSem sig := 90
abbrev cc10_sem2_0 : DmaSem sig := 91
abbrev cc10_sem3_0 : DmaSem sig := 92
abbrev cc10_sem4_0 : DmaSem sig := 93
abbrev cc10_sem4_1 : DmaSem sig := 94
abbrev cc11_sem0_0 : DmaSem sig := 95
abbrev cc11_sem0_1 : DmaSem sig := 96
abbrev cc11_sem1_0 : DmaSem sig := 97
abbrev cc11_sem1_1 : DmaSem sig := 98
abbrev cc11_sem2_0 : DmaSem sig := 99
abbrev cc11_sem3_0 : DmaSem sig := 100
abbrev cc11_sem4_0 : DmaSem sig := 101
abbrev cc11_sem5_0 : DmaSem sig := 102
abbrev cc11_sem6_0 : DmaSem sig := 103
abbrev cc11_sem7_0 : DmaSem sig := 104
abbrev cc11_sem7_1 : DmaSem sig := 105
abbrev cc12_sem0_0 : DmaSem sig := 106
abbrev cc12_sem0_1 : DmaSem sig := 107
abbrev cc12_sem1_0 : DmaSem sig := 108
abbrev cc12_sem2_0 : DmaSem sig := 109
abbrev cc12_sem3_0 : DmaSem sig := 110
abbrev cc12_sem4_0 : DmaSem sig := 111
abbrev cc12_sem5_0 : DmaSem sig := 112
abbrev cc12_sem5_1 : DmaSem sig := 113
abbrev cc13_sem0_0 : DmaSem sig := 114
abbrev cc13_sem0_1 : DmaSem sig := 115
abbrev cc13_sem1_0 : DmaSem sig := 116
abbrev cc13_sem1_1 : DmaSem sig := 117
abbrev cc13_sem2_0 : DmaSem sig := 118
abbrev cc13_sem3_0 : DmaSem sig := 119
abbrev cc13_sem4_0 : DmaSem sig := 120
abbrev cc13_sem4_1 : DmaSem sig := 121
abbrev cc14_sem0_0 : DmaSem sig := 122
abbrev cc14_sem0_1 : DmaSem sig := 123
abbrev cc14_sem1_0 : DmaSem sig := 124
abbrev cc14_sem1_1 : DmaSem sig := 125
abbrev cc14_sem2_0 : DmaSem sig := 126
abbrev cc14_sem3_0 : DmaSem sig := 127
abbrev cc14_sem4_0 : DmaSem sig := 128
abbrev cc14_sem5_0 : DmaSem sig := 129
abbrev cc14_sem6_0 : DmaSem sig := 130
abbrev cc14_sem7_0 : DmaSem sig := 131
abbrev cc14_sem7_1 : DmaSem sig := 132
abbrev cc15_sem0_0 : DmaSem sig := 133
abbrev cc15_sem0_1 : DmaSem sig := 134
abbrev cc15_sem1_0 : DmaSem sig := 135
abbrev cc15_sem2_0 : DmaSem sig := 136
abbrev cc15_sem3_0 : DmaSem sig := 137
abbrev cc15_sem4_0 : DmaSem sig := 138
abbrev cc15_sem5_0 : DmaSem sig := 139
abbrev cc15_sem5_1 : DmaSem sig := 140

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x92 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S92x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x50 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S50x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![80], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x50 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S50x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x64 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![80], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x50 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S50x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S10000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x1 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S64x64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x64 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S5000x64 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x64 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![80], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x50 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S10000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S50x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S10000x64 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x64 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S1x1 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S64x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S64x64 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1x64 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 2 → Memref sig .tc .vmem S5000x64 .f32 := fun | 0 => Memref.whole cc11_stg7_0 | 1 => Memref.whole cc11_stg7_1 | ⟨_ + 2, h⟩ => absurd h (Nat.not_lt.2 (Nat.le_add_left _ _))
abbrev sem11_7 : Fin 2 → DmaSem sig := fun | 0 => cc11_sem7_0 | 1 => cc11_sem7_1 | ⟨_ + 2, h⟩ => absurd h (Nat.not_lt.2 (Nat.le_add_left _ _))
abbrev reads11_7 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x64 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x64 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x64 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S5000x64 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev grid13 : Pipeline.Grid := ⟨1, ![80], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S10000x50 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S10000x64 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S50x64 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x64 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 2 → Memref sig .tc .vmem S10000x64 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_6 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_7 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x64 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S5000x64 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 1 → Memref sig .tc .vmem S1x1 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S64x64 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x64 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 1 → Memref sig .tc .vmem S64x64 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false]

abbrev stage14_6 : Fin 1 → Memref sig .tc .vmem S1x64 .f32 := fun | 0 => Memref.whole cc14_stg6_0 | ⟨_ + 1, h⟩ => absurd h (Nat.not_lt.2 (Nat.le_add_left _ _))
abbrev sem14_6 : Fin 1 → DmaSem sig := fun | 0 => cc14_sem6_0 | ⟨_ + 1, h⟩ => absurd h (Nat.not_lt.2 (Nat.le_add_left _ _))
abbrev reads14_6 : Fin grid14.rank → Bool := ![false]

abbrev stage14_7 : Fin 2 → Memref sig .tc .vmem S5000x64 .f32 := fun | 0 => Memref.whole cc14_stg7_0 | 1 => Memref.whole cc14_stg7_1 | ⟨_ + 2, h⟩ => absurd h (Nat.not_lt.2 (Nat.le_add_left _ _))
abbrev sem14_7 : Fin 2 → DmaSem sig := fun | 0 => cc14_sem7_0 | 1 => cc14_sem7_1 | ⟨_ + 2, h⟩ => absurd h (Nat.not_lt.2 (Nat.le_add_left _ _))
abbrev reads14_7 : Fin grid14.rank → Bool := ![true]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S5000x64 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x64 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x64 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x64 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x64 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 2 → Memref sig .tc .vmem S5000x64 .f32 := fun | 0 => Memref.whole cc15_stg5_0 | 1 => Memref.whole cc15_stg5_1 | ⟨_ + 2, h⟩ => absurd h (Nat.not_lt.2 (Nat.le_add_left _ _))
abbrev sem15_5 : Fin 2 → DmaSem sig := fun | 0 => cc15_sem5_0 | 1 => cc15_sem5_1 | ⟨_ + 2, h⟩ => absurd h (Nat.not_lt.2 (Nat.le_add_left _ _))
abbrev reads15_5 : Fin grid15.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S64_S1x64 : S64.ShapeCasts S1x64
  inb_S5000x92_S5000x92_0_0 : ∀ a, (![0, 0] : Fin 2 → Nat) a + S5000x92.size a ≤ S5000x92.size a
  h_S5000x92 : 0 < S5000x92.numel
  bitsLt_bf16_f32 : FTy.bits .bf16 < FTy.bits .f32
  inb_S92x64_S92x64_0_0 : ∀ a, (![0, 0] : Fin 2 → Nat) a + S92x64.size a ≤ S92x64.size a
  h_S92x64 : 0 < S92x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  slices_S5x50x64_S1x50x64_0_0_0 : S5x50x64.Slices ![0, 0, 0] S1x50x64
  shapeCasts_S1x50x64_S50x64 : S1x50x64.ShapeCasts S50x64
  slices_S5x64_S1x64_0_0 : S5x64.Slices ![0, 0] S1x64
  shapeCasts_S1x64_S64 : S1x64.ShapeCasts S64
  inb_S10000x50_S10000x50_0_0 : ∀ a, (![0, 0] : Fin 2 → Nat) a + S10000x50.size a ≤ S10000x50.size a
  h_S10000x50 : 0 < S10000x50.numel
  inb_S50x64_S50x64_0_0 : ∀ a, (![0, 0] : Fin 2 → Nat) a + S50x64.size a ≤ S50x64.size a
  h_S50x64 : 0 < S50x64.numel
  shapeCasts_S50x64_S50x64 : S50x64.ShapeCasts S50x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x64_S10000x64 : S1x64.Broadcasts S10000x64
  bcast_S_S50000x64 : S_.BroadcastsInDim S50000x64 (![] : Fin 0 → Fin S50000x64.rank)
  slices_S5_S1_0 : S5.Slices ![0] S1
  shapeCasts_S1_S_ : S1.ShapeCasts S_
  slices_S5x64x64_S1x64x64_0_0_0 : S5x64x64.Slices ![0, 0, 0] S1x64x64
  shapeCasts_S1x64x64_S64x64 : S1x64x64.ShapeCasts S64x64
  shapeCasts_S_S1x1 : S_.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S5000x64_S5000x64 : S5000x64.ShapeCasts S5000x64
  broadcasts_S1x1_S5000x64 : S1x1.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  reducesTo_S50000x64_S64_d0 : S50000x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S50000x64_0_1 : S1x64.BroadcastsInDim S50000x64 (![0, 1] : Fin 2 → Fin S50000x64.rank)
  slices_S5x50x64_S1x50x64_1_0_0 : S5x50x64.Slices ![1, 0, 0] S1x50x64
  slices_S5x64_S1x64_1_0 : S5x64.Slices ![1, 0] S1x64
  slices_S5_S1_1 : S5.Slices ![1] S1
  slices_S5x64x64_S1x64x64_1_0_0 : S5x64x64.Slices ![1, 0, 0] S1x64x64
  slices_S5x50x64_S1x50x64_2_0_0 : S5x50x64.Slices ![2, 0, 0] S1x50x64
  slices_S5x64_S1x64_2_0 : S5x64.Slices ![2, 0] S1x64
  slices_S5_S1_2 : S5.Slices ![2] S1
  slices_S5x64x64_S1x64x64_2_0_0 : S5x64x64.Slices ![2, 0, 0] S1x64x64
  slices_S5x50x64_S1x50x64_3_0_0 : S5x50x64.Slices ![3, 0, 0] S1x50x64
  slices_S5x64_S1x64_3_0 : S5x64.Slices ![3, 0] S1x64
  slices_S5_S1_3 : S5.Slices ![3] S1
  slices_S5x64x64_S1x64x64_3_0_0 : S5x64x64.Slices ![3, 0, 0] S1x64x64
  slices_S5x50x64_S1x50x64_4_0_0 : S5x50x64.Slices ![4, 0, 0] S1x50x64
  slices_S5x64_S1x64_4_0 : S5x64.Slices ![4, 0] S1x64
  slices_S5_S1_4 : S5.Slices ![4] S1
  slices_S5x64x64_S1x64x64_4_0_0 : S5x64x64.Slices ![4, 0, 0] S1x64x64
  dot_S5000x92_S92x64_S5000x64_1_0_0_1_n_n_wf : DotDims.WF S5000x92 S92x64 S5000x64 [1] [0] [0] [1] [] []
  gather_S50000x64_S800000x1_S800000x64_1_0_n_n_0_1_164_wf : GatherDims.WF S50000x64 S800000x1 S800000x64 [1] [0] [] [0] [] 1 ![1, 64]
  dot_S10000x50_S50x64_S10000x64_1_0_0_1_n_n_wf : DotDims.WF S10000x50 S50x64 S10000x64 [1] [0] [0] [1] [] []
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x92.size a ≤ S50000x92.size a
  hwx0_0 : ∀ i : grid0.Coords, EltTy.bits .f32 = 32 ∨ (Rect.block (s := S50000x92) S5000x92.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S92x64.size a ≤ S92x64.size a
  hwx0_1 : ∀ i : grid0.Coords, EltTy.bits .f32 = 32 ∨ (Rect.block (s := S92x64) S92x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x50.size a ≤ S800000x50.size a
  hwx1_0 : ∀ i : grid1.Coords, EltTy.bits .f32 = 32 ∨ (Rect.block (s := S800000x50) S10000x50.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S800000x64.size a
  hwx1_1 : ∀ i : grid1.Coords, EltTy.bits .f32 = 32 ∨ (Rect.block (s := S800000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S50x64.size a ≤ S50x64.size a
  hwx1_2 : ∀ i : grid1.Coords, EltTy.bits .f32 = 32 ∨ (Rect.block (s := S50x64) S50x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S800000x64.size a
  hwx1_4 : ∀ i : grid1.Coords, EltTy.bits .f32 = 32 ∨ (Rect.block (s := S800000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S50000x64.size a
  hwx2_7 : ∀ i : grid2.Coords, EltTy.bits .f32 = 32 ∨ (Rect.block (s := S50000x64) S5000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x50.size a ≤ S800000x50.size a
  hwx4_0 : ∀ i : grid4.Coords, EltTy.bits .f32 = 32 ∨ (Rect.block (s := S800000x50) S10000x50.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S800000x64.size a
  hwx4_1 : ∀ i : grid4.Coords, EltTy.bits .f32 = 32 ∨ (Rect.block (s := S800000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S50x64.size a ≤ S50x64.size a
  hwx4_2 : ∀ i : grid4.Coords, EltTy.bits .f32 = 32 ∨ (Rect.block (s := S50x64) S50x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x64.size a ≤ S800000x64.size a
  hwx4_4 : ∀ i : grid4.Coords, EltTy.bits .f32 = 32 ∨ (Rect.block (s := S800000x64) S10000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x64.size a ≤ S64x64.size a
  hwx5_5 : ∀ i : grid5.Coords, EltTy.bits .f32 = 32 ∨ (Rect.block (s := S64x64) S64x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x64.size a ≤ S50000x64.size a
  hwx5_7 : ∀ i : grid5.Coords, EltTy.bits .f32 = 32 ∨ (Rect.block (s := S50000x64) S5000x64.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x64.size a ≤ S50000x64.size a
  hwx6_5 : ∀ i : grid6.Coords, EltTy.bits .f32 = 32 ∨ (Rect.block (s := S50000x64) S5000x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x50.size a ≤ S800000x50.size a
  hwx7_0 : ∀ i : grid7.Coords, EltTy.bits .f32 = 32 ∨ (Rect.block (s := S800000x50) S10000x50.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x64.size a ≤ S800000x64.size a
  hwx7_1 : ∀ i : grid7.Coords, EltTy.bits .f32 = 32 ∨ (Rect.block (s := S800000x64) S10000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S50x64.size a ≤ S50x64.size a
  hwx7_2 : ∀ i : grid7.Coords, EltTy.bits .f32 = 32 ∨ (Rect.block (s := S50x64) S50x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S10000x64.size a ≤ S800000x64.size a
  hwx7_4 : ∀ i : grid7.Coords, EltTy.bits .f32 = 32 ∨ (Rect.block (s := S800000x64) S10000x64.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x64.size a ≤ S50000x64.size a
  hwx8_1 : ∀ i : grid8.Coords, EltTy.bits .f32 = 32 ∨ (Rect.block (s := S50000x64) S5000x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x1.size a ≤ S1x1.size a
  hwx8_2 : ∀ i : grid8.Coords, EltTy.bits .f32 = 32 ∨ (Rect.block (s := S1x1) S1x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x64.size a ≤ S64x64.size a
  hwx8_3 : ∀ i : grid8.Coords, EltTy.bits .f32 = 32 ∨ (Rect.block (s := S64x64) S64x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S64x64.size a ≤ S64x64.size a
  hwx8_5 : ∀ i : grid8.Coords, EltTy.bits .f32 = 32 ∨ (Rect.block (s := S64x64) S64x64.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x64.size a ≤ S1x64.size a
  hwx8_6 : ∀ i : grid8.Coords, EltTy.bits .f32 = 32 ∨ (Rect.block (s := S1x64) S1x64.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S5000x64.size a ≤ S50000x64.size a
  hwx8_7 : ∀ i : grid8.Coords, EltTy.bits .f32 = 32 ∨ (Rect.block (s := S50000x64) S5000x64.size (cc8_transform_7 i) (hinb8_7 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S50000x64.size a
  hwx9_0 : ∀ i : grid9.Coords, EltTy.bits .f32 = 32 ∨ (Rect.block (s := S50000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x64.size a ≤ S1x64.size a
  hwx9_1 : ∀ i : grid9.Coords, EltTy.bits .f32 = 32 ∨ (Rect.block (s := S1x64) S1x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x64.size a ≤ S50000x64.size a
  hwx9_5 : ∀ i : grid9.Coords, EltTy.bits .f32 = 32 ∨ (Rect.block (s := S50000x64) S5000x64.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x50.size a ≤ S800000x50.size a
  hwx10_0 : ∀ i : grid10.Coords, EltTy.bits .f32 = 32 ∨ (Rect.block (s := S800000x50) S10000x50.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S10000x64.size a ≤ S800000x64.size a
  hwx10_1 : ∀ i : grid10.Coords, EltTy.bits .f32 = 32 ∨ (Rect.block (s := S800000x64) S10000x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S50x64.size a ≤ S50x64.size a
  hwx10_2 : ∀ i : grid10.Coords, EltTy.bits .f32 = 32 ∨ (Rect.block (s := S50x64) S50x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x64.size a ≤ S1x64.size a
  hwx10_3 : ∀ i : grid10.Coords, EltTy.bits .f32 = 32 ∨ (Rect.block (s := S1x64) S1x64.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S10000x64.size a ≤ S800000x64.size a
  hwx10_4 : ∀ i : grid10.Coords, EltTy.bits .f32 = 32 ∨ (Rect.block (s := S800000x64) S10000x64.size (cc10_transform_4 i) (hinb10_4 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S50000x64.size a
  hwx11_0 : ∀ i : grid11.Coords, EltTy.bits .f32 = 32 ∨ (Rect.block (s := S50000x64) S5000x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x64.size a ≤ S50000x64.size a
  hwx11_1 : ∀ i : grid11.Coords, EltTy.bits .f32 = 32 ∨ (Rect.block (s := S50000x64) S5000x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x1.size a ≤ S1x1.size a
  hwx11_2 : ∀ i : grid11.Coords, EltTy.bits .f32 = 32 ∨ (Rect.block (s := S1x1) S1x1.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S64x64.size a ≤ S64x64.size a
  hwx11_3 : ∀ i : grid11.Coords, EltTy.bits .f32 = 32 ∨ (Rect.block (s := S64x64) S64x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x64.size a ≤ S1x64.size a
  hwx11_4 : ∀ i : grid11.Coords, EltTy.bits .f32 = 32 ∨ (Rect.block (s := S1x64) S1x64.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S64x64.size a ≤ S64x64.size a
  hwx11_5 : ∀ i : grid11.Coords, EltTy.bits .f32 = 32 ∨ (Rect.block (s := S64x64) S64x64.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S1x64.size a ≤ S1x64.size a
  hwx11_6 : ∀ i : grid11.Coords, EltTy.bits .f32 = 32 ∨ (Rect.block (s := S1x64) S1x64.size (cc11_transform_6 i) (hinb11_6 i)).WholeWords (EltTy.packing .f32)
  hstage11_7 : ∀ j, (stage11_7 j).IsWhole
  nbuf11_7 : grid11.bufCount reads11_7 false = 2
  hreads11_7 : ∀ i i' : grid11.Coords, (∀ a, reads11_7 a = true → i a = i' a) → cc11_transform_7 i = cc11_transform_7 i'
  hinb11_7 : ∀ (i : grid11.Coords) a, (cc11_transform_7 i a + 1) * S5000x64.size a ≤ S50000x64.size a
  hwx11_7 : ∀ i : grid11.Coords, EltTy.bits .f32 = 32 ∨ (Rect.block (s := S50000x64) S5000x64.size (cc11_transform_7 i) (hinb11_7 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x64.size a ≤ S50000x64.size a
  hwx12_0 : ∀ i : grid12.Coords, EltTy.bits .f32 = 32 ∨ (Rect.block (s := S50000x64) S5000x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x64.size a ≤ S1x64.size a
  hwx12_1 : ∀ i : grid12.Coords, EltTy.bits .f32 = 32 ∨ (Rect.block (s := S1x64) S1x64.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x64.size a ≤ S1x64.size a
  hwx12_2 : ∀ i : grid12.Coords, EltTy.bits .f32 = 32 ∨ (Rect.block (s := S1x64) S1x64.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x64.size a ≤ S1x64.size a
  hwx12_3 : ∀ i : grid12.Coords, EltTy.bits .f32 = 32 ∨ (Rect.block (s := S1x64) S1x64.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x64.size a ≤ S1x64.size a
  hwx12_4 : ∀ i : grid12.Coords, EltTy.bits .f32 = 32 ∨ (Rect.block (s := S1x64) S1x64.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S5000x64.size a ≤ S50000x64.size a
  hwx12_5 : ∀ i : grid12.Coords, EltTy.bits .f32 = 32 ∨ (Rect.block (s := S50000x64) S5000x64.size (cc12_transform_5 i) (hinb12_5 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S10000x50.size a ≤ S800000x50.size a
  hwx13_0 : ∀ i : grid13.Coords, EltTy.bits .f32 = 32 ∨ (Rect.block (s := S800000x50) S10000x50.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S10000x64.size a ≤ S800000x64.size a
  hwx13_1 : ∀ i : grid13.Coords, EltTy.bits .f32 = 32 ∨ (Rect.block (s := S800000x64) S10000x64.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S50x64.size a ≤ S50x64.size a
  hwx13_2 : ∀ i : grid13.Coords, EltTy.bits .f32 = 32 ∨ (Rect.block (s := S50x64) S50x64.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x64.size a ≤ S1x64.size a
  hwx13_3 : ∀ i : grid13.Coords, EltTy.bits .f32 = 32 ∨ (Rect.block (s := S1x64) S1x64.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S10000x64.size a ≤ S800000x64.size a
  hwx13_4 : ∀ i : grid13.Coords, EltTy.bits .f32 = 32 ∨ (Rect.block (s := S800000x64) S10000x64.size (cc13_transform_4 i) (hinb13_4 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x64.size a ≤ S50000x64.size a
  hwx14_0 : ∀ i : grid14.Coords, EltTy.bits .f32 = 32 ∨ (Rect.block (s := S50000x64) S5000x64.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S5000x64.size a ≤ S50000x64.size a
  hwx14_1 : ∀ i : grid14.Coords, EltTy.bits .f32 = 32 ∨ (Rect.block (s := S50000x64) S5000x64.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x1.size a ≤ S1x1.size a
  hwx14_2 : ∀ i : grid14.Coords, EltTy.bits .f32 = 32 ∨ (Rect.block (s := S1x1) S1x1.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S64x64.size a ≤ S64x64.size a
  hwx14_3 : ∀ i : grid14.Coords, EltTy.bits .f32 = 32 ∨ (Rect.block (s := S64x64) S64x64.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x64.size a ≤ S1x64.size a
  hwx14_4 : ∀ i : grid14.Coords, EltTy.bits .f32 = 32 ∨ (Rect.block (s := S1x64) S1x64.size (cc14_transform_4 i) (hinb14_4 i)).WholeWords (EltTy.packing .f32)
  hstage14_5 : ∀ j, (stage14_5 j).IsWhole
  nbuf14_5 : grid14.bufCount reads14_5 true = 1
  hreads14_5 : ∀ i i' : grid14.Coords, (∀ a, reads14_5 a = true → i a = i' a) → cc14_transform_5 i = cc14_transform_5 i'
  hinb14_5 : ∀ (i : grid14.Coords) a, (cc14_transform_5 i a + 1) * S64x64.size a ≤ S64x64.size a
  hwx14_5 : ∀ i : grid14.Coords, EltTy.bits .f32 = 32 ∨ (Rect.block (s := S64x64) S64x64.size (cc14_transform_5 i) (hinb14_5 i)).WholeWords (EltTy.packing .f32)
  hstage14_6 : ∀ j, (stage14_6 j).IsWhole
  nbuf14_6 : grid14.bufCount reads14_6 true = 1
  hreads14_6 : ∀ i i' : grid14.Coords, (∀ a, reads14_6 a = true → i a = i' a) → cc14_transform_6 i = cc14_transform_6 i'
  hinb14_6 : ∀ (i : grid14.Coords) a, (cc14_transform_6 i a + 1) * S1x64.size a ≤ S1x64.size a
  hwx14_6 : ∀ i : grid14.Coords, EltTy.bits .f32 = 32 ∨ (Rect.block (s := S1x64) S1x64.size (cc14_transform_6 i) (hinb14_6 i)).WholeWords (EltTy.packing .f32)
  hstage14_7 : ∀ j, (stage14_7 j).IsWhole
  nbuf14_7 : grid14.bufCount reads14_7 false = 2
  hreads14_7 : ∀ i i' : grid14.Coords, (∀ a, reads14_7 a = true → i a = i' a) → cc14_transform_7 i = cc14_transform_7 i'
  hinb14_7 : ∀ (i : grid14.Coords) a, (cc14_transform_7 i a + 1) * S5000x64.size a ≤ S50000x64.size a
  hwx14_7 : ∀ i : grid14.Coords, EltTy.bits .f32 = 32 ∨ (Rect.block (s := S50000x64) S5000x64.size (cc14_transform_7 i) (hinb14_7 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x64.size a ≤ S50000x64.size a
  hwx15_0 : ∀ i : grid15.Coords, EltTy.bits .f32 = 32 ∨ (Rect.block (s := S50000x64) S5000x64.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x64.size a ≤ S1x64.size a
  hwx15_1 : ∀ i : grid15.Coords, EltTy.bits .f32 = 32 ∨ (Rect.block (s := S1x64) S1x64.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x64.size a ≤ S1x64.size a
  hwx15_2 : ∀ i : grid15.Coords, EltTy.bits .f32 = 32 ∨ (Rect.block (s := S1x64) S1x64.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x64.size a ≤ S1x64.size a
  hwx15_3 : ∀ i : grid15.Coords, EltTy.bits .f32 = 32 ∨ (Rect.block (s := S1x64) S1x64.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x64.size a ≤ S1x64.size a
  hwx15_4 : ∀ i : grid15.Coords, EltTy.bits .f32 = 32 ∨ (Rect.block (s := S1x64) S1x64.size (cc15_transform_4 i) (hinb15_4 i)).WholeWords (EltTy.packing .f32)
  hstage15_5 : ∀ j, (stage15_5 j).IsWhole
  nbuf15_5 : grid15.bufCount reads15_5 false = 2
  hreads15_5 : ∀ i i' : grid15.Coords, (∀ a, reads15_5 a = true → i a = i' a) → cc15_transform_5 i = cc15_transform_5 i'
  hinb15_5 : ∀ (i : grid15.Coords) a, (cc15_transform_5 i a + 1) * S5000x64.size a ≤ S50000x64.size a
  hwx15_5 : ∀ i : grid15.Coords, EltTy.bits .f32 = 32 ∨ (Rect.block (s := S50000x64) S5000x64.size (cc15_transform_5 i) (hinb15_5 i)).WholeWords (EltTy.packing .f32)

variable [Facts₀]

def dot_S5000x92_S92x64_S5000x64_1_0_0_1_n_n : DotDims S5000x92 S92x64 S5000x64 where
  lhsContracting := [1]
  rhsContracting := [0]
  lhsNonContracting := [0]
  rhsNonContracting := [1]
  lhsBatch := []
  rhsBatch := []
  wf := dot_S5000x92_S92x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S10000x50_S50x64_S10000x64_1_0_0_1_n_n : DotDims S10000x50 S50x64 S10000x64 where
  lhsContracting := [1]
  rhsContracting := [0]
  lhsNonContracting := [0]
  rhsNonContracting := [1]
  lhsBatch := []
  rhsBatch := []
  wf := dot_S10000x50_S50x64_S10000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x92.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S92x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S10000x50.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S50x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v5) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v23) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v28) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v29) S5000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v29) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v41) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v42) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_arg2) S10000x50.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v43) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v45) S50x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v48) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v49) S10000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v42) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v52) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v63) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v56) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v64) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v60) S64x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v65) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v66) S5000x64.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v66) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v75) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v76) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v77) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v78) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v79) S5000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_arg2) S10000x50.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v80) S10000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v82) S50x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v85) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v86) S10000x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v79) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v89) S5000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v100) S1x1.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v93) S64x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v101) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v97) S64x64.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v102) S1x64.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v103) S5000x64.size cc8_transform_7 reads8_7 true false 2 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev win9_0 : Pipeline.Window sig grid9 :=
  Pipeline.Window.ofSpec (Memref.whole main_v103) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v112) S1x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v113) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v114) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v115) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v116) S5000x64.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_arg2) S10000x50.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v117) S10000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v119) S50x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v122) S1x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v123) S10000x64.size cc10_transform_4 reads10_4 true false 2 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev win11_0 : Pipeline.Window sig grid11 :=
  Pipeline.Window.ofSpec (Memref.whole main_v116) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v126) S5000x64.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v137) S1x1.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v130) S64x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v138) S1x64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v134) S64x64.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v139) S1x64.size cc11_transform_6 reads11_6 false true 1 stage11_6 sem11_6
    hrank11 hreads11_6 hinb11_6 nbuf11_6 (Memref.isWhole_whole _) hwx11_6 hstage11_6

abbrev win11_7 : Pipeline.Window sig grid11 :=
  Pipeline.Window.ofSpec (Memref.whole main_v140) S5000x64.size cc11_transform_7 reads11_7 true false 2 stage11_7 sem11_7
    hrank11 hreads11_7 hinb11_7 nbuf11_7 (Memref.isWhole_whole _) hwx11_7 hstage11_7

abbrev win11 : Fin 8 → Pipeline.Window sig grid11 := fun | 0 => win11_0 | 1 => win11_1 | 2 => win11_2 | 3 => win11_3 | 4 => win11_4 | 5 => win11_5 | 6 => win11_6 | 7 => win11_7 | ⟨_ + 8, h⟩ => absurd h (Nat.not_lt.2 (Nat.le_add_left _ _))
abbrev spec11 : Fin 8 → Pipeline.WinSpec sig grid11.rank := fun w => (win11 w).toWinSpec

abbrev win12_0 : Pipeline.Window sig grid12 :=
  Pipeline.Window.ofSpec (Memref.whole main_v140) S5000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v149) S1x64.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v150) S1x64.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v151) S1x64.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v152) S1x64.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v153) S5000x64.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev win13_0 : Pipeline.Window sig grid13 :=
  Pipeline.Window.ofSpec (Memref.whole main_arg2) S10000x50.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v154) S10000x64.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v156) S50x64.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v159) S1x64.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v160) S10000x64.size cc13_transform_4 reads13_4 true false 2 stage13_4 sem13_4
    hrank13 hreads13_4 hinb13_4 nbuf13_4 (Memref.isWhole_whole _) hwx13_4 hstage13_4

abbrev win13 : Fin 5 → Pipeline.Window sig grid13 := fun | 0 => win13_0 | 1 => win13_1 | 2 => win13_2 | 3 => win13_3 | 4 => win13_4 | ⟨_ + 5, h⟩ => absurd h (Nat.not_lt.2 (Nat.le_add_left _ _))
abbrev spec13 : Fin 5 → Pipeline.WinSpec sig grid13.rank := fun w => (win13 w).toWinSpec

abbrev win14_0 : Pipeline.Window sig grid14 :=
  Pipeline.Window.ofSpec (Memref.whole main_v153) S5000x64.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v163) S5000x64.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v174) S1x1.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v167) S64x64.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v175) S1x64.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v171) S64x64.size cc14_transform_5 reads14_5 false true 1 stage14_5 sem14_5
    hrank14 hreads14_5 hinb14_5 nbuf14_5 (Memref.isWhole_whole _) hwx14_5 hstage14_5

abbrev win14_6 : Pipeline.Window sig grid14 :=
  Pipeline.Window.ofSpec (Memref.whole main_v176) S1x64.size cc14_transform_6 reads14_6 false true 1 stage14_6 sem14_6
    hrank14 hreads14_6 hinb14_6 nbuf14_6 (Memref.isWhole_whole _) hwx14_6 hstage14_6

abbrev win14_7 : Pipeline.Window sig grid14 :=
  Pipeline.Window.ofSpec (Memref.whole main_v177) S5000x64.size cc14_transform_7 reads14_7 true false 2 stage14_7 sem14_7
    hrank14 hreads14_7 hinb14_7 nbuf14_7 (Memref.isWhole_whole _) hwx14_7 hstage14_7

abbrev win14 : Fin 8 → Pipeline.Window sig grid14 := fun | 0 => win14_0 | 1 => win14_1 | 2 => win14_2 | 3 => win14_3 | 4 => win14_4 | 5 => win14_5 | 6 => win14_6 | 7 => win14_7 | ⟨_ + 8, h⟩ => absurd h (Nat.not_lt.2 (Nat.le_add_left _ _))
abbrev spec14 : Fin 8 → Pipeline.WinSpec sig grid14.rank := fun w => (win14 w).toWinSpec

abbrev win15_0 : Pipeline.Window sig grid15 :=
  Pipeline.Window.ofSpec (Memref.whole main_v177) S5000x64.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v186) S1x64.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v187) S1x64.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v188) S1x64.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v189) S1x64.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v190) S5000x64.size cc15_transform_5 reads15_5 true false 2 stage15_5 sem15_5
    hrank15 hreads15_5 hinb15_5 nbuf15_5 (Memref.isWhole_whole _) hwx15_5 hstage15_5

abbrev win15 : Fin 6 → Pipeline.Window sig grid15 := fun | 0 => win15_0 | 1 => win15_1 | 2 => win15_2 | 3 => win15_3 | 4 => win15_4 | 5 => win15_5 | ⟨_ + 6, h⟩ => absurd h (Nat.not_lt.2 (Nat.le_add_left _ _))
abbrev spec15 : Fin 6 → Pipeline.WinSpec sig grid15.rank := fun w => (win15 w).toWinSpec

class Facts : Prop extends Facts₀ where

variable [Facts]
-- ==== ReferenceIdeal.lean ====
abbrev S50000x92 : Shape := ⟨2, ![50000, 92]⟩
abbrev S2x800000 : Shape := ⟨2, ![2, 800000]⟩
abbrev S800000x50 : Shape := ⟨2, ![800000, 50]⟩
abbrev S92x64 : Shape := ⟨2, ![92, 64]⟩
abbrev S64 : Shape := ⟨1, ![64]⟩
abbrev S5x50x64 : Shape := ⟨3, ![5, 50, 64]⟩
abbrev S5x64 : Shape := ⟨2, ![5, 64]⟩
abbrev S5x64x64 : Shape := ⟨3, ![5, 64, 64]⟩
abbrev S5 : Shape := ⟨1, ![5]⟩
abbrev S1x800000 : Shape := ⟨2, ![1, 800000]⟩
abbrev S800000 : Shape := ⟨1, ![800000]⟩
abbrev S50000x64 : Shape := ⟨2, ![50000, 64]⟩
abbrev S1x64 : Shape := ⟨2, ![1, 64]⟩
abbrev S_ : Shape := ⟨0, ![]⟩
abbrev S800000x1 : Shape := ⟨2, ![800000, 1]⟩
abbrev S800000x64 : Shape := ⟨2, ![800000, 64]⟩
abbrev S1x50x64 : Shape := ⟨3, ![1, 50, 64]⟩
abbrev S50x64 : Shape := ⟨2, ![50, 64]⟩
abbrev S1 : Shape := ⟨1, ![1]⟩
abbrev S1x64x64 : Shape := ⟨3, ![1, 64, 64]⟩
abbrev S64x64 : Shape := ⟨2, ![64, 64]⟩

abbrev nBuf : Space → Nat
  | .hbm => 529
  | .vmem => 0
  | .smem => 0
  | _ => 0

abbrev hbmTy0_0 (i : Nat) : BufTy := match i % 128 with
  | 0 => ⟨S50000x92, .f32⟩
  | 1 => ⟨S2x800000, .i32⟩
  | 2 => ⟨S800000x50, .f32⟩
  | 3 => ⟨S92x64, .f32⟩
  | 4 => ⟨S64, .f32⟩
  | 5 => ⟨S5x50x64, .f32⟩
  | 6 => ⟨S5x64, .f32⟩
  | 7 => ⟨S5x64x64, .f32⟩
  | 8 => ⟨S5x64, .f32⟩
  | 9 => ⟨S5x64x64, .f32⟩
  | 10 => ⟨S5x64, .f32⟩
  | 11 => ⟨S5, .f32⟩
  | 12 => ⟨S5x64, .f32⟩
  | 13 => ⟨S5x64, .f32⟩
  | 14 => ⟨S1x800000, .i32⟩
  | 15 => ⟨S800000, .i32⟩
  | 16 => ⟨S1x800000, .i32⟩
  | 17 => ⟨S800000, .i32⟩
  | 18 => ⟨S50000x64, .f32⟩
  | 19 => ⟨S1x64, .f32⟩
  | 20 => ⟨S50000x64, .f32⟩
  | 21 => ⟨S50000x64, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x64, .f32⟩
  | 31 => ⟨S1x50x64, .f32⟩
  | 32 => ⟨S50x64, .f32⟩
  | 33 => ⟨S800000x64, .f32⟩
  | 34 => ⟨S800000x64, .f32⟩
  | 35 => ⟨S1x64, .f32⟩
  | 36 => ⟨S64, .f32⟩
  | 37 => ⟨S1x64, .f32⟩
  | 38 => ⟨S800000x64, .f32⟩
  | 39 => ⟨S800000x64, .f32⟩
  | 40 => ⟨S_, .f32⟩
  | 41 => ⟨S800000x64, .f32⟩
  | 42 => ⟨S800000x64, .f32⟩
  | 43 => ⟨S_, .f32⟩
  | 44 => ⟨S50000x64, .f32⟩
  | 45 => ⟨S800000x1, .i32⟩
  | 46 => ⟨S50000x64, .f32⟩
  | 47 => ⟨S1, .f32⟩
  | 48 => ⟨S_, .f32⟩
  | 49 => ⟨S_, .f32⟩
  | 50 => ⟨S_, .f32⟩
  | 51 => ⟨S50000x64, .f32⟩
  | 52 => ⟨S50000x64, .f32⟩
  | 53 => ⟨S50000x64, .f32⟩
  | 54 => ⟨S1x64x64, .f32⟩
  | 55 => ⟨S64x64, .f32⟩
  | 56 => ⟨S50000x64, .f32⟩
  | 57 => ⟨S1x64, .f32⟩
  | 58 => ⟨S64, .f32⟩
  | 59 => ⟨S1x64, .f32⟩
  | 60 => ⟨S50000x64, .f32⟩
  | 61 => ⟨S50000x64, .f32⟩
  | 62 => ⟨S_, .f32⟩
  | 63 => ⟨S50000x64, .f32⟩
  | 64 => ⟨S50000x64, .f32⟩
  | 65 => ⟨S1x64x64, .f32⟩
  | 66 => ⟨S64x64, .f32⟩
  | 67 => ⟨S50000x64, .f32⟩
  | 68 => ⟨S1x64, .f32⟩
  | 69 => ⟨S64, .f32⟩
  | 70 => ⟨S1x64, .f32⟩
  | 71 => ⟨S50000x64, .f32⟩
  | 72 => ⟨S50000x64, .f32⟩
  | 73 => ⟨S_, .f32⟩
  | 74 => ⟨S64, .f32⟩
  | 75 => ⟨S_, .f32⟩
  | 76 => ⟨S64, .f32⟩
  | 77 => ⟨S64, .f32⟩
  | 78 => ⟨S_, .i32⟩
  | 79 => ⟨S_, .f32⟩
  | 80 => ⟨S64, .f32⟩
  | 81 => ⟨S1x64, .f32⟩
  | 82 => ⟨S_, .f32⟩
  | 83 => ⟨S1x64, .f32⟩
  | 84 => ⟨S1x64, .f32⟩
  | 85 => ⟨S50000x64, .f32⟩
  | 86 => ⟨S50000x64, .f32⟩
  | 87 => ⟨S50000x64, .f32⟩
  | 88 => ⟨S_, .f32⟩
  | 89 => ⟨S_, .f32⟩
  | 90 => ⟨S_, .f32⟩
  | 91 => ⟨S_, .f32⟩
  | 92 => ⟨S64, .f32⟩
  | 93 => ⟨S64, .f32⟩
  | 94 => ⟨S64, .f32⟩
  | 95 => ⟨S_, .f32⟩
  | 96 => ⟨S_, .i1⟩
  | 97 => ⟨S_, .f32⟩
  | 98 => ⟨S_, .f32⟩
  | 99 => ⟨S64, .f32⟩
  | 100 => ⟨S64, .f32⟩
  | 101 => ⟨S1x64, .f32⟩
  | 102 => ⟨S64, .f32⟩
  | 103 => ⟨S1x64, .f32⟩
  | 104 => ⟨S50000x64, .f32⟩
  | 105 => ⟨S50000x64, .f32⟩
  | 106 => ⟨S1x64, .f32⟩
  | 107 => ⟨S50000x64, .f32⟩
  | 108 => ⟨S50000x64, .f32⟩
  | 109 => ⟨S_, .f32⟩
  | 110 => ⟨S64, .f32⟩
  | 111 => ⟨S64, .f32⟩
  | 112 => ⟨S64, .f32⟩
  | 113 => ⟨S1x64, .f32⟩
  | 114 => ⟨S50000x64, .f32⟩
  | 115 => ⟨S50000x64, .f32⟩
  | 116 => ⟨S1x64, .f32⟩
  | 117 => ⟨S64, .f32⟩
  | 118 => ⟨S1x64, .f32⟩
  | 119 => ⟨S50000x64, .f32⟩
  | 120 => ⟨S50000x64, .f32⟩
  | 121 => ⟨S_, .f32⟩
  | 122 => ⟨S50000x64, .f32⟩
  | 123 => ⟨S50000x64, .f32⟩
  | 124 => ⟨S_, .i32⟩
  | 125 => ⟨S800000, .i32⟩
  | 126 => ⟨S800000, .i1⟩
  | 127 => ⟨S_, .i32⟩
  | _ => ⟨S50000x92, .f32⟩

abbrev hbmTy0_1 (i : Nat) : BufTy := match i % 128 with
  | 0 => ⟨S800000, .i32⟩
  | 1 => ⟨S800000, .i32⟩
  | 2 => ⟨S800000, .i32⟩
  | 3 => ⟨S800000x1, .i32⟩
  | 4 => ⟨S800000x64, .f32⟩
  | 5 => ⟨S1x50x64, .f32⟩
  | 6 => ⟨S50x64, .f32⟩
  | 7 => ⟨S800000x64, .f32⟩
  | 8 => ⟨S800000x64, .f32⟩
  | 9 => ⟨S1x64, .f32⟩
  | 10 => ⟨S64, .f32⟩
  | 11 => ⟨S1x64, .f32⟩
  | 12 => ⟨S800000x64, .f32⟩
  | 13 => ⟨S800000x64, .f32⟩
  | 14 => ⟨S_, .f32⟩
  | 15 => ⟨S800000x64, .f32⟩
  | 16 => ⟨S800000x64, .f32⟩
  | 17 => ⟨S_, .f32⟩
  | 18 => ⟨S50000x64, .f32⟩
  | 19 => ⟨S800000x1, .i32⟩
  | 20 => ⟨S50000x64, .f32⟩
  | 21 => ⟨S1, .f32⟩
  | 22 => ⟨S_, .f32⟩
  | 23 => ⟨S_, .f32⟩
  | 24 => ⟨S_, .f32⟩
  | 25 => ⟨S50000x64, .f32⟩
  | 26 => ⟨S50000x64, .f32⟩
  | 27 => ⟨S50000x64, .f32⟩
  | 28 => ⟨S1x64x64, .f32⟩
  | 29 => ⟨S64x64, .f32⟩
  | 30 => ⟨S50000x64, .f32⟩
  | 31 => ⟨S1x64, .f32⟩
  | 32 => ⟨S64, .f32⟩
  | 33 => ⟨S1x64, .f32⟩
  | 34 => ⟨S50000x64, .f32⟩
  | 35 => ⟨S50000x64, .f32⟩
  | 36 => ⟨S_, .f32⟩
  | 37 => ⟨S50000x64, .f32⟩
  | 38 => ⟨S50000x64, .f32⟩
  | 39 => ⟨S1x64x64, .f32⟩
  | 40 => ⟨S64x64, .f32⟩
  | 41 => ⟨S50000x64, .f32⟩
  | 42 => ⟨S1x64, .f32⟩
  | 43 => ⟨S64, .f32⟩
  | 44 => ⟨S1x64, .f32⟩
  | 45 => ⟨S50000x64, .f32⟩
  | 46 => ⟨S50000x64, .f32⟩
  | 47 => ⟨S_, .f32⟩
  | 48 => ⟨S64, .f32⟩
  | 49 => ⟨S_, .f32⟩
  | 50 => ⟨S64, .f32⟩
  | 51 => ⟨S64, .f32⟩
  | 52 => ⟨S_, .i32⟩
  | 53 => ⟨S_, .f32⟩
  | 54 => ⟨S64, .f32⟩
  | 55 => ⟨S1x64, .f32⟩
  | 56 => ⟨S_, .f32⟩
  | 57 => ⟨S1x64, .f32⟩
  | 58 => ⟨S1x64, .f32⟩
  | 59 => ⟨S50000x64, .f32⟩
  | 60 => ⟨S50000x64, .f32⟩
  | 61 => ⟨S50000x64, .f32⟩
  | 62 => ⟨S_, .f32⟩
  | 63 => ⟨S_, .f32⟩
  | 64 => ⟨S_, .f32⟩
  | 65 => ⟨S_, .f32⟩
  | 66 => ⟨S64, .f32⟩
  | 67 => ⟨S64, .f32⟩
  | 68 => ⟨S64, .f32⟩
  | 69 => ⟨S_, .f32⟩
  | 70 => ⟨S_, .i1⟩
  | 71 => ⟨S_, .f32⟩
  | 72 => ⟨S_, .f32⟩
  | 73 => ⟨S64, .f32⟩
  | 74 => ⟨S64, .f32⟩
  | 75 => ⟨S1x64, .f32⟩
  | 76 => ⟨S64, .f32⟩
  | 77 => ⟨S1x64, .f32⟩
  | 78 => ⟨S50000x64, .f32⟩
  | 79 => ⟨S50000x64, .f32⟩
  | 80 => ⟨S1x64, .f32⟩
  | 81 => ⟨S50000x64, .f32⟩
  | 82 => ⟨S50000x64, .f32⟩
  | 83 => ⟨S_, .f32⟩
  | 84 => ⟨S64, .f32⟩
  | 85 => ⟨S64, .f32⟩
  | 86 => ⟨S64, .f32⟩
  | 87 => ⟨S1x64, .f32⟩
  | 88 => ⟨S50000x64, .f32⟩
  | 89 => ⟨S50000x64, .f32⟩
  | 90 => ⟨S1x64, .f32⟩
  | 91 => ⟨S64, .f32⟩
  | 92 => ⟨S1x64, .f32⟩
  | 93 => ⟨S50000x64, .f32⟩
  | 94 => ⟨S50000x64, .f32⟩
  | 95 => ⟨S_, .f32⟩
  | 96 => ⟨S50000x64, .f32⟩
  | 97 => ⟨S50000x64, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x64, .f32⟩
  | 107 => ⟨S1x50x64, .f32⟩
  | 108 => ⟨S50x64, .f32⟩
  | 109 => ⟨S800000x64, .f32⟩
  | 110 => ⟨S800000x64, .f32⟩
  | 111 => ⟨S1x64, .f32⟩
  | 112 => ⟨S64, .f32⟩
  | 113 => ⟨S1x64, .f32⟩
  | 114 => ⟨S800000x64, .f32⟩
  | 115 => ⟨S800000x64, .f32⟩
  | 116 => ⟨S_, .f32⟩
  | 117 => ⟨S800000x64, .f32⟩
  | 118 => ⟨S800000x64, .f32⟩
  | 119 => ⟨S_, .f32⟩
  | 120 => ⟨S50000x64, .f32⟩
  | 121 => ⟨S800000x1, .i32⟩
  | 122 => ⟨S50000x64, .f32⟩
  | 123 => ⟨S1, .f32⟩
  | 124 => ⟨S_, .f32⟩
  | 125 => ⟨S_, .f32⟩
  | 126 => ⟨S_, .f32⟩
  | 127 => ⟨S50000x64, .f32⟩
  | _ => ⟨S50000x92, .f32⟩

abbrev hbmTy0_2 (i : Nat) : BufTy := match i % 128 with
  | 0 => ⟨S50000x64, .f32⟩
  | 1 => ⟨S50000x64, .f32⟩
  | 2 => ⟨S1x64x64, .f32⟩
  | 3 => ⟨S64x64, .f32⟩
  | 4 => ⟨S50000x64, .f32⟩
  | 5 => ⟨S1x64, .f32⟩
  | 6 => ⟨S64, .f32⟩
  | 7 => ⟨S1x64, .f32⟩
  | 8 => ⟨S50000x64, .f32⟩
  | 9 => ⟨S50000x64, .f32⟩
  | 10 => ⟨S_, .f32⟩
  | 11 => ⟨S50000x64, .f32⟩
  | 12 => ⟨S50000x64, .f32⟩
  | 13 => ⟨S1x64x64, .f32⟩
  | 14 => ⟨S64x64, .f32⟩
  | 15 => ⟨S50000x64, .f32⟩
  | 16 => ⟨S1x64, .f32⟩
  | 17 => ⟨S64, .f32⟩
  | 18 => ⟨S1x64, .f32⟩
  | 19 => ⟨S50000x64, .f32⟩
  | 20 => ⟨S50000x64, .f32⟩
  | 21 => ⟨S_, .f32⟩
  | 22 => ⟨S64, .f32⟩
  | 23 => ⟨S_, .f32⟩
  | 24 => ⟨S64, .f32⟩
  | 25 => ⟨S64, .f32⟩
  | 26 => ⟨S_, .i32⟩
  | 27 => ⟨S_, .f32⟩
  | 28 => ⟨S64, .f32⟩
  | 29 => ⟨S1x64, .f32⟩
  | 30 => ⟨S_, .f32⟩
  | 31 => ⟨S1x64, .f32⟩
  | 32 => ⟨S1x64, .f32⟩
  | 33 => ⟨S50000x64, .f32⟩
  | 34 => ⟨S50000x64, .f32⟩
  | 35 => ⟨S50000x64, .f32⟩
  | 36 => ⟨S_, .f32⟩
  | 37 => ⟨S_, .f32⟩
  | 38 => ⟨S_, .f32⟩
  | 39 => ⟨S_, .f32⟩
  | 40 => ⟨S64, .f32⟩
  | 41 => ⟨S64, .f32⟩
  | 42 => ⟨S64, .f32⟩
  | 43 => ⟨S_, .f32⟩
  | 44 => ⟨S_, .i1⟩
  | 45 => ⟨S_, .f32⟩
  | 46 => ⟨S_, .f32⟩
  | 47 => ⟨S64, .f32⟩
  | 48 => ⟨S64, .f32⟩
  | 49 => ⟨S1x64, .f32⟩
  | 50 => ⟨S64, .f32⟩
  | 51 => ⟨S1x64, .f32⟩
  | 52 => ⟨S50000x64, .f32⟩
  | 53 => ⟨S50000x64, .f32⟩
  | 54 => ⟨S1x64, .f32⟩
  | 55 => ⟨S50000x64, .f32⟩
  | 56 => ⟨S50000x64, .f32⟩
  | 57 => ⟨S_, .f32⟩
  | 58 => ⟨S64, .f32⟩
  | 59 => ⟨S64, .f32⟩
  | 60 => ⟨S64, .f32⟩
  | 61 => ⟨S1x64, .f32⟩
  | 62 => ⟨S50000x64, .f32⟩
  | 63 => ⟨S50000x64, .f32⟩
  | 64 => ⟨S1x64, .f32⟩
  | 65 => ⟨S64, .f32⟩
  | 66 => ⟨S1x64, .f32⟩
  | 67 => ⟨S50000x64, .f32⟩
  | 68 => ⟨S50000x64, .f32⟩
  | 69 => ⟨S_, .f32⟩
  | 70 => ⟨S50000x64, .f32⟩
  | 71 => ⟨S50000x64, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x64, .f32⟩
  | 81 => ⟨S1x50x64, .f32⟩
  | 82 => ⟨S50x64, .f32⟩
  | 83 => ⟨S800000x64, .f32⟩
  | 84 => ⟨S800000x64, .f32⟩
  | 85 => ⟨S1x64, .f32⟩
  | 86 => ⟨S64, .f32⟩
  | 87 => ⟨S1x64, .f32⟩
  | 88 => ⟨S800000x64, .f32⟩
  | 89 => ⟨S800000x64, .f32⟩
  | 90 => ⟨S_, .f32⟩
  | 91 => ⟨S800000x64, .f32⟩
  | 92 => ⟨S800000x64, .f32⟩
  | 93 => ⟨S_, .f32⟩
  | 94 => ⟨S50000x64, .f32⟩
  | 95 => ⟨S800000x1, .i32⟩
  | 96 => ⟨S50000x64, .f32⟩
  | 97 => ⟨S1, .f32⟩
  | 98 => ⟨S_, .f32⟩
  | 99 => ⟨S_, .f32⟩
  | 100 => ⟨S_, .f32⟩
  | 101 => ⟨S50000x64, .f32⟩
  | 102 => ⟨S50000x64, .f32⟩
  | 103 => ⟨S50000x64, .f32⟩
  | 104 => ⟨S1x64x64, .f32⟩
  | 105 => ⟨S64x64, .f32⟩
  | 106 => ⟨S50000x64, .f32⟩
  | 107 => ⟨S1x64, .f32⟩
  | 108 => ⟨S64, .f32⟩
  | 109 => ⟨S1x64, .f32⟩
  | 110 => ⟨S50000x64, .f32⟩
  | 111 => ⟨S50000x64, .f32⟩
  | 112 => ⟨S_, .f32⟩
  | 113 => ⟨S50000x64, .f32⟩
  | 114 => ⟨S50000x64, .f32⟩
  | 115 => ⟨S1x64x64, .f32⟩
  | 116 => ⟨S64x64, .f32⟩
  | 117 => ⟨S50000x64, .f32⟩
  | 118 => ⟨S1x64, .f32⟩
  | 119 => ⟨S64, .f32⟩
  | 120 => ⟨S1x64, .f32⟩
  | 121 => ⟨S50000x64, .f32⟩
  | 122 => ⟨S50000x64, .f32⟩
  | 123 => ⟨S_, .f32⟩
  | 124 => ⟨S64, .f32⟩
  | 125 => ⟨S_, .f32⟩
  | 126 => ⟨S64, .f32⟩
  | 127 => ⟨S64, .f32⟩
  | _ => ⟨S50000x92, .f32⟩

abbrev hbmTy0_3 (i : Nat) : BufTy := match i % 128 with
  | 0 => ⟨S_, .i32⟩
  | 1 => ⟨S_, .f32⟩
  | 2 => ⟨S64, .f32⟩
  | 3 => ⟨S1x64, .f32⟩
  | 4 => ⟨S_, .f32⟩
  | 5 => ⟨S1x64, .f32⟩
  | 6 => ⟨S1x64, .f32⟩
  | 7 => ⟨S50000x64, .f32⟩
  | 8 => ⟨S50000x64, .f32⟩
  | 9 => ⟨S50000x64, .f32⟩
  | 10 => ⟨S_, .f32⟩
  | 11 => ⟨S_, .f32⟩
  | 12 => ⟨S_, .f32⟩
  | 13 => ⟨S_, .f32⟩
  | 14 => ⟨S64, .f32⟩
  | 15 => ⟨S64, .f32⟩
  | 16 => ⟨S64, .f32⟩
  | 17 => ⟨S_, .f32⟩
  | 18 => ⟨S_, .i1⟩
  | 19 => ⟨S_, .f32⟩
  | 20 => ⟨S_, .f32⟩
  | 21 => ⟨S64, .f32⟩
  | 22 => ⟨S64, .f32⟩
  | 23 => ⟨S1x64, .f32⟩
  | 24 => ⟨S64, .f32⟩
  | 25 => ⟨S1x64, .f32⟩
  | 26 => ⟨S50000x64, .f32⟩
  | 27 => ⟨S50000x64, .f32⟩
  | 28 => ⟨S1x64, .f32⟩
  | 29 => ⟨S50000x64, .f32⟩
  | 30 => ⟨S50000x64, .f32⟩
  | 31 => ⟨S_, .f32⟩
  | 32 => ⟨S64, .f32⟩
  | 33 => ⟨S64, .f32⟩
  | 34 => ⟨S64, .f32⟩
  | 35 => ⟨S1x64, .f32⟩
  | 36 => ⟨S50000x64, .f32⟩
  | 37 => ⟨S50000x64, .f32⟩
  | 38 => ⟨S1x64, .f32⟩
  | 39 => ⟨S64, .f32⟩
  | 40 => ⟨S1x64, .f32⟩
  | 41 => ⟨S50000x64, .f32⟩
  | 42 => ⟨S50000x64, .f32⟩
  | 43 => ⟨S_, .f32⟩
  | 44 => ⟨S50000x64, .f32⟩
  | 45 => ⟨S50000x64, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x64, .f32⟩
  | 55 => ⟨S1x50x64, .f32⟩
  | 56 => ⟨S50x64, .f32⟩
  | 57 => ⟨S800000x64, .f32⟩
  | 58 => ⟨S800000x64, .f32⟩
  | 59 => ⟨S1x64, .f32⟩
  | 60 => ⟨S64, .f32⟩
  | 61 => ⟨S1x64, .f32⟩
  | 62 => ⟨S800000x64, .f32⟩
  | 63 => ⟨S800000x64, .f32⟩
  | 64 => ⟨S_, .f32⟩
  | 65 => ⟨S800000x64, .f32⟩
  | 66 => ⟨S800000x64, .f32⟩
  | 67 => ⟨S_, .f32⟩
  | 68 => ⟨S50000x64, .f32⟩
  | 69 => ⟨S800000x1, .i32⟩
  | 70 => ⟨S50000x64, .f32⟩
  | 71 => ⟨S1, .f32⟩
  | 72 => ⟨S_, .f32⟩
  | 73 => ⟨S_, .f32⟩
  | 74 => ⟨S_, .f32⟩
  | 75 => ⟨S50000x64, .f32⟩
  | 76 => ⟨S50000x64, .f32⟩
  | 77 => ⟨S50000x64, .f32⟩
  | 78 => ⟨S1x64x64, .f32⟩
  | 79 => ⟨S64x64, .f32⟩
  | 80 => ⟨S50000x64, .f32⟩
  | 81 => ⟨S1x64, .f32⟩
  | 82 => ⟨S64, .f32⟩
  | 83 => ⟨S1x64, .f32⟩
  | 84 => ⟨S50000x64, .f32⟩
  | 85 => ⟨S50000x64, .f32⟩
  | 86 => ⟨S_, .f32⟩
  | 87 => ⟨S50000x64, .f32⟩
  | 88 => ⟨S50000x64, .f32⟩
  | 89 => ⟨S1x64x64, .f32⟩
  | 90 => ⟨S64x64, .f32⟩
  | 91 => ⟨S50000x64, .f32⟩
  | 92 => ⟨S1x64, .f32⟩
  | 93 => ⟨S64, .f32⟩
  | 94 => ⟨S1x64, .f32⟩
  | 95 => ⟨S50000x64, .f32⟩
  | 96 => ⟨S50000x64, .f32⟩
  | 97 => ⟨S_, .f32⟩
  | 98 => ⟨S64, .f32⟩
  | 99 => ⟨S_, .f32⟩
  | 100 => ⟨S64, .f32⟩
  | 101 => ⟨S64, .f32⟩
  | 102 => ⟨S_, .i32⟩
  | 103 => ⟨S_, .f32⟩
  | 104 => ⟨S64, .f32⟩
  | 105 => ⟨S1x64, .f32⟩
  | 106 => ⟨S_, .f32⟩
  | 107 => ⟨S1x64, .f32⟩
  | 108 => ⟨S1x64, .f32⟩
  | 109 => ⟨S50000x64, .f32⟩
  | 110 => ⟨S50000x64, .f32⟩
  | 111 => ⟨S50000x64, .f32⟩
  | 112 => ⟨S_, .f32⟩
  | 113 => ⟨S_, .f32⟩
  | 114 => ⟨S_, .f32⟩
  | 115 => ⟨S_, .f32⟩
  | 116 => ⟨S64, .f32⟩
  | 117 => ⟨S64, .f32⟩
  | 118 => ⟨S64, .f32⟩
  | 119 => ⟨S_, .f32⟩
  | 120 => ⟨S_, .i1⟩
  | 121 => ⟨S_, .f32⟩
  | 122 => ⟨S_, .f32⟩
  | 123 => ⟨S64, .f32⟩
  | 124 => ⟨S64, .f32⟩
  | 125 => ⟨S1x64, .f32⟩
  | 126 => ⟨S64, .f32⟩
  | 127 => ⟨S1x64, .f32⟩
  | _ => ⟨S50000x92, .f32⟩

abbrev hbmTy0_4 (i : Nat) : BufTy := match i % 128 with
  | 0 => ⟨S50000x64, .f32⟩
  | 1 => ⟨S50000x64, .f32⟩
  | 2 => ⟨S1x64, .f32⟩
  | 3 => ⟨S50000x64, .f32⟩
  | 4 => ⟨S50000x64, .f32⟩
  | 5 => ⟨S_, .f32⟩
  | 6 => ⟨S64, .f32⟩
  | 7 => ⟨S64, .f32⟩
  | 8 => ⟨S64, .f32⟩
  | 9 => ⟨S1x64, .f32⟩
  | 10 => ⟨S50000x64, .f32⟩
  | 11 => ⟨S50000x64, .f32⟩
  | 12 => ⟨S1x64, .f32⟩
  | 13 => ⟨S64, .f32⟩
  | 14 => ⟨S1x64, .f32⟩
  | 15 => ⟨S50000x64, .f32⟩
  | 16 => ⟨S50000x64, .f32⟩
  | _ => ⟨S50000x92, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x92, .f32⟩

abbrev bufTy : (tb : Table) → Fin (tcTables nBuf tb) → BufTy
  | .hbm, ⟨i, _⟩ => hbmTy i
  | _, _ => ⟨S50000x92, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call0_cst : Ref sig .tc := ⟨.hbm, 40, rfl⟩
abbrev main_call0_v0 : Ref sig .tc := ⟨.hbm, 41, rfl⟩
abbrev main_v24 : Ref sig .tc := ⟨.hbm, 42, rfl⟩
abbrev main_cst : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_1 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_call1_cst : Ref sig .tc := ⟨.hbm, 62, rfl⟩
abbrev main_call1_v0 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_2 : Ref sig .tc := ⟨.hbm, 73, rfl⟩
abbrev main_v51 : Ref sig .tc := ⟨.hbm, 74, rfl⟩
abbrev main_cst_3 : Ref sig .tc := ⟨.hbm, 75, rfl⟩
abbrev main_v52 : Ref sig .tc := ⟨.hbm, 76, rfl⟩
abbrev main_v53 : Ref sig .tc := ⟨.hbm, 77, rfl⟩
abbrev main_c_4 : Ref sig .tc := ⟨.hbm, 78, rfl⟩
abbrev main_call2_cst : Ref sig .tc := ⟨.hbm, 79, rfl⟩
abbrev main_call2_v0 : Ref sig .tc := ⟨.hbm, 80, rfl⟩
abbrev main_call2_v1 : Ref sig .tc := ⟨.hbm, 81, rfl⟩
abbrev main_call2_cst_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_v6 : Ref sig .tc := ⟨.hbm, 87, rfl⟩
abbrev main_call2_v7 : Ref sig .tc := ⟨.hbm, 88, rfl⟩
abbrev main_call2_cst_1 : Ref sig .tc := ⟨.hbm, 89, rfl⟩
abbrev main_call2_v8 : Ref sig .tc := ⟨.hbm, 90, rfl⟩
abbrev main_call2_cst_2 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_cst_3 : Ref sig .tc := ⟨.hbm, 95, rfl⟩
abbrev main_call2_v12 : Ref sig .tc := ⟨.hbm, 96, rfl⟩
abbrev main_call2_cst_4 : Ref sig .tc := ⟨.hbm, 97, rfl⟩
abbrev main_call2_call0_v0 : Ref sig .tc := ⟨.hbm, 98, rfl⟩
abbrev main_call2_call0_v1 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_cst_5 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_call3_cst : Ref sig .tc := ⟨.hbm, 121, rfl⟩
abbrev main_call3_v0 : Ref sig .tc := ⟨.hbm, 122, rfl⟩
abbrev main_v74 : Ref sig .tc := ⟨.hbm, 123, rfl⟩
abbrev main_c_6 : Ref sig .tc := ⟨.hbm, 124, rfl⟩
abbrev main_v75 : Ref sig .tc := ⟨.hbm, 125, rfl⟩
abbrev main_v76 : Ref sig .tc := ⟨.hbm, 126, rfl⟩
abbrev main_c_7 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_call4_cst : Ref sig .tc := ⟨.hbm, 142, rfl⟩
abbrev main_call4_v0 : Ref sig .tc := ⟨.hbm, 143, rfl⟩
abbrev main_v91 : Ref sig .tc := ⟨.hbm, 144, rfl⟩
abbrev main_cst_8 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_cst_9 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_call5_cst : Ref sig .tc := ⟨.hbm, 164, rfl⟩
abbrev main_call5_v0 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_cst_10 : Ref sig .tc := ⟨.hbm, 175, rfl⟩
abbrev main_v118 : Ref sig .tc := ⟨.hbm, 176, rfl⟩
abbrev main_cst_11 : Ref sig .tc := ⟨.hbm, 177, rfl⟩
abbrev main_v119 : Ref sig .tc := ⟨.hbm, 178, rfl⟩
abbrev main_v120 : Ref sig .tc := ⟨.hbm, 179, rfl⟩
abbrev main_c_12 : Ref sig .tc := ⟨.hbm, 180, rfl⟩
abbrev main_call6_cst : Ref sig .tc := ⟨.hbm, 181, rfl⟩
abbrev main_call6_v0 : Ref sig .tc := ⟨.hbm, 182, rfl⟩
abbrev main_call6_v1 : Ref sig .tc := ⟨.hbm, 183, rfl⟩
abbrev main_call6_cst_0 : Ref sig .tc := ⟨.hbm, 184, rfl⟩
abbrev main_call6_v2 : Ref sig .tc := ⟨.hbm, 185, rfl⟩
abbrev main_call6_v3 : Ref sig .tc := ⟨.hbm, 186, rfl⟩
abbrev main_call6_v4 : Ref sig .tc := ⟨.hbm, 187, rfl⟩
abbrev main_call6_v5 : Ref sig .tc := ⟨.hbm, 188, rfl⟩
abbrev main_call6_v6 : Ref sig .tc := ⟨.hbm, 189, rfl⟩
abbrev main_call6_v7 : Ref sig .tc := ⟨.hbm, 190, rfl⟩
abbrev main_call6_cst_1 : Ref sig .tc := ⟨.hbm, 191, rfl⟩
abbrev main_call6_v8 : Ref sig .tc := ⟨.hbm, 192, rfl⟩
abbrev main_call6_cst_2 : Ref sig .tc := ⟨.hbm, 193, rfl⟩
abbrev main_call6_v9 : Ref sig .tc := ⟨.hbm, 194, rfl⟩
abbrev main_call6_v10 : Ref sig .tc := ⟨.hbm, 195, rfl⟩
abbrev main_call6_v11 : Ref sig .tc := ⟨.hbm, 196, rfl⟩
abbrev main_call6_cst_3 : Ref sig .tc := ⟨.hbm, 197, rfl⟩
abbrev main_call6_v12 : Ref sig .tc := ⟨.hbm, 198, rfl⟩
abbrev main_call6_cst_4 : Ref sig .tc := ⟨.hbm, 199, rfl⟩
abbrev main_call6_call0_v0 : Ref sig .tc := ⟨.hbm, 200, rfl⟩
abbrev main_call6_call0_v1 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_cst_13 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_call7_cst : Ref sig .tc := ⟨.hbm, 223, rfl⟩
abbrev main_call7_v0 : Ref sig .tc := ⟨.hbm, 224, rfl⟩
abbrev main_v141 : Ref sig .tc := ⟨.hbm, 225, rfl⟩
abbrev main_c_14 : Ref sig .tc := ⟨.hbm, 226, rfl⟩
abbrev main_v142 : Ref sig .tc := ⟨.hbm, 227, rfl⟩
abbrev main_v143 : Ref sig .tc := ⟨.hbm, 228, rfl⟩
abbrev main_c_15 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_v148 : Ref sig .tc := ⟨.hbm, 234, rfl⟩
abbrev main_v149 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_v156 : Ref sig .tc := ⟨.hbm, 242, rfl⟩
abbrev main_v157 : Ref sig .tc := ⟨.hbm, 243, rfl⟩
abbrev main_call8_cst : Ref sig .tc := ⟨.hbm, 244, rfl⟩
abbrev main_call8_v0 : Ref sig .tc := ⟨.hbm, 245, rfl⟩
abbrev main_v158 : Ref sig .tc := ⟨.hbm, 246, rfl⟩
abbrev main_cst_16 : Ref sig .tc := ⟨.hbm, 247, rfl⟩
abbrev main_v159 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_cst_17 : Ref sig .tc := ⟨.hbm, 253, rfl⟩
abbrev main_v164 : Ref sig .tc := ⟨.hbm, 254, rfl⟩
abbrev main_v165 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_v172 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_call9_cst : Ref sig .tc := ⟨.hbm, 266, rfl⟩
abbrev main_call9_v0 : Ref sig .tc := ⟨.hbm, 267, rfl⟩
abbrev main_v176 : Ref sig .tc := ⟨.hbm, 268, rfl⟩
abbrev main_v177 : Ref sig .tc := ⟨.hbm, 269, rfl⟩
abbrev main_v178 : Ref sig .tc := ⟨.hbm, 270, rfl⟩
abbrev main_v179 : Ref sig .tc := ⟨.hbm, 271, rfl⟩
abbrev main_v180 : Ref sig .tc := ⟨.hbm, 272, rfl⟩
abbrev main_v181 : Ref sig .tc := ⟨.hbm, 273, rfl⟩
abbrev main_v182 : Ref sig .tc := ⟨.hbm, 274, rfl⟩
abbrev main_v183 : Ref sig .tc := ⟨.hbm, 275, rfl⟩
abbrev main_v184 : Ref sig .tc := ⟨.hbm, 276, rfl⟩
abbrev main_cst_18 : Ref sig .tc := ⟨.hbm, 277, rfl⟩
abbrev main_v185 : Ref sig .tc := ⟨.hbm, 278, rfl⟩
abbrev main_cst_19 : Ref sig .tc := ⟨.hbm, 279, rfl⟩
abbrev main_v186 : Ref sig .tc := ⟨.hbm, 280, rfl⟩
abbrev main_v187 : Ref sig .tc := ⟨.hbm, 281, rfl⟩
abbrev main_c_20 : Ref sig .tc := ⟨.hbm, 282, rfl⟩
abbrev main_call10_cst : Ref sig .tc := ⟨.hbm, 283, rfl⟩
abbrev main_call10_v0 : Ref sig .tc := ⟨.hbm, 284, rfl⟩
abbrev main_call10_v1 : Ref sig .tc := ⟨.hbm, 285, rfl⟩
abbrev main_call10_cst_0 : Ref sig .tc := ⟨.hbm, 286, rfl⟩
abbrev main_call10_v2 : Ref sig .tc := ⟨.hbm, 287, rfl⟩
abbrev main_call10_v3 : Ref sig .tc := ⟨.hbm, 288, rfl⟩
abbrev main_call10_v4 : Ref sig .tc := ⟨.hbm, 289, rfl⟩
abbrev main_call10_v5 : Ref sig .tc := ⟨.hbm, 290, rfl⟩
abbrev main_call10_v6 : Ref sig .tc := ⟨.hbm, 291, rfl⟩
abbrev main_call10_v7 : Ref sig .tc := ⟨.hbm, 292, rfl⟩
abbrev main_call10_cst_1 : Ref sig .tc := ⟨.hbm, 293, rfl⟩
abbrev main_call10_v8 : Ref sig .tc := ⟨.hbm, 294, rfl⟩
abbrev main_call10_cst_2 : Ref sig .tc := ⟨.hbm, 295, rfl⟩
abbrev main_call10_v9 : Ref sig .tc := ⟨.hbm, 296, rfl⟩
abbrev main_call10_v10 : Ref sig .tc := ⟨.hbm, 297, rfl⟩
abbrev main_call10_v11 : Ref sig .tc := ⟨.hbm, 298, rfl⟩
abbrev main_call10_cst_3 : Ref sig .tc := ⟨.hbm, 299, rfl⟩
abbrev main_call10_v12 : Ref sig .tc := ⟨.hbm, 300, rfl⟩
abbrev main_call10_cst_4 : Ref sig .tc := ⟨.hbm, 301, rfl⟩
abbrev main_call10_call0_v0 : Ref sig .tc := ⟨.hbm, 302, rfl⟩
abbrev main_call10_call0_v1 : Ref sig .tc := ⟨.hbm, 303, rfl⟩
abbrev main_v188 : Ref sig .tc := ⟨.hbm, 304, rfl⟩
abbrev main_v189 : Ref sig .tc := ⟨.hbm, 305, rfl⟩
abbrev main_v190 : Ref sig .tc := ⟨.hbm, 306, rfl⟩
abbrev main_v191 : Ref sig .tc := ⟨.hbm, 307, rfl⟩
abbrev main_v192 : Ref sig .tc := ⟨.hbm, 308, rfl⟩
abbrev main_v193 : Ref sig .tc := ⟨.hbm, 309, rfl⟩
abbrev main_v194 : Ref sig .tc := ⟨.hbm, 310, rfl⟩
abbrev main_v195 : Ref sig .tc := ⟨.hbm, 311, rfl⟩
abbrev main_v196 : Ref sig .tc := ⟨.hbm, 312, rfl⟩
abbrev main_cst_21 : Ref sig .tc := ⟨.hbm, 313, rfl⟩
abbrev main_v197 : Ref sig .tc := ⟨.hbm, 314, rfl⟩
abbrev main_v198 : Ref sig .tc := ⟨.hbm, 315, rfl⟩
abbrev main_v199 : Ref sig .tc := ⟨.hbm, 316, rfl⟩
abbrev main_v200 : Ref sig .tc := ⟨.hbm, 317, rfl⟩
abbrev main_v201 : Ref sig .tc := ⟨.hbm, 318, rfl⟩
abbrev main_v202 : Ref sig .tc := ⟨.hbm, 319, rfl⟩
abbrev main_v203 : Ref sig .tc := ⟨.hbm, 320, rfl⟩
abbrev main_v204 : Ref sig .tc := ⟨.hbm, 321, rfl⟩
abbrev main_v205 : Ref sig .tc := ⟨.hbm, 322, rfl⟩
abbrev main_v206 : Ref sig .tc := ⟨.hbm, 323, rfl⟩
abbrev main_v207 : Ref sig .tc := ⟨.hbm, 324, rfl⟩
abbrev main_call11_cst : Ref sig .tc := ⟨.hbm, 325, rfl⟩
abbrev main_call11_v0 : Ref sig .tc := ⟨.hbm, 326, rfl⟩
abbrev main_v208 : Ref sig .tc := ⟨.hbm, 327, rfl⟩
abbrev main_c_22 : Ref sig .tc := ⟨.hbm, 328, rfl⟩
abbrev main_v209 : Ref sig .tc := ⟨.hbm, 329, rfl⟩
abbrev main_v210 : Ref sig .tc := ⟨.hbm, 330, rfl⟩
abbrev main_c_23 : Ref sig .tc := ⟨.hbm, 331, rfl⟩
abbrev main_v211 : Ref sig .tc := ⟨.hbm, 332, rfl⟩
abbrev main_v212 : Ref sig .tc := ⟨.hbm, 333, rfl⟩
abbrev main_v213 : Ref sig .tc := ⟨.hbm, 334, rfl⟩
abbrev main_v214 : Ref sig .tc := ⟨.hbm, 335, rfl⟩
abbrev main_v215 : Ref sig .tc := ⟨.hbm, 336, rfl⟩
abbrev main_v216 : Ref sig .tc := ⟨.hbm, 337, rfl⟩
abbrev main_v217 : Ref sig .tc := ⟨.hbm, 338, rfl⟩
abbrev main_v218 : Ref sig .tc := ⟨.hbm, 339, rfl⟩
abbrev main_v219 : Ref sig .tc := ⟨.hbm, 340, rfl⟩
abbrev main_v220 : Ref sig .tc := ⟨.hbm, 341, rfl⟩
abbrev main_v221 : Ref sig .tc := ⟨.hbm, 342, rfl⟩
abbrev main_v222 : Ref sig .tc := ⟨.hbm, 343, rfl⟩
abbrev main_v223 : Ref sig .tc := ⟨.hbm, 344, rfl⟩
abbrev main_v224 : Ref sig .tc := ⟨.hbm, 345, rfl⟩
abbrev main_call12_cst : Ref sig .tc := ⟨.hbm, 346, rfl⟩
abbrev main_call12_v0 : Ref sig .tc := ⟨.hbm, 347, rfl⟩
abbrev main_v225 : Ref sig .tc := ⟨.hbm, 348, rfl⟩
abbrev main_cst_24 : Ref sig .tc := ⟨.hbm, 349, rfl⟩
abbrev main_v226 : Ref sig .tc := ⟨.hbm, 350, rfl⟩
abbrev main_v227 : Ref sig .tc := ⟨.hbm, 351, rfl⟩
abbrev main_v228 : Ref sig .tc := ⟨.hbm, 352, rfl⟩
abbrev main_v229 : Ref sig .tc := ⟨.hbm, 353, rfl⟩
abbrev main_v230 : Ref sig .tc := ⟨.hbm, 354, rfl⟩
abbrev main_cst_25 : Ref sig .tc := ⟨.hbm, 355, rfl⟩
abbrev main_v231 : Ref sig .tc := ⟨.hbm, 356, rfl⟩
abbrev main_v232 : Ref sig .tc := ⟨.hbm, 357, rfl⟩
abbrev main_v233 : Ref sig .tc := ⟨.hbm, 358, rfl⟩
abbrev main_v234 : Ref sig .tc := ⟨.hbm, 359, rfl⟩
abbrev main_v235 : Ref sig .tc := ⟨.hbm, 360, rfl⟩
abbrev main_v236 : Ref sig .tc := ⟨.hbm, 361, rfl⟩
abbrev main_v237 : Ref sig .tc := ⟨.hbm, 362, rfl⟩
abbrev main_v238 : Ref sig .tc := ⟨.hbm, 363, rfl⟩
abbrev main_v239 : Ref sig .tc := ⟨.hbm, 364, rfl⟩
abbrev main_v240 : Ref sig .tc := ⟨.hbm, 365, rfl⟩
abbrev main_v241 : Ref sig .tc := ⟨.hbm, 366, rfl⟩
abbrev main_v242 : Ref sig .tc := ⟨.hbm, 367, rfl⟩
abbrev main_call13_cst : Ref sig .tc := ⟨.hbm, 368, rfl⟩
abbrev main_call13_v0 : Ref sig .tc := ⟨.hbm, 369, rfl⟩
abbrev main_v243 : Ref sig .tc := ⟨.hbm, 370, rfl⟩
abbrev main_v244 : Ref sig .tc := ⟨.hbm, 371, rfl⟩
abbrev main_v245 : Ref sig .tc := ⟨.hbm, 372, rfl⟩
abbrev main_v246 : Ref sig .tc := ⟨.hbm, 373, rfl⟩
abbrev main_v247 : Ref sig .tc := ⟨.hbm, 374, rfl⟩
abbrev main_v248 : Ref sig .tc := ⟨.hbm, 375, rfl⟩
abbrev main_v249 : Ref sig .tc := ⟨.hbm, 376, rfl⟩
abbrev main_v250 : Ref sig .tc := ⟨.hbm, 377, rfl⟩
abbrev main_v251 : Ref sig .tc := ⟨.hbm, 378, rfl⟩
abbrev main_cst_26 : Ref sig .tc := ⟨.hbm, 379, rfl⟩
abbrev main_v252 : Ref sig .tc := ⟨.hbm, 380, rfl⟩
abbrev main_cst_27 : Ref sig .tc := ⟨.hbm, 381, rfl⟩
abbrev main_v253 : Ref sig .tc := ⟨.hbm, 382, rfl⟩
abbrev main_v254 : Ref sig .tc := ⟨.hbm, 383, rfl⟩
abbrev main_c_28 : Ref sig .tc := ⟨.hbm, 384, rfl⟩
abbrev main_call14_cst : Ref sig .tc := ⟨.hbm, 385, rfl⟩
abbrev main_call14_v0 : Ref sig .tc := ⟨.hbm, 386, rfl⟩
abbrev main_call14_v1 : Ref sig .tc := ⟨.hbm, 387, rfl⟩
abbrev main_call14_cst_0 : Ref sig .tc := ⟨.hbm, 388, rfl⟩
abbrev main_call14_v2 : Ref sig .tc := ⟨.hbm, 389, rfl⟩
abbrev main_call14_v3 : Ref sig .tc := ⟨.hbm, 390, rfl⟩
abbrev main_call14_v4 : Ref sig .tc := ⟨.hbm, 391, rfl⟩
abbrev main_call14_v5 : Ref sig .tc := ⟨.hbm, 392, rfl⟩
abbrev main_call14_v6 : Ref sig .tc := ⟨.hbm, 393, rfl⟩
abbrev main_call14_v7 : Ref sig .tc := ⟨.hbm, 394, rfl⟩
abbrev main_call14_cst_1 : Ref sig .tc := ⟨.hbm, 395, rfl⟩
abbrev main_call14_v8 : Ref sig .tc := ⟨.hbm, 396, rfl⟩
abbrev main_call14_cst_2 : Ref sig .tc := ⟨.hbm, 397, rfl⟩
abbrev main_call14_v9 : Ref sig .tc := ⟨.hbm, 398, rfl⟩
abbrev main_call14_v10 : Ref sig .tc := ⟨.hbm, 399, rfl⟩
abbrev main_call14_v11 : Ref sig .tc := ⟨.hbm, 400, rfl⟩
abbrev main_call14_cst_3 : Ref sig .tc := ⟨.hbm, 401, rfl⟩
abbrev main_call14_v12 : Ref sig .tc := ⟨.hbm, 402, rfl⟩
abbrev main_call14_cst_4 : Ref sig .tc := ⟨.hbm, 403, rfl⟩
abbrev main_call14_call0_v0 : Ref sig .tc := ⟨.hbm, 404, rfl⟩
abbrev main_call14_call0_v1 : Ref sig .tc := ⟨.hbm, 405, rfl⟩
abbrev main_v255 : Ref sig .tc := ⟨.hbm, 406, rfl⟩
abbrev main_v256 : Ref sig .tc := ⟨.hbm, 407, rfl⟩
abbrev main_v257 : Ref sig .tc := ⟨.hbm, 408, rfl⟩
abbrev main_v258 : Ref sig .tc := ⟨.hbm, 409, rfl⟩
abbrev main_v259 : Ref sig .tc := ⟨.hbm, 410, rfl⟩
abbrev main_v260 : Ref sig .tc := ⟨.hbm, 411, rfl⟩
abbrev main_v261 : Ref sig .tc := ⟨.hbm, 412, rfl⟩
abbrev main_v262 : Ref sig .tc := ⟨.hbm, 413, rfl⟩
abbrev main_v263 : Ref sig .tc := ⟨.hbm, 414, rfl⟩
abbrev main_cst_29 : Ref sig .tc := ⟨.hbm, 415, rfl⟩
abbrev main_v264 : Ref sig .tc := ⟨.hbm, 416, rfl⟩
abbrev main_v265 : Ref sig .tc := ⟨.hbm, 417, rfl⟩
abbrev main_v266 : Ref sig .tc := ⟨.hbm, 418, rfl⟩
abbrev main_v267 : Ref sig .tc := ⟨.hbm, 419, rfl⟩
abbrev main_v268 : Ref sig .tc := ⟨.hbm, 420, rfl⟩
abbrev main_v269 : Ref sig .tc := ⟨.hbm, 421, rfl⟩
abbrev main_v270 : Ref sig .tc := ⟨.hbm, 422, rfl⟩
abbrev main_v271 : Ref sig .tc := ⟨.hbm, 423, rfl⟩
abbrev main_v272 : Ref sig .tc := ⟨.hbm, 424, rfl⟩
abbrev main_v273 : Ref sig .tc := ⟨.hbm, 425, rfl⟩
abbrev main_v274 : Ref sig .tc := ⟨.hbm, 426, rfl⟩
abbrev main_call15_cst : Ref sig .tc := ⟨.hbm, 427, rfl⟩
abbrev main_call15_v0 : Ref sig .tc := ⟨.hbm, 428, rfl⟩
abbrev main_v275 : Ref sig .tc := ⟨.hbm, 429, rfl⟩
abbrev main_c_30 : Ref sig .tc := ⟨.hbm, 430, rfl⟩
abbrev main_v276 : Ref sig .tc := ⟨.hbm, 431, rfl⟩
abbrev main_v277 : Ref sig .tc := ⟨.hbm, 432, rfl⟩
abbrev main_c_31 : Ref sig .tc := ⟨.hbm, 433, rfl⟩
abbrev main_v278 : Ref sig .tc := ⟨.hbm, 434, rfl⟩
abbrev main_v279 : Ref sig .tc := ⟨.hbm, 435, rfl⟩
abbrev main_v280 : Ref sig .tc := ⟨.hbm, 436, rfl⟩
abbrev main_v281 : Ref sig .tc := ⟨.hbm, 437, rfl⟩
abbrev main_v282 : Ref sig .tc := ⟨.hbm, 438, rfl⟩
abbrev main_v283 : Ref sig .tc := ⟨.hbm, 439, rfl⟩
abbrev main_v284 : Ref sig .tc := ⟨.hbm, 440, rfl⟩
abbrev main_v285 : Ref sig .tc := ⟨.hbm, 441, rfl⟩
abbrev main_v286 : Ref sig .tc := ⟨.hbm, 442, rfl⟩
abbrev main_v287 : Ref sig .tc := ⟨.hbm, 443, rfl⟩
abbrev main_v288 : Ref sig .tc := ⟨.hbm, 444, rfl⟩
abbrev main_v289 : Ref sig .tc := ⟨.hbm, 445, rfl⟩
abbrev main_v290 : Ref sig .tc := ⟨.hbm, 446, rfl⟩
abbrev main_v291 : Ref sig .tc := ⟨.hbm, 447, rfl⟩
abbrev main_call16_cst : Ref sig .tc := ⟨.hbm, 448, rfl⟩
abbrev main_call16_v0 : Ref sig .tc := ⟨.hbm, 449, rfl⟩
abbrev main_v292 : Ref sig .tc := ⟨.hbm, 450, rfl⟩
abbrev main_cst_32 : Ref sig .tc := ⟨.hbm, 451, rfl⟩
abbrev main_v293 : Ref sig .tc := ⟨.hbm, 452, rfl⟩
abbrev main_v294 : Ref sig .tc := ⟨.hbm, 453, rfl⟩
abbrev main_v295 : Ref sig .tc := ⟨.hbm, 454, rfl⟩
abbrev main_v296 : Ref sig .tc := ⟨.hbm, 455, rfl⟩
abbrev main_v297 : Ref sig .tc := ⟨.hbm, 456, rfl⟩
abbrev main_cst_33 : Ref sig .tc := ⟨.hbm, 457, rfl⟩
abbrev main_v298 : Ref sig .tc := ⟨.hbm, 458, rfl⟩
abbrev main_v299 : Ref sig .tc := ⟨.hbm, 459, rfl⟩
abbrev main_v300 : Ref sig .tc := ⟨.hbm, 460, rfl⟩
abbrev main_v301 : Ref sig .tc := ⟨.hbm, 461, rfl⟩
abbrev main_v302 : Ref sig .tc := ⟨.hbm, 462, rfl⟩
abbrev main_v303 : Ref sig .tc := ⟨.hbm, 463, rfl⟩
abbrev main_v304 : Ref sig .tc := ⟨.hbm, 464, rfl⟩
abbrev main_v305 : Ref sig .tc := ⟨.hbm, 465, rfl⟩
abbrev main_v306 : Ref sig .tc := ⟨.hbm, 466, rfl⟩
abbrev main_v307 : Ref sig .tc := ⟨.hbm, 467, rfl⟩
abbrev main_v308 : Ref sig .tc := ⟨.hbm, 468, rfl⟩
abbrev main_v309 : Ref sig .tc := ⟨.hbm, 469, rfl⟩
abbrev main_call17_cst : Ref sig .tc := ⟨.hbm, 470, rfl⟩
abbrev main_call17_v0 : Ref sig .tc := ⟨.hbm, 471, rfl⟩
abbrev main_v310 : Ref sig .tc := ⟨.hbm, 472, rfl⟩
abbrev main_v311 : Ref sig .tc := ⟨.hbm, 473, rfl⟩
abbrev main_v312 : Ref sig .tc := ⟨.hbm, 474, rfl⟩
abbrev main_v313 : Ref sig .tc := ⟨.hbm, 475, rfl⟩
abbrev main_v314 : Ref sig .tc := ⟨.hbm, 476, rfl⟩
abbrev main_v315 : Ref sig .tc := ⟨.hbm, 477, rfl⟩
abbrev main_v316 : Ref sig .tc := ⟨.hbm, 478, rfl⟩
abbrev main_v317 : Ref sig .tc := ⟨.hbm, 479, rfl⟩
abbrev main_v318 : Ref sig .tc := ⟨.hbm, 480, rfl⟩
abbrev main_cst_34 : Ref sig .tc := ⟨.hbm, 481, rfl⟩
abbrev main_v319 : Ref sig .tc := ⟨.hbm, 482, rfl⟩
abbrev main_cst_35 : Ref sig .tc := ⟨.hbm, 483, rfl⟩
abbrev main_v320 : Ref sig .tc := ⟨.hbm, 484, rfl⟩
abbrev main_v321 : Ref sig .tc := ⟨.hbm, 485, rfl⟩
abbrev main_c_36 : Ref sig .tc := ⟨.hbm, 486, rfl⟩
abbrev main_call18_cst : Ref sig .tc := ⟨.hbm, 487, rfl⟩
abbrev main_call18_v0 : Ref sig .tc := ⟨.hbm, 488, rfl⟩
abbrev main_call18_v1 : Ref sig .tc := ⟨.hbm, 489, rfl⟩
abbrev main_call18_cst_0 : Ref sig .tc := ⟨.hbm, 490, rfl⟩
abbrev main_call18_v2 : Ref sig .tc := ⟨.hbm, 491, rfl⟩
abbrev main_call18_v3 : Ref sig .tc := ⟨.hbm, 492, rfl⟩
abbrev main_call18_v4 : Ref sig .tc := ⟨.hbm, 493, rfl⟩
abbrev main_call18_v5 : Ref sig .tc := ⟨.hbm, 494, rfl⟩
abbrev main_call18_v6 : Ref sig .tc := ⟨.hbm, 495, rfl⟩
abbrev main_call18_v7 : Ref sig .tc := ⟨.hbm, 496, rfl⟩
abbrev main_call18_cst_1 : Ref sig .tc := ⟨.hbm, 497, rfl⟩
abbrev main_call18_v8 : Ref sig .tc := ⟨.hbm, 498, rfl⟩
abbrev main_call18_cst_2 : Ref sig .tc := ⟨.hbm, 499, rfl⟩
abbrev main_call18_v9 : Ref sig .tc := ⟨.hbm, 500, rfl⟩
abbrev main_call18_v10 : Ref sig .tc := ⟨.hbm, 501, rfl⟩
abbrev main_call18_v11 : Ref sig .tc := ⟨.hbm, 502, rfl⟩
abbrev main_call18_cst_3 : Ref sig .tc := ⟨.hbm, 503, rfl⟩
abbrev main_call18_v12 : Ref sig .tc := ⟨.hbm, 504, rfl⟩
abbrev main_call18_cst_4 : Ref sig .tc := ⟨.hbm, 505, rfl⟩
abbrev main_call18_call0_v0 : Ref sig .tc := ⟨.hbm, 506, rfl⟩
abbrev main_call18_call0_v1 : Ref sig .tc := ⟨.hbm, 507, rfl⟩
abbrev main_v322 : Ref sig .tc := ⟨.hbm, 508, rfl⟩
abbrev main_v323 : Ref sig .tc := ⟨.hbm, 509, rfl⟩
abbrev main_v324 : Ref sig .tc := ⟨.hbm, 510, rfl⟩
abbrev main_v325 : Ref sig .tc := ⟨.hbm, 511, rfl⟩
abbrev main_v326 : Ref sig .tc := ⟨.hbm, 512, rfl⟩
abbrev main_v327 : Ref sig .tc := ⟨.hbm, 513, rfl⟩
abbrev main_v328 : Ref sig .tc := ⟨.hbm, 514, rfl⟩
abbrev main_v329 : Ref sig .tc := ⟨.hbm, 515, rfl⟩
abbrev main_v330 : Ref sig .tc := ⟨.hbm, 516, rfl⟩
abbrev main_cst_37 : Ref sig .tc := ⟨.hbm, 517, rfl⟩
abbrev main_v331 : Ref sig .tc := ⟨.hbm, 518, rfl⟩
abbrev main_v332 : Ref sig .tc := ⟨.hbm, 519, rfl⟩
abbrev main_v333 : Ref sig .tc := ⟨.hbm, 520, rfl⟩
abbrev main_v334 : Ref sig .tc := ⟨.hbm, 521, rfl⟩
abbrev main_v335 : Ref sig .tc := ⟨.hbm, 522, rfl⟩
abbrev main_v336 : Ref sig .tc := ⟨.hbm, 523, rfl⟩
abbrev main_v337 : Ref sig .tc := ⟨.hbm, 524, rfl⟩
abbrev main_v338 : Ref sig .tc := ⟨.hbm, 525, rfl⟩
abbrev main_v339 : Ref sig .tc := ⟨.hbm, 526, rfl⟩
abbrev main_v340 : Ref sig .tc := ⟨.hbm, 527, rfl⟩
abbrev main_v341 : Ref sig .tc := ⟨.hbm, 528, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  slices_S5x50x64_S1x50x64_0_0_0 : S5x50x64.Slices ![0, 0, 0] S1x50x64
  shapeCasts_S1x50x64_S50x64 : S1x50x64.ShapeCasts S50x64
  slices_S5x64_S1x64_0_0 : S5x64.Slices ![0, 0] S1x64
  shapeCasts_S1x64_S64 : S1x64.ShapeCasts S64
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  slices_S5_S1_0 : S5.Slices ![0] S1
  shapeCasts_S1_S_ : S1.ShapeCasts S_
  slices_S5x64x64_S1x64x64_0_0_0 : S5x64x64.Slices ![0, 0, 0] S1x64x64
  shapeCasts_S1x64x64_S64x64 : S1x64x64.ShapeCasts S64x64
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S5x50x64_S1x50x64_1_0_0 : S5x50x64.Slices ![1, 0, 0] S1x50x64
  slices_S5x64_S1x64_1_0 : S5x64.Slices ![1, 0] S1x64
  slices_S5_S1_1 : S5.Slices ![1] S1
  slices_S5x64x64_S1x64x64_1_0_0 : S5x64x64.Slices ![1, 0, 0] S1x64x64
  slices_S5x50x64_S1x50x64_2_0_0 : S5x50x64.Slices ![2, 0, 0] S1x50x64
  slices_S5x64_S1x64_2_0 : S5x64.Slices ![2, 0] S1x64
  slices_S5_S1_2 : S5.Slices ![2] S1
  slices_S5x64x64_S1x64x64_2_0_0 : S5x64x64.Slices ![2, 0, 0] S1x64x64
  slices_S5x50x64_S1x50x64_3_0_0 : S5x50x64.Slices ![3, 0, 0] S1x50x64
  slices_S5x64_S1x64_3_0 : S5x64.Slices ![3, 0] S1x64
  slices_S5_S1_3 : S5.Slices ![3] S1
  slices_S5x64x64_S1x64x64_3_0_0 : S5x64x64.Slices ![3, 0, 0] S1x64x64
  slices_S5x50x64_S1x50x64_4_0_0 : S5x50x64.Slices ![4, 0, 0] S1x50x64
  slices_S5x64_S1x64_4_0 : S5x64.Slices ![4, 0] S1x64
  slices_S5_S1_4 : S5.Slices ![4] S1
  slices_S5x64x64_S1x64x64_4_0_0 : S5x64x64.Slices ![4, 0, 0] S1x64x64
  dot_S50000x92_S92x64_S50000x64_1_0_0_1_n_n_wf : DotDims.WF S50000x92 S92x64 S50000x64 [1] [0] [0] [1] [] []
  gather_S50000x64_S800000x1_S800000x64_1_0_n_n_0_1_164_wf : GatherDims.WF S50000x64 S800000x1 S800000x64 [1] [0] [] [0] [] 1 ![1, 64]
  dot_S800000x50_S50x64_S800000x64_1_0_0_1_n_n_wf : DotDims.WF S800000x50 S50x64 S800000x64 [1] [0] [0] [1] [] []
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def dot_S50000x92_S92x64_S50000x64_1_0_0_1_n_n : DotDims S50000x92 S92x64 S50000x64 where
  lhsContracting := [1]
  rhsContracting := [0]
  lhsNonContracting := [0]
  rhsNonContracting := [1]
  lhsBatch := []
  rhsBatch := []
  wf := dot_S50000x92_S92x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x50_S50x64_S800000x64_1_0_0_1_n_n : DotDims S800000x50 S50x64 S800000x64 where
  lhsContracting := [1]
  rhsContracting := [0]
  lhsNonContracting := [0]
  rhsNonContracting := [1]
  lhsBatch := []
  rhsBatch := []
  wf := dot_S800000x50_S50x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.LibRegC.lean ====
import proofs.«422151_j2362232012848_1_alg».proof.Proof.Gen.KernelIdeal.Frame
import Idealize.ShloMosaic.Lib.ValueIdx
import Idealize.ShloMosaic.Lib.Pipeline.Value

namespace Cert.KernelIdeal.LibRegC

open Idealize.ShloMosaic Idealize.ShloMosaic.ValueIdx
open Cert.KernelIdeal Cert.KernelIdeal.Gen

theorem zeros2 : (![0, 0] : Fin 2 → Nat) = fun _ => 0 := funext fun a => by fin_cases a <;> rfl

-- The two index maps every launch here uses: point t to block (t, 0), and every point to block (0, 0).
theorem idx : ∀ t : Fin grid0.N,
    (win0_0.index t (0 : Fin 2) = t.val ∧ win0_0.index t (1 : Fin 2) = 0) ∧ ∀ a : Fin 2, win0_1.index t a = 0 := by
  decide +kernel

section Emb

variable {R r C : ℕ} {e : (⟨2, ![r, C]⟩ : Shape).Idx → (⟨2, ![R, C]⟩ : Shape).Idx} {ix : Fin 2 → ℕ}

theorem emb_row (he : ∀ j a, (e j a).val = ix a * (![r, C] : Fin 2 → ℕ) a + (j a).val) {t : ℕ} (hi : ix 0 = t ∧ ix 1 = 0)
    (j : (⟨2, ![r, C]⟩ : Shape).Idx) : (e j 0).val = t * r + (j 0).val ∧ e j 1 = j 1 :=
  ⟨(he j 0).trans (congrArg (· * r + (j 0).val) hi.1),
    Fin.ext ((he j 1).trans (by rw [hi.2, Nat.zero_mul, Nat.zero_add]))⟩

end Emb

theorem emb_id {S : Shape} {e : S.Idx → S.Idx} {ix : Fin S.rank → ℕ} (he : ∀ j a, (e j a).val = ix a * S.size a + (j a).val)
    (hi : ∀ a, ix a = 0) (j : S.Idx) : e j = j :=
  funext fun a => Fin.ext ((he j a).trans (by rw [hi, Nat.zero_mul, Nat.zero_add]))

-- Ten blocks of 5000 rows cover 50000 rows: row ρ lies in block ρ / 5000.
theorem cover_rows {C N : ℕ} (hN : N = 10) (ix : Fin N → Fin 2 → ℕ) (hix : ∀ t, ix t 0 = t.val ∧ ix t 1 = 0)
    (inb : ∀ t a, ix t a * (![5000, C] : Fin 2 → ℕ) a + ![5000, C] a ≤ (![50000, C] : Fin 2 → ℕ) a)
    (S : Fin N → Finset (⟨2, ![50000, C]⟩ : Shape).Idx)
    (hS : ∀ t, S t = (Rect.unit (s := ⟨2, ![50000, C]⟩) (fun a => ix t a * ![5000, C] a) ![5000, C] (inb t)).set)
    (i : (⟨2, ![50000, C]⟩ : Shape).Idx) : ∃ t, i ∈ S t := by
  have hi0 : (i 0).val < 50000 := (i 0).isLt
  have hi1 : (i 1).val < C := (i 1).isLt
  obtain ⟨e0, e1⟩ := hix ⟨(i 0).val / 5000, by omega⟩
  refine ⟨⟨(i 0).val / 5000, by omega⟩, ?_⟩
  rw [hS, Rect.mem_set_unit]
  intro a
  match a with
  | ⟨0, _⟩ =>
    show ix _ 0 * 5000 ≤ (i 0).val ∧ (i 0).val < ix _ 0 * 5000 + 5000
    rw [e0]
    show (i 0).val / 5000 * 5000 ≤ (i 0).val ∧ (i 0).val < (i 0).val / 5000 * 5000 + 5000
    omega
  | ⟨1, _⟩ =>
    show ix _ 1 * C ≤ (i 1).val ∧ (i 1).val < ix _ 1 * C + C
    rw [e1]
    omega

end Cert.KernelIdeal.LibRegC
-- ==== Proof.Spec.lean ====
import Idealize.ShloMosaic.PureOps.Ideal
import Idealize.ShloMosaic.Lib.ValueIdx
import Mathlib.Algebra.BigOperators.Fin

noncomputable section

namespace Cert.Spec

open Idealize.ShloMosaic Idealize.ShloMosaic.ValueIdx

def cur2 {R C : ℕ} (a : (⟨2, ![R, C]⟩ : Shape).Idx → EReal) (p : Fin R) (q : Fin C) : EReal := a (ix2 p q)

def cur1 {C : ℕ} (a : (⟨1, ![C]⟩ : Shape).Idx → EReal) (q : Fin C) : EReal := a (ix1 q)

def curRow {C : ℕ} (a : (⟨2, ![1, C]⟩ : Shape).Idx → EReal) (q : Fin C) : EReal := a (ix2 (0 : Fin 1) q)

def cur0 (a : (⟨0, ![]⟩ : Shape).Idx → EReal) : EReal := a ix0

def arr2 {R C : ℕ} (f : Fin R → Fin C → EReal) : (⟨2, ![R, C]⟩ : Shape).Idx → EReal := fun i => f (i 0) (i 1)

def linC {R K C : ℕ} (x : Fin R → Fin K → EReal) (W : Fin K → Fin C → EReal) (b : Fin C → EReal)
    (p : Fin R) (q : Fin C) : EReal :=
  (∑ k : Fin K, x p k * W k q) + b q

def edgeC {E K D : ℕ} (hs : Fin E → Fin D → EReal) (ea : Fin E → Fin K → EReal) (W : Fin K → Fin D → EReal)
    (b : Fin D → EReal) (p : Fin E) (q : Fin D) : EReal :=
  max ((hs p q + ∑ k : Fin K, ea p k * W k q) + b q) 0

def nodeC {N D : ℕ} (one eps : EReal) (h agg : Fin N → Fin D → EReal) (W1 : Fin D → Fin D → EReal) (b1 : Fin D → EReal)
    (W2 : Fin D → Fin D → EReal) (b2 : Fin D → EReal) (p : Fin N) (q : Fin D) : EReal :=
  (∑ k : Fin D, max ((∑ j : Fin D, ((one + eps) * h p j + agg p j) * W1 j k) + b1 k) 0 * W2 k q) + b2 q

def bnC {N D : ℕ} (relu : Bool) (c : EReal) (z : Fin N → Fin D → EReal) (mu var gamma beta : Fin D → EReal)
    (p : Fin N) (q : Fin D) : EReal :=
  if relu then max (gamma q * (z p q - mu q) * Ideal.rsqrt (var q + c) + beta q) 0
  else gamma q * (z p q - mu q) * Ideal.rsqrt (var q + c) + beta q

end Cert.Spec

end
-- ==== Proof.LibDotPlain.lean ====
import Idealize.ShloMosaic.PureOps.Ideal.Laws
import Idealize.ShloMosaic.Lib.ValueIdx

noncomputable section

open scoped BigOperators

namespace Cert.LibDotPlain

open Idealize.ShloMosaic Idealize.ShloMosaic.ValueIdx

variable {m n k : Nat}

theorem matmul_zero_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibDotPlain

end
-- ==== Proof.Reg0.lean ====
import proofs.«422151_j2362232012848_1_alg».proof.Proof.LibRegC
import proofs.«422151_j2362232012848_1_alg».proof.Proof.Spec
import proofs.«422151_j2362232012848_1_alg».proof.Proof.LibDotPlain
import Idealize.ShloMosaic.Lib.ValueLayout

noncomputable section

open scoped BigOperators

namespace Cert.KernelIdeal.Reg0

open Idealize.ShloMosaic Idealize.ShloMosaic.TcCoe Idealize.ShloMosaic.ValueIdx Idealize.SL.Sem
open Cert.KernelIdeal Cert.KernelIdeal.Gen

theorem k0_pay1_apply (x0 : Vec Ideal S5000x92 .f32) (x1 : Vec Ideal S92x64 .f32) (x2 : Vec Ideal S1x64 .f32)
    (p : Fin 5000) (q : Fin 64) :
    k0_pay1 (F := Ideal) x0 x1 x2 (ix2 p q)
      = (∑ k : Fin 92, x0 (ix2 p k) * x1 (ix2 k q)) + x2 (ix2 (0 : Fin 1) q) := by
  unfold k0_pay1
  refine (addf_apply _ _ _).trans ?_
  refine congrArg₂ (· + ·) ?_ ?_
  · exact Cert.LibDotPlain.matmul_zero_apply dot_S5000x92_S92x64_S5000x64_1_0_0_1_n_n_wf none _ _ p q
  · refine (broadcastTo_1b_ab_apply _ _ p q).trans ?_
    rw [shapeCast_self]

theorem out0_eq (x0 : Vec Ideal S5000x92 .f32) (x1 : Vec Ideal S92x64 .f32) (x2 : Vec Ideal S1x64 .f32) :
    out0_3 (F := Ideal) x0 x1 x2 = Spec.arr2 (Spec.linC (Spec.cur2 x0) (Spec.cur2 x1) (Spec.curRow x2)) := by
  unfold out0_3
  rw [View.canon_unit_zero LibRegC.zeros2]
  simp only [View.ld_unit_zero (S := S5000x92) LibRegC.zeros2, View.ld_unit_zero (S := S92x64) LibRegC.zeros2,
    View.ld_unit_zero (S := S1x64) LibRegC.zeros2]
  exact funext fun j => (congrArg _ (eq_ix2 j)).trans (k0_pay1_apply x0 x1 x2 (j 0) (j 1))

-- Row p of the result reads row p of x only, so the linear layer commutes with taking a block of rows.
theorem lin_block (x : S50000x92.Idx → EReal) (w : S92x64.Idx → EReal) (b : S1x64.Idx → EReal)
    {e0 : S5000x92.Idx → S50000x92.Idx} {e1 : S92x64.Idx → S92x64.Idx} {e2 : S1x64.Idx → S1x64.Idx}
    {e3 : S5000x64.Idx → S50000x64.Idx} {i0 i1 i2 i3 : Fin 2 → ℕ}
    (h0 : ∀ j a, (e0 j a).val = i0 a * S5000x92.size a + (j a).val)
    (h1 : ∀ j a, (e1 j a).val = i1 a * S92x64.size a + (j a).val)
    (h2 : ∀ j a, (e2 j a).val = i2 a * S1x64.size a + (j a).val)
    (h3 : ∀ j a, (e3 j a).val = i3 a * S5000x64.size a + (j a).val)
    {t : ℕ} (r0 : i0 0 = t ∧ i0 1 = 0) (r3 : i3 0 = t ∧ i3 1 = 0) (z1 : ∀ a, i1 a = 0) (z2 : ∀ a, i2 a = 0) :
    Spec.arr2 (Spec.linC (Spec.cur2 fun j => x (e0 j)) (Spec.cur2 fun j => w (e1 j)) (Spec.curRow fun j => b (e2 j)))
      = fun j => Spec.arr2 (Spec.linC (Spec.cur2 x) (Spec.cur2 w) (Spec.curRow b)) (e3 j) := by
  funext j
  obtain ⟨a3, b3⟩ := LibRegC.emb_row h3 r3 j
  have hx : ∀ k, Spec.cur2 (fun j => x (e0 j)) (j 0) k = Spec.cur2 x (e3 j 0) k := fun k =>
    congrArg x (Shape.idx_ext₂ ((LibRegC.emb_row h0 r0 (ix2 (j 0) k)).1.trans a3.symm)
      (congrArg Fin.val (LibRegC.emb_row h0 r0 (ix2 (j 0) k)).2))
  have hw : Spec.cur2 (fun j => w (e1 j)) = Spec.cur2 w :=
    funext fun _ => funext fun _ => congrArg w (LibRegC.emb_id h1 z1 _)
  have hb : Spec.curRow (fun j => b (e2 j)) = Spec.curRow b := funext fun _ => congrArg b (LibRegC.emb_id h2 z2 _)
  show Spec.linC _ _ _ (j 0) (j 1) = Spec.linC _ _ _ (e3 j 0) (e3 j 1)
  rw [hw, hb, b3]
  unfold Spec.linC
  simp only [hx]

variable (V : (c : Dev nD) → (b : Ref sig .tc) → Buf (Elt Ideal) ((c : Thread nD τ).loc b))

theorem value0 (c : Dev nD) :
    (dat0 V c).arrAt 3 cfg0.N
      = Spec.arr2 (Spec.linC (Spec.cur2 (V c (Pipeline.arrRef spec0 0) : S50000x92.Idx → EReal))
          (Spec.cur2 (V c (Pipeline.arrRef spec0 1) : S92x64.Idx → EReal))
          (Spec.curRow (V c (Pipeline.arrRef spec0 2) : S1x64.Idx → EReal))) :=
  (dat0 V c).arrAt_eq_of_cover 3 _
    (fun t _ => by
      show (cfg0.win 3).cut (grid0.coords t) ((dat0 V c).after 3 t) = _
      rw [after0_3]
      refine (out0_eq _ _ _).trans ?_
      have hr := (LibRegC.idx t).1
      have hz := (LibRegC.idx t).2
      exact lin_block (V c (Pipeline.arrRef spec0 0)) (V c (Pipeline.arrRef spec0 1)) (V c (Pipeline.arrRef spec0 2))
        (win0_0.rect_emb_val t) (win0_1.rect_emb_val t) (win0_2.rect_emb_val t) (win0_3.rect_emb_val t) hr hr hz hz)
    fun i => (LibRegC.cover_rows N_0 win0_3.index (fun t => (LibRegC.idx t).1) _ _
      (fun t => View.set_slice_whole (Pipeline.arrRef spec0 3) (win0_3.rect t)) i).imp fun t h => ⟨flush0_3 t, h⟩

end Cert.KernelIdeal.Reg0

end
-- ==== Proof.KerKeepLib.lean ====
import Idealize.ShloMosaic.Lib.StableHlo.Run

namespace Cert.KernelIdeal.Keep

open Idealize.ShloMosaic

variable {τ : Topo} {sig : RefSig} {Val : EltTy → Type}

theorem keep_host {ops : List (HloOp τ sig Val)} {V : Valuation τ sig Val} {W : List (Ref sig .tc)}
    {r : Ref sig .tc} (hr : r ∉ W) (h : ops.map HloOp.writes = W.map fun r => {Proc.devRef .tc r}) :
    StableHlo.after ops V (Proc.devRef .tc r) = V (Proc.devRef .tc r) :=
  StableHlo.after_of_writes_sub ops V (List.forall_iff_forall_mem.mpr fun op hop => by
    obtain ⟨r, hr, e⟩ := List.mem_map.mp (h ▸ List.mem_map_of_mem (f := HloOp.writes) hop)
    rw [← e]
    exact Finset.singleton_subset_iff.mpr (List.mem_toFinset.mpr (List.mem_map_of_mem hr))) hr

theorem keep_of {Wn Wp : Valuation τ sig Val} {n : ℕ} (arr : Fin n → Ref sig .tc) (isOut : Fin n → Bool) (o : Ref sig .tc)
    (hne : ∀ b : Ref sig .tc, (∀ w, arr w ≠ b) → Wn (Proc.devRef .tc b) = Wp (Proc.devRef .tc b))
    (hin : ∀ w, isOut w = false → Wn (Proc.devRef .tc (arr w)) = Wp (Proc.devRef .tc (arr w)))
    (hout : ∀ w, isOut w = true → arr w = o)
    (b : Ref sig .tc) (hb : b ≠ o) : Wn (Proc.devRef .tc b) = Wp (Proc.devRef .tc b) := by
  by_cases h : ∃ w, arr w = b
  · obtain ⟨w, rfl⟩ := h
    cases hw : isOut w with
    | false => exact hin w hw
    | true => exact absurd (hout w hw) hb
  · exact hne b fun w e => h ⟨w, e⟩

end Cert.KernelIdeal.Keep
-- ==== Proof.KerKeep.lean ====
import proofs.«422151_j2362232012848_1_alg».proof.Proof.Gen.KernelIdeal.Frame
import proofs.«422151_j2362232012848_1_alg».proof.Proof.KerKeepLib

noncomputable section

namespace Cert.KernelIdeal.Keep

open Idealize.ShloMosaic
open Cert.KernelIdeal

variable {F : FTy → Type} [FloatOps F]
variable (m : (ℓ : Loc nD τ sig) → Buf (Elt F) ℓ) (ρ : Dev nD → PrngReg)

theorem keep1 (c : Dev nD) (b : Ref sig .tc) (hb : b ∉ ([main_v0, main_v1, main_v2, main_v3, main_v4] : List (Ref sig .tc))) :
    Gen.W1 m ρ c (Proc.devRef .tc b) = Gen.W0 m ρ c (Proc.devRef .tc b) :=
  keep_host hb rfl

theorem keep2 (c : Dev nD) (b : Ref sig .tc) (hb : b ≠ main_v5) :
    Gen.W2 m ρ c (Proc.devRef .tc b) = Gen.W1 m ρ c (Proc.devRef .tc b) :=
  keep_of (Wn := Gen.W2 m ρ c) (Wp := Gen.W1 m ρ c) (Pipeline.arrRef spec0) (fun w => (cfg0.win w).isOut) main_v5 (Gen.W2_of_ne m ρ c)
    (fun w hw => (Gen.W2_arr m ρ c w).trans
      (((Gen.dat0 (Gen.V1 m ρ) c).arrAt_in w hw _).trans (Gen.A_eq0 (Gen.V1 m ρ) c w)))
    (by decide) b hb

theorem out0 (c : Dev nD) :
    Gen.W2 m ρ c (Proc.devRef .tc main_v5) = (Gen.dat0 (Gen.V1 m ρ) c).arrAt (3 : Fin cfg0.W) cfg0.N :=
  Gen.W2_arr m ρ c (3 : Fin cfg0.W)

theorem keep3 (c : Dev nD) (b : Ref sig .tc) (hb : b ∉ ([main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v6] : List (Ref sig .tc))) :
    Gen.W3 m ρ c (Proc.devRef .tc b) = Gen.W2 m ρ c (Proc.devRef .tc b) :=
  keep_host hb rfl

theorem keep4 (c : Dev nD) (b : Ref sig .tc) (hb : b ∉ ([main_v7, main_v8, main_v9, main_v10, main_v11] : List (Ref sig .tc))) :
    Gen.W4 m ρ c (Proc.devRef .tc b) = Gen.W3 m ρ c (Proc.devRef .tc b) :=
  keep_host hb rfl

theorem keep5 (c : Dev nD) (b : Ref sig .tc) (hb : b ≠ main_v12) :
    Gen.W5 m ρ c (Proc.devRef .tc b) = Gen.W4 m ρ c (Proc.devRef .tc b) :=
  keep_of (Wn := Gen.W5 m ρ c) (Wp := Gen.W4 m ρ c) (Pipeline.arrRef spec1) (fun w => (cfg1.win w).isOut) main_v12 (Gen.W5_of_ne m ρ c)
    (fun w hw => (Gen.W5_arr m ρ c w).trans
      (((Gen.dat1 (Gen.V4 m ρ) c).arrAt_in w hw _).trans (Gen.A_eq1 (Gen.V4 m ρ) c w)))
    (by decide) b hb

theorem out1 (c : Dev nD) :
    Gen.W5 m ρ c (Proc.devRef .tc main_v12) = (Gen.dat1 (Gen.V4 m ρ) c).arrAt (4 : Fin cfg1.W) cfg1.N :=
  Gen.W5_arr m ρ c (4 : Fin cfg1.W)

theorem keep6 (c : Dev nD) (b : Ref sig .tc) (hb : b ∉ ([main_cst, main_v13, main_v14, main_v15, main_v16, main_v17, main_v18, main_v19, main_v20, main_v21, main_v22, main_v23, main_v24, main_v25, main_v26, main_v27, main_v28] : List (Ref sig .tc))) :
    Gen.W6 m ρ c (Proc.devRef .tc b) = Gen.W5 m ρ c (Proc.devRef .tc b) :=
  keep_host hb rfl

theorem keep7 (c : Dev nD) (b : Ref sig .tc) (hb : b ≠ main_v29) :
    Gen.W7 m ρ c (Proc.devRef .tc b) = Gen.W6 m ρ c (Proc.devRef .tc b) :=
  keep_of (Wn := Gen.W7 m ρ c) (Wp := Gen.W6 m ρ c) (Pipeline.arrRef spec2) (fun w => (cfg2.win w).isOut) main_v29 (Gen.W7_of_ne m ρ c)
    (fun w hw => (Gen.W7_arr m ρ c w).trans
      (((Gen.dat2 (Gen.V6 m ρ) c).arrAt_in w hw _).trans (Gen.A_eq2 (Gen.V6 m ρ) c w)))
    (by decide) b hb

theorem out2 (c : Dev nD) :
    Gen.W7 m ρ c (Proc.devRef .tc main_v29) = (Gen.dat2 (Gen.V6 m ρ) c).arrAt (7 : Fin cfg2.W) cfg2.N :=
  Gen.W7_arr m ρ c (7 : Fin cfg2.W)

theorem keep8 (c : Dev nD) (b : Ref sig .tc) (hb : b ∉ ([main_cst_0, main_v30, main_cst_1, main_v31, main_v32, main_c] : List (Ref sig .tc))) :
    Gen.W8 m ρ c (Proc.devRef .tc b) = Gen.W7 m ρ c (Proc.devRef .tc b) :=
  keep_host hb rfl

theorem keep9 (c : Dev nD) (b : Ref sig .tc) (hb : b ∉ ([main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v33] : List (Ref sig .tc))) :
    Gen.W9 m ρ c (Proc.devRef .tc b) = Gen.W8 m ρ c (Proc.devRef .tc b) :=
  keep_host hb rfl

theorem keep10 (c : Dev nD) (b : Ref sig .tc) (hb : b ∉ ([main_v34, main_v35, main_v36, main_v37, main_v38, main_v39, main_v40, main_v41] : List (Ref sig .tc))) :
    Gen.W10 m ρ c (Proc.devRef .tc b) = Gen.W9 m ρ c (Proc.devRef .tc b) :=
  keep_host hb rfl

theorem keep11 (c : Dev nD) (b : Ref sig .tc) (hb : b ≠ main_v42) :
    Gen.W11 m ρ c (Proc.devRef .tc b) = Gen.W10 m ρ c (Proc.devRef .tc b) :=
  keep_of (Wn := Gen.W11 m ρ c) (Wp := Gen.W10 m ρ c) (Pipeline.arrRef spec3) (fun w => (cfg3.win w).isOut) main_v42 (Gen.W11_of_ne m ρ c)
    (fun w hw => (Gen.W11_arr m ρ c w).trans
      (((Gen.dat3 (Gen.V10 m ρ) c).arrAt_in w hw _).trans (Gen.A_eq3 (Gen.V10 m ρ) c w)))
    (by decide) b hb

theorem out3 (c : Dev nD) :
    Gen.W11 m ρ c (Proc.devRef .tc main_v42) = (Gen.dat3 (Gen.V10 m ρ) c).arrAt (5 : Fin cfg3.W) cfg3.N :=
  Gen.W11_arr m ρ c (5 : Fin cfg3.W)

theorem keep12 (c : Dev nD) (b : Ref sig .tc) (hb : b ∉ ([main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v43] : List (Ref sig .tc))) :
    Gen.W12 m ρ c (Proc.devRef .tc b) = Gen.W11 m ρ c (Proc.devRef .tc b) :=
  keep_host hb rfl

theorem keep13 (c : Dev nD) (b : Ref sig .tc) (hb : b ∉ ([main_v44, main_v45, main_v46, main_v47, main_v48] : List (Ref sig .tc))) :
    Gen.W13 m ρ c (Proc.devRef .tc b) = Gen.W12 m ρ c (Proc.devRef .tc b) :=
  keep_host hb rfl

theorem keep14 (c : Dev nD) (b : Ref sig .tc) (hb : b ≠ main_v49) :
    Gen.W14 m ρ c (Proc.devRef .tc b) = Gen.W13 m ρ c (Proc.devRef .tc b) :=
  keep_of (Wn := Gen.W14 m ρ c) (Wp := Gen.W13 m ρ c) (Pipeline.arrRef spec4) (fun w => (cfg4.win w).isOut) main_v49 (Gen.W14_of_ne m ρ c)
    (fun w hw => (Gen.W14_arr m ρ c w).trans
      (((Gen.dat4 (Gen.V13 m ρ) c).arrAt_in w hw _).trans (Gen.A_eq4 (Gen.V13 m ρ) c w)))
    (by decide) b hb

theorem out4 (c : Dev nD) :
    Gen.W14 m ρ c (Proc.devRef .tc main_v49) = (Gen.dat4 (Gen.V13 m ρ) c).arrAt (4 : Fin cfg4.W) cfg4.N :=
  Gen.W14_arr m ρ c (4 : Fin cfg4.W)

theorem keep15 (c : Dev nD) (b : Ref sig .tc) (hb : b ∉ ([main_cst_2, main_v50, main_v51, main_v52, main_v53, main_v54, main_v55, main_v56, main_v57, main_v58, main_v59, main_v60, main_v61, main_v62, main_v63, main_v64, main_v65] : List (Ref sig .tc))) :
    Gen.W15 m ρ c (Proc.devRef .tc b) = Gen.W14 m ρ c (Proc.devRef .tc b) :=
  keep_host hb rfl

theorem keep16 (c : Dev nD) (b : Ref sig .tc) (hb : b ≠ main_v66) :
    Gen.W16 m ρ c (Proc.devRef .tc b) = Gen.W15 m ρ c (Proc.devRef .tc b) :=
  keep_of (Wn := Gen.W16 m ρ c) (Wp := Gen.W15 m ρ c) (Pipeline.arrRef spec5) (fun w => (cfg5.win w).isOut) main_v66 (Gen.W16_of_ne m ρ c)
    (fun w hw => (Gen.W16_arr m ρ c w).trans
      (((Gen.dat5 (Gen.V15 m ρ) c).arrAt_in w hw _).trans (Gen.A_eq5 (Gen.V15 m ρ) c w)))
    (by decide) b hb

theorem out5 (c : Dev nD) :
    Gen.W16 m ρ c (Proc.devRef .tc main_v66) = (Gen.dat5 (Gen.V15 m ρ) c).arrAt (7 : Fin cfg5.W) cfg5.N :=
  Gen.W16_arr m ρ c (7 : Fin cfg5.W)

theorem keep17 (c : Dev nD) (b : Ref sig .tc) (hb : b ∉ ([main_cst_3, main_v67, main_cst_4, main_v68, main_v69, main_c_5] : List (Ref sig .tc))) :
    Gen.W17 m ρ c (Proc.devRef .tc b) = Gen.W16 m ρ c (Proc.devRef .tc b) :=
  keep_host hb rfl

theorem keep18 (c : Dev nD) (b : Ref sig .tc) (hb : b ∉ ([main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v70] : List (Ref sig .tc))) :
    Gen.W18 m ρ c (Proc.devRef .tc b) = Gen.W17 m ρ c (Proc.devRef .tc b) :=
  keep_host hb rfl

theorem keep19 (c : Dev nD) (b : Ref sig .tc) (hb : b ∉ ([main_v71, main_v72, main_v73, main_v74, main_v75, main_v76, main_v77, main_v78] : List (Ref sig .tc))) :
    Gen.W19 m ρ c (Proc.devRef .tc b) = Gen.W18 m ρ c (Proc.devRef .tc b) :=
  keep_host hb rfl

theorem keep20 (c : Dev nD) (b : Ref sig .tc) (hb : b ≠ main_v79) :
    Gen.W20 m ρ c (Proc.devRef .tc b) = Gen.W19 m ρ c (Proc.devRef .tc b) :=
  keep_of (Wn := Gen.W20 m ρ c) (Wp := Gen.W19 m ρ c) (Pipeline.arrRef spec6) (fun w => (cfg6.win w).isOut) main_v79 (Gen.W20_of_ne m ρ c)
    (fun w hw => (Gen.W20_arr m ρ c w).trans
      (((Gen.dat6 (Gen.V19 m ρ) c).arrAt_in w hw _).trans (Gen.A_eq6 (Gen.V19 m ρ) c w)))
    (by decide) b hb

theorem out6 (c : Dev nD) :
    Gen.W20 m ρ c (Proc.devRef .tc main_v79) = (Gen.dat6 (Gen.V19 m ρ) c).arrAt (5 : Fin cfg6.W) cfg6.N :=
  Gen.W20_arr m ρ c (5 : Fin cfg6.W)

theorem keep21 (c : Dev nD) (b : Ref sig .tc) (hb : b ∉ ([main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v80] : List (Ref sig .tc))) :
    Gen.W21 m ρ c (Proc.devRef .tc b) = Gen.W20 m ρ c (Proc.devRef .tc b) :=
  keep_host hb rfl

theorem keep22 (c : Dev nD) (b : Ref sig .tc) (hb : b ∉ ([main_v81, main_v82, main_v83, main_v84, main_v85] : List (Ref sig .tc))) :
    Gen.W22 m ρ c (Proc.devRef .tc b) = Gen.W21 m ρ c (Proc.devRef .tc b) :=
  keep_host hb rfl

theorem keep23 (c : Dev nD) (b : Ref sig .tc) (hb : b ≠ main_v86) :
    Gen.W23 m ρ c (Proc.devRef .tc b) = Gen.W22 m ρ c (Proc.devRef .tc b) :=
  keep_of (Wn := Gen.W23 m ρ c) (Wp := Gen.W22 m ρ c) (Pipeline.arrRef spec7) (fun w => (cfg7.win w).isOut) main_v86 (Gen.W23_of_ne m ρ c)
    (fun w hw => (Gen.W23_arr m ρ c w).trans
      (((Gen.dat7 (Gen.V22 m ρ) c).arrAt_in w hw _).trans (Gen.A_eq7 (Gen.V22 m ρ) c w)))
    (by decide) b hb

theorem out7 (c : Dev nD) :
    Gen.W23 m ρ c (Proc.devRef .tc main_v86) = (Gen.dat7 (Gen.V22 m ρ) c).arrAt (4 : Fin cfg7.W) cfg7.N :=
  Gen.W23_arr m ρ c (4 : Fin cfg7.W)

theorem keep24 (c : Dev nD) (b : Ref sig .tc) (hb : b ∉ ([main_cst_6, main_v87, main_v88, main_v89, main_v90, main_v91, main_v92, main_v93, main_v94, main_v95, main_v96, main_v97, main_v98, main_v99, main_v100, main_v101, main_v102] : List (Ref sig .tc))) :
    Gen.W24 m ρ c (Proc.devRef .tc b) = Gen.W23 m ρ c (Proc.devRef .tc b) :=
  keep_host hb rfl

theorem keep25 (c : Dev nD) (b : Ref sig .tc) (hb : b ≠ main_v103) :
    Gen.W25 m ρ c (Proc.devRef .tc b) = Gen.W24 m ρ c (Proc.devRef .tc b) :=
  keep_of (Wn := Gen.W25 m ρ c) (Wp := Gen.W24 m ρ c) (Pipeline.arrRef spec8) (fun w => (cfg8.win w).isOut) main_v103 (Gen.W25_of_ne m ρ c)
    (fun w hw => (Gen.W25_arr m ρ c w).trans
      (((Gen.dat8 (Gen.V24 m ρ) c).arrAt_in w hw _).trans (Gen.A_eq8 (Gen.V24 m ρ) c w)))
    (by decide) b hb

theorem out8 (c : Dev nD) :
    Gen.W25 m ρ c (Proc.devRef .tc main_v103) = (Gen.dat8 (Gen.V24 m ρ) c).arrAt (7 : Fin cfg8.W) cfg8.N :=
  Gen.W25_arr m ρ c (7 : Fin cfg8.W)

theorem keep26 (c : Dev nD) (b : Ref sig .tc) (hb : b ∉ ([main_cst_7, main_v104, main_cst_8, main_v105, main_v106, main_c_9] : List (Ref sig .tc))) :
    Gen.W26 m ρ c (Proc.devRef .tc b) = Gen.W25 m ρ c (Proc.devRef .tc b) :=
  keep_host hb rfl

theorem keep27 (c : Dev nD) (b : Ref sig .tc) (hb : b ∉ ([main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v107] : List (Ref sig .tc))) :
    Gen.W27 m ρ c (Proc.devRef .tc b) = Gen.W26 m ρ c (Proc.devRef .tc b) :=
  keep_host hb rfl

theorem keep28 (c : Dev nD) (b : Ref sig .tc) (hb : b ∉ ([main_v108, main_v109, main_v110, main_v111, main_v112, main_v113, main_v114, main_v115] : List (Ref sig .tc))) :
    Gen.W28 m ρ c (Proc.devRef .tc b) = Gen.W27 m ρ c (Proc.devRef .tc b) :=
  keep_host hb rfl

theorem keep29 (c : Dev nD) (b : Ref sig .tc) (hb : b ≠ main_v116) :
    Gen.W29 m ρ c (Proc.devRef .tc b) = Gen.W28 m ρ c (Proc.devRef .tc b) :=
  keep_of (Wn := Gen.W29 m ρ c) (Wp := Gen.W28 m ρ c) (Pipeline.arrRef spec9) (fun w => (cfg9.win w).isOut) main_v116 (Gen.W29_of_ne m ρ c)
    (fun w hw => (Gen.W29_arr m ρ c w).trans
      (((Gen.dat9 (Gen.V28 m ρ) c).arrAt_in w hw _).trans (Gen.A_eq9 (Gen.V28 m ρ) c w)))
    (by decide) b hb

theorem out9 (c : Dev nD) :
    Gen.W29 m ρ c (Proc.devRef .tc main_v116) = (Gen.dat9 (Gen.V28 m ρ) c).arrAt (5 : Fin cfg9.W) cfg9.N :=
  Gen.W29_arr m ρ c (5 : Fin cfg9.W)

theorem keep30 (c : Dev nD) (b : Ref sig .tc) (hb : b ∉ ([main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v117] : List (Ref sig .tc))) :
    Gen.W30 m ρ c (Proc.devRef .tc b) = Gen.W29 m ρ c (Proc.devRef .tc b) :=
  keep_host hb rfl

theorem keep31 (c : Dev nD) (b : Ref sig .tc) (hb : b ∉ ([main_v118, main_v119, main_v120, main_v121, main_v122] : List (Ref sig .tc))) :
    Gen.W31 m ρ c (Proc.devRef .tc b) = Gen.W30 m ρ c (Proc.devRef .tc b) :=
  keep_host hb rfl

theorem keep32 (c : Dev nD) (b : Ref sig .tc) (hb : b ≠ main_v123) :
    Gen.W32 m ρ c (Proc.devRef .tc b) = Gen.W31 m ρ c (Proc.devRef .tc b) :=
  keep_of (Wn := Gen.W32 m ρ c) (Wp := Gen.W31 m ρ c) (Pipeline.arrRef spec10) (fun w => (cfg10.win w).isOut) main_v123 (Gen.W32_of_ne m ρ c)
    (fun w hw => (Gen.W32_arr m ρ c w).trans
      (((Gen.dat10 (Gen.V31 m ρ) c).arrAt_in w hw _).trans (Gen.A_eq10 (Gen.V31 m ρ) c w)))
    (by decide) b hb

theorem out10 (c : Dev nD) :
    Gen.W32 m ρ c (Proc.devRef .tc main_v123) = (Gen.dat10 (Gen.V31 m ρ) c).arrAt (4 : Fin cfg10.W) cfg10.N :=
  Gen.W32_arr m ρ c (4 : Fin cfg10.W)

theorem keep33 (c : Dev nD) (b : Ref sig .tc) (hb : b ∉ ([main_cst_10, main_v124, main_v125, main_v126, main_v127, main_v128, main_v129, main_v130, main_v131, main_v132, main_v133, main_v134, main_v135, main_v136, main_v137, main_v138, main_v139] : List (Ref sig .tc))) :
    Gen.W33 m ρ c (Proc.devRef .tc b) = Gen.W32 m ρ c (Proc.devRef .tc b) :=
  keep_host hb rfl

theorem keep34 (c : Dev nD) (b : Ref sig .tc) (hb : b ≠ main_v140) :
    Gen.W34 m ρ c (Proc.devRef .tc b) = Gen.W33 m ρ c (Proc.devRef .tc b) :=
  keep_of (Wn := Gen.W34 m ρ c) (Wp := Gen.W33 m ρ c) (Pipeline.arrRef spec11) (fun w => (cfg11.win w).isOut) main_v140 (Gen.W34_of_ne m ρ c)
    (fun w hw => (Gen.W34_arr m ρ c w).trans
      (((Gen.dat11 (Gen.V33 m ρ) c).arrAt_in w hw _).trans (Gen.A_eq11 (Gen.V33 m ρ) c w)))
    (by decide) b hb

theorem out11 (c : Dev nD) :
    Gen.W34 m ρ c (Proc.devRef .tc main_v140) = (Gen.dat11 (Gen.V33 m ρ) c).arrAt (7 : Fin cfg11.W) cfg11.N :=
  Gen.W34_arr m ρ c (7 : Fin cfg11.W)

theorem keep35 (c : Dev nD) (b : Ref sig .tc) (hb : b ∉ ([main_cst_11, main_v141, main_cst_12, main_v142, main_v143, main_c_13] : List (Ref sig .tc))) :
    Gen.W35 m ρ c (Proc.devRef .tc b) = Gen.W34 m ρ c (Proc.devRef .tc b) :=
  keep_host hb rfl

theorem keep36 (c : Dev nD) (b : Ref sig .tc) (hb : b ∉ ([main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v144] : List (Ref sig .tc))) :
    Gen.W36 m ρ c (Proc.devRef .tc b) = Gen.W35 m ρ c (Proc.devRef .tc b) :=
  keep_host hb rfl

theorem keep37 (c : Dev nD) (b : Ref sig .tc) (hb : b ∉ ([main_v145, main_v146, main_v147, main_v148, main_v149, main_v150, main_v151, main_v152] : List (Ref sig .tc))) :
    Gen.W37 m ρ c (Proc.devRef .tc b) = Gen.W36 m ρ c (Proc.devRef .tc b) :=
  keep_host hb rfl

theorem keep38 (c : Dev nD) (b : Ref sig .tc) (hb : b ≠ main_v153) :
    Gen.W38 m ρ c (Proc.devRef .tc b) = Gen.W37 m ρ c (Proc.devRef .tc b) :=
  keep_of (Wn := Gen.W38 m ρ c) (Wp := Gen.W37 m ρ c) (Pipeline.arrRef spec12) (fun w => (cfg12.win w).isOut) main_v153 (Gen.W38_of_ne m ρ c)
    (fun w hw => (Gen.W38_arr m ρ c w).trans
      (((Gen.dat12 (Gen.V37 m ρ) c).arrAt_in w hw _).trans (Gen.A_eq12 (Gen.V37 m ρ) c w)))
    (by decide) b hb

theorem out12 (c : Dev nD) :
    Gen.W38 m ρ c (Proc.devRef .tc main_v153) = (Gen.dat12 (Gen.V37 m ρ) c).arrAt (5 : Fin cfg12.W) cfg12.N :=
  Gen.W38_arr m ρ c (5 : Fin cfg12.W)

theorem keep39 (c : Dev nD) (b : Ref sig .tc) (hb : b ∉ ([main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v154] : List (Ref sig .tc))) :
    Gen.W39 m ρ c (Proc.devRef .tc b) = Gen.W38 m ρ c (Proc.devRef .tc b) :=
  keep_host hb rfl

theorem keep40 (c : Dev nD) (b : Ref sig .tc) (hb : b ∉ ([main_v155, main_v156, main_v157, main_v158, main_v159] : List (Ref sig .tc))) :
    Gen.W40 m ρ c (Proc.devRef .tc b) = Gen.W39 m ρ c (Proc.devRef .tc b) :=
  keep_host hb rfl

theorem keep41 (c : Dev nD) (b : Ref sig .tc) (hb : b ≠ main_v160) :
    Gen.W41 m ρ c (Proc.devRef .tc b) = Gen.W40 m ρ c (Proc.devRef .tc b) :=
  keep_of (Wn := Gen.W41 m ρ c) (Wp := Gen.W40 m ρ c) (Pipeline.arrRef spec13) (fun w => (cfg13.win w).isOut) main_v160 (Gen.W41_of_ne m ρ c)
    (fun w hw => (Gen.W41_arr m ρ c w).trans
      (((Gen.dat13 (Gen.V40 m ρ) c).arrAt_in w hw _).trans (Gen.A_eq13 (Gen.V40 m ρ) c w)))
    (by decide) b hb

theorem out13 (c : Dev nD) :
    Gen.W41 m ρ c (Proc.devRef .tc main_v160) = (Gen.dat13 (Gen.V40 m ρ) c).arrAt (4 : Fin cfg13.W) cfg13.N :=
  Gen.W41_arr m ρ c (4 : Fin cfg13.W)

theorem keep42 (c : Dev nD) (b : Ref sig .tc) (hb : b ∉ ([main_cst_14, main_v161, main_v162, main_v163, main_v164, main_v165, main_v166, main_v167, main_v168, main_v169, main_v170, main_v171, main_v172, main_v173, main_v174, main_v175, main_v176] : List (Ref sig .tc))) :
    Gen.W42 m ρ c (Proc.devRef .tc b) = Gen.W41 m ρ c (Proc.devRef .tc b) :=
  keep_host hb rfl

theorem keep43 (c : Dev nD) (b : Ref sig .tc) (hb : b ≠ main_v177) :
    Gen.W43 m ρ c (Proc.devRef .tc b) = Gen.W42 m ρ c (Proc.devRef .tc b) :=
  keep_of (Wn := Gen.W43 m ρ c) (Wp := Gen.W42 m ρ c) (Pipeline.arrRef spec14) (fun w => (cfg14.win w).isOut) main_v177 (Gen.W43_of_ne m ρ c)
    (fun w hw => (Gen.W43_arr m ρ c w).trans
      (((Gen.dat14 (Gen.V42 m ρ) c).arrAt_in w hw _).trans (Gen.A_eq14 (Gen.V42 m ρ) c w)))
    (by decide) b hb

theorem out14 (c : Dev nD) :
    Gen.W43 m ρ c (Proc.devRef .tc main_v177) = (Gen.dat14 (Gen.V42 m ρ) c).arrAt (7 : Fin cfg14.W) cfg14.N :=
  Gen.W43_arr m ρ c (7 : Fin cfg14.W)

theorem keep44 (c : Dev nD) (b : Ref sig .tc) (hb : b ∉ ([main_cst_15, main_v178, main_cst_16, main_v179, main_v180, main_c_17] : List (Ref sig .tc))) :
    Gen.W44 m ρ c (Proc.devRef .tc b) = Gen.W43 m ρ c (Proc.devRef .tc b) :=
  keep_host hb rfl

theorem keep45 (c : Dev nD) (b : Ref sig .tc) (hb : b ∉ ([main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_cst_3, main_call9_v12, main_call9_cst_4, main_call9_call0_v0, main_call9_call0_v1, main_v181] : List (Ref sig .tc))) :
    Gen.W45 m ρ c (Proc.devRef .tc b) = Gen.W44 m ρ c (Proc.devRef .tc b) :=
  keep_host hb rfl

theorem keep46 (c : Dev nD) (b : Ref sig .tc) (hb : b ∉ ([main_v182, main_v183, main_v184, main_v185, main_v186, main_v187, main_v188, main_v189] : List (Ref sig .tc))) :
    Gen.W46 m ρ c (Proc.devRef .tc b) = Gen.W45 m ρ c (Proc.devRef .tc b) :=
  keep_host hb rfl

theorem keep47 (c : Dev nD) (b : Ref sig .tc) (hb : b ≠ main_v190) :
    Gen.W47 m ρ c (Proc.devRef .tc b) = Gen.W46 m ρ c (Proc.devRef .tc b) :=
  keep_of (Wn := Gen.W47 m ρ c) (Wp := Gen.W46 m ρ c) (Pipeline.arrRef spec15) (fun w => (cfg15.win w).isOut) main_v190 (Gen.W47_of_ne m ρ c)
    (fun w hw => (Gen.W47_arr m ρ c w).trans
      (((Gen.dat15 (Gen.V46 m ρ) c).arrAt_in w hw _).trans (Gen.A_eq15 (Gen.V46 m ρ) c w)))
    (by decide) b hb

theorem out15 (c : Dev nD) :
    Gen.W47 m ρ c (Proc.devRef .tc main_v190) = (Gen.dat15 (Gen.V46 m ρ) c).arrAt (5 : Fin cfg15.W) cfg15.N :=
  Gen.W47_arr m ρ c (5 : Fin cfg15.W)

end Cert.KernelIdeal.Keep

end
-- ==== Proof.KerNet.lean ====
import proofs.«422151_j2362232012848_1_alg».proof.KernelIdeal
import proofs.«422151_j2362232012848_1_alg».proof.Proof.Spec

noncomputable section

namespace Cert.KernelIdeal.Net

open Idealize.ShloMosaic Idealize.ShloMosaic.ValueIdx
open Cert.KernelIdeal Cert.KernelIdeal.Facts₀ Cert.KernelIdeal.Facts

variable {F : FTy → Type} [FloatOps F] [Facts]

def rowV (off : Fin 2 → Nat) (h : S2x800000.Slices off S1x800000) (ei : IVec S2x800000 32) : IVec S800000 32 :=
  shapeCast S800000 (extractStridedSlice S1x800000 off ei h) shapeCasts_S1x800000_S800000

def srcV (ei : IVec S2x800000 32) : IVec S800000 32 := rowV ![0, 0] slices_S2x800000_S1x800000_0_0 ei

def dstV (ei : IVec S2x800000 32) : IVec S800000 32 := rowV ![1, 0] slices_S2x800000_S1x800000_1_0 ei

def sliceEW (off : Fin 3 → Nat) (h : S5x50x64.Slices off S1x50x64) (a : FVec F S5x50x64 .f32) : FVec F S50x64 .f32 :=
  shapeCast S50x64 (extractStridedSlice S1x50x64 off a h) shapeCasts_S1x50x64_S50x64

def sliceMat (off : Fin 3 → Nat) (h : S5x64x64.Slices off S1x64x64) (a : FVec F S5x64x64 .f32) : FVec F S64x64 .f32 :=
  shapeCast S64x64 (extractStridedSlice S1x64x64 off a h) shapeCasts_S1x64x64_S64x64

def sliceVec (off : Fin 2 → Nat) (h : S5x64.Slices off S1x64) (a : FVec F S5x64 .f32) : FVec F S64 .f32 :=
  shapeCast S64 (extractStridedSlice S1x64 off a h) shapeCasts_S1x64_S64

def sliceScalar (off : Fin 1 → Nat) (h : S5.Slices off S1) (a : FVec F S5 .f32) : FVec F S_ .f32 :=
  shapeCast S_ (extractStridedSlice S1 off a h) shapeCasts_S1_S_

def wrapCol (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

def gatherK (h : FVec F S50000x64 .f32) (s : IVec S800000 32) : FVec F S800000x64 .f32 :=
  Host.gather gather_S50000x64_S800000x1_S800000x64_1_0_n_n_0_1_164 h (wrapCol s)

def aggK (msg : FVec F S800000x64 .f32) (d : IVec S800000 32) : FVec F S50000x64 .f32 :=
  Host.scatterAdd scatter_S50000x64_S800000x1_S800000x64_1_0_0_1
    (broadcastInDim S50000x64 ![] bcast_S_S50000x64 (constant (F := F) S_ .f32 0x00000000#32))
    (broadcastInDim S800000x1 ![0] bcast_S800000_S800000x1_0 d) msg

def colSumK (z : FVec F S50000x64 .f32) : FVec F S64 .f32 :=
  Host.reduceAdd z (constant (F := F) S_ .f32 0x00000000#32) reducesTo_S50000x64_S64_d0 h_S_

def muK (z : FVec F S50000x64 .f32) : FVec F S64 .f32 :=
  Host.divf (colSumK z) (broadcastInDim S64 ![] bcast_S_S64 (constant (F := F) S_ .f32 0x47435000#32))

def meanRowK (z : FVec F S50000x64 .f32) : FVec F S1x64 .f32 :=
  Host.divf (broadcastInDim S1x64 ![1] bcast_S64_S1x64_1 (colSumK z))
    (broadcastInDim S1x64 ![] bcast_S_S1x64 (constant (F := F) S_ .f32 0x47435000#32))

def sqDevK (z : FVec F S50000x64 .f32) : FVec F S50000x64 .f32 :=
  mulf (subf z (broadcastInDim S50000x64 ![0, 1] bcast_S1x64_S50000x64_0_1 (meanRowK z)))
    (subf z (broadcastInDim S50000x64 ![0, 1] bcast_S1x64_S50000x64_0_1 (meanRowK z)))

def divisorK : FVec F S_ .f32 :=
  subf (constant (F := F) S_ .f32 0x47435000#32) (sitofp (F := F) .f32 (constantI S_ 32 0#32))

def varK (z : FVec F S50000x64 .f32) : FVec F S64 .f32 :=
  select (broadcastInDim S64 ![] bcast_S_S64 (cmpf .ogt (divisorK (F := F)) (constant (F := F) S_ .f32 0x00000000#32)))
    (Host.divf (colSumK (sqDevK z)) (broadcastInDim S64 ![] bcast_S_S64 (divisorK (F := F))))
    (broadcastInDim S64 ![] bcast_S_S64 (id (constant (F := F) S_ .f32 0x7FC00000#32)))

def msgK (eW : FVec Ideal S50x64 .f32) (eb : FVec Ideal S64 .f32) (s : IVec S800000 32) (ea : FVec Ideal S800000x50 .f32)
    (h : FVec Ideal S50000x64 .f32) : FVec Ideal S800000x64 .f32 :=
  Spec.arr2 (Spec.edgeC (Spec.cur2 (gatherK h s)) (Spec.cur2 ea) (Spec.cur2 eW) (Spec.cur1 eb))

def nodeK (eW : FVec Ideal S50x64 .f32) (eb : FVec Ideal S64 .f32) (eps : FVec Ideal S_ .f32)
    (W1 : FVec Ideal S64x64 .f32) (b1 : FVec Ideal S64 .f32) (W2 : FVec Ideal S64x64 .f32) (b2 : FVec Ideal S64 .f32)
    (s d : IVec S800000 32) (ea : FVec Ideal S800000x50 .f32) (h : FVec Ideal S50000x64 .f32) :
    FVec Ideal S50000x64 .f32 :=
  Spec.arr2 (Spec.nodeC (Ideal.ofBits .f32 0x3F800000#32) (Spec.cur0 eps) (Spec.cur2 h)
    (Spec.cur2 (aggK (msgK eW eb s ea h) d)) (Spec.cur2 W1) (Spec.cur1 b1) (Spec.cur2 W2) (Spec.cur1 b2))

def layerK (relu : Bool) (eW : FVec Ideal S50x64 .f32) (eb : FVec Ideal S64 .f32) (eps : FVec Ideal S_ .f32)
    (W1 : FVec Ideal S64x64 .f32) (b1 : FVec Ideal S64 .f32) (W2 : FVec Ideal S64x64 .f32) (b2 : FVec Ideal S64 .f32)
    (gamma beta : FVec Ideal S64 .f32) (s d : IVec S800000 32) (ea : FVec Ideal S800000x50 .f32)
    (h : FVec Ideal S50000x64 .f32) : FVec Ideal S50000x64 .f32 :=
  Spec.arr2 (Spec.bnC relu (Ideal.ofBits .f32 0x3727C5AC#32)
    (Spec.cur2 (nodeK eW eb eps W1 b1 W2 b2 s d ea h))
    (Spec.cur1 (muK (nodeK eW eb eps W1 b1 W2 b2 s d ea h)))
    (Spec.cur1 (varK (nodeK eW eb eps W1 b1 W2 b2 s d ea h)))
    (Spec.cur1 gamma) (Spec.cur1 beta))

end Cert.KernelIdeal.Net

end
-- ==== Proof.KerCarryA.lean ====
import proofs.«422151_j2362232012848_1_alg».proof.Proof.KerKeep
import proofs.«422151_j2362232012848_1_alg».proof.Proof.KerNet
import Idealize.ShloMosaic.Lib.StableHlo.Run

set_option maxRecDepth 16384

noncomputable section

namespace Cert.KernelIdeal.Carry

open Idealize.ShloMosaic Idealize.ShloMosaic.TcCoe Idealize.SL.Sem
open Cert Cert.KernelIdeal

variable {F : FTy → Type} [FloatOps F]
variable (m : (ℓ : Loc nD τ sig) → Buf (Elt F) ℓ) (ρ : Dev nD → PrngReg)

abbrev args : List (Ref sig .tc) :=
  [main_arg0, main_arg1, main_arg2, main_arg3, main_arg4, main_arg5, main_arg6, main_arg7, main_arg8, main_arg9,
   main_arg10, main_arg11, main_arg12, main_arg13]

-- Nothing writes an argument array: it holds what the launch memory held.
theorem args_W1 (c : Dev nD) (b : Ref sig .tc) (hb : b ∈ args) :
    Gen.W1 m ρ c (Proc.devRef .tc b) = m ((c : Thread nD τ).loc b) :=
  Keep.keep1 m ρ c b (by revert b; decide)
theorem args_W2 (c : Dev nD) (b : Ref sig .tc) (hb : b ∈ args) :
    Gen.W2 m ρ c (Proc.devRef .tc b) = m ((c : Thread nD τ).loc b) :=
  (Keep.keep2 m ρ c b (by revert b; decide)).trans (args_W1 m ρ c b hb)

variable (V : Valuation τ sig (Elt F))

theorem src_rd : StableHlo.after (Gen.hostOps0 (F := F)) V (Proc.devRef .tc main_v1)
    = Net.srcV (V (Proc.devRef .tc main_arg1)) := by
  after_results
  rfl

theorem dst_rd : StableHlo.after (Gen.hostOps0 (F := F)) V (Proc.devRef .tc main_v3)
    = Net.dstV (V (Proc.devRef .tc main_arg1)) := by
  after_results
  rfl

theorem brow_rd : StableHlo.after (Gen.hostOps0 (F := F)) V (Proc.devRef .tc main_v4)
    = shapeCast S1x64 (V (Proc.devRef .tc main_arg4)) Facts₀.shapeCasts_S64_S1x64 := by
  after_results
  rfl

theorem src_W2 (c : Dev nD) :
    Gen.W2 m ρ c (Proc.devRef .tc main_v1) = Net.srcV (m ((c : Thread nD τ).loc main_arg1)) :=
  (Keep.keep2 m ρ c main_v1 (by decide)).trans (src_rd (Gen.W0 m ρ c))
theorem dst_W2 (c : Dev nD) :
    Gen.W2 m ρ c (Proc.devRef .tc main_v3) = Net.dstV (m ((c : Thread nD τ).loc main_arg1)) :=
  (Keep.keep2 m ρ c main_v3 (by decide)).trans (dst_rd (Gen.W0 m ρ c))

-- The buffers no later step writes: the sources, the targets and the argument arrays.
abbrev stable : List (Ref sig .tc) := main_v1 :: main_v3 :: args

end Cert.KernelIdeal.Carry

end
-- ==== Proof.KerRows.lean ====
import proofs.«422151_j2362232012848_1_alg».proof.Proof.Spec
import Idealize.ShloMosaic.Lib.Pipeline.Value
import Idealize.ShloMosaic.Lib.ValueIdx

noncomputable section

namespace Cert.KernelIdeal.Rows

open Idealize.ShloMosaic Idealize.ShloMosaic.ValueIdx

theorem curRow_row {C : ℕ} (b : (⟨1, ![C]⟩ : Shape).Idx → EReal) (h : (⟨1, ![C]⟩ : Shape).ShapeCasts ⟨2, ![1, C]⟩) :
    Spec.curRow (shapeCast ⟨2, ![1, C]⟩ b h) = Spec.cur1 b := by
  funext q
  exact shapeCast_apply b h (ix2 (0 : Fin 1) q) (ix1 q) (by
    rw [Shape.rowMajor_val_two, Shape.rowMajor_val_one]
    show q.val = 0 * C + q.val
    rw [Nat.zero_mul, Nat.zero_add])

theorem unit_entry (e : (⟨0, ![]⟩ : Shape).Idx → EReal) (h : (⟨0, ![]⟩ : Shape).ShapeCasts ⟨2, ![1, 1]⟩) :
    shapeCast ⟨2, ![1, 1]⟩ e h (ix2 (0 : Fin 1) (0 : Fin 1)) = Spec.cur0 e :=
  shapeCast_apply e h (ix2 (0 : Fin 1) (0 : Fin 1)) ix0 (by
    rw [Shape.rowMajor_val_two]
    show (Shape.rowMajorPi _ _).val = 0 * 1 + 0
    rw [Shape.rowMajorPi_zero])

end Cert.KernelIdeal.Rows

end
-- ==== Proof.KerAtom.lean ====
import proofs.«422151_j2362232012848_1_alg».proof.Proof.Reg0
import proofs.«422151_j2362232012848_1_alg».proof.Proof.KerCarryA
import proofs.«422151_j2362232012848_1_alg».proof.Proof.KerRows

noncomputable section

namespace Cert.KernelIdeal.Atom

open Idealize.ShloMosaic Idealize.ShloMosaic.TcCoe Idealize.ShloMosaic.ValueIdx Idealize.SL.Sem
open Cert Cert.KernelIdeal

variable (m : (ℓ : Loc nD τ sig) → Buf (Elt Ideal) ℓ) (ρ : Dev nD → PrngReg)

theorem brow_W1 (c : Dev nD) : Gen.W1 m ρ c (Proc.devRef .tc main_v4)
    = shapeCast S1x64 (m ((c : Thread nD τ).loc main_arg4)) Facts₀.shapeCasts_S64_S1x64 :=
  Carry.brow_rd (Gen.W0 m ρ c)

theorem h0 (c : Dev nD) : Gen.W2 m ρ c (Proc.devRef .tc main_v5)
    = Spec.arr2 (Spec.linC (Spec.cur2 (m ((c : Thread nD τ).loc main_arg0))) (Spec.cur2 (m ((c : Thread nD τ).loc main_arg3)))
        (Spec.cur1 (m ((c : Thread nD τ).loc main_arg4)))) := by
  refine (Keep.out0 m ρ c).trans ((Reg0.value0 (Gen.V1 m ρ) c).trans ?_)
  show Spec.arr2 (Spec.linC (Spec.cur2 (Gen.W1 m ρ c (Proc.devRef .tc main_arg0)))
      (Spec.cur2 (Gen.W1 m ρ c (Proc.devRef .tc main_arg3))) (Spec.curRow (Gen.W1 m ρ c (Proc.devRef .tc main_v4)))) = _
  rw [Carry.args_W1 m ρ c main_arg0 (by decide), Carry.args_W1 m ρ c main_arg3 (by decide), brow_W1 m ρ c,
    Rows.curRow_row]

end Cert.KernelIdeal.Atom

end
-- ==== Proof.LibRegA.lean ====
import Idealize.ShloMosaic.Lib.ValueIdx
import Idealize.ShloMosaic.Lib.Pipeline.Value

namespace Cert.LibRegA

open Idealize.ShloMosaic Idealize.ShloMosaic.ValueIdx

variable {M C B : ℕ} {ix : Fin 2 → ℕ} {n : ℕ}

section Rows

variable {inb : ∀ a, ix a * ![B, C] a + ![B, C] a ≤ (⟨2, ![M, C]⟩ : Shape).size a}

/-- Entry (p, q) of the block of B rows at block index (n, 0) is the array's entry (n · B + p, q). -/
theorem emb_rows (h0 : ix 0 = n) (h1 : ix 1 = 0) (p : Fin B) (q : Fin C) (r : Fin M) (hr : r.val = n * B + p.val) :
    (Rect.unit (s := ⟨2, ![M, C]⟩) (fun a => ix a * ![B, C] a) ![B, C] inb).emb (ix2 p q) = ix2 r q :=
  Shape.idx_ext₂ (by show ix 0 * B + 1 * p.val = r.val; rw [h0, hr, Nat.one_mul])
    (by show ix 1 * C + 1 * q.val = q.val; rw [h1, Nat.zero_mul, Nat.zero_add, Nat.one_mul])

/-- Row r of the array lies in the block of B rows at block index (r / B, 0). -/
theorem mem_rows (hB : 0 < B) (i : (⟨2, ![M, C]⟩ : Shape).Idx) (h0 : ix 0 = (i 0).val / B) (h1 : ix 1 = 0) :
    i ∈ (Rect.unit (s := ⟨2, ![M, C]⟩) (fun a => ix a * ![B, C] a) ![B, C] inb).set :=
  Rect.mem_set_unit.2 (Fin.forall_fin_two.2
    ⟨by show ix 0 * B ≤ (i 0).val ∧ (i 0).val < ix 0 * B + B
        rw [h0]; exact ⟨Nat.div_mul_le_self _ _, Nat.lt_div_mul_add hB⟩,
      by show ix 1 * C ≤ (i 1).val ∧ (i 1).val < ix 1 * C + C
         rw [h1, Nat.zero_mul, Nat.zero_add]; exact ⟨Nat.zero_le _, idx2_lt1 i⟩⟩)

end Rows

/-- The block of the array's own size at block index (0, 0) is the array. -/
theorem emb_whole {inb : ∀ a, ix a * ![M, C] a + ![M, C] a ≤ (⟨2, ![M, C]⟩ : Shape).size a} (h0 : ix 0 = 0)
    (h1 : ix 1 = 0) (y : (⟨2, ![M, C]⟩ : Shape).Idx) :
    (Rect.unit (s := ⟨2, ![M, C]⟩) (fun a => ix a * ![M, C] a) ![M, C] inb).emb y = y :=
  Shape.idx_ext₂ (by show ix 0 * M + 1 * (y 0).val = (y 0).val; rw [h0, Nat.zero_mul, Nat.zero_add, Nat.one_mul])
    (by show ix 1 * C + 1 * (y 1).val = (y 1).val; rw [h1, Nat.zero_mul, Nat.zero_add, Nat.one_mul])

end Cert.LibRegA
-- ==== Proof.Reg1.lean ====
import proofs.«422151_j2362232012848_1_alg».proof.Proof.Gen.KernelIdeal.Frame
import proofs.«422151_j2362232012848_1_alg».proof.Proof.Spec
import proofs.«422151_j2362232012848_1_alg».proof.Proof.LibDotPlain
import proofs.«422151_j2362232012848_1_alg».proof.Proof.LibRegA
import Idealize.ShloMosaic.Lib.ValueLayout
import Idealize.ShloMosaic.Lib.Pipeline.Value

noncomputable section

namespace Cert.KernelIdeal.Reg1

open Idealize.ShloMosaic Idealize.ShloMosaic.TcCoe Idealize.ShloMosaic.ValueIdx
open Cert.KernelIdeal Cert.KernelIdeal.Gen

theorem pay_apply (xa : Vec Ideal S10000x50 .f32) (xw : Vec Ideal S50x64 .f32) (xh : Vec Ideal S10000x64 .f32)
    (xb : Vec Ideal S1x64 .f32) (p : Fin 10000) (q : Fin 64) :
    k1_pay1 (F := Ideal) xa xw xh xb (ix2 p q)
      = max ((xh (ix2 p q) + ∑ k : Fin 50, xa (ix2 p k) * xw (ix2 k q)) + xb (ix2 (0 : Fin 1) q)) 0 := by
  unfold k1_pay1
  refine (maximumf_apply _ _ _).trans ?_
  rw [broadcast_apply]
  show max _ (Ideal.ofBits .f32 0x00000000#32) = _
  rw [Ideal.ofBits_zero_f32]
  congr 1
  refine (addf_apply _ _ _).trans ?_
  congr 1
  · refine (addf_apply _ _ _).trans ?_
    rw [shapeCast_self]
    congr 1
    refine (Cert.LibDotPlain.matmul_zero_apply _ none _ _ p q).trans ?_
    refine Finset.sum_congr rfl fun k _ => ?_
    rw [truncf_apply, truncf_apply, shapeCast_self]
  · rw [broadcastTo_1b_ab_apply, shapeCast_self]

/-- The edge message of the gathered source rows, the edge attributes, the weights and the bias row, as an array. -/
abbrev msgOf (hs : Vec Ideal S800000x64 .f32) (ea : Vec Ideal S800000x50 .f32) (W : Vec Ideal S50x64 .f32)
    (b : Vec Ideal S1x64 .f32) : Vec Ideal S800000x64 .f32 :=
  Spec.arr2 (Spec.edgeC (Spec.cur2 hs) (Spec.cur2 ea) (Spec.cur2 W) (Spec.curRow b))

theorem hz : (![0, 0] : Fin 2 → Nat) = fun _ => 0 := funext fun a => by fin_cases a <;> rfl

/-- A block whose row p is row r of the attributes and of the source rows stores row r of the message at row p. -/
theorem out_rows (hs : Vec Ideal S800000x64 .f32) (ea : Vec Ideal S800000x50 .f32) (W : Vec Ideal S50x64 .f32)
    (b : Vec Ideal S1x64 .f32) (x0 : Vec Ideal S10000x50 .f32) (x1 : Vec Ideal S10000x64 .f32)
    (x2 : Vec Ideal S50x64 .f32) (x3 : Vec Ideal S1x64 .f32) (p : Fin 10000) (q : Fin 64) (r : Fin 800000)
    (h0 : ∀ k : Fin 50, x0 (ix2 p k) = ea (ix2 r k)) (h1 : x1 (ix2 p q) = hs (ix2 r q)) (h2 : x2 = W) (h3 : x3 = b) :
    out1_4 (F := Ideal) x0 x1 x2 x3 (ix2 p q) = msgOf hs ea W b (ix2 r q) := by
  rw [h2, h3]
  unfold out1_4
  rw [View.canon_unit_zero hz]
  simp only [View.ld_unit_zero (S := S10000x50) hz, View.ld_unit_zero (S := S50x64) hz,
    View.ld_unit_zero (S := S10000x64) hz, View.ld_unit_zero (S := S1x64) hz]
  rw [pay_apply, h1]
  show _ = max ((hs (ix2 r q) + ∑ k : Fin 50, ea (ix2 r k) * W (ix2 k q)) + b (ix2 (0 : Fin 1) q)) 0
  congr 3
  exact Finset.sum_congr rfl fun k _ => by rw [h0 k]

/-- Blocks n of the attributes and of the source rows, with all the weights and the bias, give block n of the message. -/
theorem blk_msg (hs : Vec Ideal S800000x64 .f32) (ea : Vec Ideal S800000x50 .f32) (W : Vec Ideal S50x64 .f32)
    (b : Vec Ideal S1x64 .f32) {i0 i1 i2 i3 i4 : Fin 2 → ℕ} {n : ℕ} {inb0 inb1 inb2 inb3 inb4}
    (h : (i4 0 = n ∧ i4 1 = 0) ∧ i0 0 = n ∧ i0 1 = 0 ∧ i1 0 = n ∧ i1 1 = 0 ∧ i2 0 = 0 ∧ i2 1 = 0 ∧ i3 0 = 0 ∧ i3 1 = 0) :
    out1_4 (F := Ideal)
        (fun y => ea ((Rect.unit (s := S800000x50) (fun a => i0 a * S10000x50.size a) S10000x50.size inb0).emb y))
        (fun y => hs ((Rect.unit (s := S800000x64) (fun a => i1 a * S10000x64.size a) S10000x64.size inb1).emb y))
        (fun y => W ((Rect.unit (s := S50x64) (fun a => i2 a * S50x64.size a) S50x64.size inb2).emb y))
        (fun y => b ((Rect.unit (s := S1x64) (fun a => i3 a * S1x64.size a) S1x64.size inb3).emb y))
      = fun y => msgOf hs ea W b
          ((Rect.unit (s := S800000x64) (fun a => i4 a * S10000x64.size a) S10000x64.size inb4).emb y) := by
  funext j
  obtain ⟨p, q, rfl⟩ : ∃ (p : Fin 10000) (q : Fin 64), j = ix2 p q := ⟨j 0, j 1, eq_ix2 j⟩
  obtain ⟨⟨o0, o1⟩, a0, a1, h0, h1, w0, w1, b0, b1⟩ := h
  have hn : n * 10000 + p.val < 800000 := by
    have : i4 0 * 10000 + 10000 ≤ 800000 := inb4 0
    omega
  refine (out_rows hs ea W b _ _ _ _ p q ⟨_, hn⟩ (fun k => ?_) ?_ ?_ ?_).trans
    (congrArg (msgOf hs ea W b) (LibRegA.emb_rows o0 o1 p q ⟨_, hn⟩ rfl)).symm
  · exact congrArg ea (LibRegA.emb_rows a0 a1 p k _ rfl)
  · exact congrArg hs (LibRegA.emb_rows h0 h1 p q _ rfl)
  · exact funext fun y => congrArg W (LibRegA.emb_whole w0 w1 y)
  · exact funext fun y => congrArg b (LibRegA.emb_whole b0 b1 y)

theorem npts : cfg1.N = 80 := by decide

/-- The row block of every row is one of the grid's points. -/
theorem blk_lt (i : S800000x64.Idx) : (i 0).val / 10000 < cfg1.N := by
  rw [npts]; have := idx2_lt0 i; omega

theorem idx_facts : ∀ t : Fin cfg1.N,
    (win1_4.index t (0 : Fin 2) = t.val ∧ win1_4.index t (1 : Fin 2) = 0)
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

variable (V : (c : Dev nD) → (b : Ref sig .tc) → Buf (Elt Ideal) ((c : Thread nD τ).loc b))

theorem arrAt_out (c : Dev nD) :
    (dat1 V c).arrAt 4 cfg1.N
      = msgOf (V c (Pipeline.arrRef spec1 1)) (V c (Pipeline.arrRef spec1 0)) (V c (Pipeline.arrRef spec1 2))
          (V c (Pipeline.arrRef spec1 3)) := by
  refine (dat1 V c).arrAt_eq_of_cover 4 _ (fun t _ => ?_) fun i => ?_
  · show (cfg1.win 4).cut (grid1.coords t) ((dat1 V c).after 4 t) = _
    rw [after1_4]
    exact blk_msg (V c (Pipeline.arrRef spec1 1)) (V c (Pipeline.arrRef spec1 0)) (V c (Pipeline.arrRef spec1 2))
      (V c (Pipeline.arrRef spec1 3)) (idx_facts t)
  · refine ⟨⟨_, blk_lt i⟩, flush1_4 _, ?_⟩
    show i ∈ ((View.whole (Pipeline.arrRef spec1 4)).slice (win1_4.rect ⟨_, blk_lt i⟩)).set
    rw [View.set_slice_whole]
    exact LibRegA.mem_rows (by decide) i (idx_facts _).1.1 (idx_facts _).1.2

end Cert.KernelIdeal.Reg1

end
-- ==== Proof.LibRegBNode.lean ====
import proofs.«422151_j2362232012848_1_alg».proof.Proof.Gen.KernelIdeal.Frame
import proofs.«422151_j2362232012848_1_alg».proof.Proof.Spec
import proofs.«422151_j2362232012848_1_alg».proof.Proof.LibDotPlain
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Fin

noncomputable section

open scoped BigOperators

namespace Cert.KernelIdeal.RegB

open Cert.KernelIdeal Cert.KernelIdeal.Gen Idealize.ShloMosaic Idealize.ShloMosaic.ValueIdx Idealize.ShloMosaic.TcCoe
open Idealize.SL.Sem

theorem dot_apply (A : FVec Ideal S5000x64 .bf16) (B : FVec Ideal S64x64 .bf16) (p : Fin 5000) (q : Fin 64) :
    matmul dot_S5000x64_S64x64_S5000x64_1_0_0_1_n_n none A B (constant S5000x64 .f32 0x00000000#32) (ix2 p q)
      = ∑ k : Fin 64, A (ix2 p k) * B (ix2 k q) :=
  LibDotPlain.matmul_zero_apply dot_S5000x64_S64x64_S5000x64_1_0_0_1_n_n.wf none A B p q

theorem row_apply (v : FVec Ideal S1x64 .f32) (p : Fin 5000) (q : Fin 64) :
    broadcastTo S5000x64 v Facts₀.broadcasts_S1x64_S5000x64 (ix2 p q) = v (ix2 (0 : Fin 1) q) :=
  broadcastTo_1b_ab_apply v _ p q

theorem scal_apply (u : FVec Ideal S1x1 .f32) (p : Fin 5000) (q : Fin 64) :
    broadcastTo S5000x64 u Facts₀.broadcasts_S1x1_S5000x64 (ix2 p q) = u (ix2 (0 : Fin 1) (0 : Fin 1)) := by
  refine broadcastTo_apply u _ (ix2 p q) (ix2 (0 : Fin 1) (0 : Fin 1)) fun ax => ?_
  match ax with
  | ⟨0, _⟩ => rfl
  | ⟨1, _⟩ => rfl

-- The changes of float format are the identity on the extended reals, so the payload is the node update of its blocks.
theorem pay_apply (v0 : Vec Ideal S1x1 .f32) (v4 v8 : Vec Ideal S5000x64 .f32) (v12 : Vec Ideal S64x64 .f32)
    (v16 : Vec Ideal S1x64 .f32) (v23 : Vec Ideal S64x64 .f32) (v27 : Vec Ideal S1x64 .f32) (p : Fin 5000) (q : Fin 64) :
    k2_pay1 (F := Ideal) v0 v4 v8 v12 v16 v23 v27 (ix2 p q)
      = Spec.nodeC (Ideal.ofBits .f32 0x3F800000#32) (v0 (ix2 (0 : Fin 1) (0 : Fin 1))) (Spec.cur2 v4) (Spec.cur2 v8)
          (Spec.cur2 v12) (Spec.curRow v16) (Spec.cur2 v23) (Spec.curRow v27) p q := by
  unfold k2_pay1
  simp only [addf, mulf, maximumf, truncf, broadcast, shapeCast_self, Ideal.addf_def, Ideal.mulf_def, Ideal.maximumf_def,
    Ideal.truncf_def, Ideal.ofBits_def, Ideal.ofBits_zero_f32, dot_apply, row_apply, scal_apply]
  rfl

-- The node update at (p, q) reads row p of h and of agg only.
theorem node_rows {N N' D : ℕ} (one eps : EReal) (h agg : Fin N → Fin D → EReal) (h' agg' : Fin N' → Fin D → EReal)
    (W1 : Fin D → Fin D → EReal) (b1 : Fin D → EReal) (W2 : Fin D → Fin D → EReal) (b2 : Fin D → EReal)
    (p : Fin N) (p' : Fin N') (q : Fin D) (hh : ∀ j, h p j = h' p' j) (ha : ∀ j, agg p j = agg' p' j) :
    Spec.nodeC one eps h agg W1 b1 W2 b2 p q = Spec.nodeC one eps h' agg' W1 b1 W2 b2 p' q := by
  unfold Spec.nodeC
  simp only [hh, ha]

theorem point_eq (H A : Vec Ideal S50000x64 .f32) (x0 x1 : Vec Ideal S5000x64 .f32) (x2 : Vec Ideal S1x1 .f32)
    (x3 : Vec Ideal S64x64 .f32) (x4 : Vec Ideal S1x64 .f32) (x5 : Vec Ideal S64x64 .f32) (x6 : Vec Ideal S1x64 .f32)
    (n : ℕ)
    (h0 : ∀ (y : S5000x64.Idx) (i : S50000x64.Idx), (i 0).val = n * 5000 + (y 0).val → (i 1).val = (y 1).val → x0 y = H i)
    (h1 : ∀ (y : S5000x64.Idx) (i : S50000x64.Idx), (i 0).val = n * 5000 + (y 0).val → (i 1).val = (y 1).val → x1 y = A i)
    (j : S5000x64.Idx) (i : S50000x64.Idx) (hi0 : (i 0).val = n * 5000 + (j 0).val) (hi1 : (i 1).val = (j 1).val) :
    k2_pay1 (F := Ideal) x2 x0 x1 x3 x4 x5 x6 j
      = Spec.arr2 (Spec.nodeC (Ideal.ofBits .f32 0x3F800000#32) (x2 (ix2 (0 : Fin 1) (0 : Fin 1))) (Spec.cur2 H) (Spec.cur2 A)
          (Spec.cur2 x3) (Spec.curRow x4) (Spec.cur2 x5) (Spec.curRow x6)) i := by
  obtain ⟨p, q, rfl⟩ : ∃ (p : Fin 5000) (q : Fin 64), j = ix2 p q := ⟨j 0, j 1, eq_ix2 j⟩
  obtain ⟨r, s, rfl⟩ : ∃ (r : Fin 50000) (s : Fin 64), i = ix2 r s := ⟨i 0, i 1, eq_ix2 i⟩
  have hs : s = q := Fin.ext hi1
  subst hs
  rw [pay_apply]
  exact node_rows _ _ _ _ _ _ _ _ _ _ p r s (fun k => h0 (ix2 p k) (ix2 r k) hi0 rfl) (fun k => h1 (ix2 p k) (ix2 r k) hi0 rfl)

theorem hz : (![0, 0] : Fin 2 → Nat) = fun _ => 0 := funext fun a => by fin_cases a <;> rfl

-- Where the eight blocks of slab n start: the two row blocks and the result's at row n * 5000, the others at the origin.
abbrev Offs (n : ℕ) (o0 o1 o2 o3 o4 o5 o6 o7 : Fin 2 → ℕ) : Prop :=
  (o0 0 = n * 5000 ∧ o0 1 = 0) ∧ (o1 0 = n * 5000 ∧ o1 1 = 0) ∧ (o2 0 = 0 ∧ o2 1 = 0) ∧ (o3 0 = 0 ∧ o3 1 = 0)
    ∧ (o4 0 = 0 ∧ o4 1 = 0) ∧ (o5 0 = 0 ∧ o5 1 = 0) ∧ (o6 0 = 0 ∧ o6 1 = 0) ∧ (o7 0 = n * 5000 ∧ o7 1 = 0)

-- Every layer's node update has these same index maps.
theorem offs : ∀ t : Fin grid2.N, Offs t.val (win2_0.rect t).off (win2_1.rect t).off (win2_2.rect t).off (win2_3.rect t).off
    (win2_4.rect t).off (win2_5.rect t).off (win2_6.rect t).off (win2_7.rect t).off := by
  decide +kernel

theorem ld_rows {n : ℕ} {o : Fin 2 → ℕ} (h : o 0 = n * 5000 ∧ o 1 = 0) {b} (X : Vec Ideal S50000x64 .f32)
    (y : S5000x64.Idx) (i : S50000x64.Idx) (e0 : (i 0).val = n * 5000 + (y 0).val) (e1 : (i 1).val = (y 1).val) :
    View.ld X (Rect.unit (s := S50000x64) o S5000x64.size b) y = X i :=
  congrArg X (Shape.idx_ext₂ (by show o 0 + 1 * (y 0).val = (i 0).val; omega) (by show o 1 + 1 * (y 1).val = (i 1).val; omega))

-- Slab n's payload over blocks read at these offsets is block n of the node update of the whole arrays.
theorem slab {n : ℕ} {o0 o1 o2 o3 o4 o5 o6 o7 : Fin 2 → ℕ} (hO : Offs n o0 o1 o2 o3 o4 o5 o6 o7) {b0 b1 b2 b3 b4 b5 b6 b7}
    (H A : Vec Ideal S50000x64 .f32) (E : Vec Ideal S1x1 .f32) (W1 : Vec Ideal S64x64 .f32) (B1 : Vec Ideal S1x64 .f32)
    (W2 : Vec Ideal S64x64 .f32) (B2 : Vec Ideal S1x64 .f32) {x0 x1 : Vec Ideal S5000x64 .f32} {x2 : Vec Ideal S1x1 .f32}
    {x3 : Vec Ideal S64x64 .f32} {x4 : Vec Ideal S1x64 .f32} {x5 : Vec Ideal S64x64 .f32} {x6 : Vec Ideal S1x64 .f32}
    (e0 : x0 = View.ld H (.unit o0 S5000x64.size b0)) (e1 : x1 = View.ld A (.unit o1 S5000x64.size b1))
    (e2 : x2 = View.ld E (.unit o2 S1x1.size b2)) (e3 : x3 = View.ld W1 (.unit o3 S64x64.size b3))
    (e4 : x4 = View.ld B1 (.unit o4 S1x64.size b4)) (e5 : x5 = View.ld W2 (.unit o5 S64x64.size b5))
    (e6 : x6 = View.ld B2 (.unit o6 S1x64.size b6)) :
    out2_7 (F := Ideal) x0 x1 x2 x3 x4 x5 x6
      = View.ld (S := S50000x64) (Spec.arr2 (Spec.nodeC (Ideal.ofBits .f32 0x3F800000#32) (E (ix2 (0 : Fin 1) (0 : Fin 1)))
          (Spec.cur2 H) (Spec.cur2 A) (Spec.cur2 W1) (Spec.curRow B1) (Spec.cur2 W2) (Spec.curRow B2))) (.unit o7 S5000x64.size b7) := by
  subst e0 e1 e2 e3 e4 e5 e6
  obtain ⟨h0, h1, h2, h3, h4, h5, h6, h7⟩ := hO
  have z : ∀ {o : Fin 2 → ℕ}, o 0 = 0 ∧ o 1 = 0 → o = fun _ => 0 := fun h => funext (Fin.forall_fin_two.2 h)
  unfold out2_7
  rw [View.canon_unit_zero hz]
  simp only [View.ld_unit_zero (S := S5000x64) hz, View.ld_unit_zero (S := S1x1) hz, View.ld_unit_zero (S := S64x64) hz,
    View.ld_unit_zero (S := S1x64) hz, View.ld_unit_zero (S := S1x1) (z h2), View.ld_unit_zero (S := S64x64) (z h3),
    View.ld_unit_zero (S := S1x64) (z h4), View.ld_unit_zero (S := S64x64) (z h5), View.ld_unit_zero (S := S1x64) (z h6)]
  funext j
  exact point_eq H A _ _ E W1 B1 W2 B2 n (ld_rows h0 H) (ld_rows h1 A) j _
    (by show o7 0 + 1 * (j 0).val = _; omega) (by show o7 1 + 1 * (j 1).val = _; omega)

-- Row r lies in slab r / 5000.
def slabOf {N : ℕ} (hN : N = 10) (i : S50000x64.Idx) : Fin N :=
  ⟨(i 0).val / 5000, by have : (i 0).val < 50000 := (i 0).isLt; omega⟩

theorem mem_rows {n : ℕ} {o0 o1 o2 o3 o4 o5 o6 o7 : Fin 2 → ℕ} (hO : Offs n o0 o1 o2 o3 o4 o5 o6 o7) {b}
    (i : S50000x64.Idx) (hi : (i 0).val / 5000 = n) : i ∈ (Rect.unit (s := S50000x64) o7 S5000x64.size b).set := by
  obtain ⟨-, -, -, -, -, -, -, f0, f1⟩ := hO
  have h1 : (i 1).val < 64 := (i 1).isLt
  rw [Rect.mem_set_unit]
  exact Fin.forall_fin_two.2 ⟨by show o7 0 ≤ (i 0).val ∧ (i 0).val < o7 0 + 5000; omega,
    by show o7 1 ≤ (i 1).val ∧ (i 1).val < o7 1 + 64; omega⟩

end Cert.KernelIdeal.RegB

end
-- ==== Proof.Reg2.lean ====
import proofs.«422151_j2362232012848_1_alg».proof.Proof.LibRegBNode

noncomputable section

namespace Cert.KernelIdeal.Reg2

open Cert.KernelIdeal Cert.KernelIdeal.Gen Idealize.ShloMosaic Idealize.ShloMosaic.ValueIdx Idealize.ShloMosaic.TcCoe
open Idealize.SL.Sem

variable (V : (c : Dev nD) → (b : Ref sig .tc) → Buf (Elt Ideal) ((c : Thread nD τ).loc b))

abbrev hArr (c : Dev nD) : Vec Ideal S50000x64 .f32 := V c (Pipeline.arrRef spec2 0)
abbrev aggArr (c : Dev nD) : Vec Ideal S50000x64 .f32 := V c (Pipeline.arrRef spec2 1)
abbrev epsArr (c : Dev nD) : Vec Ideal S1x1 .f32 := V c (Pipeline.arrRef spec2 2)
abbrev w1Arr (c : Dev nD) : Vec Ideal S64x64 .f32 := V c (Pipeline.arrRef spec2 3)
abbrev b1Arr (c : Dev nD) : Vec Ideal S1x64 .f32 := V c (Pipeline.arrRef spec2 4)
abbrev w2Arr (c : Dev nD) : Vec Ideal S64x64 .f32 := V c (Pipeline.arrRef spec2 5)
abbrev b2Arr (c : Dev nD) : Vec Ideal S1x64 .f32 := V c (Pipeline.arrRef spec2 6)

-- Every slab writes its rows of the node update of the whole arrays, and the ten slabs cover the rows.
theorem out_eq_spec (c : Dev nD) :
    (dat2 V c).arrAt 7 cfg2.N
      = Spec.arr2 (Spec.nodeC (Ideal.ofBits .f32 0x3F800000#32) (epsArr V c (ix2 (0 : Fin 1) (0 : Fin 1)))
          (Spec.cur2 (hArr V c)) (Spec.cur2 (aggArr V c)) (Spec.cur2 (w1Arr V c)) (Spec.curRow (b1Arr V c))
          (Spec.cur2 (w2Arr V c)) (Spec.curRow (b2Arr V c))) := by
  refine (dat2 V c).arrAt_eq_of_cover 7 _ (fun t _ => ?_) fun i => ⟨RegB.slabOf N_2 i, flush2_7 _, ?_⟩
  · show (cfg2.win 7).cut (grid2.coords t) ((dat2 V c).after 7 t) = _
    rw [after2_7]
    exact RegB.slab (RegB.offs t) (hArr V c) (aggArr V c) (epsArr V c) (w1Arr V c) (b1Arr V c) (w2Arr V c) (b2Arr V c)
      rfl rfl rfl rfl rfl rfl rfl
  · exact (congrArg (i ∈ ·) (View.set_slice_whole _ _)).mpr (RegB.mem_rows (RegB.offs (RegB.slabOf N_2 i)) i rfl)

end Cert.KernelIdeal.Reg2

end
-- ==== Proof.Reg3.lean ====
import proofs.«422151_j2362232012848_1_alg».proof.Proof.LibRegC
import proofs.«422151_j2362232012848_1_alg».proof.Proof.Spec
import Idealize.ShloMosaic.PureOps.Ideal.Laws
import Idealize.ShloMosaic.Lib.ValueLayout

noncomputable section

namespace Cert.KernelIdeal.Reg3

open Idealize.ShloMosaic Idealize.ShloMosaic.TcCoe Idealize.ShloMosaic.ValueIdx Idealize.SL.Sem
open Cert.KernelIdeal Cert.KernelIdeal.Gen

abbrev eps : EReal := Ideal.ofBits .f32 0x3727C5AC#32

theorem pay15_apply (var gamma : Vec Ideal S1x64 .f32) (z : Vec Ideal S5000x64 .f32) (mu beta : Vec Ideal S1x64 .f32)
    (p : Fin 5000) (q : Fin 64) :
    k15_pay1 (F := Ideal) var gamma z mu beta (ix2 p q)
      = gamma (ix2 (0 : Fin 1) q) * (z (ix2 p q) - mu (ix2 (0 : Fin 1) q))
          * Ideal.rsqrt (var (ix2 (0 : Fin 1) q) + eps) + beta (ix2 (0 : Fin 1) q) := by
  unfold k15_pay1
  refine (addf_apply _ _ _).trans ?_
  refine congrArg₂ (· + ·) ?_ ?_
  · refine (mulf_apply _ _ _).trans ?_
    refine congrArg₂ (· * ·) ?_ ?_
    · refine (mulf_apply _ _ _).trans ?_
      refine congrArg₂ (· * ·) ?_ ?_
      · refine (broadcastTo_1b_ab_apply _ _ p q).trans ?_
        rw [shapeCast_self]
      · refine (subf_apply _ _ _).trans ?_
        refine congrArg₂ (· - ·) ?_ ?_
        · rw [shapeCast_self]
        · refine (broadcastTo_1b_ab_apply _ _ p q).trans ?_
          rw [shapeCast_self]
    · refine (broadcastTo_1b_ab_apply _ _ p q).trans ?_
      show Ideal.rsqrt (shapeCast S1x64 var shapeCasts_S1x64_S1x64 (ix2 (0 : Fin 1) q) + eps) = _
      rw [shapeCast_self]
  · refine (broadcastTo_1b_ab_apply _ _ p q).trans ?_
    rw [shapeCast_self]

-- The layers that cut at zero store the maximum of the same entry and the zero word.
theorem pay3_apply (var gamma : Vec Ideal S1x64 .f32) (z : Vec Ideal S5000x64 .f32) (mu beta : Vec Ideal S1x64 .f32)
    (p : Fin 5000) (q : Fin 64) :
    k3_pay1 (F := Ideal) var gamma z mu beta (ix2 p q)
      = max (gamma (ix2 (0 : Fin 1) q) * (z (ix2 p q) - mu (ix2 (0 : Fin 1) q))
          * Ideal.rsqrt (var (ix2 (0 : Fin 1) q) + eps) + beta (ix2 (0 : Fin 1) q)) 0 := by
  unfold k3_pay1
  exact (maximumf_apply _ _ _).trans (congrArg₂ max (pay15_apply var gamma z mu beta p q) Ideal.ofBits_zero_f32)

abbrev whole {R : ℕ} (relu : Bool) (z : (⟨2, ![R, 64]⟩ : Shape).Idx → EReal) (mu var gamma beta : S1x64.Idx → EReal) :
    (⟨2, ![R, 64]⟩ : Shape).Idx → EReal :=
  Spec.arr2 (Spec.bnC relu eps (Spec.cur2 z) (Spec.curRow mu) (Spec.curRow var) (Spec.curRow gamma) (Spec.curRow beta))

theorem out15_eq (x0 : Vec Ideal S5000x64 .f32) (x1 x2 x3 x4 : Vec Ideal S1x64 .f32) :
    out15_5 (F := Ideal) x0 x1 x2 x3 x4 = whole false x0 x1 x2 x3 x4 := by
  unfold out15_5
  rw [View.canon_unit_zero LibRegC.zeros2]
  simp only [View.ld_unit_zero (S := S5000x64) LibRegC.zeros2, View.ld_unit_zero (S := S1x64) LibRegC.zeros2]
  exact funext fun j => (congrArg _ (eq_ix2 j)).trans (pay15_apply x2 x3 x0 x1 x4 (j 0) (j 1))

theorem out3_eq (x0 : Vec Ideal S5000x64 .f32) (x1 x2 x3 x4 : Vec Ideal S1x64 .f32) :
    out3_5 (F := Ideal) x0 x1 x2 x3 x4 = whole true x0 x1 x2 x3 x4 := by
  unfold out3_5
  rw [View.canon_unit_zero LibRegC.zeros2]
  simp only [View.ld_unit_zero (S := S5000x64) LibRegC.zeros2, View.ld_unit_zero (S := S1x64) LibRegC.zeros2]
  exact funext fun j => (congrArg _ (eq_ix2 j)).trans (pay3_apply x2 x3 x0 x1 x4 (j 0) (j 1))

-- An entry reads z at its own place and the one-row arrays at its column, so normalising commutes with taking a block of rows.
theorem whole_block (relu : Bool) (z : S50000x64.Idx → EReal) (mu var gamma beta : S1x64.Idx → EReal)
    {e0 e5 : S5000x64.Idx → S50000x64.Idx} {e1 e2 e3 e4 : S1x64.Idx → S1x64.Idx} {i0 i1 i2 i3 i4 i5 : Fin 2 → ℕ}
    (h0 : ∀ j a, (e0 j a).val = i0 a * S5000x64.size a + (j a).val)
    (h1 : ∀ j a, (e1 j a).val = i1 a * S1x64.size a + (j a).val)
    (h2 : ∀ j a, (e2 j a).val = i2 a * S1x64.size a + (j a).val)
    (h3 : ∀ j a, (e3 j a).val = i3 a * S1x64.size a + (j a).val)
    (h4 : ∀ j a, (e4 j a).val = i4 a * S1x64.size a + (j a).val)
    (h5 : ∀ j a, (e5 j a).val = i5 a * S5000x64.size a + (j a).val)
    {t : ℕ} (r0 : i0 0 = t ∧ i0 1 = 0) (r5 : i5 0 = t ∧ i5 1 = 0)
    (z1 : ∀ a, i1 a = 0) (z2 : ∀ a, i2 a = 0) (z3 : ∀ a, i3 a = 0) (z4 : ∀ a, i4 a = 0) :
    whole relu (fun j => z (e0 j)) (fun j => mu (e1 j)) (fun j => var (e2 j)) (fun j => gamma (e3 j)) (fun j => beta (e4 j))
      = fun j => whole relu z mu var gamma beta (e5 j) := by
  funext j
  obtain ⟨a0, b0⟩ := LibRegC.emb_row h0 r0 j
  obtain ⟨a5, b5⟩ := LibRegC.emb_row h5 r5 j
  have hz : Spec.cur2 (fun j => z (e0 j)) (j 0) (j 1) = Spec.cur2 z (e5 j 0) (e5 j 1) :=
    (congrArg (fun k => z (e0 k)) (eq_ix2 j).symm).trans
      ((congrArg z (Shape.idx_ext₂ (a0.trans a5.symm) (congrArg Fin.val (b0.trans b5.symm)))).trans (congrArg z (eq_ix2 (e5 j))))
  have hm : Spec.curRow (fun j => mu (e1 j)) = Spec.curRow mu := funext fun _ => congrArg mu (LibRegC.emb_id h1 z1 _)
  have hv : Spec.curRow (fun j => var (e2 j)) = Spec.curRow var := funext fun _ => congrArg var (LibRegC.emb_id h2 z2 _)
  have hg : Spec.curRow (fun j => gamma (e3 j)) = Spec.curRow gamma := funext fun _ => congrArg gamma (LibRegC.emb_id h3 z3 _)
  have hb : Spec.curRow (fun j => beta (e4 j)) = Spec.curRow beta := funext fun _ => congrArg beta (LibRegC.emb_id h4 z4 _)
  show Spec.bnC relu eps _ _ _ _ _ (j 0) (j 1) = Spec.bnC relu eps _ _ _ _ _ (e5 j 0) (e5 j 1)
  rw [hm, hv, hg, hb]
  unfold Spec.bnC
  rw [hz, b5]

variable (V : (c : Dev nD) → (b : Ref sig .tc) → Buf (Elt Ideal) ((c : Thread nD τ).loc b))

theorem arrAt_out (c : Dev nD) :
    (dat3 V c).arrAt 5 cfg3.N
      = Spec.arr2 (Spec.bnC true (Ideal.ofBits .f32 0x3727C5AC#32)
          (Spec.cur2 (V c (Pipeline.arrRef spec3 0))) (Spec.curRow (V c (Pipeline.arrRef spec3 1)))
          (Spec.curRow (V c (Pipeline.arrRef spec3 2))) (Spec.curRow (V c (Pipeline.arrRef spec3 3)))
          (Spec.curRow (V c (Pipeline.arrRef spec3 4)))) :=
  (dat3 V c).arrAt_eq_of_cover 5 _
    (fun t _ => by
      show (cfg3.win 5).cut (grid3.coords t) ((dat3 V c).after 5 t) = _
      rw [after3_5]
      refine (out3_eq _ _ _ _ _).trans ?_
      have hr := (LibRegC.idx t).1
      have hz := (LibRegC.idx t).2
      exact whole_block true (V c (Pipeline.arrRef spec3 0)) (V c (Pipeline.arrRef spec3 1))
        (V c (Pipeline.arrRef spec3 2)) (V c (Pipeline.arrRef spec3 3)) (V c (Pipeline.arrRef spec3 4))
        (win3_0.rect_emb_val t) (win3_1.rect_emb_val t) (win3_2.rect_emb_val t) (win3_3.rect_emb_val t)
        (win3_4.rect_emb_val t) (win3_5.rect_emb_val t) hr hr hz hz hz hz)
    fun i => (LibRegC.cover_rows N_3 win3_5.index (fun t => (LibRegC.idx t).1) _ _
      (fun t => View.set_slice_whole (Pipeline.arrRef spec3 5) (win3_5.rect t)) i).imp fun t h => ⟨flush3_5 t, h⟩

end Cert.KernelIdeal.Reg3

end
-- ==== Proof.KerCarry0.lean ====
import proofs.«422151_j2362232012848_1_alg».proof.Proof.KerCarryA

noncomputable section

namespace Cert.KernelIdeal.Carry

open Idealize.ShloMosaic Idealize.ShloMosaic.TcCoe Idealize.SL.Sem
open Cert Cert.KernelIdeal

variable {F : FTy → Type} [FloatOps F]
variable (m : (ℓ : Loc nD τ sig) → Buf (Elt F) ℓ) (ρ : Dev nD → PrngReg) (c : Dev nD) (b : Ref sig .tc) (hb : b ∈ stable)
include hb

theorem st_W3 : Gen.W3 m ρ c (Proc.devRef .tc b) = Gen.W2 m ρ c (Proc.devRef .tc b) :=
  Keep.keep3 m ρ c b (by revert b; decide)
theorem st_W4 : Gen.W4 m ρ c (Proc.devRef .tc b) = Gen.W2 m ρ c (Proc.devRef .tc b) :=
  (Keep.keep4 m ρ c b (by revert b; decide)).trans (st_W3 m ρ c b hb)
theorem st_W5 : Gen.W5 m ρ c (Proc.devRef .tc b) = Gen.W2 m ρ c (Proc.devRef .tc b) :=
  (Keep.keep5 m ρ c b (by revert b; decide)).trans (st_W4 m ρ c b hb)
theorem st_W6 : Gen.W6 m ρ c (Proc.devRef .tc b) = Gen.W2 m ρ c (Proc.devRef .tc b) :=
  (Keep.keep6 m ρ c b (by revert b; decide)).trans (st_W5 m ρ c b hb)
theorem st_W7 : Gen.W7 m ρ c (Proc.devRef .tc b) = Gen.W2 m ρ c (Proc.devRef .tc b) :=
  (Keep.keep7 m ρ c b (by revert b; decide)).trans (st_W6 m ρ c b hb)
theorem st_W8 : Gen.W8 m ρ c (Proc.devRef .tc b) = Gen.W2 m ρ c (Proc.devRef .tc b) :=
  (Keep.keep8 m ρ c b (by revert b; decide)).trans (st_W7 m ρ c b hb)
theorem st_W9 : Gen.W9 m ρ c (Proc.devRef .tc b) = Gen.W2 m ρ c (Proc.devRef .tc b) :=
  (Keep.keep9 m ρ c b (by revert b; decide)).trans (st_W8 m ρ c b hb)
theorem st_W10 : Gen.W10 m ρ c (Proc.devRef .tc b) = Gen.W2 m ρ c (Proc.devRef .tc b) :=
  (Keep.keep10 m ρ c b (by revert b; decide)).trans (st_W9 m ρ c b hb)
theorem st_W11 : Gen.W11 m ρ c (Proc.devRef .tc b) = Gen.W2 m ρ c (Proc.devRef .tc b) :=
  (Keep.keep11 m ρ c b (by revert b; decide)).trans (st_W10 m ρ c b hb)

end Cert.KernelIdeal.Carry

end
-- ==== Proof.KerCast.lean ====
import Idealize.ShloMosaic.Lib.StableHlo

namespace Cert.KernelIdeal.Cast

open Idealize.ShloMosaic

variable {sig : RefSig} {Val : EltTy → Type} {T : BufTy}

theorem ofBuf_toBuf (x : StableHlo.TRef sig T) (v : T.Contents Val) : x.ofBuf (x.toBuf v) = v := by
  obtain ⟨r, h, a, b⟩ := x
  subst h
  rfl

theorem toBuf_heq (x : StableHlo.TRef sig T) (v : T.Contents Val) : HEq (x.toBuf v) v :=
  cast_heq _ _

end Cert.KernelIdeal.Cast
-- ==== Proof.LibUnitAxis.lean ====
import Idealize.ShloMosaic.Lib.ValueIdx
import Idealize.ShloMosaic.Lib.Pipeline.Value
import Idealize.ShloMosaic.Lib.ValueLayout
import Idealize.ShloMosaic.PureOps.Reduce

noncomputable section

namespace Cert.LibUnitAxis

open Idealize.ShloMosaic Idealize.ShloMosaic.ValueIdx

variable {α : Type}

theorem bcast_col_apply {M : Nat} (h : (⟨1, ![M]⟩ : Shape).BroadcastsInDim ⟨2, ![M, 1]⟩ ![0])
    (v : (⟨1, ![M]⟩ : Shape).Idx → α) (p : Fin M) :
    broadcastInDim ⟨2, ![M, 1]⟩ ![0] h v (ix2 p (0 : Fin 1)) = v (ix1 p) := by
  refine broadcastInDim_apply _ h v _ (ix1 p) ?_
  intro a
  match a with
  | ⟨0, _⟩ =>
    show p.val = if M = 1 then 0 else p.val
    split
    · next h1 => have := p.isLt; omega
    · rfl

theorem bcast_cols_apply {M C : Nat} (h : (⟨1, ![M]⟩ : Shape).BroadcastsInDim ⟨2, ![M, C]⟩ ![0])
    (v : (⟨1, ![M]⟩ : Shape).Idx → α) (p : Fin M) (q : Fin C) :
    broadcastInDim ⟨2, ![M, C]⟩ ![0] h v (ix2 p q) = v (ix1 p) := by
  refine broadcastInDim_apply _ h v _ (ix1 p) ?_
  intro a
  match a with
  | ⟨0, _⟩ =>
    show p.val = if M = 1 then 0 else p.val
    split
    · next h1 => have := p.isLt; omega
    · rfl

theorem reduce_andi_unit_apply {M : Nat} {u : Shape} (x : IVec ⟨2, ![M, 1]⟩ 1) (init : u.Idx → BitVec 1)
    (h : (⟨2, ![M, 1]⟩ : Shape).ReducesTo [1] ⟨1, ![M]⟩) (hu : 0 < u.numel) (hinit : ∀ i, init i = 1#1) (p : Fin M) :
    Host.reduce IntOp.andi x init h hu (ix1 p) = x (ix2 p (0 : Fin 1)) := by
  rw [Host.reduce_eq_fold]
  have hset : (Finset.univ.filter fun i : (⟨2, ![M, 1]⟩ : Shape).Idx => h.drop i = ix1 p)
      = {ix2 p (0 : Fin 1)} := by
    ext i
    simp only [Finset.mem_filter, Finset.mem_univ, true_and, Finset.mem_singleton]
    have hv : ((h.drop i) 0 : Nat) = (i 0).val := Shape.ReducesTo.drop_apply_val h i 0
    constructor
    · intro e
      rw [e] at hv
      funext a
      match a with
      | ⟨0, _⟩ => exact Fin.ext hv.symm
      | ⟨1, _⟩ =>
        refine Fin.ext ?_
        have h1 : (i 1).val < 1 := (i 1).isLt
        show (i 1).val = 0
        omega
    · intro e
      subst e
      funext b
      match b with
      | ⟨0, _⟩ => exact Fin.ext hv
  rw [hset, Finset.fold_singleton, hinit]
  rcases BitVec.eq_zero_or_eq_one (x (ix2 p (0 : Fin 1))) with e | e <;> rw [e] <;> decide

end Cert.LibUnitAxis

end
-- ==== Proof.LibTakeFill.lean ====
import Idealize.ShloMosaic.PureOps.Ideal
import Idealize.ShloMosaic.PureOps.Reduce
import Idealize.ShloMosaic.Lib.ValueIdx
import Idealize.ShloMosaic.Lib.ValueLayout
import Idealize.ShloMosaic.Lib.Pipeline.Value
import proofs.«422151_j2362232012848_1_alg».proof.Proof.LibUnitAxis

noncomputable section

namespace Cert.LibTakeFill

open Idealize.ShloMosaic Idealize.ShloMosaic.ValueIdx

variable {N C M : ℕ}

abbrev S0 : Shape := ⟨0, ![]⟩
abbrev S1 : Shape := ⟨1, ![1]⟩
abbrev S11 : Shape := ⟨2, ![1, 1]⟩

def wrapCol (nWord : BitVec 32) (b0 : S0.BroadcastsInDim ⟨1, ![M]⟩ (![] : Fin 0 → Fin 1))
    (bcol : (⟨1, ![M]⟩ : Shape).BroadcastsInDim ⟨2, ![M, 1]⟩ (![0] : Fin 1 → Fin 2))
    (idx : IVec ⟨1, ![M]⟩ 32) : IVec ⟨2, ![M, 1]⟩ 32 :=
  broadcastInDim ⟨2, ![M, 1]⟩ ![0] bcol
    (select (cmpi .slt idx (broadcastInDim ⟨1, ![M]⟩ ![] b0 (constantI S0 32 0#32)))
      (addi idx (broadcastInDim ⟨1, ![M]⟩ ![] b0 (constantI S0 32 nWord))) idx)

def inRangeMask (maxWord : BitVec 32)
    (b01 : S0.BroadcastsInDim ⟨2, ![M, 1]⟩ (![] : Fin 0 → Fin 2))
    (b1 : S1.BroadcastsInDim S11 (![1] : Fin 1 → Fin 2))
    (b11 : S11.BroadcastsInDim ⟨2, ![M, 1]⟩ (![0, 1] : Fin 2 → Fin 2))
    (rt : (⟨2, ![M, 1]⟩ : Shape).ReducesTo [1] ⟨1, ![M]⟩) (h0 : 0 < S0.numel)
    (bc : (⟨1, ![M]⟩ : Shape).BroadcastsInDim ⟨2, ![M, C]⟩ (![0] : Fin 1 → Fin 2))
    (w : IVec ⟨2, ![M, 1]⟩ 32) : IVec ⟨2, ![M, C]⟩ 1 :=
  broadcastInDim ⟨2, ![M, C]⟩ ![0] bc
    (Host.reduce IntOp.andi
      (andi (cmpi .sge w (broadcastInDim ⟨2, ![M, 1]⟩ ![] b01 (constantI S0 32 0#32)))
            (cmpi .sle w (broadcastInDim ⟨2, ![M, 1]⟩ ![0, 1] b11 (broadcastInDim S11 ![1] b1 (constantI S1 32 maxWord)))))
      (constantI S0 1 1#1) rt h0)

theorem cmpi_slt_zero_of_nonneg (a : BitVec 32) (h : 0 ≤ a.toInt) : IntOp.cmpi .slt a 0#32 = 0#1 := by
  have h0 : (0#32 : BitVec 32).toInt = 0 := by decide
  have hs : a.slt 0#32 = false := by
    simp only [BitVec.slt, h0, decide_eq_false_iff_not]; omega
  show BitVec.ofBool (a.slt 0#32) = 0#1
  rw [hs]; rfl

theorem cmpi_sge_zero_of_nonneg (a : BitVec 32) (h : 0 ≤ a.toInt) : IntOp.cmpi .sge a 0#32 = 1#1 := by
  have h0 : (0#32 : BitVec 32).toInt = 0 := by decide
  have hs : (0#32 : BitVec 32).sle a = true := by
    simp only [BitVec.sle, h0, decide_eq_true_eq]; exact h
  show BitVec.ofBool ((0#32 : BitVec 32).sle a) = 1#1
  rw [hs]; rfl

theorem cmpi_sle_of_le (a b : BitVec 32) (h : a.toInt ≤ b.toInt) : IntOp.cmpi .sle a b = 1#1 := by
  have hs : a.sle b = true := by
    simp only [BitVec.sle, decide_eq_true_eq]; exact h
  show BitVec.ofBool (a.sle b) = 1#1
  rw [hs]; rfl

theorem wrapCol_apply (nWord : BitVec 32) (b0 : S0.BroadcastsInDim ⟨1, ![M]⟩ (![] : Fin 0 → Fin 1))
    (bcol : (⟨1, ![M]⟩ : Shape).BroadcastsInDim ⟨2, ![M, 1]⟩ (![0] : Fin 1 → Fin 2))
    (idx : IVec ⟨1, ![M]⟩ 32) (p : Fin M) (hp : 0 ≤ (idx (ix1 p)).toInt) :
    wrapCol nWord b0 bcol idx (ix2 p (0 : Fin 1)) = idx (ix1 p) := by
  unfold wrapCol
  rw [LibUnitAxis.bcast_col_apply, select_apply]
  have hc : cmpi .slt idx (broadcastInDim ⟨1, ![M]⟩ ![] b0 (constantI S0 32 0#32)) (ix1 p) = 0#1 :=
    cmpi_slt_zero_of_nonneg (idx (ix1 p)) hp
  rw [hc, select_zero]

theorem inRangeMask_eq_ones (maxWord : BitVec 32)
    (b01 : S0.BroadcastsInDim ⟨2, ![M, 1]⟩ (![] : Fin 0 → Fin 2))
    (b1 : S1.BroadcastsInDim S11 (![1] : Fin 1 → Fin 2))
    (b11 : S11.BroadcastsInDim ⟨2, ![M, 1]⟩ (![0, 1] : Fin 2 → Fin 2))
    (rt : (⟨2, ![M, 1]⟩ : Shape).ReducesTo [1] ⟨1, ![M]⟩) (h0 : 0 < S0.numel)
    (bc : (⟨1, ![M]⟩ : Shape).BroadcastsInDim ⟨2, ![M, C]⟩ (![0] : Fin 1 → Fin 2))
    (w : IVec ⟨2, ![M, 1]⟩ 32)
    (hw : ∀ p : Fin M, 0 ≤ (w (ix2 p (0 : Fin 1))).toInt ∧ (w (ix2 p (0 : Fin 1))).toInt ≤ maxWord.toInt) :
    inRangeMask (C := C) maxWord b01 b1 b11 rt h0 bc w = fun _ => 1#1 := by
  funext j
  obtain ⟨p, q, rfl⟩ : ∃ (p : Fin M) (q : Fin C), j = ix2 p q := ⟨j 0, j 1, eq_ix2 j⟩
  unfold inRangeMask
  rw [LibUnitAxis.bcast_cols_apply,
    LibUnitAxis.reduce_andi_unit_apply _ (constantI S0 1 1#1) rt h0 (fun _ => rfl) p]
  show IntOp.andi (IntOp.cmpi .sge (w (ix2 p (0 : Fin 1))) 0#32) (IntOp.cmpi .sle (w (ix2 p (0 : Fin 1))) maxWord) = 1#1
  rw [cmpi_sge_zero_of_nonneg _ (hw p).1, cmpi_sle_of_le _ _ (hw p).2]
  rfl

theorem take_fill_eq {α : Type} (nWord maxWord : BitVec 32)
    (b0 : S0.BroadcastsInDim ⟨1, ![M]⟩ (![] : Fin 0 → Fin 1))
    (bcol : (⟨1, ![M]⟩ : Shape).BroadcastsInDim ⟨2, ![M, 1]⟩ (![0] : Fin 1 → Fin 2))
    (b01 : S0.BroadcastsInDim ⟨2, ![M, 1]⟩ (![] : Fin 0 → Fin 2))
    (b1 : S1.BroadcastsInDim S11 (![1] : Fin 1 → Fin 2))
    (b11 : S11.BroadcastsInDim ⟨2, ![M, 1]⟩ (![0, 1] : Fin 2 → Fin 2))
    (rt : (⟨2, ![M, 1]⟩ : Shape).ReducesTo [1] ⟨1, ![M]⟩) (h0 : 0 < S0.numel)
    (bc : (⟨1, ![M]⟩ : Shape).BroadcastsInDim ⟨2, ![M, C]⟩ (![0] : Fin 1 → Fin 2))
    (idx : IVec ⟨1, ![M]⟩ 32)
    (hidx : ∀ p : Fin M, 0 ≤ (idx (ix1 p)).toInt ∧ (idx (ix1 p)).toInt ≤ maxWord.toInt)
    (g f : (⟨2, ![M, C]⟩ : Shape).Idx → α) :
    select (inRangeMask (C := C) maxWord b01 b1 b11 rt h0 bc (wrapCol nWord b0 bcol idx)) g f = g := by
  have hw : ∀ p : Fin M, 0 ≤ (wrapCol nWord b0 bcol idx (ix2 p (0 : Fin 1))).toInt
      ∧ (wrapCol nWord b0 bcol idx (ix2 p (0 : Fin 1))).toInt ≤ maxWord.toInt := fun p => by
    rw [wrapCol_apply nWord b0 bcol idx p (hidx p).1]; exact hidx p
  rw [inRangeMask_eq_ones maxWord b01 b1 b11 rt h0 bc _ hw]
  funext j
  exact select_one (g j) (f j)

end Cert.LibTakeFill

end
-- ==== Proof.LibKerLNet.lean ====
import proofs.«422151_j2362232012848_1_alg».proof.Proof.KerNet
import proofs.«422151_j2362232012848_1_alg».proof.Proof.LibTakeFill

noncomputable section

namespace Cert.KernelIdeal.Net

open Idealize.ShloMosaic Idealize.ShloMosaic.ValueIdx
open Cert.KernelIdeal Cert.KernelIdeal.Facts₀ Cert.KernelIdeal.Facts

variable {F : FTy → Type} [FloatOps F] [Facts]

-- The take in fill mode: the gathered rows where the wrapped index is a row number, the fill value elsewhere.
def takeK (h : FVec F S50000x64 .f32) (s : IVec S800000 32) : FVec F S800000x64 .f32 :=
  select
    (LibTakeFill.inRangeMask (M := 800000) (C := 64) 49999#32 bcast_S_S800000x1 bcast_S1_S1x1_1 bcast_S1x1_S800000x1_0_1
      reducesTo_S800000x1_S800000_d1 h_S_ bcast_S800000_S800000x64_0
      (LibTakeFill.wrapCol (M := 800000) 50000#32 bcast_S_S800000 bcast_S800000_S800000x1_0 s))
    (gatherK h s) (broadcastInDim S800000x64 ![] bcast_S_S800000x64 (constant (F := F) S_ .f32 0x7FC00000#32))

-- The column variance over the divisor 50000 minus the float of a given integer correction k.
def varOfK (k : IVec S_ 32) (z : FVec F S50000x64 .f32) : FVec F S64 .f32 :=
  select
    (broadcastInDim S64 ![] bcast_S_S64
      (cmpf .ogt (subf (constant (F := F) S_ .f32 0x47435000#32) (sitofp (F := F) .f32 k))
        (constant (F := F) S_ .f32 0x00000000#32)))
    (Host.divf (colSumK (sqDevK z))
      (broadcastInDim S64 ![] bcast_S_S64 (subf (constant (F := F) S_ .f32 0x47435000#32) (sitofp (F := F) .f32 k))))
    (broadcastInDim S64 ![] bcast_S_S64 (id (constant (F := F) S_ .f32 0x7FC00000#32)))

end Cert.KernelIdeal.Net

end
-- ==== Proof.KerReads0.lean ====
import proofs.«422151_j2362232012848_1_alg».proof.Proof.Gen.KernelIdeal.Launch
import proofs.«422151_j2362232012848_1_alg».proof.Proof.KerNet
import proofs.«422151_j2362232012848_1_alg».proof.Proof.KerCast
import proofs.«422151_j2362232012848_1_alg».proof.Proof.LibKerLNet
import Idealize.ShloMosaic.Lib.StableHlo.Run

set_option maxRecDepth 16384

noncomputable section

namespace Cert.KernelIdeal.Reads0

open Idealize.ShloMosaic Idealize.ShloMosaic.ValueIdx
open Cert Cert.KernelIdeal

variable {F : FTy → Type} [FloatOps F]
variable (V : Valuation τ sig (Elt F))

set_option maxHeartbeats 1000000 in
theorem take_rd : StableHlo.after (Gen.hostOps1 (F := F)) V (Proc.devRef .tc main_v6)
    = Net.takeK (V (Proc.devRef .tc main_v5)) (V (Proc.devRef .tc main_v1)) := by
  after_results
  simp only [Cast.ofBuf_toBuf]
  refine (eq_of_heq (Cast.toBuf_heq _ _)).trans ?_
  rfl

theorem ew_rd : StableHlo.after (Gen.hostOps1_1 (F := F)) V (Proc.devRef .tc main_v8)
    = Net.sliceEW ![0, 0, 0] Facts₀.slices_S5x50x64_S1x50x64_0_0_0 (V (Proc.devRef .tc main_arg5)) := by
  after_results
  rfl

theorem eb_rd : StableHlo.after (Gen.hostOps1_1 (F := F)) V (Proc.devRef .tc main_v11)
    = shapeCast S1x64 (Net.sliceVec ![0, 0] Facts₀.slices_S5x64_S1x64_0_0 (V (Proc.devRef .tc main_arg6)))
        Facts₀.shapeCasts_S64_S1x64 := by
  after_results
  rfl

theorem agg_rd : StableHlo.after (Gen.hostOps2 (F := F)) V (Proc.devRef .tc main_v15)
    = Net.aggK (V (Proc.devRef .tc main_v12)) (V (Proc.devRef .tc main_v3)) := by
  after_results
  rfl

theorem eps_rd : StableHlo.after (Gen.hostOps2 (F := F)) V (Proc.devRef .tc main_v26)
    = shapeCast S1x1 (Net.sliceScalar ![0] Facts₀.slices_S5_S1_0 (V (Proc.devRef .tc main_arg11))) Facts₀.shapeCasts_S_S1x1 := by
  after_results
  rfl

theorem w1_rd : StableHlo.after (Gen.hostOps2 (F := F)) V (Proc.devRef .tc main_v19)
    = Net.sliceMat ![0, 0, 0] Facts₀.slices_S5x64x64_S1x64x64_0_0_0 (V (Proc.devRef .tc main_arg7)) := by
  after_results
  rfl

theorem b1_rd : StableHlo.after (Gen.hostOps2 (F := F)) V (Proc.devRef .tc main_v27)
    = shapeCast S1x64 (Net.sliceVec ![0, 0] Facts₀.slices_S5x64_S1x64_0_0 (V (Proc.devRef .tc main_arg8)))
        Facts₀.shapeCasts_S64_S1x64 := by
  after_results
  rfl

theorem w2_rd : StableHlo.after (Gen.hostOps2 (F := F)) V (Proc.devRef .tc main_v23)
    = Net.sliceMat ![0, 0, 0] Facts₀.slices_S5x64x64_S1x64x64_0_0_0 (V (Proc.devRef .tc main_arg9)) := by
  after_results
  rfl

theorem b2_rd : StableHlo.after (Gen.hostOps2 (F := F)) V (Proc.devRef .tc main_v28)
    = shapeCast S1x64 (Net.sliceVec ![0, 0] Facts₀.slices_S5x64_S1x64_0_0 (V (Proc.devRef .tc main_arg10)))
        Facts₀.shapeCasts_S64_S1x64 := by
  after_results
  rfl

theorem mu_rd : StableHlo.after (Gen.hostOps3 (F := F)) V (Proc.devRef .tc main_v32)
    = Net.muK (V (Proc.devRef .tc main_v29)) := by
  after_results
  rfl

theorem zero_rd : StableHlo.after (Gen.hostOps3 (F := F)) V (Proc.devRef .tc main_c) = constantI S_ 32 0#32 := by
  after_results

set_option maxHeartbeats 1000000 in
theorem var_rd : StableHlo.after (Gen.hostOps3_1 (F := F)) V (Proc.devRef .tc main_v33)
    = Net.varOfK (V (Proc.devRef .tc main_c)) (V (Proc.devRef .tc main_v29)) := by
  after_results
  simp only [Cast.ofBuf_toBuf]
  refine (eq_of_heq (Cast.toBuf_heq _ _)).trans ?_
  rfl

theorem murow_rd : StableHlo.after (Gen.hostOps3_2 (F := F)) V (Proc.devRef .tc main_v38)
    = shapeCast S1x64 (V (Proc.devRef .tc main_v32)) Facts₀.shapeCasts_S64_S1x64 := by
  after_results
  rfl

theorem varrow_rd : StableHlo.after (Gen.hostOps3_2 (F := F)) V (Proc.devRef .tc main_v39)
    = shapeCast S1x64 (V (Proc.devRef .tc main_v33)) Facts₀.shapeCasts_S64_S1x64 := by
  after_results
  rfl

theorem gamma_rd : StableHlo.after (Gen.hostOps3_2 (F := F)) V (Proc.devRef .tc main_v40)
    = shapeCast S1x64 (Net.sliceVec ![0, 0] Facts₀.slices_S5x64_S1x64_0_0 (V (Proc.devRef .tc main_arg12)))
        Facts₀.shapeCasts_S64_S1x64 := by
  after_results
  rfl

theorem beta_rd : StableHlo.after (Gen.hostOps3_2 (F := F)) V (Proc.devRef .tc main_v41)
    = shapeCast S1x64 (Net.sliceVec ![0, 0] Facts₀.slices_S5x64_S1x64_0_0 (V (Proc.devRef .tc main_arg13)))
        Facts₀.shapeCasts_S64_S1x64 := by
  after_results
  rfl

end Cert.KernelIdeal.Reads0

end
-- ==== Proof.LibKerL.lean ====
import proofs.«422151_j2362232012848_1_alg».proof.Proof.KerCarryA
import proofs.«422151_j2362232012848_1_alg».proof.Proof.KerRows
import proofs.«422151_j2362232012848_1_alg».proof.Proof.LibKerLNet

noncomputable section

namespace Cert.KernelIdeal.Layer

open Idealize.ShloMosaic Idealize.ShloMosaic.TcCoe Idealize.ShloMosaic.ValueIdx Idealize.SL.Sem
open Cert Cert.KernelIdeal

variable (m : (ℓ : Loc nD τ sig) → Buf (Elt Ideal) ℓ) (ρ : Dev nD → PrngReg) (c : Dev nD)
variable {o3 : Fin 3 → ℕ} {o2 : Fin 2 → ℕ} {o1 : Fin 1 → ℕ} {hEW : S5x50x64.Slices o3 S1x50x64}
  {hM : S5x64x64.Slices o3 S1x64x64} {hV : S5x64.Slices o2 S1x64} {hS : S5.Slices o1 S1}
  {h : FVec Ideal S50000x64 .f32}

-- Where every source is a row number the take is its gather branch, so the edge call forms the network's messages.
theorem msg_of (Wa Wb Wc : Valuation τ sig (Elt Ideal))
    (Aa : ∀ b ∈ Carry.stable, Wa (Proc.devRef .tc b) = Gen.W2 m ρ c (Proc.devRef .tc b))
    (Ab : ∀ b ∈ Carry.stable, Wb (Proc.devRef .tc b) = Gen.W2 m ρ c (Proc.devRef .tc b))
    (Ac : ∀ b ∈ Carry.stable, Wc (Proc.devRef .tc b) = Gen.W2 m ρ c (Proc.devRef .tc b))
    (hsrc : ∀ p : Fin 800000, 0 ≤ (Net.srcV (m ((c : Thread nD τ).loc main_arg1)) (ix1 p)).toInt
      ∧ (Net.srcV (m ((c : Thread nD τ).loc main_arg1)) (ix1 p)).toInt ≤ (49999#32 : BitVec 32).toInt)
    {g gc msg : FVec Ideal S800000x64 .f32} {ew : FVec Ideal S50x64 .f32} {ebr : FVec Ideal S1x64 .f32}
    (Rg : g = Net.takeK h (Wa (Proc.devRef .tc main_v1)))
    (Kg : gc = g)
    (Rew : ew = Net.sliceEW o3 hEW (Wb (Proc.devRef .tc main_arg5)))
    (Reb : ebr = shapeCast S1x64 (Net.sliceVec o2 hV (Wb (Proc.devRef .tc main_arg6))) Facts₀.shapeCasts_S64_S1x64)
    (G : msg = Spec.arr2 (Spec.edgeC (Spec.cur2 gc) (Spec.cur2 (Wc (Proc.devRef .tc main_arg2))) (Spec.cur2 ew)
      (Spec.curRow ebr))) :
    msg = Net.msgK (Net.sliceEW o3 hEW (m ((c : Thread nD τ).loc main_arg5)))
      (Net.sliceVec o2 hV (m ((c : Thread nD τ).loc main_arg6))) (Net.srcV (m ((c : Thread nD τ).loc main_arg1)))
      (m ((c : Thread nD τ).loc main_arg2)) h := by
  rw [G, Kg, Rg, Rew, Reb, Aa main_v1 (by decide), Ab main_arg5 (by decide), Ab main_arg6 (by decide),
    Ac main_arg2 (by decide), Carry.src_W2 m ρ c, Carry.args_W2 m ρ c main_arg5 (by decide),
    Carry.args_W2 m ρ c main_arg6 (by decide), Carry.args_W2 m ρ c main_arg2 (by decide), Rows.curRow_row,
    show Net.takeK h _ = Net.gatherK h _ from LibTakeFill.take_fill_eq 50000#32 49999#32 _ _ _ _ _ _ _ _ _ hsrc _ _]
  rfl

-- The node update's result is the network's node update of the summed messages and the layer's parameters.
theorem node_of (Wd : Valuation τ sig (Elt Ideal))
    (Ad : ∀ b ∈ Carry.stable, Wd (Proc.devRef .tc b) = Gen.W2 m ρ c (Proc.devRef .tc b))
    {msg : FVec Ideal S800000x64 .f32} {agg he z : FVec Ideal S50000x64 .f32} {epsr : FVec Ideal S1x1 .f32}
    {w1 w2 : FVec Ideal S64x64 .f32} {b1r b2r : FVec Ideal S1x64 .f32}
    (M : msg = Net.msgK (Net.sliceEW o3 hEW (m ((c : Thread nD τ).loc main_arg5)))
      (Net.sliceVec o2 hV (m ((c : Thread nD τ).loc main_arg6))) (Net.srcV (m ((c : Thread nD τ).loc main_arg1)))
      (m ((c : Thread nD τ).loc main_arg2)) h)
    (Ragg : agg = Net.aggK msg (Wd (Proc.devRef .tc main_v3)))
    (Reps : epsr = shapeCast S1x1 (Net.sliceScalar o1 hS (Wd (Proc.devRef .tc main_arg11))) Facts₀.shapeCasts_S_S1x1)
    (Rw1 : w1 = Net.sliceMat o3 hM (Wd (Proc.devRef .tc main_arg7)))
    (Rb1 : b1r = shapeCast S1x64 (Net.sliceVec o2 hV (Wd (Proc.devRef .tc main_arg8))) Facts₀.shapeCasts_S64_S1x64)
    (Rw2 : w2 = Net.sliceMat o3 hM (Wd (Proc.devRef .tc main_arg9)))
    (Rb2 : b2r = shapeCast S1x64 (Net.sliceVec o2 hV (Wd (Proc.devRef .tc main_arg10))) Facts₀.shapeCasts_S64_S1x64)
    (Kh : he = h)
    (G : z = Spec.arr2 (Spec.nodeC (Ideal.ofBits .f32 0x3F800000#32) (epsr (ix2 (0 : Fin 1) (0 : Fin 1)))
      (Spec.cur2 he) (Spec.cur2 agg) (Spec.cur2 w1) (Spec.curRow b1r) (Spec.cur2 w2) (Spec.curRow b2r))) :
    z = Net.nodeK (Net.sliceEW o3 hEW (m ((c : Thread nD τ).loc main_arg5)))
      (Net.sliceVec o2 hV (m ((c : Thread nD τ).loc main_arg6)))
      (Net.sliceScalar o1 hS (m ((c : Thread nD τ).loc main_arg11)))
      (Net.sliceMat o3 hM (m ((c : Thread nD τ).loc main_arg7))) (Net.sliceVec o2 hV (m ((c : Thread nD τ).loc main_arg8)))
      (Net.sliceMat o3 hM (m ((c : Thread nD τ).loc main_arg9))) (Net.sliceVec o2 hV (m ((c : Thread nD τ).loc main_arg10)))
      (Net.srcV (m ((c : Thread nD τ).loc main_arg1))) (Net.dstV (m ((c : Thread nD τ).loc main_arg1)))
      (m ((c : Thread nD τ).loc main_arg2)) h := by
  rw [G, Kh, Ragg, Reps, Rw1, Rb1, Rw2, Rb2, M, Ad main_v3 (by decide), Ad main_arg11 (by decide),
    Ad main_arg7 (by decide), Ad main_arg8 (by decide), Ad main_arg9 (by decide), Ad main_arg10 (by decide),
    Carry.dst_W2 m ρ c, Carry.args_W2 m ρ c main_arg11 (by decide), Carry.args_W2 m ρ c main_arg7 (by decide),
    Carry.args_W2 m ρ c main_arg8 (by decide), Carry.args_W2 m ρ c main_arg9 (by decide),
    Carry.args_W2 m ρ c main_arg10 (by decide), Rows.unit_entry, Rows.curRow_row, Rows.curRow_row]
  rfl

-- The variance's correction is the zero written before it, so the statistics are the network's and the result its layer.
theorem layer_of {relu : Bool} (Wh : Valuation τ sig (Elt Ideal))
    (Ah : ∀ b ∈ Carry.stable, Wh (Proc.devRef .tc b) = Gen.W2 m ρ c (Proc.devRef .tc b))
    {z zv zn out : FVec Ideal S50000x64 .f32} {mu muv var : FVec Ideal S64 .f32} {zero : IVec S_ 32}
    {mur varr gr br : FVec Ideal S1x64 .f32}
    (Z : z = Net.nodeK (Net.sliceEW o3 hEW (m ((c : Thread nD τ).loc main_arg5)))
      (Net.sliceVec o2 hV (m ((c : Thread nD τ).loc main_arg6)))
      (Net.sliceScalar o1 hS (m ((c : Thread nD τ).loc main_arg11)))
      (Net.sliceMat o3 hM (m ((c : Thread nD τ).loc main_arg7))) (Net.sliceVec o2 hV (m ((c : Thread nD τ).loc main_arg8)))
      (Net.sliceMat o3 hM (m ((c : Thread nD τ).loc main_arg9))) (Net.sliceVec o2 hV (m ((c : Thread nD τ).loc main_arg10)))
      (Net.srcV (m ((c : Thread nD τ).loc main_arg1))) (Net.dstV (m ((c : Thread nD τ).loc main_arg1)))
      (m ((c : Thread nD τ).loc main_arg2)) h)
    (Rmu : mu = Net.muK z) (Kmu : muv = mu) (Rzero : zero = constantI S_ 32 0#32) (Kzv : zv = z)
    (Rvar : var = Net.varOfK zero zv)
    (Rmur : mur = shapeCast S1x64 muv Facts₀.shapeCasts_S64_S1x64)
    (Rvarr : varr = shapeCast S1x64 var Facts₀.shapeCasts_S64_S1x64)
    (Rgr : gr = shapeCast S1x64 (Net.sliceVec o2 hV (Wh (Proc.devRef .tc main_arg12))) Facts₀.shapeCasts_S64_S1x64)
    (Rbr : br = shapeCast S1x64 (Net.sliceVec o2 hV (Wh (Proc.devRef .tc main_arg13))) Facts₀.shapeCasts_S64_S1x64)
    (Kzn : zn = z)
    (G : out = Spec.arr2 (Spec.bnC relu (Ideal.ofBits .f32 0x3727C5AC#32) (Spec.cur2 zn) (Spec.curRow mur)
      (Spec.curRow varr) (Spec.curRow gr) (Spec.curRow br))) :
    out = Net.layerK relu (Net.sliceEW o3 hEW (m ((c : Thread nD τ).loc main_arg5)))
      (Net.sliceVec o2 hV (m ((c : Thread nD τ).loc main_arg6)))
      (Net.sliceScalar o1 hS (m ((c : Thread nD τ).loc main_arg11)))
      (Net.sliceMat o3 hM (m ((c : Thread nD τ).loc main_arg7))) (Net.sliceVec o2 hV (m ((c : Thread nD τ).loc main_arg8)))
      (Net.sliceMat o3 hM (m ((c : Thread nD τ).loc main_arg9))) (Net.sliceVec o2 hV (m ((c : Thread nD τ).loc main_arg10)))
      (Net.sliceVec o2 hV (m ((c : Thread nD τ).loc main_arg12))) (Net.sliceVec o2 hV (m ((c : Thread nD τ).loc main_arg13)))
      (Net.srcV (m ((c : Thread nD τ).loc main_arg1))) (Net.dstV (m ((c : Thread nD τ).loc main_arg1)))
      (m ((c : Thread nD τ).loc main_arg2)) h := by
  rw [G, Kzn, Rmur, Rvarr, Rgr, Rbr, Kmu, Rmu, Rvar, Rzero, Kzv, Ah main_arg12 (by decide), Ah main_arg13 (by decide),
    Carry.args_W2 m ρ c main_arg12 (by decide), Carry.args_W2 m ρ c main_arg13 (by decide), Rows.curRow_row,
    Rows.curRow_row, Rows.curRow_row, Rows.curRow_row, Z]
  rfl

end Cert.KernelIdeal.Layer

end
-- ==== Proof.KerLayer0.lean ====
import proofs.«422151_j2362232012848_1_alg».proof.Proof.Reg1
import proofs.«422151_j2362232012848_1_alg».proof.Proof.Reg2
import proofs.«422151_j2362232012848_1_alg».proof.Proof.Reg3
import proofs.«422151_j2362232012848_1_alg».proof.Proof.KerCarry0
import proofs.«422151_j2362232012848_1_alg».proof.Proof.KerReads0
import proofs.«422151_j2362232012848_1_alg».proof.Proof.LibKerL

noncomputable section

namespace Cert.KernelIdeal.Layer0

open Idealize.ShloMosaic Idealize.ShloMosaic.TcCoe Idealize.ShloMosaic.ValueIdx Idealize.SL.Sem
open Cert Cert.KernelIdeal

variable (m : (ℓ : Loc nD τ sig) → Buf (Elt Ideal) ℓ) (ρ : Dev nD → PrngReg)

theorem layer0 (c : Dev nD)
    (hsrc : ∀ p : Fin 800000, 0 ≤ (Net.srcV (m ((c : Thread nD τ).loc main_arg1)) (ix1 p)).toInt
      ∧ (Net.srcV (m ((c : Thread nD τ).loc main_arg1)) (ix1 p)).toInt ≤ (49999#32 : BitVec 32).toInt) :
    Gen.W11 m ρ c (Proc.devRef .tc main_v42)
      = Net.layerK true
          (Net.sliceEW (F := Ideal) ![0, 0, 0] Facts₀.slices_S5x50x64_S1x50x64_0_0_0 (m ((c : Thread nD τ).loc main_arg5)))
          (Net.sliceVec (F := Ideal) ![0, 0] Facts₀.slices_S5x64_S1x64_0_0 (m ((c : Thread nD τ).loc main_arg6)))
          (Net.sliceScalar (F := Ideal) ![0] Facts₀.slices_S5_S1_0 (m ((c : Thread nD τ).loc main_arg11)))
          (Net.sliceMat (F := Ideal) ![0, 0, 0] Facts₀.slices_S5x64x64_S1x64x64_0_0_0 (m ((c : Thread nD τ).loc main_arg7)))
          (Net.sliceVec (F := Ideal) ![0, 0] Facts₀.slices_S5x64_S1x64_0_0 (m ((c : Thread nD τ).loc main_arg8)))
          (Net.sliceMat (F := Ideal) ![0, 0, 0] Facts₀.slices_S5x64x64_S1x64x64_0_0_0 (m ((c : Thread nD τ).loc main_arg9)))
          (Net.sliceVec (F := Ideal) ![0, 0] Facts₀.slices_S5x64_S1x64_0_0 (m ((c : Thread nD τ).loc main_arg10)))
          (Net.sliceVec (F := Ideal) ![0, 0] Facts₀.slices_S5x64_S1x64_0_0 (m ((c : Thread nD τ).loc main_arg12)))
          (Net.sliceVec (F := Ideal) ![0, 0] Facts₀.slices_S5x64_S1x64_0_0 (m ((c : Thread nD τ).loc main_arg13)))
          (Net.srcV (m ((c : Thread nD τ).loc main_arg1))) (Net.dstV (m ((c : Thread nD τ).loc main_arg1)))
          (m ((c : Thread nD τ).loc main_arg2))
          (Gen.W2 m ρ c (Proc.devRef .tc main_v5)) :=
  Layer.layer_of m ρ c (Gen.W9 m ρ c) (Carry.st_W9 m ρ c)
    (Layer.node_of m ρ c (Gen.W5 m ρ c) (Carry.st_W5 m ρ c)
      (Layer.msg_of m ρ c (Gen.W2 m ρ c) (Gen.W3 m ρ c) (Gen.W4 m ρ c) (fun _ _ => rfl) (Carry.st_W3 m ρ c) (Carry.st_W4 m ρ c) hsrc
        (Reads0.take_rd (Gen.W2 m ρ c)) (Keep.keep4 m ρ c main_v6 (by decide)) (Reads0.ew_rd (Gen.W3 m ρ c)) (Reads0.eb_rd (Gen.W3 m ρ c))
        ((Keep.out1 m ρ c).trans (Reg1.arrAt_out (Gen.V4 m ρ) c)))
      (Reads0.agg_rd (Gen.W5 m ρ c)) (Reads0.eps_rd (Gen.W5 m ρ c)) (Reads0.w1_rd (Gen.W5 m ρ c)) (Reads0.b1_rd (Gen.W5 m ρ c))
      (Reads0.w2_rd (Gen.W5 m ρ c)) (Reads0.b2_rd (Gen.W5 m ρ c))
      ((Keep.keep6 m ρ c main_v5 (by decide)).trans ((Keep.keep5 m ρ c main_v5 (by decide)).trans
        ((Keep.keep4 m ρ c main_v5 (by decide)).trans (Keep.keep3 m ρ c main_v5 (by decide)))))
      ((Keep.out2 m ρ c).trans (Reg2.out_eq_spec (Gen.V6 m ρ) c)))
    (Reads0.mu_rd (Gen.W7 m ρ c)) (Keep.keep9 m ρ c main_v32 (by decide)) (Reads0.zero_rd (Gen.W7 m ρ c)) (Keep.keep8 m ρ c main_v29 (by decide))
    (Reads0.var_rd (Gen.W8 m ρ c)) (Reads0.murow_rd (Gen.W9 m ρ c)) (Reads0.varrow_rd (Gen.W9 m ρ c)) (Reads0.gamma_rd (Gen.W9 m ρ c))
    (Reads0.beta_rd (Gen.W9 m ρ c))
    ((Keep.keep10 m ρ c main_v29 (by decide)).trans ((Keep.keep9 m ρ c main_v29 (by decide)).trans (Keep.keep8 m ρ c main_v29 (by decide))))
    ((Keep.out3 m ρ c).trans (Reg3.arrAt_out (Gen.V10 m ρ) c))

end Cert.KernelIdeal.Layer0

end
-- ==== Proof.Reg4.lean ====
import proofs.«422151_j2362232012848_1_alg».proof.Proof.Reg1

noncomputable section

namespace Cert.KernelIdeal.Reg4

open Idealize.ShloMosaic Idealize.ShloMosaic.TcCoe Idealize.ShloMosaic.ValueIdx
open Cert.KernelIdeal Cert.KernelIdeal.Gen

variable (V : (c : Dev nD) → (b : Ref sig .tc) → Buf (Elt Ideal) ((c : Thread nD τ).loc b))

theorem arrAt_out (c : Dev nD) :
    (dat4 V c).arrAt 4 cfg4.N
      = Reg1.msgOf (V c (Pipeline.arrRef spec4 1)) (V c (Pipeline.arrRef spec4 0)) (V c (Pipeline.arrRef spec4 2))
          (V c (Pipeline.arrRef spec4 3)) := by
  refine (dat4 V c).arrAt_eq_of_cover 4 _ (fun t _ => ?_) fun i => ?_
  · show (cfg4.win 4).cut (grid4.coords t) ((dat4 V c).after 4 t) = _
    rw [after4_4]
    exact Reg1.blk_msg (V c (Pipeline.arrRef spec4 1)) (V c (Pipeline.arrRef spec4 0)) (V c (Pipeline.arrRef spec4 2))
      (V c (Pipeline.arrRef spec4 3)) (Reg1.idx_facts t)
  · refine ⟨⟨_, Reg1.blk_lt i⟩, flush4_4 _, ?_⟩
    show i ∈ ((View.whole (Pipeline.arrRef spec4 4)).slice (win4_4.rect ⟨_, Reg1.blk_lt i⟩)).set
    rw [View.set_slice_whole]
    exact LibRegA.mem_rows (by decide) i (Reg1.idx_facts _).1.1 (Reg1.idx_facts _).1.2

end Cert.KernelIdeal.Reg4

end
-- ==== Proof.Reg5.lean ====
import proofs.«422151_j2362232012848_1_alg».proof.Proof.LibRegBNode

noncomputable section

namespace Cert.KernelIdeal.Reg5

open Cert.KernelIdeal Cert.KernelIdeal.Gen Idealize.ShloMosaic Idealize.ShloMosaic.ValueIdx Idealize.ShloMosaic.TcCoe
open Idealize.SL.Sem

variable (V : (c : Dev nD) → (b : Ref sig .tc) → Buf (Elt Ideal) ((c : Thread nD τ).loc b))

abbrev hArr (c : Dev nD) : Vec Ideal S50000x64 .f32 := V c (Pipeline.arrRef spec5 0)
abbrev aggArr (c : Dev nD) : Vec Ideal S50000x64 .f32 := V c (Pipeline.arrRef spec5 1)
abbrev epsArr (c : Dev nD) : Vec Ideal S1x1 .f32 := V c (Pipeline.arrRef spec5 2)
abbrev w1Arr (c : Dev nD) : Vec Ideal S64x64 .f32 := V c (Pipeline.arrRef spec5 3)
abbrev b1Arr (c : Dev nD) : Vec Ideal S1x64 .f32 := V c (Pipeline.arrRef spec5 4)
abbrev w2Arr (c : Dev nD) : Vec Ideal S64x64 .f32 := V c (Pipeline.arrRef spec5 5)
abbrev b2Arr (c : Dev nD) : Vec Ideal S1x64 .f32 := V c (Pipeline.arrRef spec5 6)

-- Every slab writes its rows of the node update of the whole arrays, and the ten slabs cover the rows.
theorem out_eq_spec (c : Dev nD) :
    (dat5 V c).arrAt 7 cfg5.N
      = Spec.arr2 (Spec.nodeC (Ideal.ofBits .f32 0x3F800000#32) (epsArr V c (ix2 (0 : Fin 1) (0 : Fin 1)))
          (Spec.cur2 (hArr V c)) (Spec.cur2 (aggArr V c)) (Spec.cur2 (w1Arr V c)) (Spec.curRow (b1Arr V c))
          (Spec.cur2 (w2Arr V c)) (Spec.curRow (b2Arr V c))) := by
  refine (dat5 V c).arrAt_eq_of_cover 7 _ (fun t _ => ?_) fun i => ⟨RegB.slabOf N_5 i, flush5_7 _, ?_⟩
  · show (cfg5.win 7).cut (grid5.coords t) ((dat5 V c).after 7 t) = _
    rw [after5_7]
    exact RegB.slab (RegB.offs t) (hArr V c) (aggArr V c) (epsArr V c) (w1Arr V c) (b1Arr V c) (w2Arr V c) (b2Arr V c)
      rfl rfl rfl rfl rfl rfl rfl
  · exact (congrArg (i ∈ ·) (View.set_slice_whole _ _)).mpr (RegB.mem_rows (RegB.offs (RegB.slabOf N_5 i)) i rfl)

end Cert.KernelIdeal.Reg5

end
-- ==== Proof.Reg6.lean ====
import proofs.«422151_j2362232012848_1_alg».proof.Proof.Reg3

noncomputable section

namespace Cert.KernelIdeal.Reg6

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

theorem arrAt_out (c : Dev nD) :
    (dat6 V c).arrAt 5 cfg6.N
      = Spec.arr2 (Spec.bnC true (Ideal.ofBits .f32 0x3727C5AC#32)
          (Spec.cur2 (V c (Pipeline.arrRef spec6 0))) (Spec.curRow (V c (Pipeline.arrRef spec6 1)))
          (Spec.curRow (V c (Pipeline.arrRef spec6 2))) (Spec.curRow (V c (Pipeline.arrRef spec6 3)))
          (Spec.curRow (V c (Pipeline.arrRef spec6 4)))) :=
  (dat6 V c).arrAt_eq_of_cover 5 _
    (fun t _ => by
      show (cfg6.win 5).cut (grid6.coords t) ((dat6 V c).after 5 t) = _
      rw [after6_5]
      refine (Reg3.out3_eq _ _ _ _ _).trans ?_
      have hr := (LibRegC.idx t).1
      have hz := (LibRegC.idx t).2
      exact Reg3.whole_block true (V c (Pipeline.arrRef spec6 0)) (V c (Pipeline.arrRef spec6 1))
        (V c (Pipeline.arrRef spec6 2)) (V c (Pipeline.arrRef spec6 3)) (V c (Pipeline.arrRef spec6 4))
        (win6_0.rect_emb_val t) (win6_1.rect_emb_val t) (win6_2.rect_emb_val t) (win6_3.rect_emb_val t)
        (win6_4.rect_emb_val t) (win6_5.rect_emb_val t) hr hr hz hz hz hz)
    fun i => (LibRegC.cover_rows N_6 win6_5.index (fun t => (LibRegC.idx t).1) _ _
      (fun t => View.set_slice_whole (Pipeline.arrRef spec6 5) (win6_5.rect t)) i).imp fun t h => ⟨flush6_5 t, h⟩

end Cert.KernelIdeal.Reg6

end
-- ==== Proof.KerCarry1.lean ====
import proofs.«422151_j2362232012848_1_alg».proof.Proof.KerCarry0

noncomputable section

namespace Cert.KernelIdeal.Carry

open Idealize.ShloMosaic Idealize.ShloMosaic.TcCoe Idealize.SL.Sem
open Cert Cert.KernelIdeal

variable {F : FTy → Type} [FloatOps F]
variable (m : (ℓ : Loc nD τ sig) → Buf (Elt F) ℓ) (ρ : Dev nD → PrngReg) (c : Dev nD) (b : Ref sig .tc) (hb : b ∈ stable)
include hb

theorem st_W12 : Gen.W12 m ρ c (Proc.devRef .tc b) = Gen.W2 m ρ c (Proc.devRef .tc b) :=
  (Keep.keep12 m ρ c b (by revert b; decide)).trans (st_W11 m ρ c b hb)
theorem st_W13 : Gen.W13 m ρ c (Proc.devRef .tc b) = Gen.W2 m ρ c (Proc.devRef .tc b) :=
  (Keep.keep13 m ρ c b (by revert b; decide)).trans (st_W12 m ρ c b hb)
theorem st_W14 : Gen.W14 m ρ c (Proc.devRef .tc b) = Gen.W2 m ρ c (Proc.devRef .tc b) :=
  (Keep.keep14 m ρ c b (by revert b; decide)).trans (st_W13 m ρ c b hb)
theorem st_W15 : Gen.W15 m ρ c (Proc.devRef .tc b) = Gen.W2 m ρ c (Proc.devRef .tc b) :=
  (Keep.keep15 m ρ c b (by revert b; decide)).trans (st_W14 m ρ c b hb)
theorem st_W16 : Gen.W16 m ρ c (Proc.devRef .tc b) = Gen.W2 m ρ c (Proc.devRef .tc b) :=
  (Keep.keep16 m ρ c b (by revert b; decide)).trans (st_W15 m ρ c b hb)
theorem st_W17 : Gen.W17 m ρ c (Proc.devRef .tc b) = Gen.W2 m ρ c (Proc.devRef .tc b) :=
  (Keep.keep17 m ρ c b (by revert b; decide)).trans (st_W16 m ρ c b hb)
theorem st_W18 : Gen.W18 m ρ c (Proc.devRef .tc b) = Gen.W2 m ρ c (Proc.devRef .tc b) :=
  (Keep.keep18 m ρ c b (by revert b; decide)).trans (st_W17 m ρ c b hb)
theorem st_W19 : Gen.W19 m ρ c (Proc.devRef .tc b) = Gen.W2 m ρ c (Proc.devRef .tc b) :=
  (Keep.keep19 m ρ c b (by revert b; decide)).trans (st_W18 m ρ c b hb)
theorem st_W20 : Gen.W20 m ρ c (Proc.devRef .tc b) = Gen.W2 m ρ c (Proc.devRef .tc b) :=
  (Keep.keep20 m ρ c b (by revert b; decide)).trans (st_W19 m ρ c b hb)

end Cert.KernelIdeal.Carry

end
-- ==== Proof.KerReads1.lean ====
import proofs.«422151_j2362232012848_1_alg».proof.Proof.Gen.KernelIdeal.Launch
import proofs.«422151_j2362232012848_1_alg».proof.Proof.KerNet
import proofs.«422151_j2362232012848_1_alg».proof.Proof.KerCast
import proofs.«422151_j2362232012848_1_alg».proof.Proof.LibKerLNet
import Idealize.ShloMosaic.Lib.StableHlo.Run

set_option maxRecDepth 16384

noncomputable section

namespace Cert.KernelIdeal.Reads1

open Idealize.ShloMosaic Idealize.ShloMosaic.ValueIdx
open Cert Cert.KernelIdeal

variable {F : FTy → Type} [FloatOps F]
variable (V : Valuation τ sig (Elt F))

set_option maxHeartbeats 1000000 in
theorem take_rd : StableHlo.after (Gen.hostOps4 (F := F)) V (Proc.devRef .tc main_v43)
    = Net.takeK (V (Proc.devRef .tc main_v42)) (V (Proc.devRef .tc main_v1)) := by
  after_results
  simp only [Cast.ofBuf_toBuf]
  refine (eq_of_heq (Cast.toBuf_heq _ _)).trans ?_
  rfl

theorem ew_rd : StableHlo.after (Gen.hostOps4_1 (F := F)) V (Proc.devRef .tc main_v45)
    = Net.sliceEW ![1, 0, 0] Facts₀.slices_S5x50x64_S1x50x64_1_0_0 (V (Proc.devRef .tc main_arg5)) := by
  after_results
  rfl

theorem eb_rd : StableHlo.after (Gen.hostOps4_1 (F := F)) V (Proc.devRef .tc main_v48)
    = shapeCast S1x64 (Net.sliceVec ![1, 0] Facts₀.slices_S5x64_S1x64_1_0 (V (Proc.devRef .tc main_arg6)))
        Facts₀.shapeCasts_S64_S1x64 := by
  after_results
  rfl

theorem agg_rd : StableHlo.after (Gen.hostOps5 (F := F)) V (Proc.devRef .tc main_v52)
    = Net.aggK (V (Proc.devRef .tc main_v49)) (V (Proc.devRef .tc main_v3)) := by
  after_results
  rfl

theorem eps_rd : StableHlo.after (Gen.hostOps5 (F := F)) V (Proc.devRef .tc main_v63)
    = shapeCast S1x1 (Net.sliceScalar ![1] Facts₀.slices_S5_S1_1 (V (Proc.devRef .tc main_arg11))) Facts₀.shapeCasts_S_S1x1 := by
  after_results
  rfl

theorem w1_rd : StableHlo.after (Gen.hostOps5 (F := F)) V (Proc.devRef .tc main_v56)
    = Net.sliceMat ![1, 0, 0] Facts₀.slices_S5x64x64_S1x64x64_1_0_0 (V (Proc.devRef .tc main_arg7)) := by
  after_results
  rfl

theorem b1_rd : StableHlo.after (Gen.hostOps5 (F := F)) V (Proc.devRef .tc main_v64)
    = shapeCast S1x64 (Net.sliceVec ![1, 0] Facts₀.slices_S5x64_S1x64_1_0 (V (Proc.devRef .tc main_arg8)))
        Facts₀.shapeCasts_S64_S1x64 := by
  after_results
  rfl

theorem w2_rd : StableHlo.after (Gen.hostOps5 (F := F)) V (Proc.devRef .tc main_v60)
    = Net.sliceMat ![1, 0, 0] Facts₀.slices_S5x64x64_S1x64x64_1_0_0 (V (Proc.devRef .tc main_arg9)) := by
  after_results
  rfl

theorem b2_rd : StableHlo.after (Gen.hostOps5 (F := F)) V (Proc.devRef .tc main_v65)
    = shapeCast S1x64 (Net.sliceVec ![1, 0] Facts₀.slices_S5x64_S1x64_1_0 (V (Proc.devRef .tc main_arg10)))
        Facts₀.shapeCasts_S64_S1x64 := by
  after_results
  rfl

theorem mu_rd : StableHlo.after (Gen.hostOps6 (F := F)) V (Proc.devRef .tc main_v69)
    = Net.muK (V (Proc.devRef .tc main_v66)) := by
  after_results
  rfl

theorem zero_rd : StableHlo.after (Gen.hostOps6 (F := F)) V (Proc.devRef .tc main_c_5) = constantI S_ 32 0#32 := by
  after_results

set_option maxHeartbeats 1000000 in
theorem var_rd : StableHlo.after (Gen.hostOps6_1 (F := F)) V (Proc.devRef .tc main_v70)
    = Net.varOfK (V (Proc.devRef .tc main_c_5)) (V (Proc.devRef .tc main_v66)) := by
  after_results
  simp only [Cast.ofBuf_toBuf]
  refine (eq_of_heq (Cast.toBuf_heq _ _)).trans ?_
  rfl

theorem murow_rd : StableHlo.after (Gen.hostOps6_2 (F := F)) V (Proc.devRef .tc main_v75)
    = shapeCast S1x64 (V (Proc.devRef .tc main_v69)) Facts₀.shapeCasts_S64_S1x64 := by
  after_results
  rfl

theorem varrow_rd : StableHlo.after (Gen.hostOps6_2 (F := F)) V (Proc.devRef .tc main_v76)
    = shapeCast S1x64 (V (Proc.devRef .tc main_v70)) Facts₀.shapeCasts_S64_S1x64 := by
  after_results
  rfl

theorem gamma_rd : StableHlo.after (Gen.hostOps6_2 (F := F)) V (Proc.devRef .tc main_v77)
    = shapeCast S1x64 (Net.sliceVec ![1, 0] Facts₀.slices_S5x64_S1x64_1_0 (V (Proc.devRef .tc main_arg12)))
        Facts₀.shapeCasts_S64_S1x64 := by
  after_results
  rfl

theorem beta_rd : StableHlo.after (Gen.hostOps6_2 (F := F)) V (Proc.devRef .tc main_v78)
    = shapeCast S1x64 (Net.sliceVec ![1, 0] Facts₀.slices_S5x64_S1x64_1_0 (V (Proc.devRef .tc main_arg13)))
        Facts₀.shapeCasts_S64_S1x64 := by
  after_results
  rfl

end Cert.KernelIdeal.Reads1

end
-- ==== Proof.KerLayer1.lean ====
import proofs.«422151_j2362232012848_1_alg».proof.Proof.Reg4
import proofs.«422151_j2362232012848_1_alg».proof.Proof.Reg5
import proofs.«422151_j2362232012848_1_alg».proof.Proof.Reg6
import proofs.«422151_j2362232012848_1_alg».proof.Proof.KerCarry1
import proofs.«422151_j2362232012848_1_alg».proof.Proof.KerReads1
import proofs.«422151_j2362232012848_1_alg».proof.Proof.LibKerL

noncomputable section

namespace Cert.KernelIdeal.Layer1

open Idealize.ShloMosaic Idealize.ShloMosaic.TcCoe Idealize.ShloMosaic.ValueIdx Idealize.SL.Sem
open Cert Cert.KernelIdeal

variable (m : (ℓ : Loc nD τ sig) → Buf (Elt Ideal) ℓ) (ρ : Dev nD → PrngReg)

theorem layer1 (c : Dev nD)
    (hsrc : ∀ p : Fin 800000, 0 ≤ (Net.srcV (m ((c : Thread nD τ).loc main_arg1)) (ix1 p)).toInt
      ∧ (Net.srcV (m ((c : Thread nD τ).loc main_arg1)) (ix1 p)).toInt ≤ (49999#32 : BitVec 32).toInt) :
    Gen.W20 m ρ c (Proc.devRef .tc main_v79)
      = Net.layerK true
          (Net.sliceEW (F := Ideal) ![1, 0, 0] Facts₀.slices_S5x50x64_S1x50x64_1_0_0 (m ((c : Thread nD τ).loc main_arg5)))
          (Net.sliceVec (F := Ideal) ![1, 0] Facts₀.slices_S5x64_S1x64_1_0 (m ((c : Thread nD τ).loc main_arg6)))
          (Net.sliceScalar (F := Ideal) ![1] Facts₀.slices_S5_S1_1 (m ((c : Thread nD τ).loc main_arg11)))
          (Net.sliceMat (F := Ideal) ![1, 0, 0] Facts₀.slices_S5x64x64_S1x64x64_1_0_0 (m ((c : Thread nD τ).loc main_arg7)))
          (Net.sliceVec (F := Ideal) ![1, 0] Facts₀.slices_S5x64_S1x64_1_0 (m ((c : Thread nD τ).loc main_arg8)))
          (Net.sliceMat (F := Ideal) ![1, 0, 0] Facts₀.slices_S5x64x64_S1x64x64_1_0_0 (m ((c : Thread nD τ).loc main_arg9)))
          (Net.sliceVec (F := Ideal) ![1, 0] Facts₀.slices_S5x64_S1x64_1_0 (m ((c : Thread nD τ).loc main_arg10)))
          (Net.sliceVec (F := Ideal) ![1, 0] Facts₀.slices_S5x64_S1x64_1_0 (m ((c : Thread nD τ).loc main_arg12)))
          (Net.sliceVec (F := Ideal) ![1, 0] Facts₀.slices_S5x64_S1x64_1_0 (m ((c : Thread nD τ).loc main_arg13)))
          (Net.srcV (m ((c : Thread nD τ).loc main_arg1))) (Net.dstV (m ((c : Thread nD τ).loc main_arg1)))
          (m ((c : Thread nD τ).loc main_arg2))
          (Gen.W11 m ρ c (Proc.devRef .tc main_v42)) :=
  Layer.layer_of m ρ c (Gen.W18 m ρ c) (Carry.st_W18 m ρ c)
    (Layer.node_of m ρ c (Gen.W14 m ρ c) (Carry.st_W14 m ρ c)
      (Layer.msg_of m ρ c (Gen.W11 m ρ c) (Gen.W12 m ρ c) (Gen.W13 m ρ c) (Carry.st_W11 m ρ c) (Carry.st_W12 m ρ c) (Carry.st_W13 m ρ c) hsrc
        (Reads1.take_rd (Gen.W11 m ρ c)) (Keep.keep13 m ρ c main_v43 (by decide)) (Reads1.ew_rd (Gen.W12 m ρ c)) (Reads1.eb_rd (Gen.W12 m ρ c))
        ((Keep.out4 m ρ c).trans (Reg4.arrAt_out (Gen.V13 m ρ) c)))
      (Reads1.agg_rd (Gen.W14 m ρ c)) (Reads1.eps_rd (Gen.W14 m ρ c)) (Reads1.w1_rd (Gen.W14 m ρ c)) (Reads1.b1_rd (Gen.W14 m ρ c))
      (Reads1.w2_rd (Gen.W14 m ρ c)) (Reads1.b2_rd (Gen.W14 m ρ c))
      ((Keep.keep15 m ρ c main_v42 (by decide)).trans ((Keep.keep14 m ρ c main_v42 (by decide)).trans
        ((Keep.keep13 m ρ c main_v42 (by decide)).trans (Keep.keep12 m ρ c main_v42 (by decide)))))
      ((Keep.out5 m ρ c).trans (Reg5.out_eq_spec (Gen.V15 m ρ) c)))
    (Reads1.mu_rd (Gen.W16 m ρ c)) (Keep.keep18 m ρ c main_v69 (by decide)) (Reads1.zero_rd (Gen.W16 m ρ c)) (Keep.keep17 m ρ c main_v66 (by decide))
    (Reads1.var_rd (Gen.W17 m ρ c)) (Reads1.murow_rd (Gen.W18 m ρ c)) (Reads1.varrow_rd (Gen.W18 m ρ c)) (Reads1.gamma_rd (Gen.W18 m ρ c))
    (Reads1.beta_rd (Gen.W18 m ρ c))
    ((Keep.keep19 m ρ c main_v66 (by decide)).trans ((Keep.keep18 m ρ c main_v66 (by decide)).trans (Keep.keep17 m ρ c main_v66 (by decide))))
    ((Keep.out6 m ρ c).trans (Reg6.arrAt_out (Gen.V19 m ρ) c))

end Cert.KernelIdeal.Layer1

end
-- ==== Proof.Reg7.lean ====
import proofs.«422151_j2362232012848_1_alg».proof.Proof.Reg1

noncomputable section

namespace Cert.KernelIdeal.Reg7

open Idealize.ShloMosaic Idealize.ShloMosaic.TcCoe Idealize.ShloMosaic.ValueIdx
open Cert.KernelIdeal Cert.KernelIdeal.Gen

variable (V : (c : Dev nD) → (b : Ref sig .tc) → Buf (Elt Ideal) ((c : Thread nD τ).loc b))

theorem arrAt_out (c : Dev nD) :
    (dat7 V c).arrAt 4 cfg7.N
      = Reg1.msgOf (V c (Pipeline.arrRef spec7 1)) (V c (Pipeline.arrRef spec7 0)) (V c (Pipeline.arrRef spec7 2))
          (V c (Pipeline.arrRef spec7 3)) := by
  refine (dat7 V c).arrAt_eq_of_cover 4 _ (fun t _ => ?_) fun i => ?_
  · show (cfg7.win 4).cut (grid7.coords t) ((dat7 V c).after 4 t) = _
    rw [after7_4]
    exact Reg1.blk_msg (V c (Pipeline.arrRef spec7 1)) (V c (Pipeline.arrRef spec7 0)) (V c (Pipeline.arrRef spec7 2))
      (V c (Pipeline.arrRef spec7 3)) (Reg1.idx_facts t)
  · refine ⟨⟨_, Reg1.blk_lt i⟩, flush7_4 _, ?_⟩
    show i ∈ ((View.whole (Pipeline.arrRef spec7 4)).slice (win7_4.rect ⟨_, Reg1.blk_lt i⟩)).set
    rw [View.set_slice_whole]
    exact LibRegA.mem_rows (by decide) i (Reg1.idx_facts _).1.1 (Reg1.idx_facts _).1.2

end Cert.KernelIdeal.Reg7

end
-- ==== Proof.Reg8.lean ====
import proofs.«422151_j2362232012848_1_alg».proof.Proof.LibRegBNode

noncomputable section

namespace Cert.KernelIdeal.Reg8

open Cert.KernelIdeal Cert.KernelIdeal.Gen Idealize.ShloMosaic Idealize.ShloMosaic.ValueIdx Idealize.ShloMosaic.TcCoe
open Idealize.SL.Sem

variable (V : (c : Dev nD) → (b : Ref sig .tc) → Buf (Elt Ideal) ((c : Thread nD τ).loc b))

abbrev hArr (c : Dev nD) : Vec Ideal S50000x64 .f32 := V c (Pipeline.arrRef spec8 0)
abbrev aggArr (c : Dev nD) : Vec Ideal S50000x64 .f32 := V c (Pipeline.arrRef spec8 1)
abbrev epsArr (c : Dev nD) : Vec Ideal S1x1 .f32 := V c (Pipeline.arrRef spec8 2)
abbrev w1Arr (c : Dev nD) : Vec Ideal S64x64 .f32 := V c (Pipeline.arrRef spec8 3)
abbrev b1Arr (c : Dev nD) : Vec Ideal S1x64 .f32 := V c (Pipeline.arrRef spec8 4)
abbrev w2Arr (c : Dev nD) : Vec Ideal S64x64 .f32 := V c (Pipeline.arrRef spec8 5)
abbrev b2Arr (c : Dev nD) : Vec Ideal S1x64 .f32 := V c (Pipeline.arrRef spec8 6)

-- Every slab writes its rows of the node update of the whole arrays, and the ten slabs cover the rows.
theorem out_eq_spec (c : Dev nD) :
    (dat8 V c).arrAt 7 cfg8.N
      = Spec.arr2 (Spec.nodeC (Ideal.ofBits .f32 0x3F800000#32) (epsArr V c (ix2 (0 : Fin 1) (0 : Fin 1)))
          (Spec.cur2 (hArr V c)) (Spec.cur2 (aggArr V c)) (Spec.cur2 (w1Arr V c)) (Spec.curRow (b1Arr V c))
          (Spec.cur2 (w2Arr V c)) (Spec.curRow (b2Arr V c))) := by
  refine (dat8 V c).arrAt_eq_of_cover 7 _ (fun t _ => ?_) fun i => ⟨RegB.slabOf N_8 i, flush8_7 _, ?_⟩
  · show (cfg8.win 7).cut (grid8.coords t) ((dat8 V c).after 7 t) = _
    rw [after8_7]
    exact RegB.slab (RegB.offs t) (hArr V c) (aggArr V c) (epsArr V c) (w1Arr V c) (b1Arr V c) (w2Arr V c) (b2Arr V c)
      rfl rfl rfl rfl rfl rfl rfl
  · exact (congrArg (i ∈ ·) (View.set_slice_whole _ _)).mpr (RegB.mem_rows (RegB.offs (RegB.slabOf N_8 i)) i rfl)

end Cert.KernelIdeal.Reg8

end
-- ==== Proof.Reg9.lean ====
import proofs.«422151_j2362232012848_1_alg».proof.Proof.Reg3

noncomputable section

namespace Cert.KernelIdeal.Reg9

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

theorem arrAt_out (c : Dev nD) :
    (dat9 V c).arrAt 5 cfg9.N
      = Spec.arr2 (Spec.bnC true (Ideal.ofBits .f32 0x3727C5AC#32)
          (Spec.cur2 (V c (Pipeline.arrRef spec9 0))) (Spec.curRow (V c (Pipeline.arrRef spec9 1)))
          (Spec.curRow (V c (Pipeline.arrRef spec9 2))) (Spec.curRow (V c (Pipeline.arrRef spec9 3)))
          (Spec.curRow (V c (Pipeline.arrRef spec9 4)))) :=
  (dat9 V c).arrAt_eq_of_cover 5 _
    (fun t _ => by
      show (cfg9.win 5).cut (grid9.coords t) ((dat9 V c).after 5 t) = _
      rw [after9_5]
      refine (Reg3.out3_eq _ _ _ _ _).trans ?_
      have hr := (LibRegC.idx t).1
      have hz := (LibRegC.idx t).2
      exact Reg3.whole_block true (V c (Pipeline.arrRef spec9 0)) (V c (Pipeline.arrRef spec9 1))
        (V c (Pipeline.arrRef spec9 2)) (V c (Pipeline.arrRef spec9 3)) (V c (Pipeline.arrRef spec9 4))
        (win9_0.rect_emb_val t) (win9_1.rect_emb_val t) (win9_2.rect_emb_val t) (win9_3.rect_emb_val t)
        (win9_4.rect_emb_val t) (win9_5.rect_emb_val t) hr hr hz hz hz hz)
    fun i => (LibRegC.cover_rows N_9 win9_5.index (fun t => (LibRegC.idx t).1) _ _
      (fun t => View.set_slice_whole (Pipeline.arrRef spec9 5) (win9_5.rect t)) i).imp fun t h => ⟨flush9_5 t, h⟩

end Cert.KernelIdeal.Reg9

end
-- ==== Proof.KerCarry2.lean ====
import proofs.«422151_j2362232012848_1_alg».proof.Proof.KerCarry1

noncomputable section

namespace Cert.KernelIdeal.Carry

open Idealize.ShloMosaic Idealize.ShloMosaic.TcCoe Idealize.SL.Sem
open Cert Cert.KernelIdeal

variable {F : FTy → Type} [FloatOps F]
variable (m : (ℓ : Loc nD τ sig) → Buf (Elt F) ℓ) (ρ : Dev nD → PrngReg) (c : Dev nD) (b : Ref sig .tc) (hb : b ∈ stable)
include hb

theorem st_W21 : Gen.W21 m ρ c (Proc.devRef .tc b) = Gen.W2 m ρ c (Proc.devRef .tc b) :=
  (Keep.keep21 m ρ c b (by revert b; decide)).trans (st_W20 m ρ c b hb)
theorem st_W22 : Gen.W22 m ρ c (Proc.devRef .tc b) = Gen.W2 m ρ c (Proc.devRef .tc b) :=
  (Keep.keep22 m ρ c b (by revert b; decide)).trans (st_W21 m ρ c b hb)
theorem st_W23 : Gen.W23 m ρ c (Proc.devRef .tc b) = Gen.W2 m ρ c (Proc.devRef .tc b) :=
  (Keep.keep23 m ρ c b (by revert b; decide)).trans (st_W22 m ρ c b hb)
theorem st_W24 : Gen.W24 m ρ c (Proc.devRef .tc b) = Gen.W2 m ρ c (Proc.devRef .tc b) :=
  (Keep.keep24 m ρ c b (by revert b; decide)).trans (st_W23 m ρ c b hb)
theorem st_W25 : Gen.W25 m ρ c (Proc.devRef .tc b) = Gen.W2 m ρ c (Proc.devRef .tc b) :=
  (Keep.keep25 m ρ c b (by revert b; decide)).trans (st_W24 m ρ c b hb)
theorem st_W26 : Gen.W26 m ρ c (Proc.devRef .tc b) = Gen.W2 m ρ c (Proc.devRef .tc b) :=
  (Keep.keep26 m ρ c b (by revert b; decide)).trans (st_W25 m ρ c b hb)
theorem st_W27 : Gen.W27 m ρ c (Proc.devRef .tc b) = Gen.W2 m ρ c (Proc.devRef .tc b) :=
  (Keep.keep27 m ρ c b (by revert b; decide)).trans (st_W26 m ρ c b hb)
theorem st_W28 : Gen.W28 m ρ c (Proc.devRef .tc b) = Gen.W2 m ρ c (Proc.devRef .tc b) :=
  (Keep.keep28 m ρ c b (by revert b; decide)).trans (st_W27 m ρ c b hb)
theorem st_W29 : Gen.W29 m ρ c (Proc.devRef .tc b) = Gen.W2 m ρ c (Proc.devRef .tc b) :=
  (Keep.keep29 m ρ c b (by revert b; decide)).trans (st_W28 m ρ c b hb)

end Cert.KernelIdeal.Carry

end
-- ==== Proof.KerReads2.lean ====
import proofs.«422151_j2362232012848_1_alg».proof.Proof.Gen.KernelIdeal.Launch
import proofs.«422151_j2362232012848_1_alg».proof.Proof.KerNet
import proofs.«422151_j2362232012848_1_alg».proof.Proof.KerCast
import proofs.«422151_j2362232012848_1_alg».proof.Proof.LibKerLNet
import Idealize.ShloMosaic.Lib.StableHlo.Run

set_option maxRecDepth 16384

noncomputable section

namespace Cert.KernelIdeal.Reads2

open Idealize.ShloMosaic Idealize.ShloMosaic.ValueIdx
open Cert Cert.KernelIdeal

variable {F : FTy → Type} [FloatOps F]
variable (V : Valuation τ sig (Elt F))

set_option maxHeartbeats 1000000 in
theorem take_rd : StableHlo.after (Gen.hostOps7 (F := F)) V (Proc.devRef .tc main_v80)
    = Net.takeK (V (Proc.devRef .tc main_v79)) (V (Proc.devRef .tc main_v1)) := by
  after_results
  simp only [Cast.ofBuf_toBuf]
  refine (eq_of_heq (Cast.toBuf_heq _ _)).trans ?_
  rfl

theorem ew_rd : StableHlo.after (Gen.hostOps7_1 (F := F)) V (Proc.devRef .tc main_v82)
    = Net.sliceEW ![2, 0, 0] Facts₀.slices_S5x50x64_S1x50x64_2_0_0 (V (Proc.devRef .tc main_arg5)) := by
  after_results
  rfl

theorem eb_rd : StableHlo.after (Gen.hostOps7_1 (F := F)) V (Proc.devRef .tc main_v85)
    = shapeCast S1x64 (Net.sliceVec ![2, 0] Facts₀.slices_S5x64_S1x64_2_0 (V (Proc.devRef .tc main_arg6)))
        Facts₀.shapeCasts_S64_S1x64 := by
  after_results
  rfl

theorem agg_rd : StableHlo.after (Gen.hostOps8 (F := F)) V (Proc.devRef .tc main_v89)
    = Net.aggK (V (Proc.devRef .tc main_v86)) (V (Proc.devRef .tc main_v3)) := by
  after_results
  rfl

theorem eps_rd : StableHlo.after (Gen.hostOps8 (F := F)) V (Proc.devRef .tc main_v100)
    = shapeCast S1x1 (Net.sliceScalar ![2] Facts₀.slices_S5_S1_2 (V (Proc.devRef .tc main_arg11))) Facts₀.shapeCasts_S_S1x1 := by
  after_results
  rfl

theorem w1_rd : StableHlo.after (Gen.hostOps8 (F := F)) V (Proc.devRef .tc main_v93)
    = Net.sliceMat ![2, 0, 0] Facts₀.slices_S5x64x64_S1x64x64_2_0_0 (V (Proc.devRef .tc main_arg7)) := by
  after_results
  rfl

theorem b1_rd : StableHlo.after (Gen.hostOps8 (F := F)) V (Proc.devRef .tc main_v101)
    = shapeCast S1x64 (Net.sliceVec ![2, 0] Facts₀.slices_S5x64_S1x64_2_0 (V (Proc.devRef .tc main_arg8)))
        Facts₀.shapeCasts_S64_S1x64 := by
  after_results
  rfl

theorem w2_rd : StableHlo.after (Gen.hostOps8 (F := F)) V (Proc.devRef .tc main_v97)
    = Net.sliceMat ![2, 0, 0] Facts₀.slices_S5x64x64_S1x64x64_2_0_0 (V (Proc.devRef .tc main_arg9)) := by
  after_results
  rfl

theorem b2_rd : StableHlo.after (Gen.hostOps8 (F := F)) V (Proc.devRef .tc main_v102)
    = shapeCast S1x64 (Net.sliceVec ![2, 0] Facts₀.slices_S5x64_S1x64_2_0 (V (Proc.devRef .tc main_arg10)))
        Facts₀.shapeCasts_S64_S1x64 := by
  after_results
  rfl

theorem mu_rd : StableHlo.after (Gen.hostOps9 (F := F)) V (Proc.devRef .tc main_v106)
    = Net.muK (V (Proc.devRef .tc main_v103)) := by
  after_results
  rfl

theorem zero_rd : StableHlo.after (Gen.hostOps9 (F := F)) V (Proc.devRef .tc main_c_9) = constantI S_ 32 0#32 := by
  after_results

set_option maxHeartbeats 1000000 in
theorem var_rd : StableHlo.after (Gen.hostOps9_1 (F := F)) V (Proc.devRef .tc main_v107)
    = Net.varOfK (V (Proc.devRef .tc main_c_9)) (V (Proc.devRef .tc main_v103)) := by
  after_results
  simp only [Cast.ofBuf_toBuf]
  refine (eq_of_heq (Cast.toBuf_heq _ _)).trans ?_
  rfl

theorem murow_rd : StableHlo.after (Gen.hostOps9_2 (F := F)) V (Proc.devRef .tc main_v112)
    = shapeCast S1x64 (V (Proc.devRef .tc main_v106)) Facts₀.shapeCasts_S64_S1x64 := by
  after_results
  rfl

theorem varrow_rd : StableHlo.after (Gen.hostOps9_2 (F := F)) V (Proc.devRef .tc main_v113)
    = shapeCast S1x64 (V (Proc.devRef .tc main_v107)) Facts₀.shapeCasts_S64_S1x64 := by
  after_results
  rfl

theorem gamma_rd : StableHlo.after (Gen.hostOps9_2 (F := F)) V (Proc.devRef .tc main_v114)
    = shapeCast S1x64 (Net.sliceVec ![2, 0] Facts₀.slices_S5x64_S1x64_2_0 (V (Proc.devRef .tc main_arg12)))
        Facts₀.shapeCasts_S64_S1x64 := by
  after_results
  rfl

theorem beta_rd : StableHlo.after (Gen.hostOps9_2 (F := F)) V (Proc.devRef .tc main_v115)
    = shapeCast S1x64 (Net.sliceVec ![2, 0] Facts₀.slices_S5x64_S1x64_2_0 (V (Proc.devRef .tc main_arg13)))
        Facts₀.shapeCasts_S64_S1x64 := by
  after_results
  rfl

end Cert.KernelIdeal.Reads2

end
-- ==== Proof.KerLayer2.lean ====
import proofs.«422151_j2362232012848_1_alg».proof.Proof.Reg7
import proofs.«422151_j2362232012848_1_alg».proof.Proof.Reg8
import proofs.«422151_j2362232012848_1_alg».proof.Proof.Reg9
import proofs.«422151_j2362232012848_1_alg».proof.Proof.KerCarry2
import proofs.«422151_j2362232012848_1_alg».proof.Proof.KerReads2
import proofs.«422151_j2362232012848_1_alg».proof.Proof.LibKerL

noncomputable section

namespace Cert.KernelIdeal.Layer2

open Idealize.ShloMosaic Idealize.ShloMosaic.TcCoe Idealize.ShloMosaic.ValueIdx Idealize.SL.Sem
open Cert Cert.KernelIdeal

variable (m : (ℓ : Loc nD τ sig) → Buf (Elt Ideal) ℓ) (ρ : Dev nD → PrngReg)

theorem layer2 (c : Dev nD)
    (hsrc : ∀ p : Fin 800000, 0 ≤ (Net.srcV (m ((c : Thread nD τ).loc main_arg1)) (ix1 p)).toInt
      ∧ (Net.srcV (m ((c : Thread nD τ).loc main_arg1)) (ix1 p)).toInt ≤ (49999#32 : BitVec 32).toInt) :
    Gen.W29 m ρ c (Proc.devRef .tc main_v116)
      = Net.layerK true
          (Net.sliceEW (F := Ideal) ![2, 0, 0] Facts₀.slices_S5x50x64_S1x50x64_2_0_0 (m ((c : Thread nD τ).loc main_arg5)))
          (Net.sliceVec (F := Ideal) ![2, 0] Facts₀.slices_S5x64_S1x64_2_0 (m ((c : Thread nD τ).loc main_arg6)))
          (Net.sliceScalar (F := Ideal) ![2] Facts₀.slices_S5_S1_2 (m ((c : Thread nD τ).loc main_arg11)))
          (Net.sliceMat (F := Ideal) ![2, 0, 0] Facts₀.slices_S5x64x64_S1x64x64_2_0_0 (m ((c : Thread nD τ).loc main_arg7)))
          (Net.sliceVec (F := Ideal) ![2, 0] Facts₀.slices_S5x64_S1x64_2_0 (m ((c : Thread nD τ).loc main_arg8)))
          (Net.sliceMat (F := Ideal) ![2, 0, 0] Facts₀.slices_S5x64x64_S1x64x64_2_0_0 (m ((c : Thread nD τ).loc main_arg9)))
          (Net.sliceVec (F := Ideal) ![2, 0] Facts₀.slices_S5x64_S1x64_2_0 (m ((c : Thread nD τ).loc main_arg10)))
          (Net.sliceVec (F := Ideal) ![2, 0] Facts₀.slices_S5x64_S1x64_2_0 (m ((c : Thread nD τ).loc main_arg12)))
          (Net.sliceVec (F := Ideal) ![2, 0] Facts₀.slices_S5x64_S1x64_2_0 (m ((c : Thread nD τ).loc main_arg13)))
          (Net.srcV (m ((c : Thread nD τ).loc main_arg1))) (Net.dstV (m ((c : Thread nD τ).loc main_arg1)))
          (m ((c : Thread nD τ).loc main_arg2))
          (Gen.W20 m ρ c (Proc.devRef .tc main_v79)) :=
  Layer.layer_of m ρ c (Gen.W27 m ρ c) (Carry.st_W27 m ρ c)
    (Layer.node_of m ρ c (Gen.W23 m ρ c) (Carry.st_W23 m ρ c)
      (Layer.msg_of m ρ c (Gen.W20 m ρ c) (Gen.W21 m ρ c) (Gen.W22 m ρ c) (Carry.st_W20 m ρ c) (Carry.st_W21 m ρ c) (Carry.st_W22 m ρ c) hsrc
        (Reads2.take_rd (Gen.W20 m ρ c)) (Keep.keep22 m ρ c main_v80 (by decide)) (Reads2.ew_rd (Gen.W21 m ρ c)) (Reads2.eb_rd (Gen.W21 m ρ c))
        ((Keep.out7 m ρ c).trans (Reg7.arrAt_out (Gen.V22 m ρ) c)))
      (Reads2.agg_rd (Gen.W23 m ρ c)) (Reads2.eps_rd (Gen.W23 m ρ c)) (Reads2.w1_rd (Gen.W23 m ρ c)) (Reads2.b1_rd (Gen.W23 m ρ c))
      (Reads2.w2_rd (Gen.W23 m ρ c)) (Reads2.b2_rd (Gen.W23 m ρ c))
      ((Keep.keep24 m ρ c main_v79 (by decide)).trans ((Keep.keep23 m ρ c main_v79 (by decide)).trans
        ((Keep.keep22 m ρ c main_v79 (by decide)).trans (Keep.keep21 m ρ c main_v79 (by decide)))))
      ((Keep.out8 m ρ c).trans (Reg8.out_eq_spec (Gen.V24 m ρ) c)))
    (Reads2.mu_rd (Gen.W25 m ρ c)) (Keep.keep27 m ρ c main_v106 (by decide)) (Reads2.zero_rd (Gen.W25 m ρ c)) (Keep.keep26 m ρ c main_v103 (by decide))
    (Reads2.var_rd (Gen.W26 m ρ c)) (Reads2.murow_rd (Gen.W27 m ρ c)) (Reads2.varrow_rd (Gen.W27 m ρ c)) (Reads2.gamma_rd (Gen.W27 m ρ c))
    (Reads2.beta_rd (Gen.W27 m ρ c))
    ((Keep.keep28 m ρ c main_v103 (by decide)).trans ((Keep.keep27 m ρ c main_v103 (by decide)).trans (Keep.keep26 m ρ c main_v103 (by decide))))
    ((Keep.out9 m ρ c).trans (Reg9.arrAt_out (Gen.V28 m ρ) c))

end Cert.KernelIdeal.Layer2

end
-- ==== Proof.Reg10.lean ====
import proofs.«422151_j2362232012848_1_alg».proof.Proof.Reg1

noncomputable section

namespace Cert.KernelIdeal.Reg10

open Idealize.ShloMosaic Idealize.ShloMosaic.TcCoe Idealize.ShloMosaic.ValueIdx
open Cert.KernelIdeal Cert.KernelIdeal.Gen

variable (V : (c : Dev nD) → (b : Ref sig .tc) → Buf (Elt Ideal) ((c : Thread nD τ).loc b))

theorem arrAt_out (c : Dev nD) :
    (dat10 V c).arrAt 4 cfg10.N
      = Reg1.msgOf (V c (Pipeline.arrRef spec10 1)) (V c (Pipeline.arrRef spec10 0)) (V c (Pipeline.arrRef spec10 2))
          (V c (Pipeline.arrRef spec10 3)) := by
  refine (dat10 V c).arrAt_eq_of_cover 4 _ (fun t _ => ?_) fun i => ?_
  · show (cfg10.win 4).cut (grid10.coords t) ((dat10 V c).after 4 t) = _
    rw [after10_4]
    exact Reg1.blk_msg (V c (Pipeline.arrRef spec10 1)) (V c (Pipeline.arrRef spec10 0)) (V c (Pipeline.arrRef spec10 2))
      (V c (Pipeline.arrRef spec10 3)) (Reg1.idx_facts t)
  · refine ⟨⟨_, Reg1.blk_lt i⟩, flush10_4 _, ?_⟩
    show i ∈ ((View.whole (Pipeline.arrRef spec10 4)).slice (win10_4.rect ⟨_, Reg1.blk_lt i⟩)).set
    rw [View.set_slice_whole]
    exact LibRegA.mem_rows (by decide) i (Reg1.idx_facts _).1.1 (Reg1.idx_facts _).1.2

end Cert.KernelIdeal.Reg10

end
-- ==== Proof.Reg11.lean ====
import proofs.«422151_j2362232012848_1_alg».proof.Proof.LibRegBNode

noncomputable section

namespace Cert.KernelIdeal.Reg11

open Cert.KernelIdeal Cert.KernelIdeal.Gen Idealize.ShloMosaic Idealize.ShloMosaic.ValueIdx Idealize.ShloMosaic.TcCoe
open Idealize.SL.Sem

variable (V : (c : Dev nD) → (b : Ref sig .tc) → Buf (Elt Ideal) ((c : Thread nD τ).loc b))

abbrev hArr (c : Dev nD) : Vec Ideal S50000x64 .f32 := V c (Pipeline.arrRef spec11 0)
abbrev aggArr (c : Dev nD) : Vec Ideal S50000x64 .f32 := V c (Pipeline.arrRef spec11 1)
abbrev epsArr (c : Dev nD) : Vec Ideal S1x1 .f32 := V c (Pipeline.arrRef spec11 2)
abbrev w1Arr (c : Dev nD) : Vec Ideal S64x64 .f32 := V c (Pipeline.arrRef spec11 3)
abbrev b1Arr (c : Dev nD) : Vec Ideal S1x64 .f32 := V c (Pipeline.arrRef spec11 4)
abbrev w2Arr (c : Dev nD) : Vec Ideal S64x64 .f32 := V c (Pipeline.arrRef spec11 5)
abbrev b2Arr (c : Dev nD) : Vec Ideal S1x64 .f32 := V c (Pipeline.arrRef spec11 6)

-- Every slab writes its rows of the node update of the whole arrays, and the ten slabs cover the rows.
theorem out_eq_spec (c : Dev nD) :
    (dat11 V c).arrAt 7 cfg11.N
      = Spec.arr2 (Spec.nodeC (Ideal.ofBits .f32 0x3F800000#32) (epsArr V c (ix2 (0 : Fin 1) (0 : Fin 1)))
          (Spec.cur2 (hArr V c)) (Spec.cur2 (aggArr V c)) (Spec.cur2 (w1Arr V c)) (Spec.curRow (b1Arr V c))
          (Spec.cur2 (w2Arr V c)) (Spec.curRow (b2Arr V c))) := by
  refine (dat11 V c).arrAt_eq_of_cover 7 _ (fun t _ => ?_) fun i => ⟨RegB.slabOf N_11 i, flush11_7 _, ?_⟩
  · show (cfg11.win 7).cut (grid11.coords t) ((dat11 V c).after 7 t) = _
    rw [after11_7]
    exact RegB.slab (RegB.offs t) (hArr V c) (aggArr V c) (epsArr V c) (w1Arr V c) (b1Arr V c) (w2Arr V c) (b2Arr V c)
      rfl rfl rfl rfl rfl rfl rfl
  · exact (congrArg (i ∈ ·) (View.set_slice_whole _ _)).mpr (RegB.mem_rows (RegB.offs (RegB.slabOf N_11 i)) i rfl)

end Cert.KernelIdeal.Reg11

end
-- ==== Proof.Reg12.lean ====
import proofs.«422151_j2362232012848_1_alg».proof.Proof.Reg3

noncomputable section

namespace Cert.KernelIdeal.Reg12

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

theorem arrAt_out (c : Dev nD) :
    (dat12 V c).arrAt 5 cfg12.N
      = Spec.arr2 (Spec.bnC true (Ideal.ofBits .f32 0x3727C5AC#32)
          (Spec.cur2 (V c (Pipeline.arrRef spec12 0))) (Spec.curRow (V c (Pipeline.arrRef spec12 1)))
          (Spec.curRow (V c (Pipeline.arrRef spec12 2))) (Spec.curRow (V c (Pipeline.arrRef spec12 3)))
          (Spec.curRow (V c (Pipeline.arrRef spec12 4)))) :=
  (dat12 V c).arrAt_eq_of_cover 5 _
    (fun t _ => by
      show (cfg12.win 5).cut (grid12.coords t) ((dat12 V c).after 5 t) = _
      rw [after12_5]
      refine (Reg3.out3_eq _ _ _ _ _).trans ?_
      have hr := (LibRegC.idx t).1
      have hz := (LibRegC.idx t).2
      exact Reg3.whole_block true (V c (Pipeline.arrRef spec12 0)) (V c (Pipeline.arrRef spec12 1))
        (V c (Pipeline.arrRef spec12 2)) (V c (Pipeline.arrRef spec12 3)) (V c (Pipeline.arrRef spec12 4))
        (win12_0.rect_emb_val t) (win12_1.rect_emb_val t) (win12_2.rect_emb_val t) (win12_3.rect_emb_val t)
        (win12_4.rect_emb_val t) (win12_5.rect_emb_val t) hr hr hz hz hz hz)
    fun i => (LibRegC.cover_rows N_12 win12_5.index (fun t => (LibRegC.idx t).1) _ _
      (fun t => View.set_slice_whole (Pipeline.arrRef spec12 5) (win12_5.rect t)) i).imp fun t h => ⟨flush12_5 t, h⟩

end Cert.KernelIdeal.Reg12

end
-- ==== Proof.KerCarry3.lean ====
import proofs.«422151_j2362232012848_1_alg».proof.Proof.KerCarry2

noncomputable section

namespace Cert.KernelIdeal.Carry

open Idealize.ShloMosaic Idealize.ShloMosaic.TcCoe Idealize.SL.Sem
open Cert Cert.KernelIdeal

variable {F : FTy → Type} [FloatOps F]
variable (m : (ℓ : Loc nD τ sig) → Buf (Elt F) ℓ) (ρ : Dev nD → PrngReg) (c : Dev nD) (b : Ref sig .tc) (hb : b ∈ stable)
include hb

theorem st_W30 : Gen.W30 m ρ c (Proc.devRef .tc b) = Gen.W2 m ρ c (Proc.devRef .tc b) :=
  (Keep.keep30 m ρ c b (by revert b; decide)).trans (st_W29 m ρ c b hb)
theorem st_W31 : Gen.W31 m ρ c (Proc.devRef .tc b) = Gen.W2 m ρ c (Proc.devRef .tc b) :=
  (Keep.keep31 m ρ c b (by revert b; decide)).trans (st_W30 m ρ c b hb)
theorem st_W32 : Gen.W32 m ρ c (Proc.devRef .tc b) = Gen.W2 m ρ c (Proc.devRef .tc b) :=
  (Keep.keep32 m ρ c b (by revert b; decide)).trans (st_W31 m ρ c b hb)
theorem st_W33 : Gen.W33 m ρ c (Proc.devRef .tc b) = Gen.W2 m ρ c (Proc.devRef .tc b) :=
  (Keep.keep33 m ρ c b (by revert b; decide)).trans (st_W32 m ρ c b hb)
theorem st_W34 : Gen.W34 m ρ c (Proc.devRef .tc b) = Gen.W2 m ρ c (Proc.devRef .tc b) :=
  (Keep.keep34 m ρ c b (by revert b; decide)).trans (st_W33 m ρ c b hb)
theorem st_W35 : Gen.W35 m ρ c (Proc.devRef .tc b) = Gen.W2 m ρ c (Proc.devRef .tc b) :=
  (Keep.keep35 m ρ c b (by revert b; decide)).trans (st_W34 m ρ c b hb)
theorem st_W36 : Gen.W36 m ρ c (Proc.devRef .tc b) = Gen.W2 m ρ c (Proc.devRef .tc b) :=
  (Keep.keep36 m ρ c b (by revert b; decide)).trans (st_W35 m ρ c b hb)
theorem st_W37 : Gen.W37 m ρ c (Proc.devRef .tc b) = Gen.W2 m ρ c (Proc.devRef .tc b) :=
  (Keep.keep37 m ρ c b (by revert b; decide)).trans (st_W36 m ρ c b hb)
theorem st_W38 : Gen.W38 m ρ c (Proc.devRef .tc b) = Gen.W2 m ρ c (Proc.devRef .tc b) :=
  (Keep.keep38 m ρ c b (by revert b; decide)).trans (st_W37 m ρ c b hb)

end Cert.KernelIdeal.Carry

end
-- ==== Proof.KerReads3.lean ====
import proofs.«422151_j2362232012848_1_alg».proof.Proof.Gen.KernelIdeal.Launch
import proofs.«422151_j2362232012848_1_alg».proof.Proof.KerNet
import proofs.«422151_j2362232012848_1_alg».proof.Proof.KerCast
import proofs.«422151_j2362232012848_1_alg».proof.Proof.LibKerLNet
import Idealize.ShloMosaic.Lib.StableHlo.Run

set_option maxRecDepth 16384

noncomputable section

namespace Cert.KernelIdeal.Reads3

open Idealize.ShloMosaic Idealize.ShloMosaic.ValueIdx
open Cert Cert.KernelIdeal

variable {F : FTy → Type} [FloatOps F]
variable (V : Valuation τ sig (Elt F))

set_option maxHeartbeats 1000000 in
theorem take_rd : StableHlo.after (Gen.hostOps10 (F := F)) V (Proc.devRef .tc main_v117)
    = Net.takeK (V (Proc.devRef .tc main_v116)) (V (Proc.devRef .tc main_v1)) := by
  after_results
  simp only [Cast.ofBuf_toBuf]
  refine (eq_of_heq (Cast.toBuf_heq _ _)).trans ?_
  rfl

theorem ew_rd : StableHlo.after (Gen.hostOps10_1 (F := F)) V (Proc.devRef .tc main_v119)
    = Net.sliceEW ![3, 0, 0] Facts₀.slices_S5x50x64_S1x50x64_3_0_0 (V (Proc.devRef .tc main_arg5)) := by
  after_results
  rfl

theorem eb_rd : StableHlo.after (Gen.hostOps10_1 (F := F)) V (Proc.devRef .tc main_v122)
    = shapeCast S1x64 (Net.sliceVec ![3, 0] Facts₀.slices_S5x64_S1x64_3_0 (V (Proc.devRef .tc main_arg6)))
        Facts₀.shapeCasts_S64_S1x64 := by
  after_results
  rfl

theorem agg_rd : StableHlo.after (Gen.hostOps11 (F := F)) V (Proc.devRef .tc main_v126)
    = Net.aggK (V (Proc.devRef .tc main_v123)) (V (Proc.devRef .tc main_v3)) := by
  after_results
  rfl

theorem eps_rd : StableHlo.after (Gen.hostOps11 (F := F)) V (Proc.devRef .tc main_v137)
    = shapeCast S1x1 (Net.sliceScalar ![3] Facts₀.slices_S5_S1_3 (V (Proc.devRef .tc main_arg11))) Facts₀.shapeCasts_S_S1x1 := by
  after_results
  rfl

theorem w1_rd : StableHlo.after (Gen.hostOps11 (F := F)) V (Proc.devRef .tc main_v130)
    = Net.sliceMat ![3, 0, 0] Facts₀.slices_S5x64x64_S1x64x64_3_0_0 (V (Proc.devRef .tc main_arg7)) := by
  after_results
  rfl

theorem b1_rd : StableHlo.after (Gen.hostOps11 (F := F)) V (Proc.devRef .tc main_v138)
    = shapeCast S1x64 (Net.sliceVec ![3, 0] Facts₀.slices_S5x64_S1x64_3_0 (V (Proc.devRef .tc main_arg8)))
        Facts₀.shapeCasts_S64_S1x64 := by
  after_results
  rfl

theorem w2_rd : StableHlo.after (Gen.hostOps11 (F := F)) V (Proc.devRef .tc main_v134)
    = Net.sliceMat ![3, 0, 0] Facts₀.slices_S5x64x64_S1x64x64_3_0_0 (V (Proc.devRef .tc main_arg9)) := by
  after_results
  rfl

theorem b2_rd : StableHlo.after (Gen.hostOps11 (F := F)) V (Proc.devRef .tc main_v139)
    = shapeCast S1x64 (Net.sliceVec ![3, 0] Facts₀.slices_S5x64_S1x64_3_0 (V (Proc.devRef .tc main_arg10)))
        Facts₀.shapeCasts_S64_S1x64 := by
  after_results
  rfl

theorem mu_rd : StableHlo.after (Gen.hostOps12 (F := F)) V (Proc.devRef .tc main_v143)
    = Net.muK (V (Proc.devRef .tc main_v140)) := by
  after_results
  rfl

theorem zero_rd : StableHlo.after (Gen.hostOps12 (F := F)) V (Proc.devRef .tc main_c_13) = constantI S_ 32 0#32 := by
  after_results

set_option maxHeartbeats 1000000 in
theorem var_rd : StableHlo.after (Gen.hostOps12_1 (F := F)) V (Proc.devRef .tc main_v144)
    = Net.varOfK (V (Proc.devRef .tc main_c_13)) (V (Proc.devRef .tc main_v140)) := by
  after_results
  simp only [Cast.ofBuf_toBuf]
  refine (eq_of_heq (Cast.toBuf_heq _ _)).trans ?_
  rfl

theorem murow_rd : StableHlo.after (Gen.hostOps12_2 (F := F)) V (Proc.devRef .tc main_v149)
    = shapeCast S1x64 (V (Proc.devRef .tc main_v143)) Facts₀.shapeCasts_S64_S1x64 := by
  after_results
  rfl

theorem varrow_rd : StableHlo.after (Gen.hostOps12_2 (F := F)) V (Proc.devRef .tc main_v150)
    = shapeCast S1x64 (V (Proc.devRef .tc main_v144)) Facts₀.shapeCasts_S64_S1x64 := by
  after_results
  rfl

theorem gamma_rd : StableHlo.after (Gen.hostOps12_2 (F := F)) V (Proc.devRef .tc main_v151)
    = shapeCast S1x64 (Net.sliceVec ![3, 0] Facts₀.slices_S5x64_S1x64_3_0 (V (Proc.devRef .tc main_arg12)))
        Facts₀.shapeCasts_S64_S1x64 := by
  after_results
  rfl

theorem beta_rd : StableHlo.after (Gen.hostOps12_2 (F := F)) V (Proc.devRef .tc main_v152)
    = shapeCast S1x64 (Net.sliceVec ![3, 0] Facts₀.slices_S5x64_S1x64_3_0 (V (Proc.devRef .tc main_arg13)))
        Facts₀.shapeCasts_S64_S1x64 := by
  after_results
  rfl

end Cert.KernelIdeal.Reads3

end
-- ==== Proof.KerLayer3.lean ====
import proofs.«422151_j2362232012848_1_alg».proof.Proof.Reg10
import proofs.«422151_j2362232012848_1_alg».proof.Proof.Reg11
import proofs.«422151_j2362232012848_1_alg».proof.Proof.Reg12
import proofs.«422151_j2362232012848_1_alg».proof.Proof.KerCarry3
import proofs.«422151_j2362232012848_1_alg».proof.Proof.KerReads3
import proofs.«422151_j2362232012848_1_alg».proof.Proof.LibKerL

noncomputable section

namespace Cert.KernelIdeal.Layer3

open Idealize.ShloMosaic Idealize.ShloMosaic.TcCoe Idealize.ShloMosaic.ValueIdx Idealize.SL.Sem
open Cert Cert.KernelIdeal

variable (m : (ℓ : Loc nD τ sig) → Buf (Elt Ideal) ℓ) (ρ : Dev nD → PrngReg)

theorem layer3 (c : Dev nD)
    (hsrc : ∀ p : Fin 800000, 0 ≤ (Net.srcV (m ((c : Thread nD τ).loc main_arg1)) (ix1 p)).toInt
      ∧ (Net.srcV (m ((c : Thread nD τ).loc main_arg1)) (ix1 p)).toInt ≤ (49999#32 : BitVec 32).toInt) :
    Gen.W38 m ρ c (Proc.devRef .tc main_v153)
      = Net.layerK true
          (Net.sliceEW (F := Ideal) ![3, 0, 0] Facts₀.slices_S5x50x64_S1x50x64_3_0_0 (m ((c : Thread nD τ).loc main_arg5)))
          (Net.sliceVec (F := Ideal) ![3, 0] Facts₀.slices_S5x64_S1x64_3_0 (m ((c : Thread nD τ).loc main_arg6)))
          (Net.sliceScalar (F := Ideal) ![3] Facts₀.slices_S5_S1_3 (m ((c : Thread nD τ).loc main_arg11)))
          (Net.sliceMat (F := Ideal) ![3, 0, 0] Facts₀.slices_S5x64x64_S1x64x64_3_0_0 (m ((c : Thread nD τ).loc main_arg7)))
          (Net.sliceVec (F := Ideal) ![3, 0] Facts₀.slices_S5x64_S1x64_3_0 (m ((c : Thread nD τ).loc main_arg8)))
          (Net.sliceMat (F := Ideal) ![3, 0, 0] Facts₀.slices_S5x64x64_S1x64x64_3_0_0 (m ((c : Thread nD τ).loc main_arg9)))
          (Net.sliceVec (F := Ideal) ![3, 0] Facts₀.slices_S5x64_S1x64_3_0 (m ((c : Thread nD τ).loc main_arg10)))
          (Net.sliceVec (F := Ideal) ![3, 0] Facts₀.slices_S5x64_S1x64_3_0 (m ((c : Thread nD τ).loc main_arg12)))
          (Net.sliceVec (F := Ideal) ![3, 0] Facts₀.slices_S5x64_S1x64_3_0 (m ((c : Thread nD τ).loc main_arg13)))
          (Net.srcV (m ((c : Thread nD τ).loc main_arg1))) (Net.dstV (m ((c : Thread nD τ).loc main_arg1)))
          (m ((c : Thread nD τ).loc main_arg2))
          (Gen.W29 m ρ c (Proc.devRef .tc main_v116)) :=
  Layer.layer_of m ρ c (Gen.W36 m ρ c) (Carry.st_W36 m ρ c)
    (Layer.node_of m ρ c (Gen.W32 m ρ c) (Carry.st_W32 m ρ c)
      (Layer.msg_of m ρ c (Gen.W29 m ρ c) (Gen.W30 m ρ c) (Gen.W31 m ρ c) (Carry.st_W29 m ρ c) (Carry.st_W30 m ρ c) (Carry.st_W31 m ρ c) hsrc
        (Reads3.take_rd (Gen.W29 m ρ c)) (Keep.keep31 m ρ c main_v117 (by decide)) (Reads3.ew_rd (Gen.W30 m ρ c)) (Reads3.eb_rd (Gen.W30 m ρ c))
        ((Keep.out10 m ρ c).trans (Reg10.arrAt_out (Gen.V31 m ρ) c)))
      (Reads3.agg_rd (Gen.W32 m ρ c)) (Reads3.eps_rd (Gen.W32 m ρ c)) (Reads3.w1_rd (Gen.W32 m ρ c)) (Reads3.b1_rd (Gen.W32 m ρ c))
      (Reads3.w2_rd (Gen.W32 m ρ c)) (Reads3.b2_rd (Gen.W32 m ρ c))
      ((Keep.keep33 m ρ c main_v116 (by decide)).trans ((Keep.keep32 m ρ c main_v116 (by decide)).trans
        ((Keep.keep31 m ρ c main_v116 (by decide)).trans (Keep.keep30 m ρ c main_v116 (by decide)))))
      ((Keep.out11 m ρ c).trans (Reg11.out_eq_spec (Gen.V33 m ρ) c)))
    (Reads3.mu_rd (Gen.W34 m ρ c)) (Keep.keep36 m ρ c main_v143 (by decide)) (Reads3.zero_rd (Gen.W34 m ρ c)) (Keep.keep35 m ρ c main_v140 (by decide))
    (Reads3.var_rd (Gen.W35 m ρ c)) (Reads3.murow_rd (Gen.W36 m ρ c)) (Reads3.varrow_rd (Gen.W36 m ρ c)) (Reads3.gamma_rd (Gen.W36 m ρ c))
    (Reads3.beta_rd (Gen.W36 m ρ c))
    ((Keep.keep37 m ρ c main_v140 (by decide)).trans ((Keep.keep36 m ρ c main_v140 (by decide)).trans (Keep.keep35 m ρ c main_v140 (by decide))))
    ((Keep.out12 m ρ c).trans (Reg12.arrAt_out (Gen.V37 m ρ) c))

end Cert.KernelIdeal.Layer3

end
-- ==== Proof.Reg13.lean ====
import proofs.«422151_j2362232012848_1_alg».proof.Proof.Reg1

noncomputable section

namespace Cert.KernelIdeal.Reg13

open Idealize.ShloMosaic Idealize.ShloMosaic.TcCoe Idealize.ShloMosaic.ValueIdx
open Cert.KernelIdeal Cert.KernelIdeal.Gen

variable (V : (c : Dev nD) → (b : Ref sig .tc) → Buf (Elt Ideal) ((c : Thread nD τ).loc b))

theorem arrAt_out (c : Dev nD) :
    (dat13 V c).arrAt 4 cfg13.N
      = Reg1.msgOf (V c (Pipeline.arrRef spec13 1)) (V c (Pipeline.arrRef spec13 0)) (V c (Pipeline.arrRef spec13 2))
          (V c (Pipeline.arrRef spec13 3)) := by
  refine (dat13 V c).arrAt_eq_of_cover 4 _ (fun t _ => ?_) fun i => ?_
  · show (cfg13.win 4).cut (grid13.coords t) ((dat13 V c).after 4 t) = _
    rw [after13_4]
    exact Reg1.blk_msg (V c (Pipeline.arrRef spec13 1)) (V c (Pipeline.arrRef spec13 0)) (V c (Pipeline.arrRef spec13 2))
      (V c (Pipeline.arrRef spec13 3)) (Reg1.idx_facts t)
  · refine ⟨⟨_, Reg1.blk_lt i⟩, flush13_4 _, ?_⟩
    show i ∈ ((View.whole (Pipeline.arrRef spec13 4)).slice (win13_4.rect ⟨_, Reg1.blk_lt i⟩)).set
    rw [View.set_slice_whole]
    exact LibRegA.mem_rows (by decide) i (Reg1.idx_facts _).1.1 (Reg1.idx_facts _).1.2

end Cert.KernelIdeal.Reg13

end
-- ==== Proof.Reg14.lean ====
import proofs.«422151_j2362232012848_1_alg».proof.Proof.LibRegBNode

noncomputable section

namespace Cert.KernelIdeal.Reg14

open Cert.KernelIdeal Cert.KernelIdeal.Gen Idealize.ShloMosaic Idealize.ShloMosaic.ValueIdx Idealize.ShloMosaic.TcCoe
open Idealize.SL.Sem

variable (V : (c : Dev nD) → (b : Ref sig .tc) → Buf (Elt Ideal) ((c : Thread nD τ).loc b))

abbrev hArr (c : Dev nD) : Vec Ideal S50000x64 .f32 := V c (Pipeline.arrRef spec14 0)
abbrev aggArr (c : Dev nD) : Vec Ideal S50000x64 .f32 := V c (Pipeline.arrRef spec14 1)
abbrev epsArr (c : Dev nD) : Vec Ideal S1x1 .f32 := V c (Pipeline.arrRef spec14 2)
abbrev w1Arr (c : Dev nD) : Vec Ideal S64x64 .f32 := V c (Pipeline.arrRef spec14 3)
abbrev b1Arr (c : Dev nD) : Vec Ideal S1x64 .f32 := V c (Pipeline.arrRef spec14 4)
abbrev w2Arr (c : Dev nD) : Vec Ideal S64x64 .f32 := V c (Pipeline.arrRef spec14 5)
abbrev b2Arr (c : Dev nD) : Vec Ideal S1x64 .f32 := V c (Pipeline.arrRef spec14 6)

-- Every slab writes its rows of the node update of the whole arrays, and the ten slabs cover the rows.
theorem out_eq_spec (c : Dev nD) :
    (dat14 V c).arrAt 7 cfg14.N
      = Spec.arr2 (Spec.nodeC (Ideal.ofBits .f32 0x3F800000#32) (epsArr V c (ix2 (0 : Fin 1) (0 : Fin 1)))
          (Spec.cur2 (hArr V c)) (Spec.cur2 (aggArr V c)) (Spec.cur2 (w1Arr V c)) (Spec.curRow (b1Arr V c))
          (Spec.cur2 (w2Arr V c)) (Spec.curRow (b2Arr V c))) := by
  refine (dat14 V c).arrAt_eq_of_cover 7 _ (fun t _ => ?_) fun i => ⟨RegB.slabOf N_14 i, flush14_7 _, ?_⟩
  · show (cfg14.win 7).cut (grid14.coords t) ((dat14 V c).after 7 t) = _
    rw [after14_7]
    exact RegB.slab (RegB.offs t) (hArr V c) (aggArr V c) (epsArr V c) (w1Arr V c) (b1Arr V c) (w2Arr V c) (b2Arr V c)
      rfl rfl rfl rfl rfl rfl rfl
  · exact (congrArg (i ∈ ·) (View.set_slice_whole _ _)).mpr (RegB.mem_rows (RegB.offs (RegB.slabOf N_14 i)) i rfl)

end Cert.KernelIdeal.Reg14

end
-- ==== Proof.Reg15.lean ====
import proofs.«422151_j2362232012848_1_alg».proof.Proof.Reg3

noncomputable section

namespace Cert.KernelIdeal.Reg15

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

theorem arrAt_out (c : Dev nD) :
    (dat15 V c).arrAt 5 cfg15.N
      = Spec.arr2 (Spec.bnC false (Ideal.ofBits .f32 0x3727C5AC#32)
          (Spec.cur2 (V c (Pipeline.arrRef spec15 0))) (Spec.curRow (V c (Pipeline.arrRef spec15 1)))
          (Spec.curRow (V c (Pipeline.arrRef spec15 2))) (Spec.curRow (V c (Pipeline.arrRef spec15 3)))
          (Spec.curRow (V c (Pipeline.arrRef spec15 4)))) :=
  (dat15 V c).arrAt_eq_of_cover 5 _
    (fun t _ => by
      show (cfg15.win 5).cut (grid15.coords t) ((dat15 V c).after 5 t) = _
      rw [after15_5]
      refine (Reg3.out15_eq _ _ _ _ _).trans ?_
      have hr := (LibRegC.idx t).1
      have hz := (LibRegC.idx t).2
      exact Reg3.whole_block false (V c (Pipeline.arrRef spec15 0)) (V c (Pipeline.arrRef spec15 1))
        (V c (Pipeline.arrRef spec15 2)) (V c (Pipeline.arrRef spec15 3)) (V c (Pipeline.arrRef spec15 4))
        (win15_0.rect_emb_val t) (win15_1.rect_emb_val t) (win15_2.rect_emb_val t) (win15_3.rect_emb_val t)
        (win15_4.rect_emb_val t) (win15_5.rect_emb_val t) hr hr hz hz hz hz)
    fun i => (LibRegC.cover_rows N_15 win15_5.index (fun t => (LibRegC.idx t).1) _ _
      (fun t => View.set_slice_whole (Pipeline.arrRef spec15 5) (win15_5.rect t)) i).imp fun t h => ⟨flush15_5 t, h⟩

end Cert.KernelIdeal.Reg15

end
-- ==== Proof.KerCarry4.lean ====
import proofs.«422151_j2362232012848_1_alg».proof.Proof.KerCarry3

noncomputable section

namespace Cert.KernelIdeal.Carry

open Idealize.ShloMosaic Idealize.ShloMosaic.TcCoe Idealize.SL.Sem
open Cert Cert.KernelIdeal

variable {F : FTy → Type} [FloatOps F]
variable (m : (ℓ : Loc nD τ sig) → Buf (Elt F) ℓ) (ρ : Dev nD → PrngReg) (c : Dev nD) (b : Ref sig .tc) (hb : b ∈ stable)
include hb

theorem st_W39 : Gen.W39 m ρ c (Proc.devRef .tc b) = Gen.W2 m ρ c (Proc.devRef .tc b) :=
  (Keep.keep39 m ρ c b (by revert b; decide)).trans (st_W38 m ρ c b hb)
theorem st_W40 : Gen.W40 m ρ c (Proc.devRef .tc b) = Gen.W2 m ρ c (Proc.devRef .tc b) :=
  (Keep.keep40 m ρ c b (by revert b; decide)).trans (st_W39 m ρ c b hb)
theorem st_W41 : Gen.W41 m ρ c (Proc.devRef .tc b) = Gen.W2 m ρ c (Proc.devRef .tc b) :=
  (Keep.keep41 m ρ c b (by revert b; decide)).trans (st_W40 m ρ c b hb)
theorem st_W42 : Gen.W42 m ρ c (Proc.devRef .tc b) = Gen.W2 m ρ c (Proc.devRef .tc b) :=
  (Keep.keep42 m ρ c b (by revert b; decide)).trans (st_W41 m ρ c b hb)
theorem st_W43 : Gen.W43 m ρ c (Proc.devRef .tc b) = Gen.W2 m ρ c (Proc.devRef .tc b) :=
  (Keep.keep43 m ρ c b (by revert b; decide)).trans (st_W42 m ρ c b hb)
theorem st_W44 : Gen.W44 m ρ c (Proc.devRef .tc b) = Gen.W2 m ρ c (Proc.devRef .tc b) :=
  (Keep.keep44 m ρ c b (by revert b; decide)).trans (st_W43 m ρ c b hb)
theorem st_W45 : Gen.W45 m ρ c (Proc.devRef .tc b) = Gen.W2 m ρ c (Proc.devRef .tc b) :=
  (Keep.keep45 m ρ c b (by revert b; decide)).trans (st_W44 m ρ c b hb)

end Cert.KernelIdeal.Carry

end
-- ==== Proof.KerReads4.lean ====
import proofs.«422151_j2362232012848_1_alg».proof.Proof.Gen.KernelIdeal.Launch
import proofs.«422151_j2362232012848_1_alg».proof.Proof.KerNet
import proofs.«422151_j2362232012848_1_alg».proof.Proof.KerCast
import proofs.«422151_j2362232012848_1_alg».proof.Proof.LibKerLNet
import Idealize.ShloMosaic.Lib.StableHlo.Run

set_option maxRecDepth 16384

noncomputable section

namespace Cert.KernelIdeal.Reads4

open Idealize.ShloMosaic Idealize.ShloMosaic.ValueIdx
open Cert Cert.KernelIdeal

variable {F : FTy → Type} [FloatOps F]
variable (V : Valuation τ sig (Elt F))

set_option maxHeartbeats 1000000 in
theorem take_rd : StableHlo.after (Gen.hostOps13 (F := F)) V (Proc.devRef .tc main_v154)
    = Net.takeK (V (Proc.devRef .tc main_v153)) (V (Proc.devRef .tc main_v1)) := by
  after_results
  simp only [Cast.ofBuf_toBuf]
  refine (eq_of_heq (Cast.toBuf_heq _ _)).trans ?_
  rfl

theorem ew_rd : StableHlo.after (Gen.hostOps13_1 (F := F)) V (Proc.devRef .tc main_v156)
    = Net.sliceEW ![4, 0, 0] Facts₀.slices_S5x50x64_S1x50x64_4_0_0 (V (Proc.devRef .tc main_arg5)) := by
  after_results
  rfl

theorem eb_rd : StableHlo.after (Gen.hostOps13_1 (F := F)) V (Proc.devRef .tc main_v159)
    = shapeCast S1x64 (Net.sliceVec ![4, 0] Facts₀.slices_S5x64_S1x64_4_0 (V (Proc.devRef .tc main_arg6)))
        Facts₀.shapeCasts_S64_S1x64 := by
  after_results
  rfl

theorem agg_rd : StableHlo.after (Gen.hostOps14 (F := F)) V (Proc.devRef .tc main_v163)
    = Net.aggK (V (Proc.devRef .tc main_v160)) (V (Proc.devRef .tc main_v3)) := by
  after_results
  rfl

theorem eps_rd : StableHlo.after (Gen.hostOps14 (F := F)) V (Proc.devRef .tc main_v174)
    = shapeCast S1x1 (Net.sliceScalar ![4] Facts₀.slices_S5_S1_4 (V (Proc.devRef .tc main_arg11))) Facts₀.shapeCasts_S_S1x1 := by
  after_results
  rfl

theorem w1_rd : StableHlo.after (Gen.hostOps14 (F := F)) V (Proc.devRef .tc main_v167)
    = Net.sliceMat ![4, 0, 0] Facts₀.slices_S5x64x64_S1x64x64_4_0_0 (V (Proc.devRef .tc main_arg7)) := by
  after_results
  rfl

theorem b1_rd : StableHlo.after (Gen.hostOps14 (F := F)) V (Proc.devRef .tc main_v175)
    = shapeCast S1x64 (Net.sliceVec ![4, 0] Facts₀.slices_S5x64_S1x64_4_0 (V (Proc.devRef .tc main_arg8)))
        Facts₀.shapeCasts_S64_S1x64 := by
  after_results
  rfl

theorem w2_rd : StableHlo.after (Gen.hostOps14 (F := F)) V (Proc.devRef .tc main_v171)
    = Net.sliceMat ![4, 0, 0] Facts₀.slices_S5x64x64_S1x64x64_4_0_0 (V (Proc.devRef .tc main_arg9)) := by
  after_results
  rfl

theorem b2_rd : StableHlo.after (Gen.hostOps14 (F := F)) V (Proc.devRef .tc main_v176)
    = shapeCast S1x64 (Net.sliceVec ![4, 0] Facts₀.slices_S5x64_S1x64_4_0 (V (Proc.devRef .tc main_arg10)))
        Facts₀.shapeCasts_S64_S1x64 := by
  after_results
  rfl

theorem mu_rd : StableHlo.after (Gen.hostOps15 (F := F)) V (Proc.devRef .tc main_v180)
    = Net.muK (V (Proc.devRef .tc main_v177)) := by
  after_results
  rfl

theorem zero_rd : StableHlo.after (Gen.hostOps15 (F := F)) V (Proc.devRef .tc main_c_17) = constantI S_ 32 0#32 := by
  after_results

set_option maxHeartbeats 1000000 in
theorem var_rd : StableHlo.after (Gen.hostOps15_1 (F := F)) V (Proc.devRef .tc main_v181)
    = Net.varOfK (V (Proc.devRef .tc main_c_17)) (V (Proc.devRef .tc main_v177)) := by
  after_results
  simp only [Cast.ofBuf_toBuf]
  refine (eq_of_heq (Cast.toBuf_heq _ _)).trans ?_
  rfl

theorem murow_rd : StableHlo.after (Gen.hostOps15_2 (F := F)) V (Proc.devRef .tc main_v186)
    = shapeCast S1x64 (V (Proc.devRef .tc main_v180)) Facts₀.shapeCasts_S64_S1x64 := by
  after_results
  rfl

theorem varrow_rd : StableHlo.after (Gen.hostOps15_2 (F := F)) V (Proc.devRef .tc main_v187)
    = shapeCast S1x64 (V (Proc.devRef .tc main_v181)) Facts₀.shapeCasts_S64_S1x64 := by
  after_results
  rfl

theorem gamma_rd : StableHlo.after (Gen.hostOps15_2 (F := F)) V (Proc.devRef .tc main_v188)
    = shapeCast S1x64 (Net.sliceVec ![4, 0] Facts₀.slices_S5x64_S1x64_4_0 (V (Proc.devRef .tc main_arg12)))
        Facts₀.shapeCasts_S64_S1x64 := by
  after_results
  rfl

theorem beta_rd : StableHlo.after (Gen.hostOps15_2 (F := F)) V (Proc.devRef .tc main_v189)
    = shapeCast S1x64 (Net.sliceVec ![4, 0] Facts₀.slices_S5x64_S1x64_4_0 (V (Proc.devRef .tc main_arg13)))
        Facts₀.shapeCasts_S64_S1x64 := by
  after_results
  rfl

end Cert.KernelIdeal.Reads4

end
-- ==== Proof.KerLayer4.lean ====
import proofs.«422151_j2362232012848_1_alg».proof.Proof.Reg13
import proofs.«422151_j2362232012848_1_alg».proof.Proof.Reg14
import proofs.«422151_j2362232012848_1_alg».proof.Proof.Reg15
import proofs.«422151_j2362232012848_1_alg».proof.Proof.KerCarry4
import proofs.«422151_j2362232012848_1_alg».proof.Proof.KerReads4
import proofs.«422151_j2362232012848_1_alg».proof.Proof.LibKerL

noncomputable section

namespace Cert.KernelIdeal.Layer4

open Idealize.ShloMosaic Idealize.ShloMosaic.TcCoe Idealize.ShloMosaic.ValueIdx Idealize.SL.Sem
open Cert Cert.KernelIdeal

variable (m : (ℓ : Loc nD τ sig) → Buf (Elt Ideal) ℓ) (ρ : Dev nD → PrngReg)

theorem layer4 (c : Dev nD)
    (hsrc : ∀ p : Fin 800000, 0 ≤ (Net.srcV (m ((c : Thread nD τ).loc main_arg1)) (ix1 p)).toInt
      ∧ (Net.srcV (m ((c : Thread nD τ).loc main_arg1)) (ix1 p)).toInt ≤ (49999#32 : BitVec 32).toInt) :
    Gen.W47 m ρ c (Proc.devRef .tc main_v190)
      = Net.layerK false
          (Net.sliceEW (F := Ideal) ![4, 0, 0] Facts₀.slices_S5x50x64_S1x50x64_4_0_0 (m ((c : Thread nD τ).loc main_arg5)))
          (Net.sliceVec (F := Ideal) ![4, 0] Facts₀.slices_S5x64_S1x64_4_0 (m ((c : Thread nD τ).loc main_arg6)))
          (Net.sliceScalar (F := Ideal) ![4] Facts₀.slices_S5_S1_4 (m ((c : Thread nD τ).loc main_arg11)))
          (Net.sliceMat (F := Ideal) ![4, 0, 0] Facts₀.slices_S5x64x64_S1x64x64_4_0_0 (m ((c : Thread nD τ).loc main_arg7)))
          (Net.sliceVec (F := Ideal) ![4, 0] Facts₀.slices_S5x64_S1x64_4_0 (m ((c : Thread nD τ).loc main_arg8)))
          (Net.sliceMat (F := Ideal) ![4, 0, 0] Facts₀.slices_S5x64x64_S1x64x64_4_0_0 (m ((c : Thread nD τ).loc main_arg9)))
          (Net.sliceVec (F := Ideal) ![4, 0] Facts₀.slices_S5x64_S1x64_4_0 (m ((c : Thread nD τ).loc main_arg10)))
          (Net.sliceVec (F := Ideal) ![4, 0] Facts₀.slices_S5x64_S1x64_4_0 (m ((c : Thread nD τ).loc main_arg12)))
          (Net.sliceVec (F := Ideal) ![4, 0] Facts₀.slices_S5x64_S1x64_4_0 (m ((c : Thread nD τ).loc main_arg13)))
          (Net.srcV (m ((c : Thread nD τ).loc main_arg1))) (Net.dstV (m ((c : Thread nD τ).loc main_arg1)))
          (m ((c : Thread nD τ).loc main_arg2))
          (Gen.W38 m ρ c (Proc.devRef .tc main_v153)) :=
  Layer.layer_of m ρ c (Gen.W45 m ρ c) (Carry.st_W45 m ρ c)
    (Layer.node_of m ρ c (Gen.W41 m ρ c) (Carry.st_W41 m ρ c)
      (Layer.msg_of m ρ c (Gen.W38 m ρ c) (Gen.W39 m ρ c) (Gen.W40 m ρ c) (Carry.st_W38 m ρ c) (Carry.st_W39 m ρ c) (Carry.st_W40 m ρ c) hsrc
        (Reads4.take_rd (Gen.W38 m ρ c)) (Keep.keep40 m ρ c main_v154 (by decide)) (Reads4.ew_rd (Gen.W39 m ρ c)) (Reads4.eb_rd (Gen.W39 m ρ c))
        ((Keep.out13 m ρ c).trans (Reg13.arrAt_out (Gen.V40 m ρ) c)))
      (Reads4.agg_rd (Gen.W41 m ρ c)) (Reads4.eps_rd (Gen.W41 m ρ c)) (Reads4.w1_rd (Gen.W41 m ρ c)) (Reads4.b1_rd (Gen.W41 m ρ c))
      (Reads4.w2_rd (Gen.W41 m ρ c)) (Reads4.b2_rd (Gen.W41 m ρ c))
      ((Keep.keep42 m ρ c main_v153 (by decide)).trans ((Keep.keep41 m ρ c main_v153 (by decide)).trans
        ((Keep.keep40 m ρ c main_v153 (by decide)).trans (Keep.keep39 m ρ c main_v153 (by decide)))))
      ((Keep.out14 m ρ c).trans (Reg14.out_eq_spec (Gen.V42 m ρ) c)))
    (Reads4.mu_rd (Gen.W43 m ρ c)) (Keep.keep45 m ρ c main_v180 (by decide)) (Reads4.zero_rd (Gen.W43 m ρ c)) (Keep.keep44 m ρ c main_v177 (by decide))
    (Reads4.var_rd (Gen.W44 m ρ c)) (Reads4.murow_rd (Gen.W45 m ρ c)) (Reads4.varrow_rd (Gen.W45 m ρ c)) (Reads4.gamma_rd (Gen.W45 m ρ c))
    (Reads4.beta_rd (Gen.W45 m ρ c))
    ((Keep.keep46 m ρ c main_v177 (by decide)).trans ((Keep.keep45 m ρ c main_v177 (by decide)).trans (Keep.keep44 m ρ c main_v177 (by decide))))
    ((Keep.out15 m ρ c).trans (Reg15.arrAt_out (Gen.V46 m ρ) c))

end Cert.KernelIdeal.Layer4

end
-- ==== Proof.KerValue.lean ====
import proofs.«422151_j2362232012848_1_alg».proof.Proof.KerAtom
import proofs.«422151_j2362232012848_1_alg».proof.Proof.KerLayer0
import proofs.«422151_j2362232012848_1_alg».proof.Proof.KerLayer1
import proofs.«422151_j2362232012848_1_alg».proof.Proof.KerLayer2
import proofs.«422151_j2362232012848_1_alg».proof.Proof.KerLayer3
import proofs.«422151_j2362232012848_1_alg».proof.Proof.KerLayer4

noncomputable section

namespace Cert.KernelIdeal.Value

open Idealize.ShloMosaic Idealize.ShloMosaic.TcCoe Idealize.ShloMosaic.ValueIdx Idealize.SL.Sem
open Cert Cert.KernelIdeal

variable (m : (ℓ : Loc nD τ sig) → Buf (Elt Ideal) ℓ) (ρ : Dev nD → PrngReg)

theorem kernel_value (c : Dev nD)
    (hsrc : ∀ p : Fin 800000, 0 ≤ (Net.srcV (m ((c : Thread nD τ).loc main_arg1)) (ix1 p)).toInt
      ∧ (Net.srcV (m ((c : Thread nD τ).loc main_arg1)) (ix1 p)).toInt ≤ (49999#32 : BitVec 32).toInt) :
    Gen.W47 m ρ c (Proc.devRef .tc main_v190)
      = Net.layerK false
      (Net.sliceEW ![4, 0, 0] Facts₀.slices_S5x50x64_S1x50x64_4_0_0 (m ((c : Thread nD τ).loc main_arg5)))
      (Net.sliceVec ![4, 0] Facts₀.slices_S5x64_S1x64_4_0 (m ((c : Thread nD τ).loc main_arg6)))
      (Net.sliceScalar ![4] Facts₀.slices_S5_S1_4 (m ((c : Thread nD τ).loc main_arg11)))
      (Net.sliceMat ![4, 0, 0] Facts₀.slices_S5x64x64_S1x64x64_4_0_0 (m ((c : Thread nD τ).loc main_arg7)))
      (Net.sliceVec ![4, 0] Facts₀.slices_S5x64_S1x64_4_0 (m ((c : Thread nD τ).loc main_arg8)))
      (Net.sliceMat ![4, 0, 0] Facts₀.slices_S5x64x64_S1x64x64_4_0_0 (m ((c : Thread nD τ).loc main_arg9)))
      (Net.sliceVec ![4, 0] Facts₀.slices_S5x64_S1x64_4_0 (m ((c : Thread nD τ).loc main_arg10)))
      (Net.sliceVec ![4, 0] Facts₀.slices_S5x64_S1x64_4_0 (m ((c : Thread nD τ).loc main_arg12)))
      (Net.sliceVec ![4, 0] Facts₀.slices_S5x64_S1x64_4_0 (m ((c : Thread nD τ).loc main_arg13)))
      (Net.srcV (m ((c : Thread nD τ).loc main_arg1))) (Net.dstV (m ((c : Thread nD τ).loc main_arg1)))
      (m ((c : Thread nD τ).loc main_arg2))
      (Net.layerK true
          (Net.sliceEW ![3, 0, 0] Facts₀.slices_S5x50x64_S1x50x64_3_0_0 (m ((c : Thread nD τ).loc main_arg5)))
          (Net.sliceVec ![3, 0] Facts₀.slices_S5x64_S1x64_3_0 (m ((c : Thread nD τ).loc main_arg6)))
          (Net.sliceScalar ![3] Facts₀.slices_S5_S1_3 (m ((c : Thread nD τ).loc main_arg11)))
          (Net.sliceMat ![3, 0, 0] Facts₀.slices_S5x64x64_S1x64x64_3_0_0 (m ((c : Thread nD τ).loc main_arg7)))
          (Net.sliceVec ![3, 0] Facts₀.slices_S5x64_S1x64_3_0 (m ((c : Thread nD τ).loc main_arg8)))
          (Net.sliceMat ![3, 0, 0] Facts₀.slices_S5x64x64_S1x64x64_3_0_0 (m ((c : Thread nD τ).loc main_arg9)))
          (Net.sliceVec ![3, 0] Facts₀.slices_S5x64_S1x64_3_0 (m ((c : Thread nD τ).loc main_arg10)))
          (Net.sliceVec ![3, 0] Facts₀.slices_S5x64_S1x64_3_0 (m ((c : Thread nD τ).loc main_arg12)))
          (Net.sliceVec ![3, 0] Facts₀.slices_S5x64_S1x64_3_0 (m ((c : Thread nD τ).loc main_arg13)))
          (Net.srcV (m ((c : Thread nD τ).loc main_arg1))) (Net.dstV (m ((c : Thread nD τ).loc main_arg1)))
          (m ((c : Thread nD τ).loc main_arg2))
          (Net.layerK true
            (Net.sliceEW ![2, 0, 0] Facts₀.slices_S5x50x64_S1x50x64_2_0_0 (m ((c : Thread nD τ).loc main_arg5)))
            (Net.sliceVec ![2, 0] Facts₀.slices_S5x64_S1x64_2_0 (m ((c : Thread nD τ).loc main_arg6)))
            (Net.sliceScalar ![2] Facts₀.slices_S5_S1_2 (m ((c : Thread nD τ).loc main_arg11)))
            (Net.sliceMat ![2, 0, 0] Facts₀.slices_S5x64x64_S1x64x64_2_0_0 (m ((c : Thread nD τ).loc main_arg7)))
            (Net.sliceVec ![2, 0] Facts₀.slices_S5x64_S1x64_2_0 (m ((c : Thread nD τ).loc main_arg8)))
            (Net.sliceMat ![2, 0, 0] Facts₀.slices_S5x64x64_S1x64x64_2_0_0 (m ((c : Thread nD τ).loc main_arg9)))
            (Net.sliceVec ![2, 0] Facts₀.slices_S5x64_S1x64_2_0 (m ((c : Thread nD τ).loc main_arg10)))
            (Net.sliceVec ![2, 0] Facts₀.slices_S5x64_S1x64_2_0 (m ((c : Thread nD τ).loc main_arg12)))
            (Net.sliceVec ![2, 0] Facts₀.slices_S5x64_S1x64_2_0 (m ((c : Thread nD τ).loc main_arg13)))
            (Net.srcV (m ((c : Thread nD τ).loc main_arg1))) (Net.dstV (m ((c : Thread nD τ).loc main_arg1)))
            (m ((c : Thread nD τ).loc main_arg2))
            (Net.layerK true
              (Net.sliceEW ![1, 0, 0] Facts₀.slices_S5x50x64_S1x50x64_1_0_0 (m ((c : Thread nD τ).loc main_arg5)))
              (Net.sliceVec ![1, 0] Facts₀.slices_S5x64_S1x64_1_0 (m ((c : Thread nD τ).loc main_arg6)))
              (Net.sliceScalar ![1] Facts₀.slices_S5_S1_1 (m ((c : Thread nD τ).loc main_arg11)))
              (Net.sliceMat ![1, 0, 0] Facts₀.slices_S5x64x64_S1x64x64_1_0_0 (m ((c : Thread nD τ).loc main_arg7)))
              (Net.sliceVec ![1, 0] Facts₀.slices_S5x64_S1x64_1_0 (m ((c : Thread nD τ).loc main_arg8)))
              (Net.sliceMat ![1, 0, 0] Facts₀.slices_S5x64x64_S1x64x64_1_0_0 (m ((c : Thread nD τ).loc main_arg9)))
              (Net.sliceVec ![1, 0] Facts₀.slices_S5x64_S1x64_1_0 (m ((c : Thread nD τ).loc main_arg10)))
              (Net.sliceVec ![1, 0] Facts₀.slices_S5x64_S1x64_1_0 (m ((c : Thread nD τ).loc main_arg12)))
              (Net.sliceVec ![1, 0] Facts₀.slices_S5x64_S1x64_1_0 (m ((c : Thread nD τ).loc main_arg13)))
              (Net.srcV (m ((c : Thread nD τ).loc main_arg1))) (Net.dstV (m ((c : Thread nD τ).loc main_arg1)))
              (m ((c : Thread nD τ).loc main_arg2))
              (Net.layerK true
                (Net.sliceEW ![0, 0, 0] Facts₀.slices_S5x50x64_S1x50x64_0_0_0 (m ((c : Thread nD τ).loc main_arg5)))
                (Net.sliceVec ![0, 0] Facts₀.slices_S5x64_S1x64_0_0 (m ((c : Thread nD τ).loc main_arg6)))
                (Net.sliceScalar ![0] Facts₀.slices_S5_S1_0 (m ((c : Thread nD τ).loc main_arg11)))
                (Net.sliceMat ![0, 0, 0] Facts₀.slices_S5x64x64_S1x64x64_0_0_0 (m ((c : Thread nD τ).loc main_arg7)))
                (Net.sliceVec ![0, 0] Facts₀.slices_S5x64_S1x64_0_0 (m ((c : Thread nD τ).loc main_arg8)))
                (Net.sliceMat ![0, 0, 0] Facts₀.slices_S5x64x64_S1x64x64_0_0_0 (m ((c : Thread nD τ).loc main_arg9)))
                (Net.sliceVec ![0, 0] Facts₀.slices_S5x64_S1x64_0_0 (m ((c : Thread nD τ).loc main_arg10)))
                (Net.sliceVec ![0, 0] Facts₀.slices_S5x64_S1x64_0_0 (m ((c : Thread nD τ).loc main_arg12)))
                (Net.sliceVec ![0, 0] Facts₀.slices_S5x64_S1x64_0_0 (m ((c : Thread nD τ).loc main_arg13)))
                (Net.srcV (m ((c : Thread nD τ).loc main_arg1))) (Net.dstV (m ((c : Thread nD τ).loc main_arg1)))
                (m ((c : Thread nD τ).loc main_arg2))
                (Spec.arr2 (Spec.linC (Spec.cur2 (m ((c : Thread nD τ).loc main_arg0))) (Spec.cur2 (m ((c : Thread nD τ).loc main_arg3)))
                    (Spec.cur1 (m ((c : Thread nD τ).loc main_arg4))))))))) := by
  rw [Layer4.layer4 m ρ c hsrc, Layer3.layer3 m ρ c hsrc, Layer2.layer2 m ρ c hsrc, Layer1.layer1 m ρ c hsrc,
    Layer0.layer0 m ρ c hsrc, Atom.h0 m ρ c]

end Cert.KernelIdeal.Value

end
-- ==== Proof.RefOpsList.lean ====
import proofs.«422151_j2362232012848_1_alg».proof.Proof.Gen.ReferenceIdeal
import Idealize.ShloMosaic.Lib.StableHlo.Run

set_option maxHeartbeats 40000000

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ unary main_arg1 main_v0 (extractStridedSlice S1x800000 ![0, 0] · slices_S2x800000_S1x800000_0_0),
    reshape main_v0 main_v1 rfl shapeCasts_S1x800000_S800000,
    unary main_arg1 main_v2 (extractStridedSlice S1x800000 ![1, 0] · slices_S2x800000_S1x800000_1_0),
    reshape main_v2 main_v3 rfl shapeCasts_S1x800000_S800000,
    binary main_arg0 main_arg3 main_v4 (fun l r => Host.dotGeneral dot_S50000x92_S92x64_S50000x64_1_0_0_1_n_n none l r),
    unary main_arg4 main_v5 (broadcastInDim S1x64 ![1] bcast_S64_S1x64_1),
    unary main_v5 main_v6 (broadcastInDim S50000x64 ![0, 1] bcast_S1x64_S50000x64_0_1),
    binary main_v4 main_v6 main_v7 addf,
    nullary main_c (constantI S_ 32 0#32),
    unary main_c main_v8 (broadcastInDim S800000 ![] bcast_S_S800000),
    binary main_v1 main_v8 main_v9 (cmpi .slt),
    nullary main_c_0 (constantI S_ 32 50000#32),
    unary main_c_0 main_v10 (broadcastInDim S800000 ![] bcast_S_S800000),
    binary main_v1 main_v10 main_v11 addi,
    ternary main_v9 main_v11 main_v1 main_v12 select,
    unary main_v12 main_v13 (broadcastInDim S800000x1 ![0] bcast_S800000_S800000x1_0),
    binary main_v7 main_v13 main_v14 (fun x i => Host.gather gather_S50000x64_S800000x1_S800000x64_1_0_n_n_0_1_164 x i),
    unary main_arg5 main_v15 (extractStridedSlice S1x50x64 ![0, 0, 0] · slices_S5x50x64_S1x50x64_0_0_0),
    reshape main_v15 main_v16 rfl shapeCasts_S1x50x64_S50x64,
    binary main_arg2 main_v16 main_v17 (fun l r => Host.dotGeneral dot_S800000x50_S50x64_S800000x64_1_0_0_1_n_n none l r),
    binary main_v14 main_v17 main_v18 addf,
    unary main_arg6 main_v19 (extractStridedSlice S1x64 ![0, 0] · slices_S5x64_S1x64_0_0),
    reshape main_v19 main_v20 rfl shapeCasts_S1x64_S64,
    unary main_v20 main_v21 (broadcastInDim S1x64 ![1] bcast_S64_S1x64_1),
    unary main_v21 main_v22 (broadcastInDim S800000x64 ![0, 1] bcast_S1x64_S800000x64_0_1),
    binary main_v18 main_v22 main_v23 addf,
    nullary main_call0_cst (constant S_ .f32 0x00000000#32),
    unary main_call0_cst main_call0_v0 (broadcastInDim S800000x64 ![] bcast_S_S800000x64),
    binary main_v23 main_call0_v0 main_v24 maximumf,
    nullary main_cst (constant S_ .f32 0x00000000#32),
    unary main_cst main_v25 (broadcastInDim S50000x64 ![] bcast_S_S50000x64),
    unary main_v3 main_v26 (broadcastInDim S800000x1 ![0] bcast_S800000_S800000x1_0),
    ternary main_v25 main_v26 main_v24 main_v27 (fun x i u => Host.scatterAdd scatter_S50000x64_S800000x1_S800000x64_1_0_0_1 x i u),
    unary main_arg11 main_v28 (extractStridedSlice S1 ![0] · slices_S5_S1_0),
    reshape main_v28 main_v29 rfl shapeCasts_S1_S_,
    nullary main_cst_1 (constant S_ .f32 0x3F800000#32),
    binary main_cst_1 main_v29 main_v30 addf,
    unary main_v30 main_v31 (broadcastInDim S50000x64 ![] bcast_S_S50000x64),
    binary main_v31 main_v7 main_v32 mulf,
    binary main_v32 main_v27 main_v33 addf,
    unary main_arg7 main_v34 (extractStridedSlice S1x64x64 ![0, 0, 0] · slices_S5x64x64_S1x64x64_0_0_0),
    reshape main_v34 main_v35 rfl shapeCasts_S1x64x64_S64x64,
    binary main_v33 main_v35 main_v36 (fun l r => Host.dotGeneral dot_S50000x64_S64x64_S50000x64_1_0_0_1_n_n none l r),
    unary main_arg8 main_v37 (extractStridedSlice S1x64 ![0, 0] · slices_S5x64_S1x64_0_0),
    reshape main_v37 main_v38 rfl shapeCasts_S1x64_S64,
    unary main_v38 main_v39 (broadcastInDim S1x64 ![1] bcast_S64_S1x64_1),
    unary main_v39 main_v40 (broadcastInDim S50000x64 ![0, 1] bcast_S1x64_S50000x64_0_1),
    binary main_v36 main_v40 main_v41 addf,
    nullary main_call1_cst (constant S_ .f32 0x00000000#32),
    unary main_call1_cst main_call1_v0 (broadcastInDim S50000x64 ![] bcast_S_S50000x64),
    binary main_v41 main_call1_v0 main_v42 maximumf,
    unary main_arg9 main_v43 (extractStridedSlice S1x64x64 ![0, 0, 0] · slices_S5x64x64_S1x64x64_0_0_0),
    reshape main_v43 main_v44 rfl shapeCasts_S1x64x64_S64x64,
    binary main_v42 main_v44 main_v45 (fun l r => Host.dotGeneral dot_S50000x64_S64x64_S50000x64_1_0_0_1_n_n none l r),
    unary main_arg10 main_v46 (extractStridedSlice S1x64 ![0, 0] · slices_S5x64_S1x64_0_0),
    reshape main_v46 main_v47 rfl shapeCasts_S1x64_S64,
    unary main_v47 main_v48 (broadcastInDim S1x64 ![1] bcast_S64_S1x64_1),
    unary main_v48 main_v49 (broadcastInDim S50000x64 ![0, 1] bcast_S1x64_S50000x64_0_1),
    binary main_v45 main_v49 main_v50 addf,
    nullary main_cst_2 (constant S_ .f32 0x00000000#32),
    binary main_v50 main_cst_2 main_v51 (fun x v => Host.reduceAdd x v reducesTo_S50000x64_S64_d0 h_S_),
    nullary main_cst_3 (constant S_ .f32 0x47435000#32),
    unary main_cst_3 main_v52 (broadcastInDim S64 ![] bcast_S_S64),
    binary main_v51 main_v52 main_v53 Host.divf ]

abbrev ops1 : List (HloOp τ sig (Elt F)) :=
  [ nullary main_c_4 (constantI S_ 32 0#32),
    nullary main_call2_cst (constant S_ .f32 0x00000000#32),
    binary main_v50 main_call2_cst main_call2_v0 (fun x v => Host.reduceAdd x v reducesTo_S50000x64_S64_d0 h_S_),
    unary main_call2_v0 main_call2_v1 (broadcastInDim S1x64 ![1] bcast_S64_S1x64_1),
    nullary main_call2_cst_0 (constant S_ .f32 0x47435000#32),
    unary main_call2_cst_0 main_call2_v2 (broadcastInDim S1x64 ![] bcast_S_S1x64),
    binary main_call2_v1 main_call2_v2 main_call2_v3 Host.divf,
    unary main_call2_v3 main_call2_v4 (broadcastInDim S50000x64 ![0, 1] bcast_S1x64_S50000x64_0_1),
    binary main_v50 main_call2_v4 main_call2_v5 subf,
    binary main_call2_v5 main_call2_v5 main_call2_v6 mulf,
    unary main_c_4 main_call2_v7 (sitofp .f32),
    nullary main_call2_cst_1 (constant S_ .f32 0x47435000#32),
    binary main_call2_cst_1 main_call2_v7 main_call2_v8 subf,
    nullary main_call2_cst_2 (constant S_ .f32 0x00000000#32),
    binary main_call2_v6 main_call2_cst_2 main_call2_v9 (fun x v => Host.reduceAdd x v reducesTo_S50000x64_S64_d0 h_S_),
    unary main_call2_v8 main_call2_v10 (broadcastInDim S64 ![] bcast_S_S64),
    binary main_call2_v9 main_call2_v10 main_call2_v11 Host.divf,
    nullary main_call2_cst_3 (constant S_ .f32 0x00000000#32),
    binary main_call2_v8 main_call2_cst_3 main_call2_v12 (cmpf .ogt),
    nullary main_call2_cst_4 (constant S_ .f32 0x7FC00000#32),
    unary main_call2_cst_4 main_call2_call0_v0 id,
    unary main_call2_call0_v0 main_call2_call0_v1 (broadcastInDim S64 ![] bcast_S_S64),
    ternary main_call2_v12 main_call2_v11 main_call2_call0_v1 main_v54 (fun p a b => select (broadcastInDim S64 ![] bcast_S_S64 p) a b),
    unary main_arg12 main_v55 (extractStridedSlice S1x64 ![0, 0] · slices_S5x64_S1x64_0_0),
    reshape main_v55 main_v56 rfl shapeCasts_S1x64_S64,
    unary main_v53 main_v57 (broadcastInDim S1x64 ![1] bcast_S64_S1x64_1),
    unary main_v57 main_v58 (broadcastInDim S50000x64 ![0, 1] bcast_S1x64_S50000x64_0_1),
    binary main_v50 main_v58 main_v59 subf,
    unary main_v56 main_v60 (broadcastInDim S1x64 ![1] bcast_S64_S1x64_1),
    unary main_v60 main_v61 (broadcastInDim S50000x64 ![0, 1] bcast_S1x64_S50000x64_0_1),
    binary main_v61 main_v59 main_v62 mulf,
    nullary main_cst_5 (constant S_ .f32 0x3727C5AC#32),
    unary main_cst_5 main_v63 (broadcastInDim S64 ![] bcast_S_S64),
    binary main_v54 main_v63 main_v64 addf,
    unary main_v64 main_v65 Host.rsqrt,
    unary main_v65 main_v66 (broadcastInDim S1x64 ![1] bcast_S64_S1x64_1),
    unary main_v66 main_v67 (broadcastInDim S50000x64 ![0, 1] bcast_S1x64_S50000x64_0_1),
    binary main_v62 main_v67 main_v68 mulf,
    unary main_arg13 main_v69 (extractStridedSlice S1x64 ![0, 0] · slices_S5x64_S1x64_0_0),
    reshape main_v69 main_v70 rfl shapeCasts_S1x64_S64,
    unary main_v70 main_v71 (broadcastInDim S1x64 ![1] bcast_S64_S1x64_1),
    unary main_v71 main_v72 (broadcastInDim S50000x64 ![0, 1] bcast_S1x64_S50000x64_0_1),
    binary main_v68 main_v72 main_v73 addf,
    nullary main_call3_cst (constant S_ .f32 0x00000000#32),
    unary main_call3_cst main_call3_v0 (broadcastInDim S50000x64 ![] bcast_S_S50000x64),
    binary main_v73 main_call3_v0 main_v74 maximumf,
    nullary main_c_6 (constantI S_ 32 0#32),
    unary main_c_6 main_v75 (broadcastInDim S800000 ![] bcast_S_S800000),
    binary main_v1 main_v75 main_v76 (cmpi .slt),
    nullary main_c_7 (constantI S_ 32 50000#32),
    unary main_c_7 main_v77 (broadcastInDim S800000 ![] bcast_S_S800000),
    binary main_v1 main_v77 main_v78 addi,
    ternary main_v76 main_v78 main_v1 main_v79 select,
    unary main_v79 main_v80 (broadcastInDim S800000x1 ![0] bcast_S800000_S800000x1_0),
    binary main_v74 main_v80 main_v81 (fun x i => Host.gather gather_S50000x64_S800000x1_S800000x64_1_0_n_n_0_1_164 x i),
    unary main_arg5 main_v82 (extractStridedSlice S1x50x64 ![1, 0, 0] · slices_S5x50x64_S1x50x64_1_0_0),
    reshape main_v82 main_v83 rfl shapeCasts_S1x50x64_S50x64,
    binary main_arg2 main_v83 main_v84 (fun l r => Host.dotGeneral dot_S800000x50_S50x64_S800000x64_1_0_0_1_n_n none l r),
    binary main_v81 main_v84 main_v85 addf,
    unary main_arg6 main_v86 (extractStridedSlice S1x64 ![1, 0] · slices_S5x64_S1x64_1_0),
    reshape main_v86 main_v87 rfl shapeCasts_S1x64_S64,
    unary main_v87 main_v88 (broadcastInDim S1x64 ![1] bcast_S64_S1x64_1),
    unary main_v88 main_v89 (broadcastInDim S800000x64 ![0, 1] bcast_S1x64_S800000x64_0_1),
    binary main_v85 main_v89 main_v90 addf,
    nullary main_call4_cst (constant S_ .f32 0x00000000#32),
    unary main_call4_cst main_call4_v0 (broadcastInDim S800000x64 ![] bcast_S_S800000x64),
    binary main_v90 main_call4_v0 main_v91 maximumf,
    nullary main_cst_8 (constant S_ .f32 0x00000000#32),
    unary main_cst_8 main_v92 (broadcastInDim S50000x64 ![] bcast_S_S50000x64),
    unary main_v3 main_v93 (broadcastInDim S800000x1 ![0] bcast_S800000_S800000x1_0),
    ternary main_v92 main_v93 main_v91 main_v94 (fun x i u => Host.scatterAdd scatter_S50000x64_S800000x1_S800000x64_1_0_0_1 x i u),
    unary main_arg11 main_v95 (extractStridedSlice S1 ![1] · slices_S5_S1_1),
    reshape main_v95 main_v96 rfl shapeCasts_S1_S_,
    nullary main_cst_9 (constant S_ .f32 0x3F800000#32),
    binary main_cst_9 main_v96 main_v97 addf,
    unary main_v97 main_v98 (broadcastInDim S50000x64 ![] bcast_S_S50000x64),
    binary main_v98 main_v74 main_v99 mulf,
    binary main_v99 main_v94 main_v100 addf,
    unary main_arg7 main_v101 (extractStridedSlice S1x64x64 ![1, 0, 0] · slices_S5x64x64_S1x64x64_1_0_0),
    reshape main_v101 main_v102 rfl shapeCasts_S1x64x64_S64x64,
    binary main_v100 main_v102 main_v103 (fun l r => Host.dotGeneral dot_S50000x64_S64x64_S50000x64_1_0_0_1_n_n none l r),
    unary main_arg8 main_v104 (extractStridedSlice S1x64 ![1, 0] · slices_S5x64_S1x64_1_0),
    reshape main_v104 main_v105 rfl shapeCasts_S1x64_S64,
    unary main_v105 main_v106 (broadcastInDim S1x64 ![1] bcast_S64_S1x64_1),
    unary main_v106 main_v107 (broadcastInDim S50000x64 ![0, 1] bcast_S1x64_S50000x64_0_1) ]

abbrev ops2 : List (HloOp τ sig (Elt F)) :=
  [ binary main_v103 main_v107 main_v108 addf,
    nullary main_call5_cst (constant S_ .f32 0x00000000#32),
    unary main_call5_cst main_call5_v0 (broadcastInDim S50000x64 ![] bcast_S_S50000x64),
    binary main_v108 main_call5_v0 main_v109 maximumf,
    unary main_arg9 main_v110 (extractStridedSlice S1x64x64 ![1, 0, 0] · slices_S5x64x64_S1x64x64_1_0_0),
    reshape main_v110 main_v111 rfl shapeCasts_S1x64x64_S64x64,
    binary main_v109 main_v111 main_v112 (fun l r => Host.dotGeneral dot_S50000x64_S64x64_S50000x64_1_0_0_1_n_n none l r),
    unary main_arg10 main_v113 (extractStridedSlice S1x64 ![1, 0] · slices_S5x64_S1x64_1_0),
    reshape main_v113 main_v114 rfl shapeCasts_S1x64_S64,
    unary main_v114 main_v115 (broadcastInDim S1x64 ![1] bcast_S64_S1x64_1),
    unary main_v115 main_v116 (broadcastInDim S50000x64 ![0, 1] bcast_S1x64_S50000x64_0_1),
    binary main_v112 main_v116 main_v117 addf,
    nullary main_cst_10 (constant S_ .f32 0x00000000#32),
    binary main_v117 main_cst_10 main_v118 (fun x v => Host.reduceAdd x v reducesTo_S50000x64_S64_d0 h_S_),
    nullary main_cst_11 (constant S_ .f32 0x47435000#32),
    unary main_cst_11 main_v119 (broadcastInDim S64 ![] bcast_S_S64),
    binary main_v118 main_v119 main_v120 Host.divf,
    nullary main_c_12 (constantI S_ 32 0#32),
    nullary main_call6_cst (constant S_ .f32 0x00000000#32),
    binary main_v117 main_call6_cst main_call6_v0 (fun x v => Host.reduceAdd x v reducesTo_S50000x64_S64_d0 h_S_),
    unary main_call6_v0 main_call6_v1 (broadcastInDim S1x64 ![1] bcast_S64_S1x64_1),
    nullary main_call6_cst_0 (constant S_ .f32 0x47435000#32),
    unary main_call6_cst_0 main_call6_v2 (broadcastInDim S1x64 ![] bcast_S_S1x64),
    binary main_call6_v1 main_call6_v2 main_call6_v3 Host.divf,
    unary main_call6_v3 main_call6_v4 (broadcastInDim S50000x64 ![0, 1] bcast_S1x64_S50000x64_0_1),
    binary main_v117 main_call6_v4 main_call6_v5 subf,
    binary main_call6_v5 main_call6_v5 main_call6_v6 mulf,
    unary main_c_12 main_call6_v7 (sitofp .f32),
    nullary main_call6_cst_1 (constant S_ .f32 0x47435000#32),
    binary main_call6_cst_1 main_call6_v7 main_call6_v8 subf,
    nullary main_call6_cst_2 (constant S_ .f32 0x00000000#32),
    binary main_call6_v6 main_call6_cst_2 main_call6_v9 (fun x v => Host.reduceAdd x v reducesTo_S50000x64_S64_d0 h_S_),
    unary main_call6_v8 main_call6_v10 (broadcastInDim S64 ![] bcast_S_S64),
    binary main_call6_v9 main_call6_v10 main_call6_v11 Host.divf,
    nullary main_call6_cst_3 (constant S_ .f32 0x00000000#32),
    binary main_call6_v8 main_call6_cst_3 main_call6_v12 (cmpf .ogt),
    nullary main_call6_cst_4 (constant S_ .f32 0x7FC00000#32),
    unary main_call6_cst_4 main_call6_call0_v0 id,
    unary main_call6_call0_v0 main_call6_call0_v1 (broadcastInDim S64 ![] bcast_S_S64),
    ternary main_call6_v12 main_call6_v11 main_call6_call0_v1 main_v121 (fun p a b => select (broadcastInDim S64 ![] bcast_S_S64 p) a b),
    unary main_arg12 main_v122 (extractStridedSlice S1x64 ![1, 0] · slices_S5x64_S1x64_1_0),
    reshape main_v122 main_v123 rfl shapeCasts_S1x64_S64,
    unary main_v120 main_v124 (broadcastInDim S1x64 ![1] bcast_S64_S1x64_1),
    unary main_v124 main_v125 (broadcastInDim S50000x64 ![0, 1] bcast_S1x64_S50000x64_0_1),
    binary main_v117 main_v125 main_v126 subf,
    unary main_v123 main_v127 (broadcastInDim S1x64 ![1] bcast_S64_S1x64_1),
    unary main_v127 main_v128 (broadcastInDim S50000x64 ![0, 1] bcast_S1x64_S50000x64_0_1),
    binary main_v128 main_v126 main_v129 mulf,
    nullary main_cst_13 (constant S_ .f32 0x3727C5AC#32),
    unary main_cst_13 main_v130 (broadcastInDim S64 ![] bcast_S_S64),
    binary main_v121 main_v130 main_v131 addf,
    unary main_v131 main_v132 Host.rsqrt,
    unary main_v132 main_v133 (broadcastInDim S1x64 ![1] bcast_S64_S1x64_1),
    unary main_v133 main_v134 (broadcastInDim S50000x64 ![0, 1] bcast_S1x64_S50000x64_0_1),
    binary main_v129 main_v134 main_v135 mulf,
    unary main_arg13 main_v136 (extractStridedSlice S1x64 ![1, 0] · slices_S5x64_S1x64_1_0),
    reshape main_v136 main_v137 rfl shapeCasts_S1x64_S64,
    unary main_v137 main_v138 (broadcastInDim S1x64 ![1] bcast_S64_S1x64_1),
    unary main_v138 main_v139 (broadcastInDim S50000x64 ![0, 1] bcast_S1x64_S50000x64_0_1),
    binary main_v135 main_v139 main_v140 addf,
    nullary main_call7_cst (constant S_ .f32 0x00000000#32),
    unary main_call7_cst main_call7_v0 (broadcastInDim S50000x64 ![] bcast_S_S50000x64),
    binary main_v140 main_call7_v0 main_v141 maximumf,
    nullary main_c_14 (constantI S_ 32 0#32),
    unary main_c_14 main_v142 (broadcastInDim S800000 ![] bcast_S_S800000),
    binary main_v1 main_v142 main_v143 (cmpi .slt),
    nullary main_c_15 (constantI S_ 32 50000#32),
    unary main_c_15 main_v144 (broadcastInDim S800000 ![] bcast_S_S800000),
    binary main_v1 main_v144 main_v145 addi,
    ternary main_v143 main_v145 main_v1 main_v146 select,
    unary main_v146 main_v147 (broadcastInDim S800000x1 ![0] bcast_S800000_S800000x1_0),
    binary main_v141 main_v147 main_v148 (fun x i => Host.gather gather_S50000x64_S800000x1_S800000x64_1_0_n_n_0_1_164 x i),
    unary main_arg5 main_v149 (extractStridedSlice S1x50x64 ![2, 0, 0] · slices_S5x50x64_S1x50x64_2_0_0),
    reshape main_v149 main_v150 rfl shapeCasts_S1x50x64_S50x64,
    binary main_arg2 main_v150 main_v151 (fun l r => Host.dotGeneral dot_S800000x50_S50x64_S800000x64_1_0_0_1_n_n none l r),
    binary main_v148 main_v151 main_v152 addf,
    unary main_arg6 main_v153 (extractStridedSlice S1x64 ![2, 0] · slices_S5x64_S1x64_2_0),
    reshape main_v153 main_v154 rfl shapeCasts_S1x64_S64,
    unary main_v154 main_v155 (broadcastInDim S1x64 ![1] bcast_S64_S1x64_1),
    unary main_v155 main_v156 (broadcastInDim S800000x64 ![0, 1] bcast_S1x64_S800000x64_0_1),
    binary main_v152 main_v156 main_v157 addf,
    nullary main_call8_cst (constant S_ .f32 0x00000000#32),
    unary main_call8_cst main_call8_v0 (broadcastInDim S800000x64 ![] bcast_S_S800000x64),
    binary main_v157 main_call8_v0 main_v158 maximumf,
    nullary main_cst_16 (constant S_ .f32 0x00000000#32),
    unary main_cst_16 main_v159 (broadcastInDim S50000x64 ![] bcast_S_S50000x64),
    unary main_v3 main_v160 (broadcastInDim S800000x1 ![0] bcast_S800000_S800000x1_0) ]

abbrev ops3 : List (HloOp τ sig (Elt F)) :=
  [ ternary main_v159 main_v160 main_v158 main_v161 (fun x i u => Host.scatterAdd scatter_S50000x64_S800000x1_S800000x64_1_0_0_1 x i u),
    unary main_arg11 main_v162 (extractStridedSlice S1 ![2] · slices_S5_S1_2),
    reshape main_v162 main_v163 rfl shapeCasts_S1_S_,
    nullary main_cst_17 (constant S_ .f32 0x3F800000#32),
    binary main_cst_17 main_v163 main_v164 addf,
    unary main_v164 main_v165 (broadcastInDim S50000x64 ![] bcast_S_S50000x64),
    binary main_v165 main_v141 main_v166 mulf,
    binary main_v166 main_v161 main_v167 addf,
    unary main_arg7 main_v168 (extractStridedSlice S1x64x64 ![2, 0, 0] · slices_S5x64x64_S1x64x64_2_0_0),
    reshape main_v168 main_v169 rfl shapeCasts_S1x64x64_S64x64,
    binary main_v167 main_v169 main_v170 (fun l r => Host.dotGeneral dot_S50000x64_S64x64_S50000x64_1_0_0_1_n_n none l r),
    unary main_arg8 main_v171 (extractStridedSlice S1x64 ![2, 0] · slices_S5x64_S1x64_2_0),
    reshape main_v171 main_v172 rfl shapeCasts_S1x64_S64,
    unary main_v172 main_v173 (broadcastInDim S1x64 ![1] bcast_S64_S1x64_1),
    unary main_v173 main_v174 (broadcastInDim S50000x64 ![0, 1] bcast_S1x64_S50000x64_0_1),
    binary main_v170 main_v174 main_v175 addf,
    nullary main_call9_cst (constant S_ .f32 0x00000000#32),
    unary main_call9_cst main_call9_v0 (broadcastInDim S50000x64 ![] bcast_S_S50000x64),
    binary main_v175 main_call9_v0 main_v176 maximumf,
    unary main_arg9 main_v177 (extractStridedSlice S1x64x64 ![2, 0, 0] · slices_S5x64x64_S1x64x64_2_0_0),
    reshape main_v177 main_v178 rfl shapeCasts_S1x64x64_S64x64,
    binary main_v176 main_v178 main_v179 (fun l r => Host.dotGeneral dot_S50000x64_S64x64_S50000x64_1_0_0_1_n_n none l r),
    unary main_arg10 main_v180 (extractStridedSlice S1x64 ![2, 0] · slices_S5x64_S1x64_2_0),
    reshape main_v180 main_v181 rfl shapeCasts_S1x64_S64,
    unary main_v181 main_v182 (broadcastInDim S1x64 ![1] bcast_S64_S1x64_1),
    unary main_v182 main_v183 (broadcastInDim S50000x64 ![0, 1] bcast_S1x64_S50000x64_0_1),
    binary main_v179 main_v183 main_v184 addf,
    nullary main_cst_18 (constant S_ .f32 0x00000000#32),
    binary main_v184 main_cst_18 main_v185 (fun x v => Host.reduceAdd x v reducesTo_S50000x64_S64_d0 h_S_),
    nullary main_cst_19 (constant S_ .f32 0x47435000#32),
    unary main_cst_19 main_v186 (broadcastInDim S64 ![] bcast_S_S64),
    binary main_v185 main_v186 main_v187 Host.divf,
    nullary main_c_20 (constantI S_ 32 0#32),
    nullary main_call10_cst (constant S_ .f32 0x00000000#32),
    binary main_v184 main_call10_cst main_call10_v0 (fun x v => Host.reduceAdd x v reducesTo_S50000x64_S64_d0 h_S_),
    unary main_call10_v0 main_call10_v1 (broadcastInDim S1x64 ![1] bcast_S64_S1x64_1),
    nullary main_call10_cst_0 (constant S_ .f32 0x47435000#32),
    unary main_call10_cst_0 main_call10_v2 (broadcastInDim S1x64 ![] bcast_S_S1x64),
    binary main_call10_v1 main_call10_v2 main_call10_v3 Host.divf,
    unary main_call10_v3 main_call10_v4 (broadcastInDim S50000x64 ![0, 1] bcast_S1x64_S50000x64_0_1),
    binary main_v184 main_call10_v4 main_call10_v5 subf,
    binary main_call10_v5 main_call10_v5 main_call10_v6 mulf,
    unary main_c_20 main_call10_v7 (sitofp .f32),
    nullary main_call10_cst_1 (constant S_ .f32 0x47435000#32),
    binary main_call10_cst_1 main_call10_v7 main_call10_v8 subf,
    nullary main_call10_cst_2 (constant S_ .f32 0x00000000#32),
    binary main_call10_v6 main_call10_cst_2 main_call10_v9 (fun x v => Host.reduceAdd x v reducesTo_S50000x64_S64_d0 h_S_),
    unary main_call10_v8 main_call10_v10 (broadcastInDim S64 ![] bcast_S_S64),
    binary main_call10_v9 main_call10_v10 main_call10_v11 Host.divf,
    nullary main_call10_cst_3 (constant S_ .f32 0x00000000#32),
    binary main_call10_v8 main_call10_cst_3 main_call10_v12 (cmpf .ogt),
    nullary main_call10_cst_4 (constant S_ .f32 0x7FC00000#32),
    unary main_call10_cst_4 main_call10_call0_v0 id,
    unary main_call10_call0_v0 main_call10_call0_v1 (broadcastInDim S64 ![] bcast_S_S64),
    ternary main_call10_v12 main_call10_v11 main_call10_call0_v1 main_v188 (fun p a b => select (broadcastInDim S64 ![] bcast_S_S64 p) a b),
    unary main_arg12 main_v189 (extractStridedSlice S1x64 ![2, 0] · slices_S5x64_S1x64_2_0),
    reshape main_v189 main_v190 rfl shapeCasts_S1x64_S64,
    unary main_v187 main_v191 (broadcastInDim S1x64 ![1] bcast_S64_S1x64_1),
    unary main_v191 main_v192 (broadcastInDim S50000x64 ![0, 1] bcast_S1x64_S50000x64_0_1),
    binary main_v184 main_v192 main_v193 subf,
    unary main_v190 main_v194 (broadcastInDim S1x64 ![1] bcast_S64_S1x64_1),
    unary main_v194 main_v195 (broadcastInDim S50000x64 ![0, 1] bcast_S1x64_S50000x64_0_1),
    binary main_v195 main_v193 main_v196 mulf,
    nullary main_cst_21 (constant S_ .f32 0x3727C5AC#32),
    unary main_cst_21 main_v197 (broadcastInDim S64 ![] bcast_S_S64),
    binary main_v188 main_v197 main_v198 addf,
    unary main_v198 main_v199 Host.rsqrt,
    unary main_v199 main_v200 (broadcastInDim S1x64 ![1] bcast_S64_S1x64_1),
    unary main_v200 main_v201 (broadcastInDim S50000x64 ![0, 1] bcast_S1x64_S50000x64_0_1),
    binary main_v196 main_v201 main_v202 mulf,
    unary main_arg13 main_v203 (extractStridedSlice S1x64 ![2, 0] · slices_S5x64_S1x64_2_0),
    reshape main_v203 main_v204 rfl shapeCasts_S1x64_S64,
    unary main_v204 main_v205 (broadcastInDim S1x64 ![1] bcast_S64_S1x64_1),
    unary main_v205 main_v206 (broadcastInDim S50000x64 ![0, 1] bcast_S1x64_S50000x64_0_1),
    binary main_v202 main_v206 main_v207 addf,
    nullary main_call11_cst (constant S_ .f32 0x00000000#32),
    unary main_call11_cst main_call11_v0 (broadcastInDim S50000x64 ![] bcast_S_S50000x64),
    binary main_v207 main_call11_v0 main_v208 maximumf,
    nullary main_c_22 (constantI S_ 32 0#32),
    unary main_c_22 main_v209 (broadcastInDim S800000 ![] bcast_S_S800000),
    binary main_v1 main_v209 main_v210 (cmpi .slt),
    nullary main_c_23 (constantI S_ 32 50000#32),
    unary main_c_23 main_v211 (broadcastInDim S800000 ![] bcast_S_S800000),
    binary main_v1 main_v211 main_v212 addi,
    ternary main_v210 main_v212 main_v1 main_v213 select ]

abbrev ops4 : List (HloOp τ sig (Elt F)) :=
  [ unary main_v213 main_v214 (broadcastInDim S800000x1 ![0] bcast_S800000_S800000x1_0),
    binary main_v208 main_v214 main_v215 (fun x i => Host.gather gather_S50000x64_S800000x1_S800000x64_1_0_n_n_0_1_164 x i),
    unary main_arg5 main_v216 (extractStridedSlice S1x50x64 ![3, 0, 0] · slices_S5x50x64_S1x50x64_3_0_0),
    reshape main_v216 main_v217 rfl shapeCasts_S1x50x64_S50x64,
    binary main_arg2 main_v217 main_v218 (fun l r => Host.dotGeneral dot_S800000x50_S50x64_S800000x64_1_0_0_1_n_n none l r),
    binary main_v215 main_v218 main_v219 addf,
    unary main_arg6 main_v220 (extractStridedSlice S1x64 ![3, 0] · slices_S5x64_S1x64_3_0),
    reshape main_v220 main_v221 rfl shapeCasts_S1x64_S64,
    unary main_v221 main_v222 (broadcastInDim S1x64 ![1] bcast_S64_S1x64_1),
    unary main_v222 main_v223 (broadcastInDim S800000x64 ![0, 1] bcast_S1x64_S800000x64_0_1),
    binary main_v219 main_v223 main_v224 addf,
    nullary main_call12_cst (constant S_ .f32 0x00000000#32),
    unary main_call12_cst main_call12_v0 (broadcastInDim S800000x64 ![] bcast_S_S800000x64),
    binary main_v224 main_call12_v0 main_v225 maximumf,
    nullary main_cst_24 (constant S_ .f32 0x00000000#32),
    unary main_cst_24 main_v226 (broadcastInDim S50000x64 ![] bcast_S_S50000x64),
    unary main_v3 main_v227 (broadcastInDim S800000x1 ![0] bcast_S800000_S800000x1_0),
    ternary main_v226 main_v227 main_v225 main_v228 (fun x i u => Host.scatterAdd scatter_S50000x64_S800000x1_S800000x64_1_0_0_1 x i u),
    unary main_arg11 main_v229 (extractStridedSlice S1 ![3] · slices_S5_S1_3),
    reshape main_v229 main_v230 rfl shapeCasts_S1_S_,
    nullary main_cst_25 (constant S_ .f32 0x3F800000#32),
    binary main_cst_25 main_v230 main_v231 addf,
    unary main_v231 main_v232 (broadcastInDim S50000x64 ![] bcast_S_S50000x64),
    binary main_v232 main_v208 main_v233 mulf,
    binary main_v233 main_v228 main_v234 addf,
    unary main_arg7 main_v235 (extractStridedSlice S1x64x64 ![3, 0, 0] · slices_S5x64x64_S1x64x64_3_0_0),
    reshape main_v235 main_v236 rfl shapeCasts_S1x64x64_S64x64,
    binary main_v234 main_v236 main_v237 (fun l r => Host.dotGeneral dot_S50000x64_S64x64_S50000x64_1_0_0_1_n_n none l r),
    unary main_arg8 main_v238 (extractStridedSlice S1x64 ![3, 0] · slices_S5x64_S1x64_3_0),
    reshape main_v238 main_v239 rfl shapeCasts_S1x64_S64,
    unary main_v239 main_v240 (broadcastInDim S1x64 ![1] bcast_S64_S1x64_1),
    unary main_v240 main_v241 (broadcastInDim S50000x64 ![0, 1] bcast_S1x64_S50000x64_0_1),
    binary main_v237 main_v241 main_v242 addf,
    nullary main_call13_cst (constant S_ .f32 0x00000000#32),
    unary main_call13_cst main_call13_v0 (broadcastInDim S50000x64 ![] bcast_S_S50000x64),
    binary main_v242 main_call13_v0 main_v243 maximumf,
    unary main_arg9 main_v244 (extractStridedSlice S1x64x64 ![3, 0, 0] · slices_S5x64x64_S1x64x64_3_0_0),
    reshape main_v244 main_v245 rfl shapeCasts_S1x64x64_S64x64,
    binary main_v243 main_v245 main_v246 (fun l r => Host.dotGeneral dot_S50000x64_S64x64_S50000x64_1_0_0_1_n_n none l r),
    unary main_arg10 main_v247 (extractStridedSlice S1x64 ![3, 0] · slices_S5x64_S1x64_3_0),
    reshape main_v247 main_v248 rfl shapeCasts_S1x64_S64,
    unary main_v248 main_v249 (broadcastInDim S1x64 ![1] bcast_S64_S1x64_1),
    unary main_v249 main_v250 (broadcastInDim S50000x64 ![0, 1] bcast_S1x64_S50000x64_0_1),
    binary main_v246 main_v250 main_v251 addf,
    nullary main_cst_26 (constant S_ .f32 0x00000000#32),
    binary main_v251 main_cst_26 main_v252 (fun x v => Host.reduceAdd x v reducesTo_S50000x64_S64_d0 h_S_),
    nullary main_cst_27 (constant S_ .f32 0x47435000#32),
    unary main_cst_27 main_v253 (broadcastInDim S64 ![] bcast_S_S64),
    binary main_v252 main_v253 main_v254 Host.divf,
    nullary main_c_28 (constantI S_ 32 0#32),
    nullary main_call14_cst (constant S_ .f32 0x00000000#32),
    binary main_v251 main_call14_cst main_call14_v0 (fun x v => Host.reduceAdd x v reducesTo_S50000x64_S64_d0 h_S_),
    unary main_call14_v0 main_call14_v1 (broadcastInDim S1x64 ![1] bcast_S64_S1x64_1),
    nullary main_call14_cst_0 (constant S_ .f32 0x47435000#32),
    unary main_call14_cst_0 main_call14_v2 (broadcastInDim S1x64 ![] bcast_S_S1x64),
    binary main_call14_v1 main_call14_v2 main_call14_v3 Host.divf,
    unary main_call14_v3 main_call14_v4 (broadcastInDim S50000x64 ![0, 1] bcast_S1x64_S50000x64_0_1),
    binary main_v251 main_call14_v4 main_call14_v5 subf,
    binary main_call14_v5 main_call14_v5 main_call14_v6 mulf,
    unary main_c_28 main_call14_v7 (sitofp .f32),
    nullary main_call14_cst_1 (constant S_ .f32 0x47435000#32),
    binary main_call14_cst_1 main_call14_v7 main_call14_v8 subf,
    nullary main_call14_cst_2 (constant S_ .f32 0x00000000#32),
    binary main_call14_v6 main_call14_cst_2 main_call14_v9 (fun x v => Host.reduceAdd x v reducesTo_S50000x64_S64_d0 h_S_),
    unary main_call14_v8 main_call14_v10 (broadcastInDim S64 ![] bcast_S_S64),
    binary main_call14_v9 main_call14_v10 main_call14_v11 Host.divf,
    nullary main_call14_cst_3 (constant S_ .f32 0x00000000#32),
    binary main_call14_v8 main_call14_cst_3 main_call14_v12 (cmpf .ogt),
    nullary main_call14_cst_4 (constant S_ .f32 0x7FC00000#32),
    unary main_call14_cst_4 main_call14_call0_v0 id,
    unary main_call14_call0_v0 main_call14_call0_v1 (broadcastInDim S64 ![] bcast_S_S64),
    ternary main_call14_v12 main_call14_v11 main_call14_call0_v1 main_v255 (fun p a b => select (broadcastInDim S64 ![] bcast_S_S64 p) a b),
    unary main_arg12 main_v256 (extractStridedSlice S1x64 ![3, 0] · slices_S5x64_S1x64_3_0),
    reshape main_v256 main_v257 rfl shapeCasts_S1x64_S64,
    unary main_v254 main_v258 (broadcastInDim S1x64 ![1] bcast_S64_S1x64_1),
    unary main_v258 main_v259 (broadcastInDim S50000x64 ![0, 1] bcast_S1x64_S50000x64_0_1),
    binary main_v251 main_v259 main_v260 subf,
    unary main_v257 main_v261 (broadcastInDim S1x64 ![1] bcast_S64_S1x64_1),
    unary main_v261 main_v262 (broadcastInDim S50000x64 ![0, 1] bcast_S1x64_S50000x64_0_1),
    binary main_v262 main_v260 main_v263 mulf,
    nullary main_cst_29 (constant S_ .f32 0x3727C5AC#32),
    unary main_cst_29 main_v264 (broadcastInDim S64 ![] bcast_S_S64),
    binary main_v255 main_v264 main_v265 addf,
    unary main_v265 main_v266 Host.rsqrt,
    unary main_v266 main_v267 (broadcastInDim S1x64 ![1] bcast_S64_S1x64_1) ]

abbrev ops5 : List (HloOp τ sig (Elt F)) :=
  [ unary main_v267 main_v268 (broadcastInDim S50000x64 ![0, 1] bcast_S1x64_S50000x64_0_1),
    binary main_v263 main_v268 main_v269 mulf,
    unary main_arg13 main_v270 (extractStridedSlice S1x64 ![3, 0] · slices_S5x64_S1x64_3_0),
    reshape main_v270 main_v271 rfl shapeCasts_S1x64_S64,
    unary main_v271 main_v272 (broadcastInDim S1x64 ![1] bcast_S64_S1x64_1),
    unary main_v272 main_v273 (broadcastInDim S50000x64 ![0, 1] bcast_S1x64_S50000x64_0_1),
    binary main_v269 main_v273 main_v274 addf,
    nullary main_call15_cst (constant S_ .f32 0x00000000#32),
    unary main_call15_cst main_call15_v0 (broadcastInDim S50000x64 ![] bcast_S_S50000x64),
    binary main_v274 main_call15_v0 main_v275 maximumf,
    nullary main_c_30 (constantI S_ 32 0#32),
    unary main_c_30 main_v276 (broadcastInDim S800000 ![] bcast_S_S800000),
    binary main_v1 main_v276 main_v277 (cmpi .slt),
    nullary main_c_31 (constantI S_ 32 50000#32),
    unary main_c_31 main_v278 (broadcastInDim S800000 ![] bcast_S_S800000),
    binary main_v1 main_v278 main_v279 addi,
    ternary main_v277 main_v279 main_v1 main_v280 select,
    unary main_v280 main_v281 (broadcastInDim S800000x1 ![0] bcast_S800000_S800000x1_0),
    binary main_v275 main_v281 main_v282 (fun x i => Host.gather gather_S50000x64_S800000x1_S800000x64_1_0_n_n_0_1_164 x i),
    unary main_arg5 main_v283 (extractStridedSlice S1x50x64 ![4, 0, 0] · slices_S5x50x64_S1x50x64_4_0_0),
    reshape main_v283 main_v284 rfl shapeCasts_S1x50x64_S50x64,
    binary main_arg2 main_v284 main_v285 (fun l r => Host.dotGeneral dot_S800000x50_S50x64_S800000x64_1_0_0_1_n_n none l r),
    binary main_v282 main_v285 main_v286 addf,
    unary main_arg6 main_v287 (extractStridedSlice S1x64 ![4, 0] · slices_S5x64_S1x64_4_0),
    reshape main_v287 main_v288 rfl shapeCasts_S1x64_S64,
    unary main_v288 main_v289 (broadcastInDim S1x64 ![1] bcast_S64_S1x64_1),
    unary main_v289 main_v290 (broadcastInDim S800000x64 ![0, 1] bcast_S1x64_S800000x64_0_1),
    binary main_v286 main_v290 main_v291 addf,
    nullary main_call16_cst (constant S_ .f32 0x00000000#32),
    unary main_call16_cst main_call16_v0 (broadcastInDim S800000x64 ![] bcast_S_S800000x64),
    binary main_v291 main_call16_v0 main_v292 maximumf,
    nullary main_cst_32 (constant S_ .f32 0x00000000#32),
    unary main_cst_32 main_v293 (broadcastInDim S50000x64 ![] bcast_S_S50000x64),
    unary main_v3 main_v294 (broadcastInDim S800000x1 ![0] bcast_S800000_S800000x1_0),
    ternary main_v293 main_v294 main_v292 main_v295 (fun x i u => Host.scatterAdd scatter_S50000x64_S800000x1_S800000x64_1_0_0_1 x i u),
    unary main_arg11 main_v296 (extractStridedSlice S1 ![4] · slices_S5_S1_4),
    reshape main_v296 main_v297 rfl shapeCasts_S1_S_,
    nullary main_cst_33 (constant S_ .f32 0x3F800000#32),
    binary main_cst_33 main_v297 main_v298 addf,
    unary main_v298 main_v299 (broadcastInDim S50000x64 ![] bcast_S_S50000x64),
    binary main_v299 main_v275 main_v300 mulf,
    binary main_v300 main_v295 main_v301 addf,
    unary main_arg7 main_v302 (extractStridedSlice S1x64x64 ![4, 0, 0] · slices_S5x64x64_S1x64x64_4_0_0),
    reshape main_v302 main_v303 rfl shapeCasts_S1x64x64_S64x64,
    binary main_v301 main_v303 main_v304 (fun l r => Host.dotGeneral dot_S50000x64_S64x64_S50000x64_1_0_0_1_n_n none l r),
    unary main_arg8 main_v305 (extractStridedSlice S1x64 ![4, 0] · slices_S5x64_S1x64_4_0),
    reshape main_v305 main_v306 rfl shapeCasts_S1x64_S64,
    unary main_v306 main_v307 (broadcastInDim S1x64 ![1] bcast_S64_S1x64_1),
    unary main_v307 main_v308 (broadcastInDim S50000x64 ![0, 1] bcast_S1x64_S50000x64_0_1),
    binary main_v304 main_v308 main_v309 addf,
    nullary main_call17_cst (constant S_ .f32 0x00000000#32),
    unary main_call17_cst main_call17_v0 (broadcastInDim S50000x64 ![] bcast_S_S50000x64),
    binary main_v309 main_call17_v0 main_v310 maximumf,
    unary main_arg9 main_v311 (extractStridedSlice S1x64x64 ![4, 0, 0] · slices_S5x64x64_S1x64x64_4_0_0),
    reshape main_v311 main_v312 rfl shapeCasts_S1x64x64_S64x64,
    binary main_v310 main_v312 main_v313 (fun l r => Host.dotGeneral dot_S50000x64_S64x64_S50000x64_1_0_0_1_n_n none l r),
    unary main_arg10 main_v314 (extractStridedSlice S1x64 ![4, 0] · slices_S5x64_S1x64_4_0),
    reshape main_v314 main_v315 rfl shapeCasts_S1x64_S64,
    unary main_v315 main_v316 (broadcastInDim S1x64 ![1] bcast_S64_S1x64_1),
    unary main_v316 main_v317 (broadcastInDim S50000x64 ![0, 1] bcast_S1x64_S50000x64_0_1),
    binary main_v313 main_v317 main_v318 addf,
    nullary main_cst_34 (constant S_ .f32 0x00000000#32),
    binary main_v318 main_cst_34 main_v319 (fun x v => Host.reduceAdd x v reducesTo_S50000x64_S64_d0 h_S_),
    nullary main_cst_35 (constant S_ .f32 0x47435000#32),
    unary main_cst_35 main_v320 (broadcastInDim S64 ![] bcast_S_S64),
    binary main_v319 main_v320 main_v321 Host.divf ]

abbrev ops6 : List (HloOp τ sig (Elt F)) :=
  [ nullary main_c_36 (constantI S_ 32 0#32),
    nullary main_call18_cst (constant S_ .f32 0x00000000#32),
    binary main_v318 main_call18_cst main_call18_v0 (fun x v => Host.reduceAdd x v reducesTo_S50000x64_S64_d0 h_S_),
    unary main_call18_v0 main_call18_v1 (broadcastInDim S1x64 ![1] bcast_S64_S1x64_1),
    nullary main_call18_cst_0 (constant S_ .f32 0x47435000#32),
    unary main_call18_cst_0 main_call18_v2 (broadcastInDim S1x64 ![] bcast_S_S1x64),
    binary main_call18_v1 main_call18_v2 main_call18_v3 Host.divf,
    unary main_call18_v3 main_call18_v4 (broadcastInDim S50000x64 ![0, 1] bcast_S1x64_S50000x64_0_1),
    binary main_v318 main_call18_v4 main_call18_v5 subf,
    binary main_call18_v5 main_call18_v5 main_call18_v6 mulf,
    unary main_c_36 main_call18_v7 (sitofp .f32),
    nullary main_call18_cst_1 (constant S_ .f32 0x47435000#32),
    binary main_call18_cst_1 main_call18_v7 main_call18_v8 subf,
    nullary main_call18_cst_2 (constant S_ .f32 0x00000000#32),
    binary main_call18_v6 main_call18_cst_2 main_call18_v9 (fun x v => Host.reduceAdd x v reducesTo_S50000x64_S64_d0 h_S_),
    unary main_call18_v8 main_call18_v10 (broadcastInDim S64 ![] bcast_S_S64),
    binary main_call18_v9 main_call18_v10 main_call18_v11 Host.divf,
    nullary main_call18_cst_3 (constant S_ .f32 0x00000000#32),
    binary main_call18_v8 main_call18_cst_3 main_call18_v12 (cmpf .ogt),
    nullary main_call18_cst_4 (constant S_ .f32 0x7FC00000#32),
    unary main_call18_cst_4 main_call18_call0_v0 id,
    unary main_call18_call0_v0 main_call18_call0_v1 (broadcastInDim S64 ![] bcast_S_S64),
    ternary main_call18_v12 main_call18_v11 main_call18_call0_v1 main_v322 (fun p a b => select (broadcastInDim S64 ![] bcast_S_S64 p) a b),
    unary main_arg12 main_v323 (extractStridedSlice S1x64 ![4, 0] · slices_S5x64_S1x64_4_0),
    reshape main_v323 main_v324 rfl shapeCasts_S1x64_S64,
    unary main_v321 main_v325 (broadcastInDim S1x64 ![1] bcast_S64_S1x64_1),
    unary main_v325 main_v326 (broadcastInDim S50000x64 ![0, 1] bcast_S1x64_S50000x64_0_1),
    binary main_v318 main_v326 main_v327 subf,
    unary main_v324 main_v328 (broadcastInDim S1x64 ![1] bcast_S64_S1x64_1),
    unary main_v328 main_v329 (broadcastInDim S50000x64 ![0, 1] bcast_S1x64_S50000x64_0_1),
    binary main_v329 main_v327 main_v330 mulf,
    nullary main_cst_37 (constant S_ .f32 0x3727C5AC#32),
    unary main_cst_37 main_v331 (broadcastInDim S64 ![] bcast_S_S64),
    binary main_v322 main_v331 main_v332 addf,
    unary main_v332 main_v333 Host.rsqrt,
    unary main_v333 main_v334 (broadcastInDim S1x64 ![1] bcast_S64_S1x64_1),
    unary main_v334 main_v335 (broadcastInDim S50000x64 ![0, 1] bcast_S1x64_S50000x64_0_1),
    binary main_v330 main_v335 main_v336 mulf,
    unary main_arg13 main_v337 (extractStridedSlice S1x64 ![4, 0] · slices_S5x64_S1x64_4_0),
    reshape main_v337 main_v338 rfl shapeCasts_S1x64_S64,
    unary main_v338 main_v339 (broadcastInDim S1x64 ![1] bcast_S64_S1x64_1),
    unary main_v339 main_v340 (broadcastInDim S50000x64 ![0, 1] bcast_S1x64_S50000x64_0_1),
    binary main_v336 main_v340 main_v341 addf ]

abbrev ops : List (HloOp τ sig (Elt F)) := ops0 ++ (ops1 ++ (ops2 ++ (ops3 ++ (ops4 ++ (ops5 ++ (ops6))))))

end Cert.ReferenceIdeal.Hand

end
-- ==== Proof.LibHostRead.lean ====
import Idealize.ShloMosaic.Lib.StableHlo.Run
import Idealize.ShloMosaic.Lib.Pipeline.Frame

noncomputable section

namespace Cert.HostRead

open Idealize.ShloMosaic Idealize.ShloMosaic.StableHlo

variable {τ : Topo} {sig : RefSig} {Val : EltTy → Type}

def Fresh (L : List (HloOp τ sig Val)) : Prop := L.Pairwise fun o₁ o₂ => Disjoint o₂.writes o₁.bufs

instance (L : List (HloOp τ sig Val)) : Decidable (Fresh L) := inferInstanceAs (Decidable (L.Pairwise _))

-- Nothing after operation `p` of a fresh line writes a buffer that operation touches.
theorem after_at {L : List (HloOp τ sig Val)} (hL : Fresh L) {p : Nat} {o : HloOp τ sig Val} (ho : L[p]? = some o)
    (V : Valuation τ sig Val) {b : DevRef τ sig} (hb : b ∈ o.bufs) :
    after L V b = o.result (after (L.take p) V) b := by
  obtain ⟨hp, rfl⟩ := List.getElem?_eq_some_iff.mp ho
  have hsplit : L.take p ++ L[p] :: L.drop (p + 1) = L := by
    rw [← List.drop_eq_getElem_cons hp, List.take_append_drop]
  have hd : ∀ o ∈ L.drop (p + 1), Disjoint o.writes L[p].bufs :=
    (List.pairwise_cons.mp (List.pairwise_append.mp (hsplit ▸ hL)).2.1).1
  calc after L V b = after (L.take p ++ L[p] :: L.drop (p + 1)) V b := by rw [hsplit]
    _ = L[p].result (after (L.take p) V) b := by
      rw [after_append, after_cons]
      exact after_of_forall_not_mem _ _ fun o ho hw => Finset.disjoint_left.mp (hd o ho) hw hb

variable {L : List (HloOp τ sig Val)} (hL : Fresh L) (p : Nat) {V : Valuation τ sig Val}
include hL

theorem read_nullary {y : Ref sig .tc} {v : y.ty.Contents Val} {hy} (hop : L[p]? = some (nullary y v hy)) :
    after L V (Proc.devRef .tc y) = v := by
  rw [after_at hL hop V (by rw [nullary_bufs]; exact Finset.mem_singleton_self _), nullary_result]

theorem read_unary {x y : Ref sig .tc} {f : x.ty.Contents Val → y.ty.Contents Val} {hx hy}
    (hop : L[p]? = some (unary x y f hx hy)) (hxy : x ≠ y := by decide) :
    after L V (Proc.devRef .tc y) = f (after L V (Proc.devRef .tc x)) := by
  rw [after_at hL hop V (b := Proc.devRef .tc y) (by rw [unary_bufs]; simp),
    after_at hL hop V (b := Proc.devRef .tc x) (by rw [unary_bufs]; simp), unary_result,
    unary_result_ne _ _ _ _ _ _ hxy]

theorem read_reshape {x y : Ref sig .tc} {he : x.ty.elt = y.ty.elt} {hn : x.ty.shape.ShapeCasts y.ty.shape} {hx hy}
    (hop : L[p]? = some (reshape x y he hn hx hy)) (hxy : x ≠ y := by decide) :
    after L V (Proc.devRef .tc y) = fun i => he ▸ shapeCast y.ty.shape (after L V (Proc.devRef .tc x)) hn i := by
  rw [after_at hL hop V (b := Proc.devRef .tc y) (by rw [reshape_bufs]; simp),
    after_at hL hop V (b := Proc.devRef .tc x) (by rw [reshape_bufs]; simp), reshape_result,
    reshape_result_ne _ _ _ _ _ _ _ hxy]

theorem read_binary {a b y : Ref sig .tc} {f : a.ty.Contents Val → b.ty.Contents Val → y.ty.Contents Val} {ha hb hy}
    (hop : L[p]? = some (binary a b y f ha hb hy)) (hay : a ≠ y := by decide) (hby : b ≠ y := by decide) :
    after L V (Proc.devRef .tc y) = f (after L V (Proc.devRef .tc a)) (after L V (Proc.devRef .tc b)) := by
  rw [after_at hL hop V (b := Proc.devRef .tc y) (by rw [binary_bufs]; simp),
    after_at hL hop V (b := Proc.devRef .tc a) (by rw [binary_bufs]; simp),
    after_at hL hop V (b := Proc.devRef .tc b) (by rw [binary_bufs]; simp), binary_result,
    binary_result_ne _ _ _ _ _ _ _ _ hay, binary_result_ne _ _ _ _ _ _ _ _ hby]

theorem read_ternary {c a b y : Ref sig .tc}
    {f : c.ty.Contents Val → a.ty.Contents Val → b.ty.Contents Val → y.ty.Contents Val} {hc ha hb hy}
    (hop : L[p]? = some (ternary c a b y f hc ha hb hy))
    (hcy : c ≠ y := by decide) (hay : a ≠ y := by decide) (hby : b ≠ y := by decide) :
    after L V (Proc.devRef .tc y)
      = f (after L V (Proc.devRef .tc c)) (after L V (Proc.devRef .tc a)) (after L V (Proc.devRef .tc b)) := by
  rw [after_at hL hop V (b := Proc.devRef .tc y) (by rw [ternary_bufs]; simp),
    after_at hL hop V (b := Proc.devRef .tc c) (by rw [ternary_bufs]; simp),
    after_at hL hop V (b := Proc.devRef .tc a) (by rw [ternary_bufs]; simp),
    after_at hL hop V (b := Proc.devRef .tc b) (by rw [ternary_bufs]; simp), ternary_result,
    ternary_result_ne _ _ _ _ _ _ _ _ _ _ hcy, ternary_result_ne _ _ _ _ _ _ _ _ _ _ hay,
    ternary_result_ne _ _ _ _ _ _ _ _ _ _ hby]

end Cert.HostRead

end
-- ==== Proof.LibHostRank.lean ====
import proofs.«422151_j2362232012848_1_alg».proof.Proof.LibHostRead

noncomputable section

namespace Cert.HostRead

open Idealize.ShloMosaic Idealize.ShloMosaic.StableHlo

variable {τ : Topo} {sig : RefSig} {Val : EltTy → Type}

def Ranked (rk : DevRef τ sig → Nat) : Nat → List (HloOp τ sig Val) → Prop
  | _, [] => True
  | n, o :: l => (∀ b ∈ o.writes, rk b = n) ∧ (∀ b ∈ o.bufs, rk b ≤ n) ∧ Ranked rk (n + 1) l

instance decRanked (rk : DevRef τ sig → Nat) : ∀ (n : Nat) (L : List (HloOp τ sig Val)), Decidable (Ranked rk n L)
  | _, [] => isTrue trivial
  | n, o :: l =>
    have := decRanked rk (n + 1) l
    inferInstanceAs (Decidable ((∀ b ∈ o.writes, rk b = n) ∧ (∀ b ∈ o.bufs, rk b ≤ n) ∧ Ranked rk (n + 1) l))

theorem Ranked.append (rk : DevRef τ sig → Nat) : ∀ (n : Nat) (L₁ L₂ : List (HloOp τ sig Val)),
    Ranked rk n L₁ → Ranked rk (n + L₁.length) L₂ → Ranked rk n (L₁ ++ L₂)
  | n, [], L₂, _, h₂ => by simpa using h₂
  | n, o :: l, L₂, h₁, h₂ => by
    refine ⟨h₁.1, h₁.2.1, Ranked.append rk (n + 1) l L₂ h₁.2.2 ?_⟩
    have e : n + 1 + l.length = n + (o :: l).length := by simp [List.length_cons]; omega
    rw [e]; exact h₂

theorem Ranked.le_of_mem_writes (rk : DevRef τ sig → Nat) : ∀ (n : Nat) (L : List (HloOp τ sig Val)), Ranked rk n L →
    ∀ o ∈ L, ∀ b ∈ o.writes, n ≤ rk b
  | _, [], _, o, ho, _, _ => absurd ho List.not_mem_nil
  | n, o' :: l, h, o, ho, b, hb => by
    rcases List.mem_cons.mp ho with rfl | ho
    · exact (h.1 b hb).ge
    · exact Nat.le_of_succ_le (Ranked.le_of_mem_writes rk (n + 1) l h.2.2 o ho b hb)

theorem Ranked.after_of_lt (rk : DevRef τ sig → Nat) (n : Nat) (L : List (HloOp τ sig Val)) (h : Ranked rk n L)
    (V : Valuation τ sig Val) (b : DevRef τ sig) (hb : rk b < n) : after L V b = V b :=
  after_of_forall_not_mem _ _ fun o ho hw => by
    have := Ranked.le_of_mem_writes rk n L h o ho b hw
    omega

theorem Ranked.fresh (rk : DevRef τ sig → Nat) : ∀ (n : Nat) (L : List (HloOp τ sig Val)), Ranked rk n L → Fresh L
  | _, [], _ => List.Pairwise.nil
  | n, o :: l, h => by
    refine List.Pairwise.cons (fun o' ho' => ?_) (Ranked.fresh rk (n + 1) l h.2.2)
    refine Finset.disjoint_left.mpr fun b hw hb => ?_
    have h1 : n + 1 ≤ rk b := Ranked.le_of_mem_writes rk (n + 1) l h.2.2 o' ho' b hw
    have h2 : rk b ≤ n := h.2.1 b hb
    omega

end Cert.HostRead

end
-- ==== Proof.RefOps.lean ====
import proofs.«422151_j2362232012848_1_alg».proof.Proof.RefOpsList
import proofs.«422151_j2362232012848_1_alg».proof.Proof.LibHostRank

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

section Builders

variable {Val : EltTy → Type} (rk : DevRef τ sig → Nat) (n : Nat) (l : List (HloOp τ sig Val))

theorem ranked_nil_iff : Cert.HostRead.Ranked rk n ([] : List (HloOp τ sig Val)) ↔ True := Iff.rfl

theorem ranked_nullary_iff (y : Ref sig .tc) (v : y.ty.Contents Val) (hy) :
    Cert.HostRead.Ranked rk n (nullary y v hy :: l) ↔ rk (Proc.devRef .tc y) = n ∧ Cert.HostRead.Ranked rk (n + 1) l := by
  constructor
  · intro h; exact ⟨h.1 _ (Finset.mem_singleton_self _), h.2.2⟩
  · intro h
    refine ⟨fun b hb => ?_, fun b hb => ?_, h.2⟩
    · rw [nullary_writes] at hb; rw [Finset.mem_singleton.mp hb]; exact h.1
    · rw [nullary_bufs] at hb; rw [Finset.mem_singleton.mp hb]; exact h.1.le

theorem ranked_unary_iff (x y : Ref sig .tc) (f : x.ty.Contents Val → y.ty.Contents Val) (hx hy) :
    Cert.HostRead.Ranked rk n (unary x y f hx hy :: l)
      ↔ (rk (Proc.devRef .tc x) ≤ n ∧ rk (Proc.devRef .tc y) = n) ∧ Cert.HostRead.Ranked rk (n + 1) l := by
  constructor
  · intro h
    refine ⟨⟨h.2.1 _ ?_, h.1 _ (Finset.mem_singleton_self _)⟩, h.2.2⟩
    rw [unary_bufs]; exact Finset.mem_insert_self _ _
  · intro h
    refine ⟨fun b hb => ?_, fun b hb => ?_, h.2⟩
    · rw [unary_writes] at hb; rw [Finset.mem_singleton.mp hb]; exact h.1.2
    · rw [unary_bufs] at hb
      rcases Finset.mem_insert.mp hb with rfl | hb
      · exact h.1.1
      · rw [Finset.mem_singleton.mp hb]; exact h.1.2.le

theorem ranked_reshape_iff (x y : Ref sig .tc) (he hn hx hy) :
    Cert.HostRead.Ranked rk n ((reshape x y he hn hx hy : HloOp τ sig Val) :: l)
      ↔ (rk (Proc.devRef .tc x) ≤ n ∧ rk (Proc.devRef .tc y) = n) ∧ Cert.HostRead.Ranked rk (n + 1) l := by
  constructor
  · intro h
    refine ⟨⟨h.2.1 _ ?_, h.1 _ (Finset.mem_singleton_self _)⟩, h.2.2⟩
    rw [reshape_bufs]; exact Finset.mem_insert_self _ _
  · intro h
    refine ⟨fun b hb => ?_, fun b hb => ?_, h.2⟩
    · rw [reshape_writes] at hb; rw [Finset.mem_singleton.mp hb]; exact h.1.2
    · rw [reshape_bufs] at hb
      rcases Finset.mem_insert.mp hb with rfl | hb
      · exact h.1.1
      · rw [Finset.mem_singleton.mp hb]; exact h.1.2.le

theorem ranked_binary_iff (a b y : Ref sig .tc) (f : a.ty.Contents Val → b.ty.Contents Val → y.ty.Contents Val) (ha hb hy) :
    Cert.HostRead.Ranked rk n (binary a b y f ha hb hy :: l)
      ↔ (rk (Proc.devRef .tc a) ≤ n ∧ rk (Proc.devRef .tc b) ≤ n ∧ rk (Proc.devRef .tc y) = n)
        ∧ Cert.HostRead.Ranked rk (n + 1) l := by
  constructor
  · intro h
    refine ⟨⟨h.2.1 _ ?_, h.2.1 _ ?_, h.1 _ (Finset.mem_singleton_self _)⟩, h.2.2⟩
    · rw [binary_bufs]; exact Finset.mem_insert_self _ _
    · rw [binary_bufs]; exact Finset.mem_insert_of_mem (Finset.mem_insert_self _ _)
  · intro h
    refine ⟨fun d hd => ?_, fun d hd => ?_, h.2⟩
    · rw [binary_writes] at hd; rw [Finset.mem_singleton.mp hd]; exact h.1.2.2
    · rw [binary_bufs] at hd
      rcases Finset.mem_insert.mp hd with rfl | hd
      · exact h.1.1
      rcases Finset.mem_insert.mp hd with rfl | hd
      · exact h.1.2.1
      · rw [Finset.mem_singleton.mp hd]; exact h.1.2.2.le

theorem ranked_ternary_iff (c a b y : Ref sig .tc)
    (f : c.ty.Contents Val → a.ty.Contents Val → b.ty.Contents Val → y.ty.Contents Val) (hc ha hb hy) :
    Cert.HostRead.Ranked rk n (ternary c a b y f hc ha hb hy :: l)
      ↔ (rk (Proc.devRef .tc c) ≤ n ∧ rk (Proc.devRef .tc a) ≤ n ∧ rk (Proc.devRef .tc b) ≤ n ∧ rk (Proc.devRef .tc y) = n)
        ∧ Cert.HostRead.Ranked rk (n + 1) l := by
  constructor
  · intro h
    refine ⟨⟨h.2.1 _ ?_, h.2.1 _ ?_, h.2.1 _ ?_, h.1 _ (Finset.mem_singleton_self _)⟩, h.2.2⟩
    · rw [ternary_bufs]; exact Finset.mem_insert_self _ _
    · rw [ternary_bufs]; exact Finset.mem_insert_of_mem (Finset.mem_insert_self _ _)
    · rw [ternary_bufs]; exact Finset.mem_insert_of_mem (Finset.mem_insert_of_mem (Finset.mem_insert_self _ _))
  · intro h
    refine ⟨fun d hd => ?_, fun d hd => ?_, h.2⟩
    · rw [ternary_writes] at hd; rw [Finset.mem_singleton.mp hd]; exact h.1.2.2.2
    · rw [ternary_bufs] at hd
      rcases Finset.mem_insert.mp hd with rfl | hd
      · exact h.1.1
      rcases Finset.mem_insert.mp hd with rfl | hd
      · exact h.1.2.1
      rcases Finset.mem_insert.mp hd with rfl | hd
      · exact h.1.2.2.1
      · rw [Finset.mem_singleton.mp hd]; exact h.1.2.2.2.le

theorem nullary_fresh (y : Ref sig .tc) (v : y.ty.Contents Val) (hy) : (nullary (τ := τ) y v hy).fresh = ∅ ↔ True :=
  iff_true_intro rfl
theorem unary_fresh (x y : Ref sig .tc) (f : x.ty.Contents Val → y.ty.Contents Val) (hx hy) :
    (unary (τ := τ) x y f hx hy).fresh = ∅ ↔ True := iff_true_intro rfl
theorem reshape_fresh (x y : Ref sig .tc) (he hn hx hy) :
    (reshape (τ := τ) (Val := Val) x y he hn hx hy).fresh = ∅ ↔ True := iff_true_intro rfl
theorem binary_fresh (a b y : Ref sig .tc) (f : a.ty.Contents Val → b.ty.Contents Val → y.ty.Contents Val) (ha hb hy) :
    (binary (τ := τ) a b y f ha hb hy).fresh = ∅ ↔ True := iff_true_intro rfl
theorem ternary_fresh (c a b y : Ref sig .tc)
    (f : c.ty.Contents Val → a.ty.Contents Val → b.ty.Contents Val → y.ty.Contents Val) (hc ha hb hy) :
    (ternary (τ := τ) c a b y f hc ha hb hy).fresh = ∅ ↔ True := iff_true_intro rfl

end Builders

set_option maxRecDepth 16384 in
theorem part0_eq (c : Dev nD) : main_part0 (F := F) c = seq ops0 := rfl
set_option maxRecDepth 16384 in
theorem part1_eq (c : Dev nD) : main_part1 (F := F) c = seq ops1 := rfl
set_option maxRecDepth 16384 in
theorem part2_eq (c : Dev nD) : main_part2 (F := F) c = seq ops2 := rfl
set_option maxRecDepth 16384 in
theorem part3_eq (c : Dev nD) : main_part3 (F := F) c = seq ops3 := rfl
set_option maxRecDepth 16384 in
theorem part4_eq (c : Dev nD) : main_part4 (F := F) c = seq ops4 := rfl
set_option maxRecDepth 16384 in
theorem part5_eq (c : Dev nD) : main_part5 (F := F) c = seq ops5 := rfl
set_option maxRecDepth 16384 in
theorem part6_eq (c : Dev nD) : main_part6 (F := F) c = seq ops6 := rfl

theorem main_eq (c : Dev nD) : main (F := F) c = seq ops := by
  unfold main
  simp only [seq_append, part0_eq, part1_eq, part2_eq, part3_eq, part4_eq, part5_eq, part6_eq]

theorem ops_sub : (ops : List (HloOp τ sig (Elt F))).Forall fun op => op.bufs ⊆ tcRefs τ sig := by
  refine List.forall_append.mpr ⟨?_, List.forall_append.mpr ⟨?_, List.forall_append.mpr ⟨?_,
    List.forall_append.mpr ⟨?_, List.forall_append.mpr ⟨?_, List.forall_append.mpr ⟨?_, ?_⟩⟩⟩⟩⟩⟩ <;>
  simp only [ops0, ops1, ops2, ops3, ops4, ops5, ops6, ↓List.forall_cons, ↓nullary_bufs_sub, ↓unary_bufs_sub, ↓reshape_bufs_sub,
    ↓binary_bufs_sub, ↓ternary_bufs_sub, List.Forall, and_self]

theorem ops_determined : ∀ op ∈ (ops : List (HloOp τ sig (Elt F))), op.fresh = ∅ := by
  simp only [ops, List.forall_mem_append]
  refine ⟨?_, ?_, ?_, ?_, ?_, ?_, ?_⟩ <;>
  simp only [ops0, ops1, ops2, ops3, ops4, ops5, ops6, ↓List.forall_mem_cons, ↓nullary_fresh, ↓unary_fresh, ↓reshape_fresh, ↓binary_fresh,
    ↓ternary_fresh, List.not_mem_nil, false_imp_iff, implies_true, and_self]

theorem scopedRefs_eq : (Finset.univ.filter fun b : Ref sig .tc => b.isScoped) = ∅ := by decide
theorem scopedSems_eq : (Finset.univ.filter fun sm : SemLoc sig => sm.isScoped .tc) = ∅ := by decide

theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = StableHlo.after ops (StableHlo.launchContents m d) (Proc.devRef .tc b) :=
  run_seq scopedRefs_eq scopedSems_eq defs main (fun _ => ops) main_eq (fun _ => ops_sub) m ρ (fun _ => ops_determined)

def rk : DevRef τ sig → Nat := fun b => b.idx.val

theorem ops_length : (ops : List (HloOp τ sig (Elt F))).length = 515 := rfl

theorem ranked0 : Cert.HostRead.Ranked rk 14 (ops0 : List (HloOp τ sig (Elt F))) := by
  simp only [ops0, ↓ranked_nullary_iff, ↓ranked_unary_iff, ↓ranked_reshape_iff, ↓ranked_binary_iff, ↓ranked_ternary_iff,
    ranked_nil_iff, Nat.reduceAdd, and_true]
  repeat' apply And.intro
  all_goals decide
theorem ranked1 : Cert.HostRead.Ranked rk 78 (ops1 : List (HloOp τ sig (Elt F))) := by
  simp only [ops1, ↓ranked_nullary_iff, ↓ranked_unary_iff, ↓ranked_reshape_iff, ↓ranked_binary_iff, ↓ranked_ternary_iff,
    ranked_nil_iff, Nat.reduceAdd, and_true]
  repeat' apply And.intro
  all_goals decide
theorem ranked2 : Cert.HostRead.Ranked rk 163 (ops2 : List (HloOp τ sig (Elt F))) := by
  simp only [ops2, ↓ranked_nullary_iff, ↓ranked_unary_iff, ↓ranked_reshape_iff, ↓ranked_binary_iff, ↓ranked_ternary_iff,
    ranked_nil_iff, Nat.reduceAdd, and_true]
  repeat' apply And.intro
  all_goals decide
theorem ranked3 : Cert.HostRead.Ranked rk 250 (ops3 : List (HloOp τ sig (Elt F))) := by
  simp only [ops3, ↓ranked_nullary_iff, ↓ranked_unary_iff, ↓ranked_reshape_iff, ↓ranked_binary_iff, ↓ranked_ternary_iff,
    ranked_nil_iff, Nat.reduceAdd, and_true]
  repeat' apply And.intro
  all_goals decide
theorem ranked4 : Cert.HostRead.Ranked rk 335 (ops4 : List (HloOp τ sig (Elt F))) := by
  simp only [ops4, ↓ranked_nullary_iff, ↓ranked_unary_iff, ↓ranked_reshape_iff, ↓ranked_binary_iff, ↓ranked_ternary_iff,
    ranked_nil_iff, Nat.reduceAdd, and_true]
  repeat' apply And.intro
  all_goals decide
theorem ranked5 : Cert.HostRead.Ranked rk 420 (ops5 : List (HloOp τ sig (Elt F))) := by
  simp only [ops5, ↓ranked_nullary_iff, ↓ranked_unary_iff, ↓ranked_reshape_iff, ↓ranked_binary_iff, ↓ranked_ternary_iff,
    ranked_nil_iff, Nat.reduceAdd, and_true]
  repeat' apply And.intro
  all_goals decide
theorem ranked6 : Cert.HostRead.Ranked rk 486 (ops6 : List (HloOp τ sig (Elt F))) := by
  simp only [ops6, ↓ranked_nullary_iff, ↓ranked_unary_iff, ↓ranked_reshape_iff, ↓ranked_binary_iff, ↓ranked_ternary_iff,
    ranked_nil_iff, Nat.reduceAdd, and_true]
  repeat' apply And.intro
  all_goals decide

theorem ranked : Cert.HostRead.Ranked rk 14 (ops : List (HloOp τ sig (Elt F))) :=
  Cert.HostRead.Ranked.append rk 14 ops0 _ ranked0 <|
  Cert.HostRead.Ranked.append rk 78 ops1 _ ranked1 <|
  Cert.HostRead.Ranked.append rk 163 ops2 _ ranked2 <|
  Cert.HostRead.Ranked.append rk 250 ops3 _ ranked3 <|
  Cert.HostRead.Ranked.append rk 335 ops4 _ ranked4 <|
  Cert.HostRead.Ranked.append rk 420 ops5 _ ranked5 ranked6

theorem ops_fresh : Cert.HostRead.Fresh (ops : List (HloOp τ sig (Elt F))) :=
  Cert.HostRead.Ranked.fresh rk 14 ops ranked

theorem kept_of_lt (V : Valuation τ sig (Elt F)) (b : DevRef τ sig) (hb : rk b < 14) : StableHlo.after ops V b = V b :=
  Cert.HostRead.Ranked.after_of_lt rk 14 ops ranked V b hb

theorem arg_kept_0 (V : Valuation τ sig (Elt F)) :
    StableHlo.after ops V (Proc.devRef .tc main_arg0) = V (Proc.devRef .tc main_arg0) := kept_of_lt V _ (by decide)
theorem arg_kept_1 (V : Valuation τ sig (Elt F)) :
    StableHlo.after ops V (Proc.devRef .tc main_arg1) = V (Proc.devRef .tc main_arg1) := kept_of_lt V _ (by decide)
theorem arg_kept_2 (V : Valuation τ sig (Elt F)) :
    StableHlo.after ops V (Proc.devRef .tc main_arg2) = V (Proc.devRef .tc main_arg2) := kept_of_lt V _ (by decide)
theorem arg_kept_3 (V : Valuation τ sig (Elt F)) :
    StableHlo.after ops V (Proc.devRef .tc main_arg3) = V (Proc.devRef .tc main_arg3) := kept_of_lt V _ (by decide)
theorem arg_kept_4 (V : Valuation τ sig (Elt F)) :
    StableHlo.after ops V (Proc.devRef .tc main_arg4) = V (Proc.devRef .tc main_arg4) := kept_of_lt V _ (by decide)
theorem arg_kept_5 (V : Valuation τ sig (Elt F)) :
    StableHlo.after ops V (Proc.devRef .tc main_arg5) = V (Proc.devRef .tc main_arg5) := kept_of_lt V _ (by decide)
theorem arg_kept_6 (V : Valuation τ sig (Elt F)) :
    StableHlo.after ops V (Proc.devRef .tc main_arg6) = V (Proc.devRef .tc main_arg6) := kept_of_lt V _ (by decide)
theorem arg_kept_7 (V : Valuation τ sig (Elt F)) :
    StableHlo.after ops V (Proc.devRef .tc main_arg7) = V (Proc.devRef .tc main_arg7) := kept_of_lt V _ (by decide)
theorem arg_kept_8 (V : Valuation τ sig (Elt F)) :
    StableHlo.after ops V (Proc.devRef .tc main_arg8) = V (Proc.devRef .tc main_arg8) := kept_of_lt V _ (by decide)
theorem arg_kept_9 (V : Valuation τ sig (Elt F)) :
    StableHlo.after ops V (Proc.devRef .tc main_arg9) = V (Proc.devRef .tc main_arg9) := kept_of_lt V _ (by decide)
theorem arg_kept_10 (V : Valuation τ sig (Elt F)) :
    StableHlo.after ops V (Proc.devRef .tc main_arg10) = V (Proc.devRef .tc main_arg10) := kept_of_lt V _ (by decide)
theorem arg_kept_11 (V : Valuation τ sig (Elt F)) :
    StableHlo.after ops V (Proc.devRef .tc main_arg11) = V (Proc.devRef .tc main_arg11) := kept_of_lt V _ (by decide)
theorem arg_kept_12 (V : Valuation τ sig (Elt F)) :
    StableHlo.after ops V (Proc.devRef .tc main_arg12) = V (Proc.devRef .tc main_arg12) := kept_of_lt V _ (by decide)
theorem arg_kept_13 (V : Valuation τ sig (Elt F)) :
    StableHlo.after ops V (Proc.devRef .tc main_arg13) = V (Proc.devRef .tc main_arg13) := kept_of_lt V _ (by decide)

end Cert.ReferenceIdeal.Hand

end
-- ==== Proof.RefReads.lean ====
import proofs.«422151_j2362232012848_1_alg».proof.Proof.RefOps
import proofs.«422151_j2362232012848_1_alg».proof.Proof.LibHostRead

noncomputable section

namespace Cert.ReferenceIdeal.Reads

open Cert.ReferenceIdeal Cert.ReferenceIdeal.Gen Cert.ReferenceIdeal.Hand Idealize.ShloMosaic Idealize.ShloMosaic.StableHlo Cert.HostRead

variable {F : FTy → Type} [FloatOps F] {V : Valuation τ sig (Elt F)} (p : Nat)

local notation "A" => StableHlo.after (Hand.ops (F := F))
local notation "op" => (Hand.ops (F := F))[p]?

-- The contents of an operation's result after the whole line, by the operation's number in the line.
theorem rd0 {y : Ref sig .tc} {v : y.ty.Contents (Elt F)} {hy} (h : op = some (nullary y v hy)) :
    A V (Proc.devRef .tc y) = v := read_nullary ops_fresh p h

theorem rd1 {x y : Ref sig .tc} {f : x.ty.Contents (Elt F) → y.ty.Contents (Elt F)} {hx hy}
    (h : op = some (unary x y f hx hy)) (hxy : x ≠ y := by decide) :
    A V (Proc.devRef .tc y) = f (A V (Proc.devRef .tc x)) := read_unary ops_fresh p h hxy

theorem rdR {x y : Ref sig .tc} {he hn hx hy} (h : op = some (reshape x y he hn hx hy)) (hxy : x ≠ y := by decide) :
    A V (Proc.devRef .tc y) = fun i => he ▸ shapeCast y.ty.shape (A V (Proc.devRef .tc x)) hn i :=
  read_reshape ops_fresh p h hxy

theorem rd2 {a b y : Ref sig .tc} {f : a.ty.Contents (Elt F) → b.ty.Contents (Elt F) → y.ty.Contents (Elt F)}
    {ha hb hy} (h : op = some (binary a b y f ha hb hy)) (hay : a ≠ y := by decide) (hby : b ≠ y := by decide) :
    A V (Proc.devRef .tc y) = f (A V (Proc.devRef .tc a)) (A V (Proc.devRef .tc b)) :=
  read_binary ops_fresh p h hay hby

theorem rd3 {c a b y : Ref sig .tc}
    {f : c.ty.Contents (Elt F) → a.ty.Contents (Elt F) → b.ty.Contents (Elt F) → y.ty.Contents (Elt F)} {hc ha hb hy}
    (h : op = some (ternary c a b y f hc ha hb hy))
    (hcy : c ≠ y := by decide) (hay : a ≠ y := by decide) (hby : b ≠ y := by decide) :
    A V (Proc.devRef .tc y) = f (A V (Proc.devRef .tc c)) (A V (Proc.devRef .tc a)) (A V (Proc.devRef .tc b)) :=
  read_ternary ops_fresh p h hcy hay hby

end Cert.ReferenceIdeal.Reads

end
-- ==== Proof.RefForms.lean ====
import proofs.«422151_j2362232012848_1_alg».proof.ReferenceIdeal
import proofs.«422151_j2362232012848_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.Forms

open Idealize.ShloMosaic Idealize.ShloMosaic.ValueIdx

section General

variable {R K C : ℕ}

abbrev plainD (w : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ := ⟨[1], [0], [0], [1], [], [], w⟩

variable (w : DotDims.WF ⟨2, ![R, K]⟩ ⟨2, ![K, C]⟩ ⟨2, ![R, C]⟩ [1] [0] [0] [1] [] [])

theorem plain_lhs_0 (j : (⟨2, ![R, C]⟩ : Shape).Idx) (k : (plainD w).contr.Idx) :
    ((plainD w).lhsIdx j k 0).val = (j 0).val := by
  unfold DotDims.lhsIdx
  rw [dif_neg (show ¬(0 : Fin 2) ∈ ([] : List (Fin 2)) by decide), dif_pos (show (0 : Fin 2) ∈ [(0 : Fin 2)] by decide)]
  rfl

theorem plain_lhs_1 (j : (⟨2, ![R, C]⟩ : Shape).Idx) (k : (plainD w).contr.Idx) :
    ((plainD w).lhsIdx j k 1).val = (k ⟨0, Nat.one_pos⟩).val :=
  (plainD w).lhsIdx_val_of_single rfl j k

theorem plain_rhs_0 (j : (⟨2, ![R, C]⟩ : Shape).Idx) (k : (plainD w).contr.Idx) :
    ((plainD w).rhsIdx j k 0).val = (k ⟨0, Nat.one_pos⟩).val :=
  (plainD w).rhsIdx_val_of_single rfl j k

theorem plain_rhs_1 (j : (⟨2, ![R, C]⟩ : Shape).Idx) (k : (plainD w).contr.Idx) :
    ((plainD w).rhsIdx j k 1).val = (j 1).val := by
  unfold DotDims.rhsIdx
  rw [dif_neg (show ¬(1 : Fin 2) ∈ ([] : List (Fin 2)) by decide), dif_pos (show (1 : Fin 2) ∈ [(1 : Fin 2)] by decide)]
  rfl

theorem plainDot_apply (x : FVec Ideal ⟨2, ![R, K]⟩ .f32) (W : FVec Ideal ⟨2, ![K, C]⟩ .f32) (p : Fin R) (q : Fin C) :
    Host.dotGeneral (plainD w) none x W (ix2 p q) = ∑ c : Fin K, x (ix2 p c) * W (ix2 c q) := by
  show FloatOps.dotGeneral (plainD w) none .single x W (ix2 p q) = _
  rw [Ideal.dotGeneral_apply, ← Equiv.sum_comp (contrEquiv1 (plainD w) K rfl rfl).symm]
  refine Finset.sum_congr rfl fun c _ => ?_
  have hc : (((contrEquiv1 (plainD w) K rfl rfl).symm c) ⟨0, Nat.one_pos⟩ : ℕ) = c.val :=
    contrEquiv1_symm_val (plainD w) K rfl rfl c
  have hl : (plainD w).lhsIdx (ix2 p q) ((contrEquiv1 (plainD w) K rfl rfl).symm c) = ix2 p c := by
    funext a
    apply Fin.ext
    match a with
    | ⟨0, _⟩ => exact plain_lhs_0 w _ _
    | ⟨1, _⟩ => exact (plain_lhs_1 w _ _).trans hc
  have hr : (plainD w).rhsIdx (ix2 p q) ((contrEquiv1 (plainD w) K rfl rfl).symm c) = ix2 c q := by
    funext a
    apply Fin.ext
    match a with
    | ⟨0, _⟩ => exact (plain_rhs_0 w _ _).trans hc
    | ⟨1, _⟩ => exact plain_rhs_1 w _ _
  rw [hl, hr]

theorem rows_apply (h1 : (⟨1, ![C]⟩ : Shape).BroadcastsInDim ⟨2, ![1, C]⟩ (![1] : Fin 1 → Fin 2))
    (h2 : (⟨2, ![1, C]⟩ : Shape).BroadcastsInDim ⟨2, ![R, C]⟩ (![0, 1] : Fin 2 → Fin 2))
    (v : FVec Ideal ⟨1, ![C]⟩ .f32) (p : Fin R) (q : Fin C) :
    broadcastInDim ⟨2, ![R, C]⟩ ![0, 1] h2 (broadcastInDim ⟨2, ![1, C]⟩ ![1] h1 v) (ix2 p q) = v (ix1 q) := by
  refine (broadcastInDim_apply ![0, 1] h2 _ (ix2 p q) (ix2 (0 : Fin 1) q) fun a => ?_).trans
    (broadcastInDim_apply ![1] h1 v (ix2 (0 : Fin 1) q) (ix1 q) fun a => ?_)
  · match a with
    | ⟨0, _⟩ =>
      show (0 : ℕ) = if (1 : ℕ) = 1 then 0 else p.val
      rw [if_pos rfl]
    | ⟨1, _⟩ =>
      show q.val = if C = 1 then 0 else q.val
      split
      · have := q.isLt; omega
      · rfl
  · match a with
    | ⟨0, _⟩ =>
      show q.val = if C = 1 then 0 else q.val
      split
      · have := q.isLt; omega
      · rfl

theorem scalar_apply {T : Shape} (h : (⟨0, ![]⟩ : Shape).BroadcastsInDim T (![] : Fin 0 → Fin T.rank))
    (v : FVec Ideal ⟨0, ![]⟩ .f32) (j : T.Idx) : broadcastInDim T ![] h v j = v ix0 :=
  broadcastInDim_apply ![] h v j ix0 fun a => a.elim0

end General

variable [Facts]
open Facts₀ Facts

def rowsN (v : FVec Ideal S64 .f32) : FVec Ideal S50000x64 .f32 :=
  broadcastInDim S50000x64 ![0, 1] bcast_S1x64_S50000x64_0_1 (broadcastInDim S1x64 ![1] bcast_S64_S1x64_1 v)

def rowsE (v : FVec Ideal S64 .f32) : FVec Ideal S800000x64 .f32 :=
  broadcastInDim S800000x64 ![0, 1] bcast_S1x64_S800000x64_0_1 (broadcastInDim S1x64 ![1] bcast_S64_S1x64_1 v)

def reluN (a : FVec Ideal S50000x64 .f32) : FVec Ideal S50000x64 .f32 :=
  maximumf a (broadcastInDim S50000x64 ![] bcast_S_S50000x64 (constant (F := Ideal) S_ .f32 0x00000000#32))

def reluE (a : FVec Ideal S800000x64 .f32) : FVec Ideal S800000x64 .f32 :=
  maximumf a (broadcastInDim S800000x64 ![] bcast_S_S800000x64 (constant (F := Ideal) S_ .f32 0x00000000#32))

def atomH (x : FVec Ideal S50000x92 .f32) (W : FVec Ideal S92x64 .f32) (b : FVec Ideal S64 .f32) : FVec Ideal S50000x64 .f32 :=
  addf (Host.dotGeneral dot_S50000x92_S92x64_S50000x64_1_0_0_1_n_n none x W) (rowsN b)

def edgeH (hs : FVec Ideal S800000x64 .f32) (ea : FVec Ideal S800000x50 .f32) (W : FVec Ideal S50x64 .f32)
    (b : FVec Ideal S64 .f32) : FVec Ideal S800000x64 .f32 :=
  reluE (addf (addf hs (Host.dotGeneral dot_S800000x50_S50x64_S800000x64_1_0_0_1_n_n none ea W)) (rowsE b))

def nodeH (eps : FVec Ideal S_ .f32) (h agg : FVec Ideal S50000x64 .f32) (W1 : FVec Ideal S64x64 .f32) (b1 : FVec Ideal S64 .f32)
    (W2 : FVec Ideal S64x64 .f32) (b2 : FVec Ideal S64 .f32) : FVec Ideal S50000x64 .f32 :=
  addf (Host.dotGeneral dot_S50000x64_S64x64_S50000x64_1_0_0_1_n_n none
      (reluN (addf (Host.dotGeneral dot_S50000x64_S64x64_S50000x64_1_0_0_1_n_n none
          (addf (mulf (broadcastInDim S50000x64 ![] bcast_S_S50000x64 (addf (constant (F := Ideal) S_ .f32 0x3F800000#32) eps)) h) agg) W1)
        (rowsN b1))) W2)
    (rowsN b2)

def bnLastH (z : FVec Ideal S50000x64 .f32) (mu var gamma beta : FVec Ideal S64 .f32) : FVec Ideal S50000x64 .f32 :=
  addf (mulf (mulf (rowsN gamma) (subf z (rowsN mu)))
      (rowsN (Host.rsqrt (addf var (broadcastInDim S64 ![] bcast_S_S64 (constant (F := Ideal) S_ .f32 0x3727C5AC#32))))))
    (rowsN beta)

def bnH (z : FVec Ideal S50000x64 .f32) (mu var gamma beta : FVec Ideal S64 .f32) : FVec Ideal S50000x64 .f32 :=
  reluN (bnLastH z mu var gamma beta)

theorem rowsN_apply (v : FVec Ideal S64 .f32) (p : Fin 50000) (q : Fin 64) : rowsN v (ix2 p q) = v (ix1 q) :=
  rows_apply bcast_S64_S1x64_1 bcast_S1x64_S50000x64_0_1 v p q

theorem rowsE_apply (v : FVec Ideal S64 .f32) (p : Fin 800000) (q : Fin 64) : rowsE v (ix2 p q) = v (ix1 q) :=
  rows_apply bcast_S64_S1x64_1 bcast_S1x64_S800000x64_0_1 v p q

theorem reluN_apply (a : FVec Ideal S50000x64 .f32) (j : S50000x64.Idx) : reluN a j = max (a j) 0 := by
  unfold reluN
  rw [maximumf_apply, scalar_apply, constant_apply, Ideal.ofBits_zero_f32]

theorem reluE_apply (a : FVec Ideal S800000x64 .f32) (j : S800000x64.Idx) : reluE a j = max (a j) 0 := by
  unfold reluE
  rw [maximumf_apply, scalar_apply, constant_apply, Ideal.ofBits_zero_f32]

theorem dotAtom_apply (x : FVec Ideal S50000x92 .f32) (W : FVec Ideal S92x64 .f32) (p : Fin 50000) (q : Fin 64) :
    Host.dotGeneral dot_S50000x92_S92x64_S50000x64_1_0_0_1_n_n none x W (ix2 p q) = ∑ c : Fin 92, x (ix2 p c) * W (ix2 c q) :=
  plainDot_apply dot_S50000x92_S92x64_S50000x64_1_0_0_1_n_n_wf x W p q

theorem dotEdge_apply (ea : FVec Ideal S800000x50 .f32) (W : FVec Ideal S50x64 .f32) (p : Fin 800000) (q : Fin 64) :
    Host.dotGeneral dot_S800000x50_S50x64_S800000x64_1_0_0_1_n_n none ea W (ix2 p q) = ∑ c : Fin 50, ea (ix2 p c) * W (ix2 c q) :=
  plainDot_apply dot_S800000x50_S50x64_S800000x64_1_0_0_1_n_n_wf ea W p q

theorem dotNode_apply (y : FVec Ideal S50000x64 .f32) (W : FVec Ideal S64x64 .f32) (p : Fin 50000) (q : Fin 64) :
    Host.dotGeneral dot_S50000x64_S64x64_S50000x64_1_0_0_1_n_n none y W (ix2 p q) = ∑ c : Fin 64, y (ix2 p c) * W (ix2 c q) :=
  plainDot_apply dot_S50000x64_S64x64_S50000x64_1_0_0_1_n_n_wf y W p q

theorem atom_form (x : FVec Ideal S50000x92 .f32) (W : FVec Ideal S92x64 .f32) (b : FVec Ideal S64 .f32) :
    atomH x W b = Spec.arr2 (Spec.linC (Spec.cur2 x) (Spec.cur2 W) (Spec.cur1 b)) := by
  funext i
  obtain ⟨p, q, rfl⟩ : ∃ (p : Fin 50000) (q : Fin 64), i = ix2 p q := ⟨i 0, i 1, eq_ix2 i⟩
  unfold atomH
  rw [addf_apply, dotAtom_apply, rowsN_apply]
  rfl

theorem edge_form (hs : FVec Ideal S800000x64 .f32) (ea : FVec Ideal S800000x50 .f32) (W : FVec Ideal S50x64 .f32)
    (b : FVec Ideal S64 .f32) :
    edgeH hs ea W b = Spec.arr2 (Spec.edgeC (Spec.cur2 hs) (Spec.cur2 ea) (Spec.cur2 W) (Spec.cur1 b)) := by
  funext i
  obtain ⟨p, q, rfl⟩ : ∃ (p : Fin 800000) (q : Fin 64), i = ix2 p q := ⟨i 0, i 1, eq_ix2 i⟩
  unfold edgeH
  rw [reluE_apply, addf_apply, addf_apply, dotEdge_apply, rowsE_apply]
  rfl

theorem hidden_apply (eps : FVec Ideal S_ .f32) (h agg : FVec Ideal S50000x64 .f32) (W1 : FVec Ideal S64x64 .f32)
    (b1 : FVec Ideal S64 .f32) (p : Fin 50000) (k : Fin 64) :
    reluN (addf (Host.dotGeneral dot_S50000x64_S64x64_S50000x64_1_0_0_1_n_n none
        (addf (mulf (broadcastInDim S50000x64 ![] bcast_S_S50000x64 (addf (constant (F := Ideal) S_ .f32 0x3F800000#32) eps)) h) agg) W1)
      (rowsN b1)) (ix2 p k)
      = max ((∑ j : Fin 64, ((Ideal.ofBits .f32 0x3F800000#32 + eps ix0) * h (ix2 p j) + agg (ix2 p j)) * W1 (ix2 j k)) + b1 (ix1 k)) 0 := by
  rw [reluN_apply, addf_apply, dotNode_apply, rowsN_apply]
  refine congrArg (fun s => max (s + b1 (ix1 k)) 0) (Finset.sum_congr rfl fun j _ => ?_)
  rw [addf_apply, mulf_apply, scalar_apply, addf_apply, constant_apply]

theorem node_form (eps : FVec Ideal S_ .f32) (h agg : FVec Ideal S50000x64 .f32) (W1 : FVec Ideal S64x64 .f32)
    (b1 : FVec Ideal S64 .f32) (W2 : FVec Ideal S64x64 .f32) (b2 : FVec Ideal S64 .f32) :
    nodeH eps h agg W1 b1 W2 b2
      = Spec.arr2 (Spec.nodeC (Ideal.ofBits .f32 0x3F800000#32) (Spec.cur0 eps) (Spec.cur2 h) (Spec.cur2 agg) (Spec.cur2 W1)
          (Spec.cur1 b1) (Spec.cur2 W2) (Spec.cur1 b2)) := by
  funext i
  obtain ⟨p, q, rfl⟩ : ∃ (p : Fin 50000) (q : Fin 64), i = ix2 p q := ⟨i 0, i 1, eq_ix2 i⟩
  unfold nodeH
  rw [addf_apply, dotNode_apply, rowsN_apply]
  refine congrArg (fun s => s + b2 (ix1 q)) (Finset.sum_congr rfl fun k _ => ?_)
  rw [hidden_apply]
  rfl

theorem bnLast_form (z : FVec Ideal S50000x64 .f32) (mu var gamma beta : FVec Ideal S64 .f32) :
    bnLastH z mu var gamma beta
      = Spec.arr2 (Spec.bnC false (Ideal.ofBits .f32 0x3727C5AC#32) (Spec.cur2 z) (Spec.cur1 mu) (Spec.cur1 var)
          (Spec.cur1 gamma) (Spec.cur1 beta)) := by
  funext i
  obtain ⟨p, q, rfl⟩ : ∃ (p : Fin 50000) (q : Fin 64), i = ix2 p q := ⟨i 0, i 1, eq_ix2 i⟩
  unfold bnLastH
  rw [addf_apply, mulf_apply, mulf_apply, subf_apply, rowsN_apply, rowsN_apply, rowsN_apply, rowsN_apply]
  rfl

theorem bn_form (z : FVec Ideal S50000x64 .f32) (mu var gamma beta : FVec Ideal S64 .f32) :
    bnH z mu var gamma beta
      = Spec.arr2 (Spec.bnC true (Ideal.ofBits .f32 0x3727C5AC#32) (Spec.cur2 z) (Spec.cur1 mu) (Spec.cur1 var)
          (Spec.cur1 gamma) (Spec.cur1 beta)) := by
  funext i
  unfold bnH
  rw [reluN_apply, bnLast_form]
  rfl

end Cert.ReferenceIdeal.Forms

end
-- ==== Proof.RefNet.lean ====
import proofs.«422151_j2362232012848_1_alg».proof.ReferenceIdeal
import proofs.«422151_j2362232012848_1_alg».proof.Proof.Spec

noncomputable section

namespace Cert.ReferenceIdeal.Net

open Idealize.ShloMosaic
open Cert.ReferenceIdeal Cert.ReferenceIdeal.Facts₀ Cert.ReferenceIdeal.Facts

variable {F : FTy → Type} [FloatOps F] [Facts]

def rowV (off : Fin 2 → Nat) (w : S2x800000.Slices off S1x800000) (ei : IVec S2x800000 32) : IVec S800000 32 :=
  shapeCast S800000 (extractStridedSlice S1x800000 off ei w) shapeCasts_S1x800000_S800000

def srcV (ei : IVec S2x800000 32) : IVec S800000 32 := rowV ![0, 0] slices_S2x800000_S1x800000_0_0 ei

def dstV (ei : IVec S2x800000 32) : IVec S800000 32 := rowV ![1, 0] slices_S2x800000_S1x800000_1_0 ei

def sliceEW (off : Fin 3 → Nat) (w : S5x50x64.Slices off S1x50x64) (a : FVec F S5x50x64 .f32) : FVec F S50x64 .f32 :=
  shapeCast S50x64 (extractStridedSlice S1x50x64 off a w) shapeCasts_S1x50x64_S50x64

def sliceMat (off : Fin 3 → Nat) (w : S5x64x64.Slices off S1x64x64) (a : FVec F S5x64x64 .f32) : FVec F S64x64 .f32 :=
  shapeCast S64x64 (extractStridedSlice S1x64x64 off a w) shapeCasts_S1x64x64_S64x64

def sliceVec (off : Fin 2 → Nat) (w : S5x64.Slices off S1x64) (a : FVec F S5x64 .f32) : FVec F S64 .f32 :=
  shapeCast S64 (extractStridedSlice S1x64 off a w) shapeCasts_S1x64_S64

def sliceScalar (off : Fin 1 → Nat) (w : S5.Slices off S1) (a : FVec F S5 .f32) : FVec F S_ .f32 :=
  shapeCast S_ (extractStridedSlice S1 off a w) shapeCasts_S1_S_

def wrapCol (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

def gatherR (h : FVec F S50000x64 .f32) (s : IVec S800000 32) : FVec F S800000x64 .f32 :=
  Host.gather gather_S50000x64_S800000x1_S800000x64_1_0_n_n_0_1_164 h (wrapCol s)

def aggR (msg : FVec F S800000x64 .f32) (d : IVec S800000 32) : FVec F S50000x64 .f32 :=
  Host.scatterAdd scatter_S50000x64_S800000x1_S800000x64_1_0_0_1
    (broadcastInDim S50000x64 ![] bcast_S_S50000x64 (constant (F := F) S_ .f32 0x00000000#32))
    (broadcastInDim S800000x1 ![0] bcast_S800000_S800000x1_0 d) msg

def colSumR (z : FVec F S50000x64 .f32) : FVec F S64 .f32 :=
  Host.reduceAdd z (constant (F := F) S_ .f32 0x00000000#32) reducesTo_S50000x64_S64_d0 h_S_

def muR (z : FVec F S50000x64 .f32) : FVec F S64 .f32 :=
  Host.divf (colSumR z) (broadcastInDim S64 ![] bcast_S_S64 (constant (F := F) S_ .f32 0x47435000#32))

def meanRowR (z : FVec F S50000x64 .f32) : FVec F S1x64 .f32 :=
  Host.divf (broadcastInDim S1x64 ![1] bcast_S64_S1x64_1 (colSumR z))
    (broadcastInDim S1x64 ![] bcast_S_S1x64 (constant (F := F) S_ .f32 0x47435000#32))

def sqDevR (z : FVec F S50000x64 .f32) : FVec F S50000x64 .f32 :=
  mulf (subf z (broadcastInDim S50000x64 ![0, 1] bcast_S1x64_S50000x64_0_1 (meanRowR z)))
    (subf z (broadcastInDim S50000x64 ![0, 1] bcast_S1x64_S50000x64_0_1 (meanRowR z)))

def divisorR : FVec F S_ .f32 :=
  subf (constant (F := F) S_ .f32 0x47435000#32) (sitofp (F := F) .f32 (constantI S_ 32 0#32))

def varR (z : FVec F S50000x64 .f32) : FVec F S64 .f32 :=
  select (broadcastInDim S64 ![] bcast_S_S64 (cmpf .ogt (divisorR (F := F)) (constant (F := F) S_ .f32 0x00000000#32)))
    (Host.divf (colSumR (sqDevR z)) (broadcastInDim S64 ![] bcast_S_S64 (divisorR (F := F))))
    (broadcastInDim S64 ![] bcast_S_S64 (id (constant (F := F) S_ .f32 0x7FC00000#32)))

def msgR (eW : FVec Ideal S50x64 .f32) (eb : FVec Ideal S64 .f32) (s : IVec S800000 32) (ea : FVec Ideal S800000x50 .f32)
    (h : FVec Ideal S50000x64 .f32) : FVec Ideal S800000x64 .f32 :=
  Spec.arr2 (Spec.edgeC (Spec.cur2 (gatherR h s)) (Spec.cur2 ea) (Spec.cur2 eW) (Spec.cur1 eb))

def nodeR (eW : FVec Ideal S50x64 .f32) (eb : FVec Ideal S64 .f32) (eps : FVec Ideal S_ .f32)
    (W1 : FVec Ideal S64x64 .f32) (b1 : FVec Ideal S64 .f32) (W2 : FVec Ideal S64x64 .f32) (b2 : FVec Ideal S64 .f32)
    (s d : IVec S800000 32) (ea : FVec Ideal S800000x50 .f32) (h : FVec Ideal S50000x64 .f32) :
    FVec Ideal S50000x64 .f32 :=
  Spec.arr2 (Spec.nodeC (Ideal.ofBits .f32 0x3F800000#32) (Spec.cur0 eps) (Spec.cur2 h)
    (Spec.cur2 (aggR (msgR eW eb s ea h) d)) (Spec.cur2 W1) (Spec.cur1 b1) (Spec.cur2 W2) (Spec.cur1 b2))

def layerR (relu : Bool) (eW : FVec Ideal S50x64 .f32) (eb : FVec Ideal S64 .f32) (eps : FVec Ideal S_ .f32)
    (W1 : FVec Ideal S64x64 .f32) (b1 : FVec Ideal S64 .f32) (W2 : FVec Ideal S64x64 .f32) (b2 : FVec Ideal S64 .f32)
    (gamma beta : FVec Ideal S64 .f32) (s d : IVec S800000 32) (ea : FVec Ideal S800000x50 .f32)
    (h : FVec Ideal S50000x64 .f32) : FVec Ideal S50000x64 .f32 :=
  Spec.arr2 (Spec.bnC relu (Ideal.ofBits .f32 0x3727C5AC#32)
    (Spec.cur2 (nodeR eW eb eps W1 b1 W2 b2 s d ea h))
    (Spec.cur1 (muR (nodeR eW eb eps W1 b1 W2 b2 s d ea h)))
    (Spec.cur1 (varR (nodeR eW eb eps W1 b1 W2 b2 s d ea h)))
    (Spec.cur1 gamma) (Spec.cur1 beta))

end Cert.ReferenceIdeal.Net

end
-- ==== Proof.LibRefLayer.lean ====
import proofs.«422151_j2362232012848_1_alg».proof.Proof.RefForms
import proofs.«422151_j2362232012848_1_alg».proof.Proof.RefNet

noncomputable section

namespace Cert.ReferenceIdeal.Net

open Idealize.ShloMosaic Cert.ReferenceIdeal Facts₀ Facts

variable [Facts]

-- Each stage read from the one before: the dense stages are the specification's entrywise functions, the rest is the layer function's own chains.
theorem layerR_of_stages {relu : Bool} {eW : FVec Ideal S50x64 .f32} {eb : FVec Ideal S64 .f32} {eps : FVec Ideal S_ .f32}
    {W1 W2 : FVec Ideal S64x64 .f32} {b1 b2 gamma beta : FVec Ideal S64 .f32} {s d : IVec S800000 32}
    {ea : FVec Ideal S800000x50 .f32} {h a n y : FVec Ideal S50000x64 .f32} {g m : FVec Ideal S800000x64 .f32}
    (hg : g = gatherR h s) (hm : m = Forms.edgeH g ea eW eb) (ha : a = aggR m d)
    (hn : n = Forms.nodeH eps h a W1 b1 W2 b2)
    (hy : y = cond relu Forms.bnH Forms.bnLastH n (muR n) (varR n) gamma beta) :
    y = layerR relu eW eb eps W1 b1 W2 b2 gamma beta s d ea h := by
  subst hg hm ha hn hy
  cases relu
  · rw [cond_false, Forms.bnLast_form, Forms.node_form, Forms.edge_form]; rfl
  · rw [cond_true, Forms.bn_form, Forms.node_form, Forms.edge_form]; rfl

/-- The layer function at one layer's slices of the stacked parameters and the rows of the edge list. -/
def layerAt (relu : Bool) {o3 : Fin 3 → ℕ} {o2 : Fin 2 → ℕ} {o1 : Fin 1 → ℕ} (wE : S5x50x64.Slices o3 S1x50x64)
    (wM : S5x64x64.Slices o3 S1x64x64) (wV : S5x64.Slices o2 S1x64) (wS : S5.Slices o1 S1)
    (eW : FVec Ideal S5x50x64 .f32) (eb : FVec Ideal S5x64 .f32) (W1 : FVec Ideal S5x64x64 .f32) (b1 : FVec Ideal S5x64 .f32)
    (W2 : FVec Ideal S5x64x64 .f32) (b2 : FVec Ideal S5x64 .f32) (eps : FVec Ideal S5 .f32) (gamma beta : FVec Ideal S5x64 .f32)
    (ei : IVec S2x800000 32) (ea : FVec Ideal S800000x50 .f32) (h : FVec Ideal S50000x64 .f32) : FVec Ideal S50000x64 .f32 :=
  layerR relu (sliceEW o3 wE eW) (sliceVec o2 wV eb) (sliceScalar o1 wS eps) (sliceMat o3 wM W1) (sliceVec o2 wV b1)
    (sliceMat o3 wM W2) (sliceVec o2 wV b2) (sliceVec o2 wV gamma) (sliceVec o2 wV beta) (srcV ei) (dstV ei) ea h

/-- The network on an encoded input: five layers, each at its own slices, the last without the cut at zero. -/
def netR (eW : FVec Ideal S5x50x64 .f32) (eb : FVec Ideal S5x64 .f32) (W1 : FVec Ideal S5x64x64 .f32) (b1 : FVec Ideal S5x64 .f32)
    (W2 : FVec Ideal S5x64x64 .f32) (b2 : FVec Ideal S5x64 .f32) (eps : FVec Ideal S5 .f32) (gamma beta : FVec Ideal S5x64 .f32)
    (ei : IVec S2x800000 32) (ea : FVec Ideal S800000x50 .f32) (h0 : FVec Ideal S50000x64 .f32) : FVec Ideal S50000x64 .f32 :=
  layerAt false slices_S5x50x64_S1x50x64_4_0_0 slices_S5x64x64_S1x64x64_4_0_0 slices_S5x64_S1x64_4_0 slices_S5_S1_4
    eW eb W1 b1 W2 b2 eps gamma beta ei ea
    (layerAt true slices_S5x50x64_S1x50x64_3_0_0 slices_S5x64x64_S1x64x64_3_0_0 slices_S5x64_S1x64_3_0 slices_S5_S1_3
    eW eb W1 b1 W2 b2 eps gamma beta ei ea
    (layerAt true slices_S5x50x64_S1x50x64_2_0_0 slices_S5x64x64_S1x64x64_2_0_0 slices_S5x64_S1x64_2_0 slices_S5_S1_2
    eW eb W1 b1 W2 b2 eps gamma beta ei ea
    (layerAt true slices_S5x50x64_S1x50x64_1_0_0 slices_S5x64x64_S1x64x64_1_0_0 slices_S5x64_S1x64_1_0 slices_S5_S1_1
    eW eb W1 b1 W2 b2 eps gamma beta ei ea
    (layerAt true slices_S5x50x64_S1x50x64_0_0_0 slices_S5x64x64_S1x64x64_0_0_0 slices_S5x64_S1x64_0_0 slices_S5_S1_0
    eW eb W1 b1 W2 b2 eps gamma beta ei ea
    (h0)))))

end Cert.ReferenceIdeal.Net

end
-- ==== Proof.RefAtom.lean ====
import proofs.«422151_j2362232012848_1_alg».proof.Proof.RefReads
import proofs.«422151_j2362232012848_1_alg».proof.Proof.LibRefLayer

namespace Cert.ReferenceIdeal.Atom

open Cert.ReferenceIdeal Cert.ReferenceIdeal.Gen Cert.ReferenceIdeal.Hand Cert.ReferenceIdeal.Reads
open Idealize.ShloMosaic Idealize.ShloMosaic.StableHlo

local notation "A" => StableHlo.after (Hand.ops (F := Ideal))

variable (V : Valuation τ sig (Elt Ideal))

theorem src_eq : A V (Proc.devRef .tc main_v1) = Net.srcV (V (Proc.devRef .tc main_arg1)) := by
  rw [rdR 1 rfl, rd1 0 rfl, arg_kept_1 V]
  rfl

theorem dst_eq : A V (Proc.devRef .tc main_v3) = Net.dstV (V (Proc.devRef .tc main_arg1)) := by
  rw [rdR 3 rfl, rd1 2 rfl, arg_kept_1 V]
  rfl

-- The encoder's product plus the bias laid down the rows is the linear layer of the node features.
theorem h0 : A V (Proc.devRef .tc main_v7)
    = Spec.arr2 (Spec.linC (Spec.cur2 (V (Proc.devRef .tc main_arg0))) (Spec.cur2 (V (Proc.devRef .tc main_arg3)))
        (Spec.cur1 (V (Proc.devRef .tc main_arg4)))) := by
  rw [rd2 7 rfl, rd1 6 rfl, rd1 5 rfl, rd2 4 rfl, arg_kept_0 V, arg_kept_3 V, arg_kept_4 V]
  exact Forms.atom_form _ _ _

end Cert.ReferenceIdeal.Atom
-- ==== Proof.RefLayer0.lean ====
import proofs.«422151_j2362232012848_1_alg».proof.Proof.RefAtom

namespace Cert.ReferenceIdeal.Layer0

open Cert.ReferenceIdeal Cert.ReferenceIdeal.Gen Cert.ReferenceIdeal.Hand Cert.ReferenceIdeal.Reads
open Idealize.ShloMosaic Idealize.ShloMosaic.StableHlo

local notation "A" => StableHlo.after (Hand.ops (F := Ideal))

variable (V : Valuation τ sig (Elt Ideal))

theorem layer0 : A V (Proc.devRef .tc main_v74)
    = Net.layerAt true slices_S5x50x64_S1x50x64_0_0_0 slices_S5x64x64_S1x64x64_0_0_0 slices_S5x64_S1x64_0_0 slices_S5_S1_0
      (V (Proc.devRef .tc main_arg5)) (V (Proc.devRef .tc main_arg6)) (V (Proc.devRef .tc main_arg7)) (V (Proc.devRef .tc main_arg8)) (V (Proc.devRef .tc main_arg9))
      (V (Proc.devRef .tc main_arg10)) (V (Proc.devRef .tc main_arg11)) (V (Proc.devRef .tc main_arg12)) (V (Proc.devRef .tc main_arg13))
      (V (Proc.devRef .tc main_arg1)) (V (Proc.devRef .tc main_arg2)) (A V (Proc.devRef .tc main_v7)) :=
  Net.layerR_of_stages (g := A V (Proc.devRef .tc main_v14)) (m := A V (Proc.devRef .tc main_v24))
    (a := A V (Proc.devRef .tc main_v27)) (n := A V (Proc.devRef .tc main_v50))
    (by
      rw [rd2 16 rfl, rd1 15 rfl, rd3 14 rfl, rd2 13 rfl, rd1 12 rfl, rd0 11 rfl, rd2 10 rfl, rd1 9 rfl, rd0 8 rfl,
        Atom.src_eq V]
      rfl)
    (by
      rw [rd2 28 rfl, rd1 27 rfl, rd0 26 rfl, rd2 25 rfl, rd1 24 rfl, rd1 23 rfl, rd2 20 rfl, rd2 19 rfl, arg_kept_2 V,
        rdR 18 rfl, rd1 17 rfl, arg_kept_5 V, rdR 22 rfl, rd1 21 rfl, arg_kept_6 V]
      rfl)
    (by
      rw [rd3 32 rfl, rd1 31 rfl, rd1 30 rfl, rd0 29 rfl, Atom.dst_eq V]
      rfl)
    (by
      rw [rd2 58 rfl, rd1 57 rfl, rd1 56 rfl, rd2 53 rfl, rd2 50 rfl, rd1 49 rfl, rd0 48 rfl, rd2 47 rfl, rd1 46 rfl,
        rd1 45 rfl, rd2 42 rfl, rd2 39 rfl, rd2 38 rfl, rd1 37 rfl, rd2 36 rfl, rd0 35 rfl, rdR 34 rfl, rd1 33 rfl,
        arg_kept_11 V, rdR 41 rfl, rd1 40 rfl, arg_kept_7 V, rdR 44 rfl, rd1 43 rfl, arg_kept_8 V, rdR 52 rfl,
        rd1 51 rfl, arg_kept_9 V, rdR 55 rfl, rd1 54 rfl, arg_kept_10 V]
      rfl)
    (by
      rw [rd2 109 rfl, rd1 108 rfl, rd0 107 rfl, rd2 106 rfl, rd1 105 rfl, rd1 104 rfl, rd2 101 rfl, rd1 100 rfl,
        rd1 99 rfl, rd1 98 rfl, rd2 97 rfl, rd1 96 rfl, rd0 95 rfl, rd2 94 rfl, rd1 93 rfl, rd1 92 rfl, rd2 91 rfl,
        rd1 90 rfl, rd1 89 rfl, rd2 63 rfl, rd1 62 rfl, rd0 61 rfl, rd2 60 rfl, rd0 59 rfl, rd3 86 rfl, rd1 85 rfl,
        rd1 84 rfl, rd0 83 rfl, rd2 82 rfl, rd0 81 rfl, rd2 80 rfl, rd1 79 rfl, rd2 78 rfl, rd0 77 rfl, rd2 76 rfl,
        rd0 75 rfl, rd1 74 rfl, rd0 64 rfl, rd2 73 rfl, rd2 72 rfl, rd1 71 rfl, rd2 70 rfl, rd1 69 rfl, rd0 68 rfl,
        rd1 67 rfl, rd2 66 rfl, rd0 65 rfl, rdR 88 rfl, rd1 87 rfl, arg_kept_12 V, rdR 103 rfl, rd1 102 rfl,
        arg_kept_13 V]
      rfl)

end Cert.ReferenceIdeal.Layer0
-- ==== Proof.RefLayer1.lean ====
import proofs.«422151_j2362232012848_1_alg».proof.Proof.RefAtom

namespace Cert.ReferenceIdeal.Layer1

open Cert.ReferenceIdeal Cert.ReferenceIdeal.Gen Cert.ReferenceIdeal.Hand Cert.ReferenceIdeal.Reads
open Idealize.ShloMosaic Idealize.ShloMosaic.StableHlo

local notation "A" => StableHlo.after (Hand.ops (F := Ideal))

variable (V : Valuation τ sig (Elt Ideal))

theorem layer1 : A V (Proc.devRef .tc main_v141)
    = Net.layerAt true slices_S5x50x64_S1x50x64_1_0_0 slices_S5x64x64_S1x64x64_1_0_0 slices_S5x64_S1x64_1_0 slices_S5_S1_1
      (V (Proc.devRef .tc main_arg5)) (V (Proc.devRef .tc main_arg6)) (V (Proc.devRef .tc main_arg7)) (V (Proc.devRef .tc main_arg8)) (V (Proc.devRef .tc main_arg9))
      (V (Proc.devRef .tc main_arg10)) (V (Proc.devRef .tc main_arg11)) (V (Proc.devRef .tc main_arg12)) (V (Proc.devRef .tc main_arg13))
      (V (Proc.devRef .tc main_arg1)) (V (Proc.devRef .tc main_arg2)) (A V (Proc.devRef .tc main_v74)) :=
  Net.layerR_of_stages (g := A V (Proc.devRef .tc main_v81)) (m := A V (Proc.devRef .tc main_v91))
    (a := A V (Proc.devRef .tc main_v94)) (n := A V (Proc.devRef .tc main_v117))
    (by
      rw [rd2 118 rfl, rd1 117 rfl, rd3 116 rfl, rd2 115 rfl, rd1 114 rfl, rd0 113 rfl, rd2 112 rfl, rd1 111 rfl,
        rd0 110 rfl, Atom.src_eq V]
      rfl)
    (by
      rw [rd2 130 rfl, rd1 129 rfl, rd0 128 rfl, rd2 127 rfl, rd1 126 rfl, rd1 125 rfl, rd2 122 rfl, rd2 121 rfl,
        arg_kept_2 V, rdR 120 rfl, rd1 119 rfl, arg_kept_5 V, rdR 124 rfl, rd1 123 rfl, arg_kept_6 V]
      rfl)
    (by
      rw [rd3 134 rfl, rd1 133 rfl, rd1 132 rfl, rd0 131 rfl, Atom.dst_eq V]
      rfl)
    (by
      rw [rd2 160 rfl, rd1 159 rfl, rd1 158 rfl, rd2 155 rfl, rd2 152 rfl, rd1 151 rfl, rd0 150 rfl, rd2 149 rfl,
        rd1 148 rfl, rd1 147 rfl, rd2 144 rfl, rd2 141 rfl, rd2 140 rfl, rd1 139 rfl, rd2 138 rfl, rd0 137 rfl,
        rdR 136 rfl, rd1 135 rfl, arg_kept_11 V, rdR 143 rfl, rd1 142 rfl, arg_kept_7 V, rdR 146 rfl, rd1 145 rfl,
        arg_kept_8 V, rdR 154 rfl, rd1 153 rfl, arg_kept_9 V, rdR 157 rfl, rd1 156 rfl, arg_kept_10 V]
      rfl)
    (by
      rw [rd2 211 rfl, rd1 210 rfl, rd0 209 rfl, rd2 208 rfl, rd1 207 rfl, rd1 206 rfl, rd2 203 rfl, rd1 202 rfl,
        rd1 201 rfl, rd1 200 rfl, rd2 199 rfl, rd1 198 rfl, rd0 197 rfl, rd2 196 rfl, rd1 195 rfl, rd1 194 rfl,
        rd2 193 rfl, rd1 192 rfl, rd1 191 rfl, rd2 165 rfl, rd1 164 rfl, rd0 163 rfl, rd2 162 rfl, rd0 161 rfl,
        rd3 188 rfl, rd1 187 rfl, rd1 186 rfl, rd0 185 rfl, rd2 184 rfl, rd0 183 rfl, rd2 182 rfl, rd1 181 rfl,
        rd2 180 rfl, rd0 179 rfl, rd2 178 rfl, rd0 177 rfl, rd1 176 rfl, rd0 166 rfl, rd2 175 rfl, rd2 174 rfl,
        rd1 173 rfl, rd2 172 rfl, rd1 171 rfl, rd0 170 rfl, rd1 169 rfl, rd2 168 rfl, rd0 167 rfl, rdR 190 rfl,
        rd1 189 rfl, arg_kept_12 V, rdR 205 rfl, rd1 204 rfl, arg_kept_13 V]
      rfl)

end Cert.ReferenceIdeal.Layer1
-- ==== Proof.RefLayer2.lean ====
import proofs.«422151_j2362232012848_1_alg».proof.Proof.RefAtom

namespace Cert.ReferenceIdeal.Layer2

open Cert.ReferenceIdeal Cert.ReferenceIdeal.Gen Cert.ReferenceIdeal.Hand Cert.ReferenceIdeal.Reads
open Idealize.ShloMosaic Idealize.ShloMosaic.StableHlo

local notation "A" => StableHlo.after (Hand.ops (F := Ideal))

variable (V : Valuation τ sig (Elt Ideal))

theorem layer2 : A V (Proc.devRef .tc main_v208)
    = Net.layerAt true slices_S5x50x64_S1x50x64_2_0_0 slices_S5x64x64_S1x64x64_2_0_0 slices_S5x64_S1x64_2_0 slices_S5_S1_2
      (V (Proc.devRef .tc main_arg5)) (V (Proc.devRef .tc main_arg6)) (V (Proc.devRef .tc main_arg7)) (V (Proc.devRef .tc main_arg8)) (V (Proc.devRef .tc main_arg9))
      (V (Proc.devRef .tc main_arg10)) (V (Proc.devRef .tc main_arg11)) (V (Proc.devRef .tc main_arg12)) (V (Proc.devRef .tc main_arg13))
      (V (Proc.devRef .tc main_arg1)) (V (Proc.devRef .tc main_arg2)) (A V (Proc.devRef .tc main_v141)) :=
  Net.layerR_of_stages (g := A V (Proc.devRef .tc main_v148)) (m := A V (Proc.devRef .tc main_v158))
    (a := A V (Proc.devRef .tc main_v161)) (n := A V (Proc.devRef .tc main_v184))
    (by
      rw [rd2 220 rfl, rd1 219 rfl, rd3 218 rfl, rd2 217 rfl, rd1 216 rfl, rd0 215 rfl, rd2 214 rfl, rd1 213 rfl,
        rd0 212 rfl, Atom.src_eq V]
      rfl)
    (by
      rw [rd2 232 rfl, rd1 231 rfl, rd0 230 rfl, rd2 229 rfl, rd1 228 rfl, rd1 227 rfl, rd2 224 rfl, rd2 223 rfl,
        arg_kept_2 V, rdR 222 rfl, rd1 221 rfl, arg_kept_5 V, rdR 226 rfl, rd1 225 rfl, arg_kept_6 V]
      rfl)
    (by
      rw [rd3 236 rfl, rd1 235 rfl, rd1 234 rfl, rd0 233 rfl, Atom.dst_eq V]
      rfl)
    (by
      rw [rd2 262 rfl, rd1 261 rfl, rd1 260 rfl, rd2 257 rfl, rd2 254 rfl, rd1 253 rfl, rd0 252 rfl, rd2 251 rfl,
        rd1 250 rfl, rd1 249 rfl, rd2 246 rfl, rd2 243 rfl, rd2 242 rfl, rd1 241 rfl, rd2 240 rfl, rd0 239 rfl,
        rdR 238 rfl, rd1 237 rfl, arg_kept_11 V, rdR 245 rfl, rd1 244 rfl, arg_kept_7 V, rdR 248 rfl, rd1 247 rfl,
        arg_kept_8 V, rdR 256 rfl, rd1 255 rfl, arg_kept_9 V, rdR 259 rfl, rd1 258 rfl, arg_kept_10 V]
      rfl)
    (by
      rw [rd2 313 rfl, rd1 312 rfl, rd0 311 rfl, rd2 310 rfl, rd1 309 rfl, rd1 308 rfl, rd2 305 rfl, rd1 304 rfl,
        rd1 303 rfl, rd1 302 rfl, rd2 301 rfl, rd1 300 rfl, rd0 299 rfl, rd2 298 rfl, rd1 297 rfl, rd1 296 rfl,
        rd2 295 rfl, rd1 294 rfl, rd1 293 rfl, rd2 267 rfl, rd1 266 rfl, rd0 265 rfl, rd2 264 rfl, rd0 263 rfl,
        rd3 290 rfl, rd1 289 rfl, rd1 288 rfl, rd0 287 rfl, rd2 286 rfl, rd0 285 rfl, rd2 284 rfl, rd1 283 rfl,
        rd2 282 rfl, rd0 281 rfl, rd2 280 rfl, rd0 279 rfl, rd1 278 rfl, rd0 268 rfl, rd2 277 rfl, rd2 276 rfl,
        rd1 275 rfl, rd2 274 rfl, rd1 273 rfl, rd0 272 rfl, rd1 271 rfl, rd2 270 rfl, rd0 269 rfl, rdR 292 rfl,
        rd1 291 rfl, arg_kept_12 V, rdR 307 rfl, rd1 306 rfl, arg_kept_13 V]
      rfl)

end Cert.ReferenceIdeal.Layer2
-- ==== Proof.RefLayer3.lean ====
import proofs.«422151_j2362232012848_1_alg».proof.Proof.RefAtom

namespace Cert.ReferenceIdeal.Layer3

open Cert.ReferenceIdeal Cert.ReferenceIdeal.Gen Cert.ReferenceIdeal.Hand Cert.ReferenceIdeal.Reads
open Idealize.ShloMosaic Idealize.ShloMosaic.StableHlo

local notation "A" => StableHlo.after (Hand.ops (F := Ideal))

variable (V : Valuation τ sig (Elt Ideal))

theorem layer3 : A V (Proc.devRef .tc main_v275)
    = Net.layerAt true slices_S5x50x64_S1x50x64_3_0_0 slices_S5x64x64_S1x64x64_3_0_0 slices_S5x64_S1x64_3_0 slices_S5_S1_3
      (V (Proc.devRef .tc main_arg5)) (V (Proc.devRef .tc main_arg6)) (V (Proc.devRef .tc main_arg7)) (V (Proc.devRef .tc main_arg8)) (V (Proc.devRef .tc main_arg9))
      (V (Proc.devRef .tc main_arg10)) (V (Proc.devRef .tc main_arg11)) (V (Proc.devRef .tc main_arg12)) (V (Proc.devRef .tc main_arg13))
      (V (Proc.devRef .tc main_arg1)) (V (Proc.devRef .tc main_arg2)) (A V (Proc.devRef .tc main_v208)) :=
  Net.layerR_of_stages (g := A V (Proc.devRef .tc main_v215)) (m := A V (Proc.devRef .tc main_v225))
    (a := A V (Proc.devRef .tc main_v228)) (n := A V (Proc.devRef .tc main_v251))
    (by
      rw [rd2 322 rfl, rd1 321 rfl, rd3 320 rfl, rd2 319 rfl, rd1 318 rfl, rd0 317 rfl, rd2 316 rfl, rd1 315 rfl,
        rd0 314 rfl, Atom.src_eq V]
      rfl)
    (by
      rw [rd2 334 rfl, rd1 333 rfl, rd0 332 rfl, rd2 331 rfl, rd1 330 rfl, rd1 329 rfl, rd2 326 rfl, rd2 325 rfl,
        arg_kept_2 V, rdR 324 rfl, rd1 323 rfl, arg_kept_5 V, rdR 328 rfl, rd1 327 rfl, arg_kept_6 V]
      rfl)
    (by
      rw [rd3 338 rfl, rd1 337 rfl, rd1 336 rfl, rd0 335 rfl, Atom.dst_eq V]
      rfl)
    (by
      rw [rd2 364 rfl, rd1 363 rfl, rd1 362 rfl, rd2 359 rfl, rd2 356 rfl, rd1 355 rfl, rd0 354 rfl, rd2 353 rfl,
        rd1 352 rfl, rd1 351 rfl, rd2 348 rfl, rd2 345 rfl, rd2 344 rfl, rd1 343 rfl, rd2 342 rfl, rd0 341 rfl,
        rdR 340 rfl, rd1 339 rfl, arg_kept_11 V, rdR 347 rfl, rd1 346 rfl, arg_kept_7 V, rdR 350 rfl, rd1 349 rfl,
        arg_kept_8 V, rdR 358 rfl, rd1 357 rfl, arg_kept_9 V, rdR 361 rfl, rd1 360 rfl, arg_kept_10 V]
      rfl)
    (by
      rw [rd2 415 rfl, rd1 414 rfl, rd0 413 rfl, rd2 412 rfl, rd1 411 rfl, rd1 410 rfl, rd2 407 rfl, rd1 406 rfl,
        rd1 405 rfl, rd1 404 rfl, rd2 403 rfl, rd1 402 rfl, rd0 401 rfl, rd2 400 rfl, rd1 399 rfl, rd1 398 rfl,
        rd2 397 rfl, rd1 396 rfl, rd1 395 rfl, rd2 369 rfl, rd1 368 rfl, rd0 367 rfl, rd2 366 rfl, rd0 365 rfl,
        rd3 392 rfl, rd1 391 rfl, rd1 390 rfl, rd0 389 rfl, rd2 388 rfl, rd0 387 rfl, rd2 386 rfl, rd1 385 rfl,
        rd2 384 rfl, rd0 383 rfl, rd2 382 rfl, rd0 381 rfl, rd1 380 rfl, rd0 370 rfl, rd2 379 rfl, rd2 378 rfl,
        rd1 377 rfl, rd2 376 rfl, rd1 375 rfl, rd0 374 rfl, rd1 373 rfl, rd2 372 rfl, rd0 371 rfl, rdR 394 rfl,
        rd1 393 rfl, arg_kept_12 V, rdR 409 rfl, rd1 408 rfl, arg_kept_13 V]
      rfl)

end Cert.ReferenceIdeal.Layer3
-- ==== Proof.RefLayer4.lean ====
import proofs.«422151_j2362232012848_1_alg».proof.Proof.RefAtom

namespace Cert.ReferenceIdeal.Layer4

open Cert.ReferenceIdeal Cert.ReferenceIdeal.Gen Cert.ReferenceIdeal.Hand Cert.ReferenceIdeal.Reads
open Idealize.ShloMosaic Idealize.ShloMosaic.StableHlo

local notation "A" => StableHlo.after (Hand.ops (F := Ideal))

variable (V : Valuation τ sig (Elt Ideal))

theorem norm4 : A V (Proc.devRef .tc main_v341)
    = Forms.bnLastH (A V (Proc.devRef .tc main_v318)) (Net.muR (A V (Proc.devRef .tc main_v318))) (Net.varR (A V (Proc.devRef .tc main_v318)))
      (Net.sliceVec ![4, 0] slices_S5x64_S1x64_4_0 (V (Proc.devRef .tc main_arg12)))
      (Net.sliceVec ![4, 0] slices_S5x64_S1x64_4_0 (V (Proc.devRef .tc main_arg13))) := by
  rw [rd2 514 rfl, rd1 513 rfl, rd1 512 rfl, rd2 509 rfl, rd1 508 rfl, rd1 507 rfl, rd1 506 rfl, rd2 505 rfl,
    rd1 504 rfl, rd0 503 rfl, rd2 502 rfl, rd1 501 rfl, rd1 500 rfl, rd2 499 rfl, rd1 498 rfl, rd1 497 rfl,
    rd2 471 rfl, rd1 470 rfl, rd0 469 rfl, rd2 468 rfl, rd0 467 rfl, rd3 494 rfl, rd1 493 rfl, rd1 492 rfl,
    rd0 491 rfl, rd2 490 rfl, rd0 489 rfl, rd2 488 rfl, rd1 487 rfl, rd2 486 rfl, rd0 485 rfl, rd2 484 rfl,
    rd0 483 rfl, rd1 482 rfl, rd0 472 rfl, rd2 481 rfl, rd2 480 rfl, rd1 479 rfl, rd2 478 rfl, rd1 477 rfl,
    rd0 476 rfl, rd1 475 rfl, rd2 474 rfl, rd0 473 rfl, rdR 496 rfl, rd1 495 rfl, arg_kept_12 V, rdR 511 rfl,
    rd1 510 rfl, arg_kept_13 V]
  rfl

theorem layer4 : A V (Proc.devRef .tc main_v341)
    = Net.layerAt false slices_S5x50x64_S1x50x64_4_0_0 slices_S5x64x64_S1x64x64_4_0_0 slices_S5x64_S1x64_4_0 slices_S5_S1_4
      (V (Proc.devRef .tc main_arg5)) (V (Proc.devRef .tc main_arg6)) (V (Proc.devRef .tc main_arg7)) (V (Proc.devRef .tc main_arg8)) (V (Proc.devRef .tc main_arg9))
      (V (Proc.devRef .tc main_arg10)) (V (Proc.devRef .tc main_arg11)) (V (Proc.devRef .tc main_arg12)) (V (Proc.devRef .tc main_arg13))
      (V (Proc.devRef .tc main_arg1)) (V (Proc.devRef .tc main_arg2)) (A V (Proc.devRef .tc main_v275)) :=
  Net.layerR_of_stages (relu := false) (g := A V (Proc.devRef .tc main_v282)) (m := A V (Proc.devRef .tc main_v292))
    (a := A V (Proc.devRef .tc main_v295)) (n := A V (Proc.devRef .tc main_v318))
    (by
      rw [rd2 424 rfl, rd1 423 rfl, rd3 422 rfl, rd2 421 rfl, rd1 420 rfl, rd0 419 rfl, rd2 418 rfl, rd1 417 rfl,
        rd0 416 rfl, Atom.src_eq V]
      rfl)
    (by
      rw [rd2 436 rfl, rd1 435 rfl, rd0 434 rfl, rd2 433 rfl, rd1 432 rfl, rd1 431 rfl, rd2 428 rfl, rd2 427 rfl,
        arg_kept_2 V, rdR 426 rfl, rd1 425 rfl, arg_kept_5 V, rdR 430 rfl, rd1 429 rfl, arg_kept_6 V]
      rfl)
    (by
      rw [rd3 440 rfl, rd1 439 rfl, rd1 438 rfl, rd0 437 rfl, Atom.dst_eq V]
      rfl)
    (by
      rw [rd2 466 rfl, rd1 465 rfl, rd1 464 rfl, rd2 461 rfl, rd2 458 rfl, rd1 457 rfl, rd0 456 rfl, rd2 455 rfl,
        rd1 454 rfl, rd1 453 rfl, rd2 450 rfl, rd2 447 rfl, rd2 446 rfl, rd1 445 rfl, rd2 444 rfl, rd0 443 rfl,
        rdR 442 rfl, rd1 441 rfl, arg_kept_11 V, rdR 449 rfl, rd1 448 rfl, arg_kept_7 V, rdR 452 rfl, rd1 451 rfl,
        arg_kept_8 V, rdR 460 rfl, rd1 459 rfl, arg_kept_9 V, rdR 463 rfl, rd1 462 rfl, arg_kept_10 V]
      rfl)
    (norm4 V)

end Cert.ReferenceIdeal.Layer4
-- ==== Proof.RefValue.lean ====
import proofs.«422151_j2362232012848_1_alg».proof.Proof.RefLayer0
import proofs.«422151_j2362232012848_1_alg».proof.Proof.RefLayer1
import proofs.«422151_j2362232012848_1_alg».proof.Proof.RefLayer2
import proofs.«422151_j2362232012848_1_alg».proof.Proof.RefLayer3
import proofs.«422151_j2362232012848_1_alg».proof.Proof.RefLayer4

namespace Cert.ReferenceIdeal.Value

open Cert.ReferenceIdeal Cert.ReferenceIdeal.Gen Cert.ReferenceIdeal.Hand
open Idealize.ShloMosaic Idealize.ShloMosaic.StableHlo

local notation "A" => StableHlo.after (Hand.ops (F := Ideal))

variable (V : Valuation τ sig (Elt Ideal))

theorem result_eq : A V (Proc.devRef .tc main_v341)
    = Net.netR (V (Proc.devRef .tc main_arg5)) (V (Proc.devRef .tc main_arg6)) (V (Proc.devRef .tc main_arg7)) (V (Proc.devRef .tc main_arg8)) (V (Proc.devRef .tc main_arg9))
      (V (Proc.devRef .tc main_arg10)) (V (Proc.devRef .tc main_arg11)) (V (Proc.devRef .tc main_arg12)) (V (Proc.devRef .tc main_arg13))
      (V (Proc.devRef .tc main_arg1)) (V (Proc.devRef .tc main_arg2))
      (Spec.arr2 (Spec.linC (Spec.cur2 (V (Proc.devRef .tc main_arg0))) (Spec.cur2 (V (Proc.devRef .tc main_arg3)))
        (Spec.cur1 (V (Proc.devRef .tc main_arg4))))) := by
  rw [Layer4.layer4 V, Layer3.layer3 V, Layer2.layer2 V, Layer1.layer1 V, Layer0.layer0 V, Atom.h0 V]
  rfl

end Cert.ReferenceIdeal.Value
-- ==== Proof.NetEq.lean ====
import proofs.«422151_j2362232012848_1_alg».proof.Proof.KerNet
import proofs.«422151_j2362232012848_1_alg».proof.Proof.RefNet

noncomputable section

namespace Cert.NetEq

open Idealize.ShloMosaic

variable [Cert.KernelIdeal.Facts] [Cert.ReferenceIdeal.Facts]

theorem gather_eq (h : FVec Ideal Cert.KernelIdeal.S50000x64 .f32) (s : IVec Cert.KernelIdeal.S800000 32) :
    Cert.KernelIdeal.Net.gatherK (F := Ideal) h s = Cert.ReferenceIdeal.Net.gatherR (F := Ideal) h s := rfl

theorem agg_eq (msg : FVec Ideal Cert.KernelIdeal.S800000x64 .f32) (d : IVec Cert.KernelIdeal.S800000 32) :
    Cert.KernelIdeal.Net.aggK (F := Ideal) msg d = Cert.ReferenceIdeal.Net.aggR (F := Ideal) msg d := rfl

theorem mu_eq (z : FVec Ideal Cert.KernelIdeal.S50000x64 .f32) :
    Cert.KernelIdeal.Net.muK (F := Ideal) z = Cert.ReferenceIdeal.Net.muR (F := Ideal) z := rfl

theorem var_eq (z : FVec Ideal Cert.KernelIdeal.S50000x64 .f32) :
    Cert.KernelIdeal.Net.varK (F := Ideal) z = Cert.ReferenceIdeal.Net.varR (F := Ideal) z := rfl

theorem layer_eq (relu : Bool) (eW : FVec Ideal Cert.KernelIdeal.S50x64 .f32) (eb : FVec Ideal Cert.KernelIdeal.S64 .f32)
    (eps : FVec Ideal Cert.KernelIdeal.S_ .f32) (W1 : FVec Ideal Cert.KernelIdeal.S64x64 .f32)
    (b1 : FVec Ideal Cert.KernelIdeal.S64 .f32) (W2 : FVec Ideal Cert.KernelIdeal.S64x64 .f32)
    (b2 gamma beta : FVec Ideal Cert.KernelIdeal.S64 .f32) (s d : IVec Cert.KernelIdeal.S800000 32)
    (ea : FVec Ideal Cert.KernelIdeal.S800000x50 .f32) (h : FVec Ideal Cert.KernelIdeal.S50000x64 .f32) :
    Cert.KernelIdeal.Net.layerK relu eW eb eps W1 b1 W2 b2 gamma beta s d ea h
      = Cert.ReferenceIdeal.Net.layerR relu eW eb eps W1 b1 W2 b2 gamma beta s d ea h := by
  have hm : Cert.KernelIdeal.Net.msgK eW eb s ea h = Cert.ReferenceIdeal.Net.msgR eW eb s ea h := by
    unfold Cert.KernelIdeal.Net.msgK Cert.ReferenceIdeal.Net.msgR
    rw [gather_eq]
  have hn : Cert.KernelIdeal.Net.nodeK eW eb eps W1 b1 W2 b2 s d ea h
      = Cert.ReferenceIdeal.Net.nodeR eW eb eps W1 b1 W2 b2 s d ea h := by
    unfold Cert.KernelIdeal.Net.nodeK Cert.ReferenceIdeal.Net.nodeR
    rw [hm, agg_eq]
  unfold Cert.KernelIdeal.Net.layerK Cert.ReferenceIdeal.Net.layerR
  rw [hn, mu_eq, var_eq]

end Cert.NetEq

end
-- ==== Proof.PreIdx.lean ====
import proofs.«422151_j2362232012848_1_alg».proof.Defs
import proofs.«422151_j2362232012848_1_alg».proof.Proof.Gen.Pre_finite_inputs
import Idealize.ShloMosaic.Lib.ReduceAll
import Idealize.ShloMosaic.Lib.StableHlo.Predicate
import Idealize.ShloMosaic.Lib.ValueIdx
import Idealize.ShloMosaic.Lib.ValueLayout

noncomputable section

namespace Cert.PreIdx

open Idealize.ShloMosaic Idealize.ShloMosaic.ValueIdx Idealize.SL.Sem
open Cert.Pre_finite_inputs

instance : Subsingleton S_.Idx := ⟨fun a b => funext fun d => d.elim0⟩

section Row
variable [Facts]

theorem row0_apply (a1 : IVec S2x800000 32) (p : Fin 800000) :
    shapeCast S800000 (extractStridedSlice S1x800000 ![0, 0] a1 Facts.slices_S2x800000_S1x800000_0_0)
      Facts.shapeCasts_S1x800000_S800000 (ix1 p) = a1 (ix2 (0 : Fin 2) p) := by
  rw [shapeCast_1a_a_apply]
  refine extractStridedSlice_apply _ _ _ _ _ fun a => ?_
  match a with
  | ⟨0, _⟩ => rfl
  | ⟨1, _⟩ => exact (Nat.zero_add _).symm

variable {F : FTy → Type} [FloatOps F]

theorem part4_read (a1 : IVec S2x800000 32) (v63 : IVec S_ 1) (v67 : IVec S800000 1) (c25 : IVec S_ 1)
    (h : fn_part4 (F := F) a1 v63 v67 c25 ix0 = 1#1) :
    (∀ i, v67 i = 1#1) ∧ ∀ p : Fin 800000, (a1 (ix2 (0 : Fin 2) p)).toInt < 50000 := by
  unfold fn_part4 at h
  obtain ⟨h69, h74⟩ := IntOp.andi_eq_one.1 h
  obtain ⟨-, h68⟩ := IntOp.andi_eq_one.1 h69
  refine ⟨fun i => Host.reduce_andi_all _ _ _ _ _ h68 i, fun p => ?_⟩
  have e := IntOp.cmpi_slt.1 (Host.reduce_andi_all _ _ _ _ _ h74 (ix1 p))
  rw [row0_apply] at e
  exact e

theorem part3_read (a1 : IVec S2x800000 32) (a12 a13 : FVec F S5x64 .f32) (v48 : IVec S_ 1) (v49 v50 : FVec F S5 .f32)
    (h : fn_part3 (F := F) a1 a12 a13 v48 v49 v50 ix0 = 1#1) :
    ∀ p : Fin 800000, 0 ≤ (a1 (ix2 (0 : Fin 2) p)).toInt ∧ (a1 (ix2 (0 : Fin 2) p)).toInt < 50000 := by
  unfold fn_part3 at h
  obtain ⟨h67, hlt⟩ := part4_read _ _ _ _ h
  refine fun p => ⟨?_, hlt p⟩
  have e := IntOp.cmpi_sge.1 (h67 (ix1 p))
  rw [row0_apply] at e
  exact e

end Row

section Whole
variable [Facts] {F : FTy → Type} [FloatOps F]

theorem part2_read (a1 : IVec S2x800000 32) (a8 : FVec F S5x64 .f32) (a9 : FVec F S5x64x64 .f32) (a10 : FVec F S5x64 .f32)
    (a11 : FVec F S5 .f32) (a12 a13 : FVec F S5x64 .f32) (v33 : IVec S_ 1)
    (h : fn_part2 (F := F) a1 a8 a9 a10 a11 a12 a13 v33 ix0 = 1#1) :
    ∀ p : Fin 800000, 0 ≤ (a1 (ix2 (0 : Fin 2) p)).toInt ∧ (a1 (ix2 (0 : Fin 2) p)).toInt < 50000 := by
  unfold fn_part2 at h
  exact part3_read _ _ _ _ _ _ h

theorem part1_read (a1 : IVec S2x800000 32) (a5 : FVec F S5x50x64 .f32) (a6 : FVec F S5x64 .f32) (a7 : FVec F S5x64x64 .f32)
    (a8 : FVec F S5x64 .f32) (a9 : FVec F S5x64x64 .f32) (a10 : FVec F S5x64 .f32) (a11 : FVec F S5 .f32)
    (a12 a13 : FVec F S5x64 .f32) (v13 : IVec S_ 1) (v16 : IVec S64 1)
    (h : fn_part1 (F := F) a1 a5 a6 a7 a8 a9 a10 a11 a12 a13 v13 v16 ix0 = 1#1) :
    ∀ p : Fin 800000, 0 ≤ (a1 (ix2 (0 : Fin 2) p)).toInt ∧ (a1 (ix2 (0 : Fin 2) p)).toInt < 50000 := by
  unfold fn_part1 at h
  exact part2_read _ _ _ _ _ _ _ _ h

theorem fn_read (a0 : FVec F S50000x92 .f32) (a1 : IVec S2x800000 32) (a2 : FVec F S800000x50 .f32) (a3 : FVec F S92x64 .f32)
    (a4 : FVec F S64 .f32) (a5 : FVec F S5x50x64 .f32) (a6 : FVec F S5x64 .f32) (a7 : FVec F S5x64x64 .f32)
    (a8 : FVec F S5x64 .f32) (a9 : FVec F S5x64x64 .f32) (a10 : FVec F S5x64 .f32) (a11 : FVec F S5 .f32)
    (a12 a13 : FVec F S5x64 .f32)
    (h : fn (F := F) a0 a1 a2 a3 a4 a5 a6 a7 a8 a9 a10 a11 a12 a13 = (fun _ => 1#1)) :
    ∀ p : Fin 800000, 0 ≤ (a1 (ix2 (0 : Fin 2) p)).toInt ∧ (a1 (ix2 (0 : Fin 2) p)).toInt < 50000 := by
  have h0 := congrFun h ix0
  unfold fn at h0
  exact part1_read _ _ _ _ _ _ _ _ _ _ _ _ h0

end Whole

theorem src_in_range [Facts] (a0 : FVec Ideal S50000x92 .f32) (a1 : IVec S2x800000 32) (a2 : FVec Ideal S800000x50 .f32)
    (a3 : FVec Ideal S92x64 .f32) (a4 : FVec Ideal S64 .f32) (a5 : FVec Ideal S5x50x64 .f32) (a6 : FVec Ideal S5x64 .f32)
    (a7 : FVec Ideal S5x64x64 .f32) (a8 : FVec Ideal S5x64 .f32) (a9 : FVec Ideal S5x64x64 .f32) (a10 : FVec Ideal S5x64 .f32)
    (a11 : FVec Ideal S5 .f32) (a12 a13 : FVec Ideal S5x64 .f32)
    (h : fn (F := Ideal) a0 a1 a2 a3 a4 a5 a6 a7 a8 a9 a10 a11 a12 a13 = (fun _ => 1#1)) :
    ∀ p : Fin 800000, 0 ≤ (a1 (ix2 (0 : Fin 2) p)).toInt ∧ (a1 (ix2 (0 : Fin 2) p)).toInt < 50000 :=
  fn_read a0 a1 a2 a3 a4 a5 a6 a7 a8 a9 a10 a11 a12 a13 h

theorem src_in_range_of_pre [Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ p : Fin 800000,
      0 ≤ ((m ((c.tc : Thread Cert.KernelIdeal.nD Cert.KernelIdeal.τ).loc Cert.KernelIdeal.main_arg1)) (ix2 (0 : Fin 2) p)).toInt
      ∧ ((m ((c.tc : Thread Cert.KernelIdeal.nD Cert.KernelIdeal.τ).loc Cert.KernelIdeal.main_arg1)) (ix2 (0 : Fin 2) p)).toInt < 50000 :=
  src_in_range _ _ _ _ _ _ _ _ _ _ _ _ _ _ (h c)

end Cert.PreIdx

end
-- ==== Proof.lean ====
import proofs.«422151_j2362232012848_1_alg».proof.Defs
import proofs.«422151_j2362232012848_1_alg».proof.Proof.Gen.Kernel
import proofs.«422151_j2362232012848_1_alg».proof.Proof.Gen.Kernel.Frame
import proofs.«422151_j2362232012848_1_alg».proof.Proof.Gen.KernelIdeal
import proofs.«422151_j2362232012848_1_alg».proof.Proof.Gen.KernelIdeal.Frame
import proofs.«422151_j2362232012848_1_alg».proof.Proof.Gen.ReferenceIdeal
import proofs.«422151_j2362232012848_1_alg».proof.Proof.Gen.Pre_finite_inputs
import proofs.«422151_j2362232012848_1_alg».proof.Proof.KerRun
import proofs.«422151_j2362232012848_1_alg».proof.Proof.KerValue
import proofs.«422151_j2362232012848_1_alg».proof.Proof.RefValue
import proofs.«422151_j2362232012848_1_alg».proof.Proof.NetEq
import proofs.«422151_j2362232012848_1_alg».proof.Proof.PreIdx
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run (Cert.ReferenceIdeal.defs (F := Ideal)) _ _).mono (fun r h c => by
    refine ⟨?_, ?_, ?_, ?_, ?_, ?_, ?_, ?_, ?_, ?_, ?_, ?_, ?_, ?_⟩ <;> exact (h c _).trans (Cert.ReferenceIdeal.Hand.kept_of_lt _ _ (by decide)))
    (Cert.ReferenceIdeal.Hand.run_after (F := Ideal) m ρ)

theorem algebraic : Cert.algebraic_KernelIdeal_ReferenceIdeal := by
  intro m ρ m' ρ' hpre hagree
  refine ⟨fun c => Cert.KernelIdeal.Gen.W47 m ρ c (Proc.devRef .tc Cert.KernelIdeal.main_v190), Cert.KernelIdeal.Run.run_result (F := Ideal) m ρ, ?_⟩
  refine (θ_run (Cert.ReferenceIdeal.defs (F := Ideal)) _ _).mono (fun r h c => ?_) (Cert.ReferenceIdeal.Hand.run_after (F := Ideal) m' ρ')
  have hsrc : ∀ p : Fin 800000, 0 ≤ (Cert.KernelIdeal.Net.srcV (m ((c.tc : Thread Cert.KernelIdeal.nD Cert.KernelIdeal.τ).loc Cert.KernelIdeal.main_arg1)) (ix1 p)).toInt
      ∧ (Cert.KernelIdeal.Net.srcV (m ((c.tc : Thread Cert.KernelIdeal.nD Cert.KernelIdeal.τ).loc Cert.KernelIdeal.main_arg1)) (ix1 p)).toInt ≤ (49999#32 : BitVec 32).toInt := fun p => by
    have e : Cert.KernelIdeal.Net.srcV (m ((c.tc : Thread Cert.KernelIdeal.nD Cert.KernelIdeal.τ).loc Cert.KernelIdeal.main_arg1)) (ix1 p) = (m ((c.tc : Thread Cert.KernelIdeal.nD Cert.KernelIdeal.τ).loc Cert.KernelIdeal.main_arg1)) (ix2 (0 : Fin 2) p) := Cert.PreIdx.row0_apply _ p
    have hp := Cert.PreIdx.src_in_range_of_pre m hpre c p
    have h9 : (49999#32 : BitVec 32).toInt = 49999 := by decide
    rw [e, h9]; omega
  refine ⟨?_, ?_, ?_, ?_, ?_, ?_, ?_, ?_, ?_, ?_, ?_, ?_, ?_, ?_, ?_⟩
  rotate_left
  iterate 14 exact (h c _).trans (Cert.ReferenceIdeal.Hand.kept_of_lt _ _ (by decide))
  show r.2.mem ((c.tc : Thread Cert.ReferenceIdeal.nD Cert.ReferenceIdeal.τ).loc Cert.ReferenceIdeal.main_v341) = Cert.KernelIdeal.Gen.W47 m ρ c (Proc.devRef .tc Cert.KernelIdeal.main_v190)
  rw [h c, Cert.ReferenceIdeal.Value.result_eq, Cert.KernelIdeal.Value.kernel_value m ρ c hsrc]
  obtain ⟨a0, a1, a2, a3, a4, a5, a6, a7, a8, a9, a10, a11, a12, a13⟩ := hagree c
  have e0 : StableHlo.launchContents m' c (Proc.devRef .tc Cert.ReferenceIdeal.main_arg0) = m ((c.tc : Thread Cert.KernelIdeal.nD Cert.KernelIdeal.τ).loc Cert.KernelIdeal.main_arg0) := a0
  have e1 : StableHlo.launchContents m' c (Proc.devRef .tc Cert.ReferenceIdeal.main_arg1) = m ((c.tc : Thread Cert.KernelIdeal.nD Cert.KernelIdeal.τ).loc Cert.KernelIdeal.main_arg1) := a1
  have e2 : StableHlo.launchContents m' c (Proc.devRef .tc Cert.ReferenceIdeal.main_arg2) = m ((c.tc : Thread Cert.KernelIdeal.nD Cert.KernelIdeal.τ).loc Cert.KernelIdeal.main_arg2) := a2
  have e3 : StableHlo.launchContents m' c (Proc.devRef .tc Cert.ReferenceIdeal.main_arg3) = m ((c.tc : Thread Cert.KernelIdeal.nD Cert.KernelIdeal.τ).loc Cert.KernelIdeal.main_arg3) := a3
  have e4 : StableHlo.launchContents m' c (Proc.devRef .tc Cert.ReferenceIdeal.main_arg4) = m ((c.tc : Thread Cert.KernelIdeal.nD Cert.KernelIdeal.τ).loc Cert.KernelIdeal.main_arg4) := a4
  have e5 : StableHlo.launchContents m' c (Proc.devRef .tc Cert.ReferenceIdeal.main_arg5) = m ((c.tc : Thread Cert.KernelIdeal.nD Cert.KernelIdeal.τ).loc Cert.KernelIdeal.main_arg5) := a5
  have e6 : StableHlo.launchContents m' c (Proc.devRef .tc Cert.ReferenceIdeal.main_arg6) = m ((c.tc : Thread Cert.KernelIdeal.nD Cert.KernelIdeal.τ).loc Cert.KernelIdeal.main_arg6) := a6
  have e7 : StableHlo.launchContents m' c (Proc.devRef .tc Cert.ReferenceIdeal.main_arg7) = m ((c.tc : Thread Cert.KernelIdeal.nD Cert.KernelIdeal.τ).loc Cert.KernelIdeal.main_arg7) := a7
  have e8 : StableHlo.launchContents m' c (Proc.devRef .tc Cert.ReferenceIdeal.main_arg8) = m ((c.tc : Thread Cert.KernelIdeal.nD Cert.KernelIdeal.τ).loc Cert.KernelIdeal.main_arg8) := a8
  have e9 : StableHlo.launchContents m' c (Proc.devRef .tc Cert.ReferenceIdeal.main_arg9) = m ((c.tc : Thread Cert.KernelIdeal.nD Cert.KernelIdeal.τ).loc Cert.KernelIdeal.main_arg9) := a9
  have e10 : StableHlo.launchContents m' c (Proc.devRef .tc Cert.ReferenceIdeal.main_arg10) = m ((c.tc : Thread Cert.KernelIdeal.nD Cert.KernelIdeal.τ).loc Cert.KernelIdeal.main_arg10) := a10
  have e11 : StableHlo.launchContents m' c (Proc.devRef .tc Cert.ReferenceIdeal.main_arg11) = m ((c.tc : Thread Cert.KernelIdeal.nD Cert.KernelIdeal.τ).loc Cert.KernelIdeal.main_arg11) := a11
  have e12 : StableHlo.launchContents m' c (Proc.devRef .tc Cert.ReferenceIdeal.main_arg12) = m ((c.tc : Thread Cert.KernelIdeal.nD Cert.KernelIdeal.τ).loc Cert.KernelIdeal.main_arg12) := a12
  have e13 : StableHlo.launchContents m' c (Proc.devRef .tc Cert.ReferenceIdeal.main_arg13) = m ((c.tc : Thread Cert.KernelIdeal.nD Cert.KernelIdeal.τ).loc Cert.KernelIdeal.main_arg13) := a13
  rw [e0, e1, e2, e3, e4, e5, e6, e7, e8, e9, e10, e11, e12, e13]
  simp only [Cert.NetEq.layer_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
